-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000x64 : Shape := ⟨2, ![250000, 64]⟩
abbrev S250000x4 : Shape := ⟨2, ![250000, 4]⟩
abbrev S250000 : Shape := ⟨1, ![250000]⟩
abbrev S64x64 : Shape := ⟨2, ![64, 64]⟩
abbrev S64 : Shape := ⟨1, ![64]⟩
abbrev S4x64x32 : Shape := ⟨3, ![4, 64, 32]⟩
abbrev S4x32 : Shape := ⟨2, ![4, 32]⟩
abbrev S4x32x32 : Shape := ⟨3, ![4, 32, 32]⟩
abbrev S32x32 : Shape := ⟨2, ![32, 32]⟩
abbrev S32x64 : Shape := ⟨2, ![32, 64]⟩
abbrev S128x64 : Shape := ⟨2, ![128, 64]⟩
abbrev S_ : Shape := ⟨0, ![]⟩
abbrev S250000x1 : Shape := ⟨2, ![250000, 1]⟩
abbrev S250000x2 : Shape := ⟨2, ![250000, 2]⟩

class Facts : Prop where
  bcast_S_S250000x64 : S_.BroadcastsInDim S250000x64 (![] : Fin 0 → Fin S250000x64.rank)
  reducesTo_S250000x64_S_d0_1 : S250000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S4x64x32 : S_.BroadcastsInDim S4x64x32 (![] : Fin 0 → Fin S4x64x32.rank)
  reducesTo_S4x64x32_S_d0_1_2 : S4x64x32.ReducesTo [0, 1, 2] S_
  bcast_S_S4x32 : S_.BroadcastsInDim S4x32 (![] : Fin 0 → Fin S4x32.rank)
  reducesTo_S4x32_S_d0_1 : S4x32.ReducesTo [0, 1] S_
  bcast_S_S4x32x32 : S_.BroadcastsInDim S4x32x32 (![] : Fin 0 → Fin S4x32x32.rank)
  reducesTo_S4x32x32_S_d0_1_2 : S4x32x32.ReducesTo [0, 1, 2] S_
  bcast_S_S32x32 : S_.BroadcastsInDim S32x32 (![] : Fin 0 → Fin S32x32.rank)
  reducesTo_S32x32_S_d0_1 : S32x32.ReducesTo [0, 1] S_
  bcast_S_S32x64 : S_.BroadcastsInDim S32x64 (![] : Fin 0 → Fin S32x64.rank)
  reducesTo_S32x64_S_d0_1 : S32x64.ReducesTo [0, 1] S_
  bcast_S_S128x64 : S_.BroadcastsInDim S128x64 (![] : Fin 0 → Fin S128x64.rank)
  reducesTo_S128x64_S_d0_1 : S128x64.ReducesTo [0, 1] S_
  bcast_S_S250000x4 : S_.BroadcastsInDim S250000x4 (![] : Fin 0 → Fin S250000x4.rank)
  reducesTo_S250000x4_S_d0_1 : S250000x4.ReducesTo [0, 1] S_
  slices_S250000x4_S250000x1_0_0 : S250000x4.Slices ![0, 0] S250000x1
  shapeCasts_S250000x1_S250000 : S250000x1.ShapeCasts S250000
  bcast_S_S250000 : S_.BroadcastsInDim S250000 (![] : Fin 0 → Fin S250000.rank)
  reducesTo_S250000_S_d0 : S250000.ReducesTo [0] S_
  slices_S250000x4_S250000x2_0_1 : S250000x4.Slices ![0, 1] S250000x2
  bcast_S_S250000x2 : S_.BroadcastsInDim S250000x2 (![] : Fin 0 → Fin S250000x2.rank)
  reducesTo_S250000x2_S_d0_1 : S250000x2.ReducesTo [0, 1] S_
  slices_S250000x4_S250000x1_0_3 : S250000x4.Slices ![0, 3] S250000x1

variable [Facts]

def fn_part4 {F : FTy → Type} [FloatOps F] (main_arg1 : IVec S250000x4 32) (main_v62 : IVec S_ 1) (main_v67 : IVec S_ 1) : IVec S_ 1 :=
  let main_v68 : IVec S_ 1 := andi main_v62 main_v67
  let main_v69 : IVec S250000x2 32 := (extractStridedSlice S250000x2 ![0, 1] · slices_S250000x4_S250000x2_0_1) main_arg1
  let main_c_26 : IVec S_ 32 := constantI S_ 32 256#32
  let main_v70 : IVec S250000x2 32 := broadcastInDim S250000x2 ![] bcast_S_S250000x2 main_c_26
  let main_v71 : IVec S250000x2 1 := cmpi .slt main_v69 main_v70
  let main_c_27 : IVec S_ 1 := constantI S_ 1 1#1
  let main_v72 : IVec S_ 1 := (fun x v => Host.reduce IntOp.andi x v reducesTo_S250000x2_S_d0_1 h_S_) main_v71 main_c_27
  let main_v73 : IVec S_ 1 := andi main_v68 main_v72
  let main_v74 : IVec S250000x1 32 := (extractStridedSlice S250000x1 ![0, 3] · slices_S250000x4_S250000x1_0_3) main_arg1
  let main_v75 : IVec S250000 32 := shapeCast S250000 main_v74 shapeCasts_S250000x1_S250000
  let main_c_28 : IVec S_ 32 := constantI S_ 32 32#32
  let main_v76 : IVec S250000 32 := broadcastInDim S250000 ![] bcast_S_S250000 main_c_28
  let main_v77 : IVec S250000 1 := cmpi .slt main_v75 main_v76
  let main_c_29 : IVec S_ 1 := constantI S_ 1 1#1
  let main_v78 : IVec S_ 1 := (fun x v => Host.reduce IntOp.andi x v reducesTo_S250000_S_d0 h_S_) main_v77 main_c_29
  let main_v79 : IVec S_ 1 := andi main_v73 main_v78
  main_v79

def fn_part3 {F : FTy → Type} [FloatOps F] (main_arg1 : IVec S250000x4 32) (main_arg13 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_c_22 : IVec S_ 32 := constantI S_ 32 0#32
  let main_v59 : IVec S250000x4 32 := broadcastInDim S250000x4 ![] bcast_S_S250000x4 main_c_22
  let main_v60 : IVec S250000x4 1 := cmpi .sge main_arg1 main_v59
  let main_c_23 : IVec S_ 1 := constantI S_ 1 1#1
  let main_v61 : IVec S_ 1 := (fun x v => Host.reduce IntOp.andi x v reducesTo_S250000x4_S_d0_1 h_S_) main_v60 main_c_23
  let main_v62 : IVec S_ 1 := andi main_v58 main_v61
  let main_v63 : IVec S250000x1 32 := (extractStridedSlice S250000x1 ![0, 0] · slices_S250000x4_S250000x1_0_0) main_arg1
  let main_v64 : IVec S250000 32 := shapeCast S250000 main_v63 shapeCasts_S250000x1_S250000
  let main_c_24 : IVec S_ 32 := constantI S_ 32 2#32
  let main_v65 : IVec S250000 32 := broadcastInDim S250000 ![] bcast_S_S250000 main_c_24
  let main_v66 : IVec S250000 1 := cmpi .slt main_v64 main_v65
  let main_c_25 : IVec S_ 1 := constantI S_ 1 1#1
  let main_v67 : IVec S_ 1 := (fun x v => Host.reduce IntOp.andi x v reducesTo_S250000_S_d0 h_S_) main_v66 main_c_25
  fn_part4 (F := F) main_arg1 main_v62 main_v67

def fn_part2 {F : FTy → Type} [FloatOps F] (main_arg1 : IVec S250000x4 32) (main_arg9 : FVec F S32x32 .f32) (main_arg10 : FVec F S32x64 .f32) (main_arg11 : FVec F S128x64 .f32) (main_arg12 : FVec F S64x64 .f32) (main_arg13 : FVec F S64 .f32) (main_v33 : IVec S_ 1) : IVec S_ 1 :=
  let main_v34 : FVec F S32x32 .f32 := Host.absf main_arg9
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32x64 .f32 := Host.absf main_arg10
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg1 main_arg13 main_v48 main_v49 main_v50

def fn_part1 {F : FTy → Type} [FloatOps F] (main_arg1 : IVec S250000x4 32) (main_arg6 : FVec F S4x32 .f32) (main_arg7 : FVec F S4x32x32 .f32) (main_arg8 : FVec F S4x32 .f32) (main_arg9 : FVec F S32x32 .f32) (main_arg10 : FVec F S32x64 .f32) (main_arg11 : FVec F S128x64 .f32) (main_arg12 : FVec F S64x64 .f32) (main_arg13 : FVec F S64 .f32) (main_v13 : IVec S_ 1) (main_v16 : IVec S4x64x32 1) : IVec S_ 1 :=
  let main_c_5 : IVec S_ 1 := constantI S_ 1 1#1
  let main_v17 : IVec S_ 1 := (fun x v => Host.reduce IntOp.andi x v reducesTo_S4x64x32_S_d0_1_2 h_S_) main_v16 main_c_5
  let main_v18 : IVec S_ 1 := andi main_v13 main_v17
  let main_v19 : FVec F S4x32 .f32 := Host.absf main_arg6
  let main_cst_6 : FVec F S_ .f32 := constant S_ .f32 0x7F800000#32
  let main_v20 : FVec F S4x32 .f32 := broadcastInDim S4x32 ![] bcast_S_S4x32 main_cst_6
  let main_v21 : IVec S4x32 1 := cmpf .olt main_v19 main_v20
  let main_c_7 : IVec S_ 1 := constantI S_ 1 1#1
  let main_v22 : IVec S_ 1 := (fun x v => Host.reduce IntOp.andi x v reducesTo_S4x32_S_d0_1 h_S_) main_v21 main_c_7
  let main_v23 : IVec S_ 1 := andi main_v18 main_v22
  let main_v24 : FVec F S4x32x32 .f32 := Host.absf main_arg7
  let main_cst_8 : FVec F S_ .f32 := constant S_ .f32 0x7F800000#32
  let main_v25 : FVec F S4x32x32 .f32 := broadcastInDim S4x32x32 ![] bcast_S_S4x32x32 main_cst_8
  let main_v26 : IVec S4x32x32 1 := cmpf .olt main_v24 main_v25
  let main_c_9 : IVec S_ 1 := constantI S_ 1 1#1
  let main_v27 : IVec S_ 1 := (fun x v => Host.reduce IntOp.andi x v reducesTo_S4x32x32_S_d0_1_2 h_S_) main_v26 main_c_9
  let main_v28 : IVec S_ 1 := andi main_v23 main_v27
  let main_v29 : FVec F S4x32 .f32 := Host.absf main_arg8
  let main_cst_10 : FVec F S_ .f32 := constant S_ .f32 0x7F800000#32
  let main_v30 : FVec F S4x32 .f32 := broadcastInDim S4x32 ![] bcast_S_S4x32 main_cst_10
  let main_v31 : IVec S4x32 1 := cmpf .olt main_v29 main_v30
  let main_c_11 : IVec S_ 1 := constantI S_ 1 1#1
  let main_v32 : IVec S_ 1 := (fun x v => Host.reduce IntOp.andi x v reducesTo_S4x32_S_d0_1 h_S_) main_v31 main_c_11
  let main_v33 : IVec S_ 1 := andi main_v28 main_v32
  fn_part2 (F := F) main_arg1 main_arg9 main_arg10 main_arg11 main_arg12 main_arg13 main_v33

def fn {F : FTy → Type} [FloatOps F] (main_arg0 : FVec F S250000x64 .f32) (main_arg1 : IVec S250000x4 32) (main_arg2 : IVec S250000 32) (main_arg3 : FVec F S64x64 .f32) (main_arg4 : FVec F S64 .f32) (main_arg5 : FVec F S4x64x32 .f32) (main_arg6 : FVec F S4x32 .f32) (main_arg7 : FVec F S4x32x32 .f32) (main_arg8 : FVec F S4x32 .f32) (main_arg9 : FVec F S32x32 .f32) (main_arg10 : FVec F S32x64 .f32) (main_arg11 : FVec F S128x64 .f32) (main_arg12 : FVec F S64x64 .f32) (main_arg13 : FVec F S64 .f32) : IVec S_ 1 :=
  let main_v0 : FVec F S250000x64 .f32 := Host.absf main_arg0
  let main_cst : FVec F S_ .f32 := constant S_ .f32 0x7F800000#32
  let main_v1 : FVec F S250000x64 .f32 := broadcastInDim S250000x64 ![] bcast_S_S250000x64 main_cst
  let main_v2 : IVec S250000x64 1 := cmpf .olt main_v0 main_v1
  let main_c : IVec S_ 1 := constantI S_ 1 1#1
  let main_v3 : IVec S_ 1 := (fun x v => Host.reduce IntOp.andi x v reducesTo_S250000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S4x64x32 .f32 := Host.absf main_arg5
  let main_cst_4 : FVec F S_ .f32 := constant S_ .f32 0x7F800000#32
  let main_v15 : FVec F S4x64x32 .f32 := broadcastInDim S4x64x32 ![] bcast_S_S4x64x32 main_cst_4
  let main_v16 : IVec S4x64x32 1 := cmpf .olt main_v14 main_v15
  fn_part1 (F := F) main_arg1 main_arg6 main_arg7 main_arg8 main_arg9 main_arg10 main_arg11 main_arg12 main_arg13 main_v13 main_v16
-- ==== Kernel.lean ====
abbrev S250000x64 : Shape := ⟨2, ![250000, 64]⟩
abbrev S250000x4 : Shape := ⟨2, ![250000, 4]⟩
abbrev S250000 : Shape := ⟨1, ![250000]⟩
abbrev S64x64 : Shape := ⟨2, ![64, 64]⟩
abbrev S64 : Shape := ⟨1, ![64]⟩
abbrev S4x64x32 : Shape := ⟨3, ![4, 64, 32]⟩
abbrev S4x32 : Shape := ⟨2, ![4, 32]⟩
abbrev S4x32x32 : Shape := ⟨3, ![4, 32, 32]⟩
abbrev S32x32 : Shape := ⟨2, ![32, 32]⟩
abbrev S32x64 : Shape := ⟨2, ![32, 64]⟩
abbrev S128x64 : Shape := ⟨2, ![128, 64]⟩
abbrev S1x64 : Shape := ⟨2, ![1, 64]⟩
abbrev S10000x64 : Shape := ⟨2, ![10000, 64]⟩
abbrev S250000x1 : Shape := ⟨2, ![250000, 1]⟩
abbrev S250000x3 : Shape := ⟨2, ![250000, 3]⟩
abbrev S_ : Shape := ⟨0, ![]⟩
abbrev S250000x65 : Shape := ⟨2, ![250000, 65]⟩
abbrev S524288x65 : Shape := ⟨2, ![524288, 65]⟩
abbrev S1x64x32 : Shape := ⟨3, ![1, 64, 32]⟩
abbrev S64x32 : Shape := ⟨2, ![64, 32]⟩
abbrev S1x32 : Shape := ⟨2, ![1, 32]⟩
abbrev S32 : Shape := ⟨1, ![32]⟩
abbrev S524288x32 : Shape := ⟨2, ![524288, 32]⟩
abbrev S4096x65 : Shape := ⟨2, ![4096, 65]⟩
abbrev S4096x32 : Shape := ⟨2, ![4096, 32]⟩
abbrev S4096x64 : Shape := ⟨2, ![4096, 64]⟩
abbrev S4096x1 : Shape := ⟨2, ![4096, 1]⟩
abbrev S65536x65 : Shape := ⟨2, ![65536, 65]⟩
abbrev S65536x32 : Shape := ⟨2, ![65536, 32]⟩
abbrev S22188x65 : Shape := ⟨2, ![22188, 65]⟩
abbrev S24576x65 : Shape := ⟨2, ![24576, 65]⟩
abbrev S24576x32 : Shape := ⟨2, ![24576, 32]⟩
abbrev S8192x65 : Shape := ⟨2, ![8192, 65]⟩
abbrev S8192x32 : Shape := ⟨2, ![8192, 32]⟩
abbrev S622592x32 : Shape := ⟨2, ![622592, 32]⟩
abbrev S250000x4x1 : Shape := ⟨3, ![250000, 4, 1]⟩
abbrev S250000x4x32 : Shape := ⟨3, ![250000, 4, 32]⟩
abbrev S250000x128 : Shape := ⟨2, ![250000, 128]⟩
abbrev S4x1x32 : Shape := ⟨3, ![4, 1, 32]⟩
abbrev S2000x64 : Shape := ⟨2, ![2000, 64]⟩
abbrev S2000x128 : Shape := ⟨2, ![2000, 128]⟩
abbrev S2000x32 : Shape := ⟨2, ![2000, 32]⟩
abbrev S1x32x32 : Shape := ⟨3, ![1, 32, 32]⟩
abbrev S1x1x32 : Shape := ⟨3, ![1, 1, 32]⟩

abbrev nBuf : Space → Nat
  | .hbm => 251
  | .vmem => 44
  | .smem => 0
  | _ => 0

abbrev hbmTy0_0 (i : Nat) : BufTy := match i % 128 with
  | 0 => ⟨S250000x64, .f32⟩
  | 1 => ⟨S250000x4, .i32⟩
  | 2 => ⟨S250000, .i32⟩
  | 3 => ⟨S64x64, .f32⟩
  | 4 => ⟨S64, .f32⟩
  | 5 => ⟨S4x64x32, .f32⟩
  | 6 => ⟨S4x32, .f32⟩
  | 7 => ⟨S4x32x32, .f32⟩
  | 8 => ⟨S4x32, .f32⟩
  | 9 => ⟨S32x32, .f32⟩
  | 10 => ⟨S32x64, .f32⟩
  | 11 => ⟨S128x64, .f32⟩
  | 12 => ⟨S64x64, .f32⟩
  | 13 => ⟨S64, .f32⟩
  | 14 => ⟨S1x64, .f32⟩
  | 15 => ⟨S250000x64, .f32⟩
  | 16 => ⟨S250000x1, .i32⟩
  | 17 => ⟨S250000, .i32⟩
  | 18 => ⟨S250000x3, .i32⟩
  | 19 => ⟨S_, .f32⟩
  | 20 => ⟨S250000x1, .f32⟩
  | 21 => ⟨S250000x65, .f32⟩
  | 22 => ⟨S_, .i32⟩
  | 23 => ⟨S_, .i32⟩
  | 24 => ⟨S250000x3, .i32⟩
  | 25 => ⟨S250000x3, .i32⟩
  | 26 => ⟨S250000x3, .i32⟩
  | 27 => ⟨S_, .i32⟩
  | 28 => ⟨S250000x3, .i32⟩
  | 29 => ⟨S250000x3, .i1⟩
  | 30 => ⟨S250000x3, .i32⟩
  | 31 => ⟨S250000x3, .i32⟩
  | 32 => ⟨S_, .i32⟩
  | 33 => ⟨S250000x3, .i32⟩
  | 34 => ⟨S250000x3, .i1⟩
  | 35 => ⟨S250000x3, .i1⟩
  | 36 => ⟨S_, .i32⟩
  | 37 => ⟨S250000x3, .i32⟩
  | 38 => ⟨S250000x3, .i32⟩
  | 39 => ⟨S250000x3, .i32⟩
  | 40 => ⟨S_, .i32⟩
  | 41 => ⟨S250000, .i32⟩
  | 42 => ⟨S250000, .i32⟩
  | 43 => ⟨S250000x1, .i32⟩
  | 44 => ⟨S250000, .i32⟩
  | 45 => ⟨S250000, .i32⟩
  | 46 => ⟨S_, .i32⟩
  | 47 => ⟨S250000, .i32⟩
  | 48 => ⟨S250000, .i32⟩
  | 49 => ⟨S250000x1, .i32⟩
  | 50 => ⟨S250000, .i32⟩
  | 51 => ⟨S250000, .i32⟩
  | 52 => ⟨S_, .i32⟩
  | 53 => ⟨S250000, .i32⟩
  | 54 => ⟨S250000, .i32⟩
  | 55 => ⟨S250000x1, .i32⟩
  | 56 => ⟨S250000, .i32⟩
  | 57 => ⟨S250000, .i32⟩
  | 58 => ⟨S_, .f32⟩
  | 59 => ⟨S524288x65, .f32⟩
  | 60 => ⟨S250000x1, .i32⟩
  | 61 => ⟨S524288x65, .f32⟩
  | 62 => ⟨S1x64x32, .f32⟩
  | 63 => ⟨S64x32, .f32⟩
  | 64 => ⟨S1x32, .f32⟩
  | 65 => ⟨S32, .f32⟩
  | 66 => ⟨S1x32, .f32⟩
  | 67 => ⟨S524288x32, .bf16⟩
  | 68 => ⟨S_, .i32⟩
  | 69 => ⟨S250000, .i32⟩
  | 70 => ⟨S250000, .i32⟩
  | 71 => ⟨S_, .i32⟩
  | 72 => ⟨S_, .i32⟩
  | 73 => ⟨S250000x3, .i32⟩
  | 74 => ⟨S250000x3, .i32⟩
  | 75 => ⟨S250000x3, .i32⟩
  | 76 => ⟨S_, .i32⟩
  | 77 => ⟨S250000x3, .i32⟩
  | 78 => ⟨S250000x3, .i1⟩
  | 79 => ⟨S250000x3, .i32⟩
  | 80 => ⟨S250000x3, .i32⟩
  | 81 => ⟨S_, .i32⟩
  | 82 => ⟨S250000x3, .i32⟩
  | 83 => ⟨S250000x3, .i1⟩
  | 84 => ⟨S250000x3, .i1⟩
  | 85 => ⟨S_, .i32⟩
  | 86 => ⟨S250000x3, .i32⟩
  | 87 => ⟨S250000x3, .i32⟩
  | 88 => ⟨S250000x3, .i32⟩
  | 89 => ⟨S_, .i32⟩
  | 90 => ⟨S250000, .i32⟩
  | 91 => ⟨S250000, .i32⟩
  | 92 => ⟨S250000x1, .i32⟩
  | 93 => ⟨S250000, .i32⟩
  | 94 => ⟨S250000, .i32⟩
  | 95 => ⟨S_, .i32⟩
  | 96 => ⟨S250000, .i32⟩
  | 97 => ⟨S250000, .i32⟩
  | 98 => ⟨S250000x1, .i32⟩
  | 99 => ⟨S250000, .i32⟩
  | 100 => ⟨S250000, .i32⟩
  | 101 => ⟨S_, .i32⟩
  | 102 => ⟨S250000, .i32⟩
  | 103 => ⟨S250000, .i32⟩
  | 104 => ⟨S250000x1, .i32⟩
  | 105 => ⟨S250000, .i32⟩
  | 106 => ⟨S250000, .i32⟩
  | 107 => ⟨S_, .f32⟩
  | 108 => ⟨S65536x65, .f32⟩
  | 109 => ⟨S250000x1, .i32⟩
  | 110 => ⟨S65536x65, .f32⟩
  | 111 => ⟨S1x64x32, .f32⟩
  | 112 => ⟨S64x32, .f32⟩
  | 113 => ⟨S1x32, .f32⟩
  | 114 => ⟨S32, .f32⟩
  | 115 => ⟨S1x32, .f32⟩
  | 116 => ⟨S65536x32, .bf16⟩
  | 117 => ⟨S_, .i32⟩
  | 118 => ⟨S250000, .i32⟩
  | 119 => ⟨S250000, .i32⟩
  | 120 => ⟨S_, .i32⟩
  | 121 => ⟨S_, .i32⟩
  | 122 => ⟨S250000x3, .i32⟩
  | 123 => ⟨S250000x3, .i32⟩
  | 124 => ⟨S250000x3, .i32⟩
  | 125 => ⟨S_, .i32⟩
  | 126 => ⟨S250000x3, .i32⟩
  | 127 => ⟨S250000x3, .i1⟩
  | _ => ⟨S250000x64, .f32⟩

abbrev hbmTy0_1 (i : Nat) : BufTy := match i % 128 with
  | 0 => ⟨S250000x3, .i32⟩
  | 1 => ⟨S250000x3, .i32⟩
  | 2 => ⟨S_, .i32⟩
  | 3 => ⟨S250000x3, .i32⟩
  | 4 => ⟨S250000x3, .i1⟩
  | 5 => ⟨S250000x3, .i1⟩
  | 6 => ⟨S_, .i32⟩
  | 7 => ⟨S250000x3, .i32⟩
  | 8 => ⟨S250000x3, .i32⟩
  | 9 => ⟨S250000x3, .i32⟩
  | 10 => ⟨S_, .i32⟩
  | 11 => ⟨S250000, .i32⟩
  | 12 => ⟨S250000, .i32⟩
  | 13 => ⟨S250000x1, .i32⟩
  | 14 => ⟨S250000, .i32⟩
  | 15 => ⟨S250000, .i32⟩
  | 16 => ⟨S_, .i32⟩
  | 17 => ⟨S250000, .i32⟩
  | 18 => ⟨S250000, .i32⟩
  | 19 => ⟨S250000x1, .i32⟩
  | 20 => ⟨S250000, .i32⟩
  | 21 => ⟨S250000, .i32⟩
  | 22 => ⟨S_, .i32⟩
  | 23 => ⟨S250000, .i32⟩
  | 24 => ⟨S250000, .i32⟩
  | 25 => ⟨S250000x1, .i32⟩
  | 26 => ⟨S250000, .i32⟩
  | 27 => ⟨S250000, .i32⟩
  | 28 => ⟨S_, .f32⟩
  | 29 => ⟨S22188x65, .f32⟩
  | 30 => ⟨S250000x1, .i32⟩
  | 31 => ⟨S22188x65, .f32⟩
  | 32 => ⟨S_, .i32⟩
  | 33 => ⟨S_, .f32⟩
  | 34 => ⟨S24576x65, .f32⟩
  | 35 => ⟨S1x64x32, .f32⟩
  | 36 => ⟨S64x32, .f32⟩
  | 37 => ⟨S1x32, .f32⟩
  | 38 => ⟨S32, .f32⟩
  | 39 => ⟨S1x32, .f32⟩
  | 40 => ⟨S24576x32, .bf16⟩
  | 41 => ⟨S_, .i32⟩
  | 42 => ⟨S250000, .i32⟩
  | 43 => ⟨S250000, .i32⟩
  | 44 => ⟨S_, .i32⟩
  | 45 => ⟨S_, .i32⟩
  | 46 => ⟨S250000x3, .i32⟩
  | 47 => ⟨S250000x3, .i32⟩
  | 48 => ⟨S250000x3, .i32⟩
  | 49 => ⟨S_, .i32⟩
  | 50 => ⟨S250000x3, .i32⟩
  | 51 => ⟨S250000x3, .i1⟩
  | 52 => ⟨S250000x3, .i32⟩
  | 53 => ⟨S250000x3, .i32⟩
  | 54 => ⟨S_, .i32⟩
  | 55 => ⟨S250000x3, .i32⟩
  | 56 => ⟨S250000x3, .i1⟩
  | 57 => ⟨S250000x3, .i1⟩
  | 58 => ⟨S_, .i32⟩
  | 59 => ⟨S250000x3, .i32⟩
  | 60 => ⟨S250000x3, .i32⟩
  | 61 => ⟨S250000x3, .i32⟩
  | 62 => ⟨S_, .i32⟩
  | 63 => ⟨S250000, .i32⟩
  | 64 => ⟨S250000, .i32⟩
  | 65 => ⟨S250000x1, .i32⟩
  | 66 => ⟨S250000, .i32⟩
  | 67 => ⟨S250000, .i32⟩
  | 68 => ⟨S_, .i32⟩
  | 69 => ⟨S250000, .i32⟩
  | 70 => ⟨S250000, .i32⟩
  | 71 => ⟨S250000x1, .i32⟩
  | 72 => ⟨S250000, .i32⟩
  | 73 => ⟨S250000, .i32⟩
  | 74 => ⟨S_, .i32⟩
  | 75 => ⟨S250000, .i32⟩
  | 76 => ⟨S250000, .i32⟩
  | 77 => ⟨S250000x1, .i32⟩
  | 78 => ⟨S250000, .i32⟩
  | 79 => ⟨S250000, .i32⟩
  | 80 => ⟨S_, .f32⟩
  | 81 => ⟨S8192x65, .f32⟩
  | 82 => ⟨S250000x1, .i32⟩
  | 83 => ⟨S8192x65, .f32⟩
  | 84 => ⟨S1x64x32, .f32⟩
  | 85 => ⟨S64x32, .f32⟩
  | 86 => ⟨S1x32, .f32⟩
  | 87 => ⟨S32, .f32⟩
  | 88 => ⟨S1x32, .f32⟩
  | 89 => ⟨S8192x32, .bf16⟩
  | 90 => ⟨S_, .i32⟩
  | 91 => ⟨S250000, .i32⟩
  | 92 => ⟨S250000, .i32⟩
  | 93 => ⟨S622592x32, .bf16⟩
  | 94 => ⟨S250000x1, .i32⟩
  | 95 => ⟨S250000x1, .i32⟩
  | 96 => ⟨S250000x1, .i32⟩
  | 97 => ⟨S250000x1, .i32⟩
  | 98 => ⟨S250000x4, .i32⟩
  | 99 => ⟨S_, .i32⟩
  | 100 => ⟨S250000x4, .i32⟩
  | 101 => ⟨S250000x4, .i1⟩
  | 102 => ⟨S_, .i32⟩
  | 103 => ⟨S250000x4, .i32⟩
  | 104 => ⟨S250000x4, .i32⟩
  | 105 => ⟨S250000x4, .i32⟩
  | 106 => ⟨S250000x4x1, .i32⟩
  | 107 => ⟨S250000x4x32, .bf16⟩
  | 108 => ⟨S250000x128, .bf16⟩
  | 109 => ⟨S64x64, .f32⟩
  | 110 => ⟨S64x64, .f32⟩
  | 111 => ⟨S4x1x32, .f32⟩
  | 112 => ⟨S1x64, .f32⟩
  | 113 => ⟨S250000x64, .f32⟩
  | 114 => ⟨S_, .i32⟩
  | 115 => ⟨S250000, .i32⟩
  | 116 => ⟨S250000, .i1⟩
  | 117 => ⟨S_, .i32⟩
  | 118 => ⟨S250000, .i32⟩
  | 119 => ⟨S250000, .i32⟩
  | 120 => ⟨S250000, .i32⟩
  | 121 => ⟨S250000x1, .i32⟩
  | 122 => ⟨S250000x64, .f32⟩
  | _ => ⟨S250000x64, .f32⟩

abbrev hbmTy (i : Nat) : BufTy := match i / 128 with
  | 0 => hbmTy0_0 i
  | 1 => hbmTy0_1 i
  | _ => ⟨S250000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S4096x65, .f32⟩
  | .local _ .vmem, ⟨7, _⟩ => ⟨S4096x65, .f32⟩
  | .local _ .vmem, ⟨8, _⟩ => ⟨S64x32, .f32⟩
  | .local _ .vmem, ⟨9, _⟩ => ⟨S1x32, .f32⟩
  | .local _ .vmem, ⟨10, _⟩ => ⟨S4096x32, .bf16⟩
  | .local _ .vmem, ⟨11, _⟩ => ⟨S4096x32, .bf16⟩
  | .local _ .vmem, ⟨12, _⟩ => ⟨S4096x65, .f32⟩
  | .local _ .vmem, ⟨13, _⟩ => ⟨S4096x65, .f32⟩
  | .local _ .vmem, ⟨14, _⟩ => ⟨S64x32, .f32⟩
  | .local _ .vmem, ⟨15, _⟩ => ⟨S1x32, .f32⟩
  | .local _ .vmem, ⟨16, _⟩ => ⟨S4096x32, .bf16⟩
  | .local _ .vmem, ⟨17, _⟩ => ⟨S4096x32, .bf16⟩
  | .local _ .vmem, ⟨18, _⟩ => ⟨S4096x65, .f32⟩
  | .local _ .vmem, ⟨19, _⟩ => ⟨S4096x65, .f32⟩
  | .local _ .vmem, ⟨20, _⟩ => ⟨S64x32, .f32⟩
  | .local _ .vmem, ⟨21, _⟩ => ⟨S1x32, .f32⟩
  | .local _ .vmem, ⟨22, _⟩ => ⟨S4096x32, .bf16⟩
  | .local _ .vmem, ⟨23, _⟩ => ⟨S4096x32, .bf16⟩
  | .local _ .vmem, ⟨24, _⟩ => ⟨S4096x65, .f32⟩
  | .local _ .vmem, ⟨25, _⟩ => ⟨S4096x65, .f32⟩
  | .local _ .vmem, ⟨26, _⟩ => ⟨S64x32, .f32⟩
  | .local _ .vmem, ⟨27, _⟩ => ⟨S1x32, .f32⟩
  | .local _ .vmem, ⟨28, _⟩ => ⟨S4096x32, .bf16⟩
  | .local _ .vmem, ⟨29, _⟩ => ⟨S4096x32, .bf16⟩
  | .local _ .vmem, ⟨30, _⟩ => ⟨S2000x64, .f32⟩
  | .local _ .vmem, ⟨31, _⟩ => ⟨S2000x64, .f32⟩
  | .local _ .vmem, ⟨32, _⟩ => ⟨S2000x128, .bf16⟩
  | .local _ .vmem, ⟨33, _⟩ => ⟨S2000x128, .bf16⟩
  | .local _ .vmem, ⟨34, _⟩ => ⟨S32x32, .f32⟩
  | .local _ .vmem, ⟨35, _⟩ => ⟨S4x32x32, .f32⟩
  | .local _ .vmem, ⟨36, _⟩ => ⟨S4x1x32, .f32⟩
  | .local _ .vmem, ⟨37, _⟩ => ⟨S32x64, .f32⟩
  | .local _ .vmem, ⟨38, _⟩ => ⟨S64x64, .f32⟩
  | .local _ .vmem, ⟨39, _⟩ => ⟨S64x64, .f32⟩
  | .local _ .vmem, ⟨40, _⟩ => ⟨S64x64, .f32⟩
  | .local _ .vmem, ⟨41, _⟩ => ⟨S1x64, .f32⟩
  | .local _ .vmem, ⟨42, _⟩ => ⟨S2000x64, .f32⟩
  | .local _ .vmem, ⟨43, _⟩ => ⟨S2000x64, .f32⟩
  | _, _ => ⟨S250000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v7 : Ref sig .tc := ⟨.hbm, 39, rfl⟩
abbrev main_c_0 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_c_1 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_c_2 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_cst_3 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_c_4 : Ref sig .tc := ⟨.hbm, 68, rfl⟩
abbrev main_v32 : Ref sig .tc := ⟨.hbm, 69, rfl⟩
abbrev main_v33 : Ref sig .tc := ⟨.hbm, 70, rfl⟩
abbrev main_c_5 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_c : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_0 : Ref sig .tc := ⟨.hbm, 85, rfl⟩
abbrev main_call1_v12 : Ref sig .tc := ⟨.hbm, 86, rfl⟩
abbrev main_call1_v13 : Ref sig .tc := ⟨.hbm, 87, rfl⟩
abbrev main_v34 : Ref sig .tc := ⟨.hbm, 88, rfl⟩
abbrev main_c_6 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_c_7 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_c_8 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_cst_9 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_c_10 : Ref sig .tc := ⟨.hbm, 117, rfl⟩
abbrev main_v59 : Ref sig .tc := ⟨.hbm, 118, rfl⟩
abbrev main_v60 : Ref sig .tc := ⟨.hbm, 119, rfl⟩
abbrev main_c_11 : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_call2_v3 : Ref sig .tc := ⟨.hbm, 124, rfl⟩
abbrev main_call2_v4 : Ref sig .tc := ⟨.hbm, 125, rfl⟩
abbrev main_call2_v5 : Ref sig .tc := ⟨.hbm, 126, rfl⟩
abbrev main_call2_v6 : Ref sig .tc := ⟨.hbm, 127, rfl⟩
abbrev main_call2_v7 : Ref sig .tc := ⟨.hbm, 128, rfl⟩
abbrev main_call2_v8 : Ref sig .tc := ⟨.hbm, 129, rfl⟩
abbrev main_call2_c : Ref sig .tc := ⟨.hbm, 130, rfl⟩
abbrev main_call2_v9 : Ref sig .tc := ⟨.hbm, 131, rfl⟩
abbrev main_call2_v10 : Ref sig .tc := ⟨.hbm, 132, rfl⟩
abbrev main_call2_v11 : Ref sig .tc := ⟨.hbm, 133, rfl⟩
abbrev main_call2_c_0 : Ref sig .tc := ⟨.hbm, 134, rfl⟩
abbrev main_call2_v12 : Ref sig .tc := ⟨.hbm, 135, rfl⟩
abbrev main_call2_v13 : Ref sig .tc := ⟨.hbm, 136, rfl⟩
abbrev main_v61 : Ref sig .tc := ⟨.hbm, 137, rfl⟩
abbrev main_c_12 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_c_13 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_c_14 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_cst_15 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_c_16 : Ref sig .tc := ⟨.hbm, 160, rfl⟩
abbrev main_call3_v0 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_c_17 : Ref sig .tc := ⟨.hbm, 169, rfl⟩
abbrev main_v87 : Ref sig .tc := ⟨.hbm, 170, rfl⟩
abbrev main_v88 : Ref sig .tc := ⟨.hbm, 171, rfl⟩
abbrev main_c_18 : Ref sig .tc := ⟨.hbm, 172, rfl⟩
abbrev main_call4_v0 : Ref sig .tc := ⟨.hbm, 173, rfl⟩
abbrev main_call4_v1 : Ref sig .tc := ⟨.hbm, 174, rfl⟩
abbrev main_call4_v2 : Ref sig .tc := ⟨.hbm, 175, rfl⟩
abbrev main_call4_v3 : Ref sig .tc := ⟨.hbm, 176, rfl⟩
abbrev main_call4_v4 : Ref sig .tc := ⟨.hbm, 177, rfl⟩
abbrev main_call4_v5 : Ref sig .tc := ⟨.hbm, 178, rfl⟩
abbrev main_call4_v6 : Ref sig .tc := ⟨.hbm, 179, rfl⟩
abbrev main_call4_v7 : Ref sig .tc := ⟨.hbm, 180, rfl⟩
abbrev main_call4_v8 : Ref sig .tc := ⟨.hbm, 181, rfl⟩
abbrev main_call4_c : Ref sig .tc := ⟨.hbm, 182, rfl⟩
abbrev main_call4_v9 : Ref sig .tc := ⟨.hbm, 183, rfl⟩
abbrev main_call4_v10 : Ref sig .tc := ⟨.hbm, 184, rfl⟩
abbrev main_call4_v11 : Ref sig .tc := ⟨.hbm, 185, rfl⟩
abbrev main_call4_c_0 : Ref sig .tc := ⟨.hbm, 186, rfl⟩
abbrev main_call4_v12 : Ref sig .tc := ⟨.hbm, 187, rfl⟩
abbrev main_call4_v13 : Ref sig .tc := ⟨.hbm, 188, rfl⟩
abbrev main_v89 : Ref sig .tc := ⟨.hbm, 189, rfl⟩
abbrev main_c_19 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_c_20 : Ref sig .tc := ⟨.hbm, 196, rfl⟩
abbrev main_v95 : Ref sig .tc := ⟨.hbm, 197, rfl⟩
abbrev main_v96 : Ref sig .tc := ⟨.hbm, 198, rfl⟩
abbrev main_v97 : Ref sig .tc := ⟨.hbm, 199, rfl⟩
abbrev main_v98 : Ref sig .tc := ⟨.hbm, 200, rfl⟩
abbrev main_v99 : Ref sig .tc := ⟨.hbm, 201, rfl⟩
abbrev main_c_21 : Ref sig .tc := ⟨.hbm, 202, rfl⟩
abbrev main_v100 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_v104 : Ref sig .tc := ⟨.hbm, 207, rfl⟩
abbrev main_cst_22 : Ref sig .tc := ⟨.hbm, 208, rfl⟩
abbrev main_v105 : Ref sig .tc := ⟨.hbm, 209, rfl⟩
abbrev main_v106 : Ref sig .tc := ⟨.hbm, 210, rfl⟩
abbrev main_v107 : Ref sig .tc := ⟨.hbm, 211, rfl⟩
abbrev main_v108 : Ref sig .tc := ⟨.hbm, 212, rfl⟩
abbrev main_v109 : Ref sig .tc := ⟨.hbm, 213, rfl⟩
abbrev main_v110 : Ref sig .tc := ⟨.hbm, 214, rfl⟩
abbrev main_v111 : Ref sig .tc := ⟨.hbm, 215, rfl⟩
abbrev main_v112 : Ref sig .tc := ⟨.hbm, 216, rfl⟩
abbrev main_v113 : Ref sig .tc := ⟨.hbm, 217, rfl⟩
abbrev main_c_23 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_c_24 : Ref sig .tc := ⟨.hbm, 227, rfl⟩
abbrev main_v122 : Ref sig .tc := ⟨.hbm, 228, rfl⟩
abbrev main_v123 : Ref sig .tc := ⟨.hbm, 229, rfl⟩
abbrev main_c_25 : Ref sig .tc := ⟨.hbm, 230, rfl⟩
abbrev main_v124 : Ref sig .tc := ⟨.hbm, 231, rfl⟩
abbrev main_v125 : Ref sig .tc := ⟨.hbm, 232, rfl⟩
abbrev main_v126 : Ref sig .tc := ⟨.hbm, 233, rfl⟩
abbrev main_v127 : Ref sig .tc := ⟨.hbm, 234, rfl⟩
abbrev main_v128 : Ref sig .tc := ⟨.hbm, 235, rfl⟩
abbrev main_v129 : Ref sig .tc := ⟨.hbm, 236, rfl⟩
abbrev main_v130 : Ref sig .tc := ⟨.hbm, 237, rfl⟩
abbrev main_v131 : Ref sig .tc := ⟨.hbm, 238, rfl⟩
abbrev main_v132 : Ref sig .tc := ⟨.hbm, 239, rfl⟩
abbrev main_v133 : Ref sig .tc := ⟨.hbm, 240, rfl⟩
abbrev main_v134 : Ref sig .tc := ⟨.hbm, 241, rfl⟩
abbrev main_c_26 : Ref sig .tc := ⟨.hbm, 242, rfl⟩
abbrev main_v135 : Ref sig .tc := ⟨.hbm, 243, rfl⟩
abbrev main_v136 : Ref sig .tc := ⟨.hbm, 244, rfl⟩
abbrev main_c_27 : Ref sig .tc := ⟨.hbm, 245, rfl⟩
abbrev main_v137 : Ref sig .tc := ⟨.hbm, 246, rfl⟩
abbrev main_v138 : Ref sig .tc := ⟨.hbm, 247, rfl⟩
abbrev main_v139 : Ref sig .tc := ⟨.hbm, 248, rfl⟩
abbrev main_v140 : Ref sig .tc := ⟨.hbm, 249, rfl⟩
abbrev main_v141 : Ref sig .tc := ⟨.hbm, 250, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg5_0 : Ref sig .tc := ⟨.vmem, 37, rfl⟩
abbrev cc5_stg6_0 : Ref sig .tc := ⟨.vmem, 38, rfl⟩
abbrev cc5_stg7_0 : Ref sig .tc := ⟨.vmem, 39, rfl⟩
abbrev cc5_stg8_0 : Ref sig .tc := ⟨.vmem, 40, rfl⟩
abbrev cc5_stg9_0 : Ref sig .tc := ⟨.vmem, 41, rfl⟩
abbrev cc5_stg10_0 : Ref sig .tc := ⟨.vmem, 42, rfl⟩
abbrev cc5_stg10_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem3_0 : DmaSem sig := 35
abbrev cc5_sem4_0 : DmaSem sig := 36
abbrev cc5_sem5_0 : DmaSem sig := 37
abbrev cc5_sem6_0 : DmaSem sig := 38
abbrev cc5_sem7_0 : DmaSem sig := 39
abbrev cc5_sem8_0 : DmaSem sig := 40
abbrev cc5_sem9_0 : DmaSem sig := 41
abbrev cc5_sem10_0 : DmaSem sig := 42
abbrev cc5_sem10_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x65 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x32 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x65 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4096x32 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![6], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x65 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4096x32 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![2], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x65 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4096x32 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![125], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S32x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S4x32x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S4x1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S32x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S64x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S64x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S64x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x64 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S2000x64 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

class Facts₀ : Prop where
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S250000x4_S250000x1_0_0 : S250000x4.Slices ![0, 0] S250000x1
  shapeCasts_S250000x1_S250000 : S250000x1.ShapeCasts S250000
  slices_S250000x4_S250000x3_0_1 : S250000x4.Slices ![0, 1] S250000x3
  bcast_S_S250000x1 : S_.BroadcastsInDim S250000x1 (![] : Fin 0 → Fin S250000x1.rank)
  concatenates_S250000x64_S250000x1_S250000x65_d1 : Shape.Concatenates [S250000x64, S250000x1] S250000x65 1
  bcast_S_S250000x3 : S_.BroadcastsInDim S250000x3 (![] : Fin 0 → Fin S250000x3.rank)
  bcast_S_S250000 : S_.BroadcastsInDim S250000 (![] : Fin 0 → Fin S250000.rank)
  slices_S250000x3_S250000x1_0_0 : S250000x3.Slices ![0, 0] S250000x1
  slices_S250000x3_S250000x1_0_1 : S250000x3.Slices ![0, 1] S250000x1
  slices_S250000x3_S250000x1_0_2 : S250000x3.Slices ![0, 2] S250000x1
  bcast_S_S524288x65 : S_.BroadcastsInDim S524288x65 (![] : Fin 0 → Fin S524288x65.rank)
  bcast_S250000_S250000x1_0 : S250000.BroadcastsInDim S250000x1 (![0] : Fin 1 → Fin S250000x1.rank)
  slices_S4x64x32_S1x64x32_0_0_0 : S4x64x32.Slices ![0, 0, 0] S1x64x32
  shapeCasts_S1x64x32_S64x32 : S1x64x32.ShapeCasts S64x32
  slices_S4x32_S1x32_0_0 : S4x32.Slices ![0, 0] S1x32
  shapeCasts_S1x32_S32 : S1x32.ShapeCasts S32
  shapeCasts_S32_S1x32 : S32.ShapeCasts S1x32
  inb_S4096x65_S4096x65_0_0 : ∀ a, (![0, 0] : Fin 2 → Nat) a + S4096x65.size a ≤ S4096x65.size a
  h_S4096x65 : 0 < S4096x65.numel
  shapeCasts_S4096x65_S4096x65 : S4096x65.ShapeCasts S4096x65
  slices_S4096x65_o0_0_S4096x64 : S4096x65.Slices ![0, 0] S4096x64
  slices_S4096x65_o0_64_S4096x1 : S4096x65.Slices ![0, 64] S4096x1
  broadcasts_S4096x1_S4096x64 : S4096x1.Broadcasts S4096x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S4096x32_S4096x32_0_0 : ∀ a, (![0, 0] : Fin 2 → Nat) a + S4096x32.size a ≤ S4096x32.size a
  h_S4096x32 : 0 < S4096x32.numel
  packedbf16_S4096x32_S4096x32_0_0 : (Rect.unit (s := S4096x32) ![0, 0] S4096x32.size inb_S4096x32_S4096x32_0_0).PackedRows (EltTy.packing .bf16)
  bcast_S_S65536x65 : S_.BroadcastsInDim S65536x65 (![] : Fin 0 → Fin S65536x65.rank)
  slices_S4x64x32_S1x64x32_1_0_0 : S4x64x32.Slices ![1, 0, 0] S1x64x32
  slices_S4x32_S1x32_1_0 : S4x32.Slices ![1, 0] S1x32
  bcast_S_S22188x65 : S_.BroadcastsInDim S22188x65 (![] : Fin 0 → Fin S22188x65.rank)
  pads_S22188x65_S24576x65_023880_000 : S22188x65.Pads (![0, 0] : Fin 2 → Nat) ![2388, 0] ![0, 0] S24576x65
  h_S_ : 0 < S_.numel
  slices_S4x64x32_S1x64x32_2_0_0 : S4x64x32.Slices ![2, 0, 0] S1x64x32
  slices_S4x32_S1x32_2_0 : S4x32.Slices ![2, 0] S1x32
  bcast_S_S8192x65 : S_.BroadcastsInDim S8192x65 (![] : Fin 0 → Fin S8192x65.rank)
  slices_S4x64x32_S1x64x32_3_0_0 : S4x64x32.Slices ![3, 0, 0] S1x64x32
  slices_S4x32_S1x32_3_0 : S4x32.Slices ![3, 0] S1x32
  concatenates_S524288x32_S65536x32_S24576x32_S8192x32_S622592x32_d0 : Shape.Concatenates [S524288x32, S65536x32, S24576x32, S8192x32] S622592x32 0
  concatenates_S250000x1_S250000x1_S250000x1_S250000x1_S250000x4_d1 : Shape.Concatenates [S250000x1, S250000x1, S250000x1, S250000x1] S250000x4 1
  bcast_S_S250000x4 : S_.BroadcastsInDim S250000x4 (![] : Fin 0 → Fin S250000x4.rank)
  bcast_S250000x4_S250000x4x1_0_1 : S250000x4.BroadcastsInDim S250000x4x1 (![0, 1] : Fin 2 → Fin S250000x4x1.rank)
  shapeCasts_S250000x4x32_S250000x128 : S250000x4x32.ShapeCasts S250000x128
  slices_S128x64_S64x64_0_0 : S128x64.Slices ![0, 0] S64x64
  slices_S128x64_S64x64_64_0 : S128x64.Slices ![64, 0] S64x64
  shapeCasts_S4x32_S4x1x32 : S4x32.ShapeCasts S4x1x32
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  slices_S2000x128_o0_0_S2000x32 : S2000x128.Slices ![0, 0] S2000x32
  slices_S2000x128_o0_32_S2000x32 : S2000x128.Slices ![0, 32] S2000x32
  slices_S2000x128_o0_64_S2000x32 : S2000x128.Slices ![0, 64] S2000x32
  slices_S2000x128_o0_96_S2000x32 : S2000x128.Slices ![0, 96] S2000x32
  inb_S32x32_S32x32_0_0 : ∀ a, (![0, 0] : Fin 2 → Nat) a + S32x32.size a ≤ S32x32.size a
  h_S32x32 : 0 < S32x32.numel
  inb_S4x32x32_S1x32x32_0_0_0 : ∀ a, (![0, 0, 0] : Fin 3 → Nat) a + S1x32x32.size a ≤ S4x32x32.size a
  h_S1x32x32 : 0 < S1x32x32.numel
  shapeCasts_S1x32x32_S32x32 : S1x32x32.ShapeCasts S32x32
  inb_S4x1x32_S1x1x32_0_0_0 : ∀ a, (![0, 0, 0] : Fin 3 → Nat) a + S1x1x32.size a ≤ S4x1x32.size a
  h_S1x1x32 : 0 < S1x1x32.numel
  shapeCasts_S1x1x32_S1x32 : S1x1x32.ShapeCasts S1x32
  broadcasts_S1x32_S2000x32 : S1x32.Broadcasts S2000x32
  inb_S4x32x32_S1x32x32_1_0_0 : ∀ a, (![1, 0, 0] : Fin 3 → Nat) a + S1x32x32.size a ≤ S4x32x32.size a
  inb_S4x1x32_S1x1x32_1_0_0 : ∀ a, (![1, 0, 0] : Fin 3 → Nat) a + S1x1x32.size a ≤ S4x1x32.size a
  inb_S4x32x32_S1x32x32_2_0_0 : ∀ a, (![2, 0, 0] : Fin 3 → Nat) a + S1x32x32.size a ≤ S4x32x32.size a
  inb_S4x1x32_S1x1x32_2_0_0 : ∀ a, (![2, 0, 0] : Fin 3 → Nat) a + S1x1x32.size a ≤ S4x1x32.size a
  inb_S4x32x32_S1x32x32_3_0_0 : ∀ a, (![3, 0, 0] : Fin 3 → Nat) a + S1x32x32.size a ≤ S4x32x32.size a
  inb_S4x1x32_S1x1x32_3_0_0 : ∀ a, (![3, 0, 0] : Fin 3 → Nat) a + S1x1x32.size a ≤ S4x1x32.size a
  inb_S32x64_S32x64_0_0 : ∀ a, (![0, 0] : Fin 2 → Nat) a + S32x64.size a ≤ S32x64.size a
  h_S32x64 : 0 < S32x64.numel
  shapeCasts_S64x64_S64x64 : S64x64.ShapeCasts S64x64
  broadcasts_S1x64_S2000x64 : S1x64.Broadcasts S2000x64
  dot_S10000x64_S64x64_S10000x64_1_0_0_1_n_n_wf : DotDims.WF S10000x64 S64x64 S10000x64 [1] [0] [0] [1] [] []
  scatter_S524288x65_S250000x1_S250000x65_1_0_0_1_wf : ScatterDims.WF S524288x65 S250000x1 S250000x65 [1] [0] [0] 1
  dot_S4096x64_S64x32_S4096x32_1_0_0_1_n_n_wf : DotDims.WF S4096x64 S64x32 S4096x32 [1] [0] [0] [1] [] []
  scatter_S65536x65_S250000x1_S250000x65_1_0_0_1_wf : ScatterDims.WF S65536x65 S250000x1 S250000x65 [1] [0] [0] 1
  scatter_S22188x65_S250000x1_S250000x65_1_0_0_1_wf : ScatterDims.WF S22188x65 S250000x1 S250000x65 [1] [0] [0] 1
  scatter_S8192x65_S250000x1_S250000x65_1_0_0_1_wf : ScatterDims.WF S8192x65 S250000x1 S250000x65 [1] [0] [0] 1
  gather_S622592x32_S250000x4x1_S250000x4x32_2_0_n_n_0_2_132_wf : GatherDims.WF S622592x32 S250000x4x1 S250000x4x32 [2] [0] [] [0] [] 2 ![1, 32]
  dot_S2000x32_S32x32_S2000x32_1_0_0_1_n_n_wf : DotDims.WF S2000x32 S32x32 S2000x32 [1] [0] [0] [1] [] []
  dot_S2000x32_S32x64_S2000x64_1_0_0_1_n_n_wf : DotDims.WF S2000x32 S32x64 S2000x64 [1] [0] [0] [1] [] []
  dot_S2000x64_S64x64_S2000x64_1_0_0_1_n_n_wf : DotDims.WF S2000x64 S64x64 S2000x64 [1] [0] [0] [1] [] []
  gather_S250000x64_S250000x1_S250000x64_1_0_n_n_0_1_164_wf : GatherDims.WF S250000x64 S250000x1 S250000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S250000x64.size a
  hwx0_0 : ∀ i : grid0.Coords, EltTy.bits .f32 = 32 ∨ (Rect.block (s := S250000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S250000x64.size a
  hwx0_3 : ∀ i : grid0.Coords, EltTy.bits .f32 = 32 ∨ (Rect.block (s := S250000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x65.size a ≤ S524288x65.size a
  hwx1_0 : ∀ i : grid1.Coords, EltTy.bits .f32 = 32 ∨ (Rect.block (s := S524288x65) S4096x65.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x32.size a ≤ S524288x32.size a
  hwx1_3 : ∀ i : grid1.Coords, EltTy.bits .bf16 = 32 ∨ (Rect.block (s := S524288x32) S4096x32.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x65.size a ≤ S65536x65.size a
  hwx2_0 : ∀ i : grid2.Coords, EltTy.bits .f32 = 32 ∨ (Rect.block (s := S65536x65) S4096x65.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x32.size a ≤ S65536x32.size a
  hwx2_3 : ∀ i : grid2.Coords, EltTy.bits .bf16 = 32 ∨ (Rect.block (s := S65536x32) S4096x32.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x65.size a ≤ S24576x65.size a
  hwx3_0 : ∀ i : grid3.Coords, EltTy.bits .f32 = 32 ∨ (Rect.block (s := S24576x65) S4096x65.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x32.size a ≤ S24576x32.size a
  hwx3_3 : ∀ i : grid3.Coords, EltTy.bits .bf16 = 32 ∨ (Rect.block (s := S24576x32) S4096x32.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x65.size a ≤ S8192x65.size a
  hwx4_0 : ∀ i : grid4.Coords, EltTy.bits .f32 = 32 ∨ (Rect.block (s := S8192x65) S4096x65.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4096x32.size a ≤ S8192x32.size a
  hwx4_3 : ∀ i : grid4.Coords, EltTy.bits .bf16 = 32 ∨ (Rect.block (s := S8192x32) S4096x32.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S250000x64.size a
  hwx5_0 : ∀ i : grid5.Coords, EltTy.bits .f32 = 32 ∨ (Rect.block (s := S250000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S250000x128.size a
  hwx5_1 : ∀ i : grid5.Coords, EltTy.bits .bf16 = 32 ∨ (Rect.block (s := S250000x128) S2000x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32x32.size a ≤ S32x32.size a
  hwx5_2 : ∀ i : grid5.Coords, EltTy.bits .f32 = 32 ∨ (Rect.block (s := S32x32) S32x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S4x32x32.size a ≤ S4x32x32.size a
  hwx5_3 : ∀ i : grid5.Coords, EltTy.bits .f32 = 32 ∨ (Rect.block (s := S4x32x32) S4x32x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S4x1x32.size a ≤ S4x1x32.size a
  hwx5_4 : ∀ i : grid5.Coords, EltTy.bits .f32 = 32 ∨ (Rect.block (s := S4x1x32) S4x1x32.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S32x64.size a ≤ S32x64.size a
  hwx5_5 : ∀ i : grid5.Coords, EltTy.bits .f32 = 32 ∨ (Rect.block (s := S32x64) S32x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S64x64.size a ≤ S64x64.size a
  hwx5_6 : ∀ i : grid5.Coords, EltTy.bits .f32 = 32 ∨ (Rect.block (s := S64x64) S64x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S64x64.size a ≤ S64x64.size a
  hwx5_7 : ∀ i : grid5.Coords, EltTy.bits .f32 = 32 ∨ (Rect.block (s := S64x64) S64x64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S64x64.size a ≤ S64x64.size a
  hwx5_8 : ∀ i : grid5.Coords, EltTy.bits .f32 = 32 ∨ (Rect.block (s := S64x64) S64x64.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x64.size a ≤ S1x64.size a
  hwx5_9 : ∀ i : grid5.Coords, EltTy.bits .f32 = 32 ∨ (Rect.block (s := S1x64) S1x64.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S2000x64.size a ≤ S250000x64.size a
  hwx5_10 : ∀ i : grid5.Coords, EltTy.bits .f32 = 32 ∨ (Rect.block (s := S250000x64) S2000x64.size (cc5_transform_10 i) (hinb5_10 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S524288x65_S250000x1_S250000x65_1_0_0_1 : ScatterDims S524288x65 S250000x1 S250000x65 where
  updateWindowDims := [1]
  insertedWindowDims := [0]
  scatterDimsToOperandDims := [0]
  indexVectorDim := 1
  wf := scatter_S524288x65_S250000x1_S250000x65_1_0_0_1_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def scatter_S65536x65_S250000x1_S250000x65_1_0_0_1 : ScatterDims S65536x65 S250000x1 S250000x65 where
  updateWindowDims := [1]
  insertedWindowDims := [0]
  scatterDimsToOperandDims := [0]
  indexVectorDim := 1
  wf := scatter_S65536x65_S250000x1_S250000x65_1_0_0_1_wf
def scatter_S22188x65_S250000x1_S250000x65_1_0_0_1 : ScatterDims S22188x65 S250000x1 S250000x65 where
  updateWindowDims := [1]
  insertedWindowDims := [0]
  scatterDimsToOperandDims := [0]
  indexVectorDim := 1
  wf := scatter_S22188x65_S250000x1_S250000x65_1_0_0_1_wf
def scatter_S8192x65_S250000x1_S250000x65_1_0_0_1 : ScatterDims S8192x65 S250000x1 S250000x65 where
  updateWindowDims := [1]
  insertedWindowDims := [0]
  scatterDimsToOperandDims := [0]
  indexVectorDim := 1
  wf := scatter_S8192x65_S250000x1_S250000x65_1_0_0_1_wf
def gather_S622592x32_S250000x4x1_S250000x4x32_2_0_n_n_0_2_132 : GatherDims S622592x32 S250000x4x1 S250000x4x32 where
  offsetDims := [2]
  collapsedSliceDims := [0]
  operandBatchingDims := []
  startIndicesBatchingDims := []
  startIndexMap := [0]
  indexVectorDim := 2
  sliceSizes := ![1, 32]
  wf := gather_S622592x32_S250000x4x1_S250000x4x32_2_0_n_n_0_2_132_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S250000x64_S250000x1_S250000x64_1_0_n_n_0_1_164 : GatherDims S250000x64 S250000x1 S250000x64 where
  offsetDims := [1]
  collapsedSliceDims := [0]
  operandBatchingDims := []
  startIndicesBatchingDims := []
  startIndexMap := [0]
  indexVectorDim := 1
  sliceSizes := ![1, 64]
  wf := gather_S250000x64_S250000x1_S250000x64_1_0_n_n_0_1_164_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S4096x65.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S4096x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v52) S4096x65.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S4096x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v80) S4096x65.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v82) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v85) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v86) S4096x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v107) S4096x65.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v109) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v112) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v113) S4096x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v1) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v129) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg9) S32x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg7) S4x32x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v132) S4x1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg10) S32x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v130) S64x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v131) S64x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_arg12) S64x64.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v133) S1x64.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v134) S2000x64.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

class Facts : Prop extends Facts₀ where

variable [Facts]
-- ==== ReferenceIdeal.lean ====
abbrev S250000x64 : Shape := ⟨2, ![250000, 64]⟩
abbrev S250000x4 : Shape := ⟨2, ![250000, 4]⟩
abbrev S250000 : Shape := ⟨1, ![250000]⟩
abbrev S64x64 : Shape := ⟨2, ![64, 64]⟩
abbrev S64 : Shape := ⟨1, ![64]⟩
abbrev S4x64x32 : Shape := ⟨3, ![4, 64, 32]⟩
abbrev S4x32 : Shape := ⟨2, ![4, 32]⟩
abbrev S4x32x32 : Shape := ⟨3, ![4, 32, 32]⟩
abbrev S32x32 : Shape := ⟨2, ![32, 32]⟩
abbrev S32x64 : Shape := ⟨2, ![32, 64]⟩
abbrev S128x64 : Shape := ⟨2, ![128, 64]⟩
abbrev S1x64 : Shape := ⟨2, ![1, 64]⟩
abbrev S_ : Shape := ⟨0, ![]⟩
abbrev S250000x1 : Shape := ⟨2, ![250000, 1]⟩
abbrev S250000x3 : Shape := ⟨2, ![250000, 3]⟩
abbrev S524288x64 : Shape := ⟨2, ![524288, 64]⟩
abbrev S524288x1 : Shape := ⟨2, ![524288, 1]⟩
abbrev S1x64x32 : Shape := ⟨3, ![1, 64, 32]⟩
abbrev S64x32 : Shape := ⟨2, ![64, 32]⟩
abbrev S524288x32 : Shape := ⟨2, ![524288, 32]⟩
abbrev S1x32 : Shape := ⟨2, ![1, 32]⟩
abbrev S32 : Shape := ⟨1, ![32]⟩
abbrev S250000x32 : Shape := ⟨2, ![250000, 32]⟩
abbrev S65536x64 : Shape := ⟨2, ![65536, 64]⟩
abbrev S65536x1 : Shape := ⟨2, ![65536, 1]⟩
abbrev S65536x32 : Shape := ⟨2, ![65536, 32]⟩
abbrev S22188x64 : Shape := ⟨2, ![22188, 64]⟩
abbrev S22188x1 : Shape := ⟨2, ![22188, 1]⟩
abbrev S22188x32 : Shape := ⟨2, ![22188, 32]⟩
abbrev S8192x64 : Shape := ⟨2, ![8192, 64]⟩
abbrev S8192x1 : Shape := ⟨2, ![8192, 1]⟩
abbrev S8192x32 : Shape := ⟨2, ![8192, 32]⟩
abbrev S250000x1x32 : Shape := ⟨3, ![250000, 1, 32]⟩
abbrev S250000x4x32 : Shape := ⟨3, ![250000, 4, 32]⟩
abbrev S1x32x32 : Shape := ⟨3, ![1, 32, 32]⟩
abbrev S250000x128 : Shape := ⟨2, ![250000, 128]⟩

abbrev nBuf : Space → Nat
  | .hbm => 386
  | .vmem => 0
  | .smem => 0
  | _ => 0

abbrev hbmTy0_0 (i : Nat) : BufTy := match i % 128 with
  | 0 => ⟨S250000x64, .f32⟩
  | 1 => ⟨S250000x4, .i32⟩
  | 2 => ⟨S250000, .i32⟩
  | 3 => ⟨S64x64, .f32⟩
  | 4 => ⟨S64, .f32⟩
  | 5 => ⟨S4x64x32, .f32⟩
  | 6 => ⟨S4x32, .f32⟩
  | 7 => ⟨S4x32x32, .f32⟩
  | 8 => ⟨S4x32, .f32⟩
  | 9 => ⟨S32x32, .f32⟩
  | 10 => ⟨S32x64, .f32⟩
  | 11 => ⟨S128x64, .f32⟩
  | 12 => ⟨S64x64, .f32⟩
  | 13 => ⟨S64, .f32⟩
  | 14 => ⟨S250000x64, .f32⟩
  | 15 => ⟨S1x64, .f32⟩
  | 16 => ⟨S250000x64, .f32⟩
  | 17 => ⟨S250000x64, .f32⟩
  | 18 => ⟨S_, .f32⟩
  | 19 => ⟨S250000x64, .f32⟩
  | 20 => ⟨S250000x64, .f32⟩
  | 21 => ⟨S250000x1, .i32⟩
  | 22 => ⟨S250000, .i32⟩
  | 23 => ⟨S250000x3, .i32⟩
  | 24 => ⟨S_, .i32⟩
  | 25 => ⟨S_, .i32⟩
  | 26 => ⟨S250000x3, .i32⟩
  | 27 => ⟨S250000x3, .i32⟩
  | 28 => ⟨S250000x3, .i32⟩
  | 29 => ⟨S_, .i32⟩
  | 30 => ⟨S250000x3, .i32⟩
  | 31 => ⟨S250000x3, .i1⟩
  | 32 => ⟨S250000x3, .i32⟩
  | 33 => ⟨S250000x3, .i32⟩
  | 34 => ⟨S_, .i32⟩
  | 35 => ⟨S250000x3, .i32⟩
  | 36 => ⟨S250000x3, .i1⟩
  | 37 => ⟨S250000x3, .i1⟩
  | 38 => ⟨S_, .i32⟩
  | 39 => ⟨S250000x3, .i32⟩
  | 40 => ⟨S250000x3, .i32⟩
  | 41 => ⟨S250000x3, .i32⟩
  | 42 => ⟨S_, .i32⟩
  | 43 => ⟨S250000, .i32⟩
  | 44 => ⟨S250000, .i32⟩
  | 45 => ⟨S250000x1, .i32⟩
  | 46 => ⟨S250000, .i32⟩
  | 47 => ⟨S250000, .i32⟩
  | 48 => ⟨S_, .i32⟩
  | 49 => ⟨S250000, .i32⟩
  | 50 => ⟨S250000, .i32⟩
  | 51 => ⟨S250000x1, .i32⟩
  | 52 => ⟨S250000, .i32⟩
  | 53 => ⟨S250000, .i32⟩
  | 54 => ⟨S_, .i32⟩
  | 55 => ⟨S250000, .i32⟩
  | 56 => ⟨S250000, .i32⟩
  | 57 => ⟨S250000x1, .i32⟩
  | 58 => ⟨S250000, .i32⟩
  | 59 => ⟨S250000, .i32⟩
  | 60 => ⟨S_, .f32⟩
  | 61 => ⟨S524288x64, .f32⟩
  | 62 => ⟨S250000x1, .i32⟩
  | 63 => ⟨S524288x64, .f32⟩
  | 64 => ⟨S_, .f32⟩
  | 65 => ⟨S250000x1, .f32⟩
  | 66 => ⟨S_, .f32⟩
  | 67 => ⟨S524288x1, .f32⟩
  | 68 => ⟨S250000x1, .i32⟩
  | 69 => ⟨S524288x1, .f32⟩
  | 70 => ⟨S_, .f32⟩
  | 71 => ⟨S524288x1, .f32⟩
  | 72 => ⟨S524288x1, .f32⟩
  | 73 => ⟨S524288x64, .f32⟩
  | 74 => ⟨S524288x64, .f32⟩
  | 75 => ⟨S1x64x32, .f32⟩
  | 76 => ⟨S64x32, .f32⟩
  | 77 => ⟨S524288x32, .f32⟩
  | 78 => ⟨S1x32, .f32⟩
  | 79 => ⟨S32, .f32⟩
  | 80 => ⟨S1x32, .f32⟩
  | 81 => ⟨S524288x32, .f32⟩
  | 82 => ⟨S524288x32, .f32⟩
  | 83 => ⟨S_, .f32⟩
  | 84 => ⟨S524288x32, .f32⟩
  | 85 => ⟨S524288x32, .f32⟩
  | 86 => ⟨S_, .i32⟩
  | 87 => ⟨S250000, .i32⟩
  | 88 => ⟨S250000, .i1⟩
  | 89 => ⟨S_, .i32⟩
  | 90 => ⟨S250000, .i32⟩
  | 91 => ⟨S250000, .i32⟩
  | 92 => ⟨S250000, .i32⟩
  | 93 => ⟨S250000x1, .i32⟩
  | 94 => ⟨S250000x32, .f32⟩
  | 95 => ⟨S_, .i32⟩
  | 96 => ⟨S_, .i32⟩
  | 97 => ⟨S250000x3, .i32⟩
  | 98 => ⟨S250000x3, .i32⟩
  | 99 => ⟨S250000x3, .i32⟩
  | 100 => ⟨S_, .i32⟩
  | 101 => ⟨S250000x3, .i32⟩
  | 102 => ⟨S250000x3, .i1⟩
  | 103 => ⟨S250000x3, .i32⟩
  | 104 => ⟨S250000x3, .i32⟩
  | 105 => ⟨S_, .i32⟩
  | 106 => ⟨S250000x3, .i32⟩
  | 107 => ⟨S250000x3, .i1⟩
  | 108 => ⟨S250000x3, .i1⟩
  | 109 => ⟨S_, .i32⟩
  | 110 => ⟨S250000x3, .i32⟩
  | 111 => ⟨S250000x3, .i32⟩
  | 112 => ⟨S250000x3, .i32⟩
  | 113 => ⟨S_, .i32⟩
  | 114 => ⟨S250000, .i32⟩
  | 115 => ⟨S250000, .i32⟩
  | 116 => ⟨S250000x1, .i32⟩
  | 117 => ⟨S250000, .i32⟩
  | 118 => ⟨S250000, .i32⟩
  | 119 => ⟨S_, .i32⟩
  | 120 => ⟨S250000, .i32⟩
  | 121 => ⟨S250000, .i32⟩
  | 122 => ⟨S250000x1, .i32⟩
  | 123 => ⟨S250000, .i32⟩
  | 124 => ⟨S250000, .i32⟩
  | 125 => ⟨S_, .i32⟩
  | 126 => ⟨S250000, .i32⟩
  | 127 => ⟨S250000, .i32⟩
  | _ => ⟨S250000x64, .f32⟩

abbrev hbmTy0_1 (i : Nat) : BufTy := match i % 128 with
  | 0 => ⟨S250000x1, .i32⟩
  | 1 => ⟨S250000, .i32⟩
  | 2 => ⟨S250000, .i32⟩
  | 3 => ⟨S_, .f32⟩
  | 4 => ⟨S65536x64, .f32⟩
  | 5 => ⟨S250000x1, .i32⟩
  | 6 => ⟨S65536x64, .f32⟩
  | 7 => ⟨S_, .f32⟩
  | 8 => ⟨S250000x1, .f32⟩
  | 9 => ⟨S_, .f32⟩
  | 10 => ⟨S65536x1, .f32⟩
  | 11 => ⟨S250000x1, .i32⟩
  | 12 => ⟨S65536x1, .f32⟩
  | 13 => ⟨S_, .f32⟩
  | 14 => ⟨S65536x1, .f32⟩
  | 15 => ⟨S65536x1, .f32⟩
  | 16 => ⟨S65536x64, .f32⟩
  | 17 => ⟨S65536x64, .f32⟩
  | 18 => ⟨S1x64x32, .f32⟩
  | 19 => ⟨S64x32, .f32⟩
  | 20 => ⟨S65536x32, .f32⟩
  | 21 => ⟨S1x32, .f32⟩
  | 22 => ⟨S32, .f32⟩
  | 23 => ⟨S1x32, .f32⟩
  | 24 => ⟨S65536x32, .f32⟩
  | 25 => ⟨S65536x32, .f32⟩
  | 26 => ⟨S_, .f32⟩
  | 27 => ⟨S65536x32, .f32⟩
  | 28 => ⟨S65536x32, .f32⟩
  | 29 => ⟨S_, .i32⟩
  | 30 => ⟨S250000, .i32⟩
  | 31 => ⟨S250000, .i1⟩
  | 32 => ⟨S_, .i32⟩
  | 33 => ⟨S250000, .i32⟩
  | 34 => ⟨S250000, .i32⟩
  | 35 => ⟨S250000, .i32⟩
  | 36 => ⟨S250000x1, .i32⟩
  | 37 => ⟨S250000x32, .f32⟩
  | 38 => ⟨S_, .i32⟩
  | 39 => ⟨S_, .i32⟩
  | 40 => ⟨S250000x3, .i32⟩
  | 41 => ⟨S250000x3, .i32⟩
  | 42 => ⟨S250000x3, .i32⟩
  | 43 => ⟨S_, .i32⟩
  | 44 => ⟨S250000x3, .i32⟩
  | 45 => ⟨S250000x3, .i1⟩
  | 46 => ⟨S250000x3, .i32⟩
  | 47 => ⟨S250000x3, .i32⟩
  | 48 => ⟨S_, .i32⟩
  | 49 => ⟨S250000x3, .i32⟩
  | 50 => ⟨S250000x3, .i1⟩
  | 51 => ⟨S250000x3, .i1⟩
  | 52 => ⟨S_, .i32⟩
  | 53 => ⟨S250000x3, .i32⟩
  | 54 => ⟨S250000x3, .i32⟩
  | 55 => ⟨S250000x3, .i32⟩
  | 56 => ⟨S_, .i32⟩
  | 57 => ⟨S250000, .i32⟩
  | 58 => ⟨S250000, .i32⟩
  | 59 => ⟨S250000x1, .i32⟩
  | 60 => ⟨S250000, .i32⟩
  | 61 => ⟨S250000, .i32⟩
  | 62 => ⟨S_, .i32⟩
  | 63 => ⟨S250000, .i32⟩
  | 64 => ⟨S250000, .i32⟩
  | 65 => ⟨S250000x1, .i32⟩
  | 66 => ⟨S250000, .i32⟩
  | 67 => ⟨S250000, .i32⟩
  | 68 => ⟨S_, .i32⟩
  | 69 => ⟨S250000, .i32⟩
  | 70 => ⟨S250000, .i32⟩
  | 71 => ⟨S250000x1, .i32⟩
  | 72 => ⟨S250000, .i32⟩
  | 73 => ⟨S250000, .i32⟩
  | 74 => ⟨S_, .f32⟩
  | 75 => ⟨S22188x64, .f32⟩
  | 76 => ⟨S250000x1, .i32⟩
  | 77 => ⟨S22188x64, .f32⟩
  | 78 => ⟨S_, .f32⟩
  | 79 => ⟨S250000x1, .f32⟩
  | 80 => ⟨S_, .f32⟩
  | 81 => ⟨S22188x1, .f32⟩
  | 82 => ⟨S250000x1, .i32⟩
  | 83 => ⟨S22188x1, .f32⟩
  | 84 => ⟨S_, .f32⟩
  | 85 => ⟨S22188x1, .f32⟩
  | 86 => ⟨S22188x1, .f32⟩
  | 87 => ⟨S22188x64, .f32⟩
  | 88 => ⟨S22188x64, .f32⟩
  | 89 => ⟨S1x64x32, .f32⟩
  | 90 => ⟨S64x32, .f32⟩
  | 91 => ⟨S22188x32, .f32⟩
  | 92 => ⟨S1x32, .f32⟩
  | 93 => ⟨S32, .f32⟩
  | 94 => ⟨S1x32, .f32⟩
  | 95 => ⟨S22188x32, .f32⟩
  | 96 => ⟨S22188x32, .f32⟩
  | 97 => ⟨S_, .f32⟩
  | 98 => ⟨S22188x32, .f32⟩
  | 99 => ⟨S22188x32, .f32⟩
  | 100 => ⟨S_, .i32⟩
  | 101 => ⟨S250000, .i32⟩
  | 102 => ⟨S250000, .i1⟩
  | 103 => ⟨S_, .i32⟩
  | 104 => ⟨S250000, .i32⟩
  | 105 => ⟨S250000, .i32⟩
  | 106 => ⟨S250000, .i32⟩
  | 107 => ⟨S250000x1, .i32⟩
  | 108 => ⟨S250000x32, .f32⟩
  | 109 => ⟨S_, .i32⟩
  | 110 => ⟨S_, .i32⟩
  | 111 => ⟨S250000x3, .i32⟩
  | 112 => ⟨S250000x3, .i32⟩
  | 113 => ⟨S250000x3, .i32⟩
  | 114 => ⟨S_, .i32⟩
  | 115 => ⟨S250000x3, .i32⟩
  | 116 => ⟨S250000x3, .i1⟩
  | 117 => ⟨S250000x3, .i32⟩
  | 118 => ⟨S250000x3, .i32⟩
  | 119 => ⟨S_, .i32⟩
  | 120 => ⟨S250000x3, .i32⟩
  | 121 => ⟨S250000x3, .i1⟩
  | 122 => ⟨S250000x3, .i1⟩
  | 123 => ⟨S_, .i32⟩
  | 124 => ⟨S250000x3, .i32⟩
  | 125 => ⟨S250000x3, .i32⟩
  | 126 => ⟨S250000x3, .i32⟩
  | 127 => ⟨S_, .i32⟩
  | _ => ⟨S250000x64, .f32⟩

abbrev hbmTy0_2 (i : Nat) : BufTy := match i % 128 with
  | 0 => ⟨S250000, .i32⟩
  | 1 => ⟨S250000, .i32⟩
  | 2 => ⟨S250000x1, .i32⟩
  | 3 => ⟨S250000, .i32⟩
  | 4 => ⟨S250000, .i32⟩
  | 5 => ⟨S_, .i32⟩
  | 6 => ⟨S250000, .i32⟩
  | 7 => ⟨S250000, .i32⟩
  | 8 => ⟨S250000x1, .i32⟩
  | 9 => ⟨S250000, .i32⟩
  | 10 => ⟨S250000, .i32⟩
  | 11 => ⟨S_, .i32⟩
  | 12 => ⟨S250000, .i32⟩
  | 13 => ⟨S250000, .i32⟩
  | 14 => ⟨S250000x1, .i32⟩
  | 15 => ⟨S250000, .i32⟩
  | 16 => ⟨S250000, .i32⟩
  | 17 => ⟨S_, .f32⟩
  | 18 => ⟨S8192x64, .f32⟩
  | 19 => ⟨S250000x1, .i32⟩
  | 20 => ⟨S8192x64, .f32⟩
  | 21 => ⟨S_, .f32⟩
  | 22 => ⟨S250000x1, .f32⟩
  | 23 => ⟨S_, .f32⟩
  | 24 => ⟨S8192x1, .f32⟩
  | 25 => ⟨S250000x1, .i32⟩
  | 26 => ⟨S8192x1, .f32⟩
  | 27 => ⟨S_, .f32⟩
  | 28 => ⟨S8192x1, .f32⟩
  | 29 => ⟨S8192x1, .f32⟩
  | 30 => ⟨S8192x64, .f32⟩
  | 31 => ⟨S8192x64, .f32⟩
  | 32 => ⟨S1x64x32, .f32⟩
  | 33 => ⟨S64x32, .f32⟩
  | 34 => ⟨S8192x32, .f32⟩
  | 35 => ⟨S1x32, .f32⟩
  | 36 => ⟨S32, .f32⟩
  | 37 => ⟨S1x32, .f32⟩
  | 38 => ⟨S8192x32, .f32⟩
  | 39 => ⟨S8192x32, .f32⟩
  | 40 => ⟨S_, .f32⟩
  | 41 => ⟨S8192x32, .f32⟩
  | 42 => ⟨S8192x32, .f32⟩
  | 43 => ⟨S_, .i32⟩
  | 44 => ⟨S250000, .i32⟩
  | 45 => ⟨S250000, .i1⟩
  | 46 => ⟨S_, .i32⟩
  | 47 => ⟨S250000, .i32⟩
  | 48 => ⟨S250000, .i32⟩
  | 49 => ⟨S250000, .i32⟩
  | 50 => ⟨S250000x1, .i32⟩
  | 51 => ⟨S250000x32, .f32⟩
  | 52 => ⟨S250000x1x32, .f32⟩
  | 53 => ⟨S250000x1x32, .f32⟩
  | 54 => ⟨S250000x1x32, .f32⟩
  | 55 => ⟨S250000x1x32, .f32⟩
  | 56 => ⟨S250000x4x32, .f32⟩
  | 57 => ⟨S_, .f32⟩
  | 58 => ⟨S250000x32, .f32⟩
  | 59 => ⟨S250000x32, .f32⟩
  | 60 => ⟨S_, .f32⟩
  | 61 => ⟨S250000x32, .f32⟩
  | 62 => ⟨S250000x32, .f32⟩
  | 63 => ⟨S1x32x32, .f32⟩
  | 64 => ⟨S32x32, .f32⟩
  | 65 => ⟨S250000x32, .f32⟩
  | 66 => ⟨S1x32, .f32⟩
  | 67 => ⟨S32, .f32⟩
  | 68 => ⟨S1x32, .f32⟩
  | 69 => ⟨S250000x32, .f32⟩
  | 70 => ⟨S250000x32, .f32⟩
  | 71 => ⟨S1x32x32, .f32⟩
  | 72 => ⟨S32x32, .f32⟩
  | 73 => ⟨S250000x32, .f32⟩
  | 74 => ⟨S1x32, .f32⟩
  | 75 => ⟨S32, .f32⟩
  | 76 => ⟨S1x32, .f32⟩
  | 77 => ⟨S250000x32, .f32⟩
  | 78 => ⟨S250000x32, .f32⟩
  | 79 => ⟨S1x32x32, .f32⟩
  | 80 => ⟨S32x32, .f32⟩
  | 81 => ⟨S250000x32, .f32⟩
  | 82 => ⟨S1x32, .f32⟩
  | 83 => ⟨S32, .f32⟩
  | 84 => ⟨S1x32, .f32⟩
  | 85 => ⟨S250000x32, .f32⟩
  | 86 => ⟨S250000x32, .f32⟩
  | 87 => ⟨S1x32x32, .f32⟩
  | 88 => ⟨S32x32, .f32⟩
  | 89 => ⟨S250000x32, .f32⟩
  | 90 => ⟨S1x32, .f32⟩
  | 91 => ⟨S32, .f32⟩
  | 92 => ⟨S1x32, .f32⟩
  | 93 => ⟨S250000x32, .f32⟩
  | 94 => ⟨S250000x32, .f32⟩
  | 95 => ⟨S250000x1x32, .f32⟩
  | 96 => ⟨S250000x1x32, .f32⟩
  | 97 => ⟨S250000x1x32, .f32⟩
  | 98 => ⟨S250000x1x32, .f32⟩
  | 99 => ⟨S250000x4x32, .f32⟩
  | 100 => ⟨S250000x4x32, .f32⟩
  | 101 => ⟨S250000x4x32, .f32⟩
  | 102 => ⟨S_, .f32⟩
  | 103 => ⟨S250000x4x32, .f32⟩
  | 104 => ⟨S250000x4x32, .f32⟩
  | 105 => ⟨S_, .f32⟩
  | 106 => ⟨S250000x4x32, .f32⟩
  | 107 => ⟨S250000x4x32, .f32⟩
  | 108 => ⟨S250000x4x32, .f32⟩
  | 109 => ⟨S_, .f32⟩
  | 110 => ⟨S250000x32, .f32⟩
  | 111 => ⟨S250000x64, .f32⟩
  | 112 => ⟨S250000x128, .f32⟩
  | 113 => ⟨S250000x64, .f32⟩
  | 114 => ⟨S_, .f32⟩
  | 115 => ⟨S250000x64, .f32⟩
  | 116 => ⟨S250000x64, .f32⟩
  | 117 => ⟨S250000x64, .f32⟩
  | 118 => ⟨S1x64, .f32⟩
  | 119 => ⟨S250000x64, .f32⟩
  | 120 => ⟨S250000x64, .f32⟩
  | 121 => ⟨S_, .i32⟩
  | 122 => ⟨S250000, .i32⟩
  | 123 => ⟨S250000, .i1⟩
  | 124 => ⟨S_, .i32⟩
  | 125 => ⟨S250000, .i32⟩
  | 126 => ⟨S250000, .i32⟩
  | 127 => ⟨S250000, .i32⟩
  | _ => ⟨S250000x64, .f32⟩

abbrev hbmTy0_3 (i : Nat) : BufTy := match i % 128 with
  | 0 => ⟨S250000x1, .i32⟩
  | 1 => ⟨S250000x64, .f32⟩
  | _ => ⟨S250000x64, .f32⟩

abbrev hbmTy (i : Nat) : BufTy := match i / 128 with
  | 0 => hbmTy0_0 i
  | 1 => hbmTy0_1 i
  | 2 => hbmTy0_2 i
  | 3 => hbmTy0_3 i
  | _ => ⟨S250000x64, .f32⟩

abbrev bufTy : (tb : Table) → Fin (tcTables nBuf tb) → BufTy
  | .hbm, ⟨i, _⟩ => hbmTy i
  | _, _ => ⟨S250000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v8 : Ref sig .tc := ⟨.hbm, 41, rfl⟩
abbrev main_c_0 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_c_1 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_c_2 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_cst : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst_3 : Ref sig .tc := ⟨.hbm, 64, rfl⟩
abbrev main_v27 : Ref sig .tc := ⟨.hbm, 65, rfl⟩
abbrev main_cst_4 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_5 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_call2_cst : Ref sig .tc := ⟨.hbm, 83, rfl⟩
abbrev main_call2_v0 : Ref sig .tc := ⟨.hbm, 84, rfl⟩
abbrev main_v43 : Ref sig .tc := ⟨.hbm, 85, rfl⟩
abbrev main_c_6 : Ref sig .tc := ⟨.hbm, 86, rfl⟩
abbrev main_v44 : Ref sig .tc := ⟨.hbm, 87, rfl⟩
abbrev main_v45 : Ref sig .tc := ⟨.hbm, 88, rfl⟩
abbrev main_c_7 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_c_8 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_c : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_0 : Ref sig .tc := ⟨.hbm, 109, rfl⟩
abbrev main_call3_v12 : Ref sig .tc := ⟨.hbm, 110, rfl⟩
abbrev main_call3_v13 : Ref sig .tc := ⟨.hbm, 111, rfl⟩
abbrev main_v51 : Ref sig .tc := ⟨.hbm, 112, rfl⟩
abbrev main_c_9 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_c_10 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_c_11 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_cst_12 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_cst_13 : Ref sig .tc := ⟨.hbm, 135, rfl⟩
abbrev main_v70 : Ref sig .tc := ⟨.hbm, 136, rfl⟩
abbrev main_cst_14 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_cst_15 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_call4_cst : Ref sig .tc := ⟨.hbm, 154, rfl⟩
abbrev main_call4_v0 : Ref sig .tc := ⟨.hbm, 155, rfl⟩
abbrev main_v86 : Ref sig .tc := ⟨.hbm, 156, rfl⟩
abbrev main_c_16 : Ref sig .tc := ⟨.hbm, 157, rfl⟩
abbrev main_v87 : Ref sig .tc := ⟨.hbm, 158, rfl⟩
abbrev main_v88 : Ref sig .tc := ⟨.hbm, 159, rfl⟩
abbrev main_c_17 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_c_18 : Ref sig .tc := ⟨.hbm, 166, rfl⟩
abbrev main_call5_v0 : Ref sig .tc := ⟨.hbm, 167, rfl⟩
abbrev main_call5_v1 : Ref sig .tc := ⟨.hbm, 168, rfl⟩
abbrev main_call5_v2 : Ref sig .tc := ⟨.hbm, 169, rfl⟩
abbrev main_call5_v3 : Ref sig .tc := ⟨.hbm, 170, rfl⟩
abbrev main_call5_v4 : Ref sig .tc := ⟨.hbm, 171, rfl⟩
abbrev main_call5_v5 : Ref sig .tc := ⟨.hbm, 172, rfl⟩
abbrev main_call5_v6 : Ref sig .tc := ⟨.hbm, 173, rfl⟩
abbrev main_call5_v7 : Ref sig .tc := ⟨.hbm, 174, rfl⟩
abbrev main_call5_v8 : Ref sig .tc := ⟨.hbm, 175, rfl⟩
abbrev main_call5_c : Ref sig .tc := ⟨.hbm, 176, rfl⟩
abbrev main_call5_v9 : Ref sig .tc := ⟨.hbm, 177, rfl⟩
abbrev main_call5_v10 : Ref sig .tc := ⟨.hbm, 178, rfl⟩
abbrev main_call5_v11 : Ref sig .tc := ⟨.hbm, 179, rfl⟩
abbrev main_call5_c_0 : Ref sig .tc := ⟨.hbm, 180, rfl⟩
abbrev main_call5_v12 : Ref sig .tc := ⟨.hbm, 181, rfl⟩
abbrev main_call5_v13 : Ref sig .tc := ⟨.hbm, 182, rfl⟩
abbrev main_v94 : Ref sig .tc := ⟨.hbm, 183, rfl⟩
abbrev main_c_19 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_c_20 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_c_21 : Ref sig .tc := ⟨.hbm, 196, rfl⟩
abbrev main_v105 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_v109 : Ref sig .tc := ⟨.hbm, 201, rfl⟩
abbrev main_cst_22 : Ref sig .tc := ⟨.hbm, 202, rfl⟩
abbrev main_v110 : Ref sig .tc := ⟨.hbm, 203, rfl⟩
abbrev main_v111 : Ref sig .tc := ⟨.hbm, 204, rfl⟩
abbrev main_v112 : Ref sig .tc := ⟨.hbm, 205, rfl⟩
abbrev main_cst_23 : Ref sig .tc := ⟨.hbm, 206, rfl⟩
abbrev main_v113 : Ref sig .tc := ⟨.hbm, 207, rfl⟩
abbrev main_cst_24 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_cst_25 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_call6_cst : Ref sig .tc := ⟨.hbm, 225, rfl⟩
abbrev main_call6_v0 : Ref sig .tc := ⟨.hbm, 226, rfl⟩
abbrev main_v129 : Ref sig .tc := ⟨.hbm, 227, rfl⟩
abbrev main_c_26 : Ref sig .tc := ⟨.hbm, 228, rfl⟩
abbrev main_v130 : Ref sig .tc := ⟨.hbm, 229, rfl⟩
abbrev main_v131 : Ref sig .tc := ⟨.hbm, 230, rfl⟩
abbrev main_c_27 : Ref sig .tc := ⟨.hbm, 231, rfl⟩
abbrev main_v132 : Ref sig .tc := ⟨.hbm, 232, rfl⟩
abbrev main_v133 : Ref sig .tc := ⟨.hbm, 233, rfl⟩
abbrev main_v134 : Ref sig .tc := ⟨.hbm, 234, rfl⟩
abbrev main_v135 : Ref sig .tc := ⟨.hbm, 235, rfl⟩
abbrev main_v136 : Ref sig .tc := ⟨.hbm, 236, rfl⟩
abbrev main_c_28 : Ref sig .tc := ⟨.hbm, 237, rfl⟩
abbrev main_call7_v0 : Ref sig .tc := ⟨.hbm, 238, rfl⟩
abbrev main_call7_v1 : Ref sig .tc := ⟨.hbm, 239, rfl⟩
abbrev main_call7_v2 : Ref sig .tc := ⟨.hbm, 240, rfl⟩
abbrev main_call7_v3 : Ref sig .tc := ⟨.hbm, 241, rfl⟩
abbrev main_call7_v4 : Ref sig .tc := ⟨.hbm, 242, rfl⟩
abbrev main_call7_v5 : Ref sig .tc := ⟨.hbm, 243, rfl⟩
abbrev main_call7_v6 : Ref sig .tc := ⟨.hbm, 244, rfl⟩
abbrev main_call7_v7 : Ref sig .tc := ⟨.hbm, 245, rfl⟩
abbrev main_call7_v8 : Ref sig .tc := ⟨.hbm, 246, rfl⟩
abbrev main_call7_c : Ref sig .tc := ⟨.hbm, 247, rfl⟩
abbrev main_call7_v9 : Ref sig .tc := ⟨.hbm, 248, rfl⟩
abbrev main_call7_v10 : Ref sig .tc := ⟨.hbm, 249, rfl⟩
abbrev main_call7_v11 : Ref sig .tc := ⟨.hbm, 250, rfl⟩
abbrev main_call7_c_0 : Ref sig .tc := ⟨.hbm, 251, rfl⟩
abbrev main_call7_v12 : Ref sig .tc := ⟨.hbm, 252, rfl⟩
abbrev main_call7_v13 : Ref sig .tc := ⟨.hbm, 253, rfl⟩
abbrev main_v137 : Ref sig .tc := ⟨.hbm, 254, rfl⟩
abbrev main_c_29 : Ref sig .tc := ⟨.hbm, 255, rfl⟩
abbrev main_v138 : Ref sig .tc := ⟨.hbm, 256, rfl⟩
abbrev main_v139 : Ref sig .tc := ⟨.hbm, 257, rfl⟩
abbrev main_v140 : Ref sig .tc := ⟨.hbm, 258, rfl⟩
abbrev main_v141 : Ref sig .tc := ⟨.hbm, 259, rfl⟩
abbrev main_v142 : Ref sig .tc := ⟨.hbm, 260, rfl⟩
abbrev main_c_30 : Ref sig .tc := ⟨.hbm, 261, rfl⟩
abbrev main_v143 : Ref sig .tc := ⟨.hbm, 262, rfl⟩
abbrev main_v144 : Ref sig .tc := ⟨.hbm, 263, rfl⟩
abbrev main_v145 : Ref sig .tc := ⟨.hbm, 264, rfl⟩
abbrev main_v146 : Ref sig .tc := ⟨.hbm, 265, rfl⟩
abbrev main_v147 : Ref sig .tc := ⟨.hbm, 266, rfl⟩
abbrev main_c_31 : Ref sig .tc := ⟨.hbm, 267, rfl⟩
abbrev main_v148 : Ref sig .tc := ⟨.hbm, 268, rfl⟩
abbrev main_v149 : Ref sig .tc := ⟨.hbm, 269, rfl⟩
abbrev main_v150 : Ref sig .tc := ⟨.hbm, 270, rfl⟩
abbrev main_v151 : Ref sig .tc := ⟨.hbm, 271, rfl⟩
abbrev main_v152 : Ref sig .tc := ⟨.hbm, 272, rfl⟩
abbrev main_cst_32 : Ref sig .tc := ⟨.hbm, 273, rfl⟩
abbrev main_v153 : Ref sig .tc := ⟨.hbm, 274, rfl⟩
abbrev main_v154 : Ref sig .tc := ⟨.hbm, 275, rfl⟩
abbrev main_v155 : Ref sig .tc := ⟨.hbm, 276, rfl⟩
abbrev main_cst_33 : Ref sig .tc := ⟨.hbm, 277, rfl⟩
abbrev main_v156 : Ref sig .tc := ⟨.hbm, 278, rfl⟩
abbrev main_cst_34 : Ref sig .tc := ⟨.hbm, 279, rfl⟩
abbrev main_v157 : Ref sig .tc := ⟨.hbm, 280, rfl⟩
abbrev main_v158 : Ref sig .tc := ⟨.hbm, 281, rfl⟩
abbrev main_v159 : Ref sig .tc := ⟨.hbm, 282, rfl⟩
abbrev main_cst_35 : Ref sig .tc := ⟨.hbm, 283, rfl⟩
abbrev main_v160 : Ref sig .tc := ⟨.hbm, 284, rfl⟩
abbrev main_v161 : Ref sig .tc := ⟨.hbm, 285, rfl⟩
abbrev main_v162 : Ref sig .tc := ⟨.hbm, 286, rfl⟩
abbrev main_v163 : Ref sig .tc := ⟨.hbm, 287, rfl⟩
abbrev main_v164 : Ref sig .tc := ⟨.hbm, 288, rfl⟩
abbrev main_v165 : Ref sig .tc := ⟨.hbm, 289, rfl⟩
abbrev main_v166 : Ref sig .tc := ⟨.hbm, 290, rfl⟩
abbrev main_v167 : Ref sig .tc := ⟨.hbm, 291, rfl⟩
abbrev main_v168 : Ref sig .tc := ⟨.hbm, 292, rfl⟩
abbrev main_v169 : Ref sig .tc := ⟨.hbm, 293, rfl⟩
abbrev main_v170 : Ref sig .tc := ⟨.hbm, 294, rfl⟩
abbrev main_v171 : Ref sig .tc := ⟨.hbm, 295, rfl⟩
abbrev main_call8_cst : Ref sig .tc := ⟨.hbm, 296, rfl⟩
abbrev main_call8_v0 : Ref sig .tc := ⟨.hbm, 297, rfl⟩
abbrev main_v172 : Ref sig .tc := ⟨.hbm, 298, rfl⟩
abbrev main_c_36 : Ref sig .tc := ⟨.hbm, 299, rfl⟩
abbrev main_v173 : Ref sig .tc := ⟨.hbm, 300, rfl⟩
abbrev main_v174 : Ref sig .tc := ⟨.hbm, 301, rfl⟩
abbrev main_c_37 : Ref sig .tc := ⟨.hbm, 302, rfl⟩
abbrev main_v175 : Ref sig .tc := ⟨.hbm, 303, rfl⟩
abbrev main_v176 : Ref sig .tc := ⟨.hbm, 304, rfl⟩
abbrev main_v177 : Ref sig .tc := ⟨.hbm, 305, rfl⟩
abbrev main_v178 : Ref sig .tc := ⟨.hbm, 306, rfl⟩
abbrev main_v179 : Ref sig .tc := ⟨.hbm, 307, rfl⟩
abbrev main_v180 : Ref sig .tc := ⟨.hbm, 308, rfl⟩
abbrev main_v181 : Ref sig .tc := ⟨.hbm, 309, rfl⟩
abbrev main_v182 : Ref sig .tc := ⟨.hbm, 310, rfl⟩
abbrev main_v183 : Ref sig .tc := ⟨.hbm, 311, rfl⟩
abbrev main_v184 : Ref sig .tc := ⟨.hbm, 312, rfl⟩
abbrev main_cst_38 : Ref sig .tc := ⟨.hbm, 313, rfl⟩
abbrev main_v185 : Ref sig .tc := ⟨.hbm, 314, rfl⟩
abbrev main_v186 : Ref sig .tc := ⟨.hbm, 315, rfl⟩
abbrev main_call9_cst : Ref sig .tc := ⟨.hbm, 316, rfl⟩
abbrev main_call9_v0 : Ref sig .tc := ⟨.hbm, 317, rfl⟩
abbrev main_v187 : Ref sig .tc := ⟨.hbm, 318, rfl⟩
abbrev main_v188 : Ref sig .tc := ⟨.hbm, 319, rfl⟩
abbrev main_v189 : Ref sig .tc := ⟨.hbm, 320, rfl⟩
abbrev main_v190 : Ref sig .tc := ⟨.hbm, 321, rfl⟩
abbrev main_v191 : Ref sig .tc := ⟨.hbm, 322, rfl⟩
abbrev main_v192 : Ref sig .tc := ⟨.hbm, 323, rfl⟩
abbrev main_v193 : Ref sig .tc := ⟨.hbm, 324, rfl⟩
abbrev main_v194 : Ref sig .tc := ⟨.hbm, 325, rfl⟩
abbrev main_v195 : Ref sig .tc := ⟨.hbm, 326, rfl⟩
abbrev main_v196 : Ref sig .tc := ⟨.hbm, 327, rfl⟩
abbrev main_v197 : Ref sig .tc := ⟨.hbm, 328, rfl⟩
abbrev main_v198 : Ref sig .tc := ⟨.hbm, 329, rfl⟩
abbrev main_v199 : Ref sig .tc := ⟨.hbm, 330, rfl⟩
abbrev main_v200 : Ref sig .tc := ⟨.hbm, 331, rfl⟩
abbrev main_v201 : Ref sig .tc := ⟨.hbm, 332, rfl⟩
abbrev main_v202 : Ref sig .tc := ⟨.hbm, 333, rfl⟩
abbrev main_v203 : Ref sig .tc := ⟨.hbm, 334, rfl⟩
abbrev main_v204 : Ref sig .tc := ⟨.hbm, 335, rfl⟩
abbrev main_v205 : Ref sig .tc := ⟨.hbm, 336, rfl⟩
abbrev main_v206 : Ref sig .tc := ⟨.hbm, 337, rfl⟩
abbrev main_v207 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_v211 : Ref sig .tc := ⟨.hbm, 342, rfl⟩
abbrev main_v212 : Ref sig .tc := ⟨.hbm, 343, rfl⟩
abbrev main_v213 : Ref sig .tc := ⟨.hbm, 344, rfl⟩
abbrev main_v214 : Ref sig .tc := ⟨.hbm, 345, rfl⟩
abbrev main_v215 : Ref sig .tc := ⟨.hbm, 346, rfl⟩
abbrev main_v216 : Ref sig .tc := ⟨.hbm, 347, rfl⟩
abbrev main_v217 : Ref sig .tc := ⟨.hbm, 348, rfl⟩
abbrev main_v218 : Ref sig .tc := ⟨.hbm, 349, rfl⟩
abbrev main_v219 : Ref sig .tc := ⟨.hbm, 350, rfl⟩
abbrev main_v220 : Ref sig .tc := ⟨.hbm, 351, rfl⟩
abbrev main_v221 : Ref sig .tc := ⟨.hbm, 352, rfl⟩
abbrev main_v222 : Ref sig .tc := ⟨.hbm, 353, rfl⟩
abbrev main_v223 : Ref sig .tc := ⟨.hbm, 354, rfl⟩
abbrev main_v224 : Ref sig .tc := ⟨.hbm, 355, rfl⟩
abbrev main_v225 : Ref sig .tc := ⟨.hbm, 356, rfl⟩
abbrev main_v226 : Ref sig .tc := ⟨.hbm, 357, rfl⟩
abbrev main_cst_39 : Ref sig .tc := ⟨.hbm, 358, rfl⟩
abbrev main_v227 : Ref sig .tc := ⟨.hbm, 359, rfl⟩
abbrev main_v228 : Ref sig .tc := ⟨.hbm, 360, rfl⟩
abbrev main_cst_40 : Ref sig .tc := ⟨.hbm, 361, rfl⟩
abbrev main_v229 : Ref sig .tc := ⟨.hbm, 362, rfl⟩
abbrev main_v230 : Ref sig .tc := ⟨.hbm, 363, rfl⟩
abbrev main_v231 : Ref sig .tc := ⟨.hbm, 364, rfl⟩
abbrev main_cst_41 : Ref sig .tc := ⟨.hbm, 365, rfl⟩
abbrev main_v232 : Ref sig .tc := ⟨.hbm, 366, rfl⟩
abbrev main_v233 : Ref sig .tc := ⟨.hbm, 367, rfl⟩
abbrev main_v234 : Ref sig .tc := ⟨.hbm, 368, rfl⟩
abbrev main_v235 : Ref sig .tc := ⟨.hbm, 369, rfl⟩
abbrev main_call10_cst : Ref sig .tc := ⟨.hbm, 370, rfl⟩
abbrev main_call10_v0 : Ref sig .tc := ⟨.hbm, 371, rfl⟩
abbrev main_v236 : Ref sig .tc := ⟨.hbm, 372, rfl⟩
abbrev main_v237 : Ref sig .tc := ⟨.hbm, 373, rfl⟩
abbrev main_v238 : Ref sig .tc := ⟨.hbm, 374, rfl⟩
abbrev main_v239 : Ref sig .tc := ⟨.hbm, 375, rfl⟩
abbrev main_v240 : Ref sig .tc := ⟨.hbm, 376, rfl⟩
abbrev main_c_42 : Ref sig .tc := ⟨.hbm, 377, rfl⟩
abbrev main_v241 : Ref sig .tc := ⟨.hbm, 378, rfl⟩
abbrev main_v242 : Ref sig .tc := ⟨.hbm, 379, rfl⟩
abbrev main_c_43 : Ref sig .tc := ⟨.hbm, 380, rfl⟩
abbrev main_v243 : Ref sig .tc := ⟨.hbm, 381, rfl⟩
abbrev main_v244 : Ref sig .tc := ⟨.hbm, 382, rfl⟩
abbrev main_v245 : Ref sig .tc := ⟨.hbm, 383, rfl⟩
abbrev main_v246 : Ref sig .tc := ⟨.hbm, 384, rfl⟩
abbrev main_v247 : Ref sig .tc := ⟨.hbm, 385, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S250000x64_0_1 : S1x64.BroadcastsInDim S250000x64 (![0, 1] : Fin 2 → Fin S250000x64.rank)
  bcast_S_S250000x64 : S_.BroadcastsInDim S250000x64 (![] : Fin 0 → Fin S250000x64.rank)
  slices_S250000x4_S250000x1_0_0 : S250000x4.Slices ![0, 0] S250000x1
  shapeCasts_S250000x1_S250000 : S250000x1.ShapeCasts S250000
  slices_S250000x4_S250000x3_0_1 : S250000x4.Slices ![0, 1] S250000x3
  bcast_S_S250000x3 : S_.BroadcastsInDim S250000x3 (![] : Fin 0 → Fin S250000x3.rank)
  bcast_S_S250000 : S_.BroadcastsInDim S250000 (![] : Fin 0 → Fin S250000.rank)
  slices_S250000x3_S250000x1_0_0 : S250000x3.Slices ![0, 0] S250000x1
  slices_S250000x3_S250000x1_0_1 : S250000x3.Slices ![0, 1] S250000x1
  slices_S250000x3_S250000x1_0_2 : S250000x3.Slices ![0, 2] S250000x1
  bcast_S_S524288x64 : S_.BroadcastsInDim S524288x64 (![] : Fin 0 → Fin S524288x64.rank)
  bcast_S250000_S250000x1_0 : S250000.BroadcastsInDim S250000x1 (![0] : Fin 1 → Fin S250000x1.rank)
  bcast_S_S250000x1 : S_.BroadcastsInDim S250000x1 (![] : Fin 0 → Fin S250000x1.rank)
  bcast_S_S524288x1 : S_.BroadcastsInDim S524288x1 (![] : Fin 0 → Fin S524288x1.rank)
  bcast_S524288x1_S524288x64_0_1 : S524288x1.BroadcastsInDim S524288x64 (![0, 1] : Fin 2 → Fin S524288x64.rank)
  slices_S4x64x32_S1x64x32_0_0_0 : S4x64x32.Slices ![0, 0, 0] S1x64x32
  shapeCasts_S1x64x32_S64x32 : S1x64x32.ShapeCasts S64x32
  slices_S4x32_S1x32_0_0 : S4x32.Slices ![0, 0] S1x32
  shapeCasts_S1x32_S32 : S1x32.ShapeCasts S32
  bcast_S32_S1x32_1 : S32.BroadcastsInDim S1x32 (![1] : Fin 1 → Fin S1x32.rank)
  bcast_S1x32_S524288x32_0_1 : S1x32.BroadcastsInDim S524288x32 (![0, 1] : Fin 2 → Fin S524288x32.rank)
  bcast_S_S524288x32 : S_.BroadcastsInDim S524288x32 (![] : Fin 0 → Fin S524288x32.rank)
  bcast_S_S65536x64 : S_.BroadcastsInDim S65536x64 (![] : Fin 0 → Fin S65536x64.rank)
  bcast_S_S65536x1 : S_.BroadcastsInDim S65536x1 (![] : Fin 0 → Fin S65536x1.rank)
  bcast_S65536x1_S65536x64_0_1 : S65536x1.BroadcastsInDim S65536x64 (![0, 1] : Fin 2 → Fin S65536x64.rank)
  slices_S4x64x32_S1x64x32_1_0_0 : S4x64x32.Slices ![1, 0, 0] S1x64x32
  slices_S4x32_S1x32_1_0 : S4x32.Slices ![1, 0] S1x32
  bcast_S1x32_S65536x32_0_1 : S1x32.BroadcastsInDim S65536x32 (![0, 1] : Fin 2 → Fin S65536x32.rank)
  bcast_S_S65536x32 : S_.BroadcastsInDim S65536x32 (![] : Fin 0 → Fin S65536x32.rank)
  bcast_S_S22188x64 : S_.BroadcastsInDim S22188x64 (![] : Fin 0 → Fin S22188x64.rank)
  bcast_S_S22188x1 : S_.BroadcastsInDim S22188x1 (![] : Fin 0 → Fin S22188x1.rank)
  bcast_S22188x1_S22188x64_0_1 : S22188x1.BroadcastsInDim S22188x64 (![0, 1] : Fin 2 → Fin S22188x64.rank)
  slices_S4x64x32_S1x64x32_2_0_0 : S4x64x32.Slices ![2, 0, 0] S1x64x32
  slices_S4x32_S1x32_2_0 : S4x32.Slices ![2, 0] S1x32
  bcast_S1x32_S22188x32_0_1 : S1x32.BroadcastsInDim S22188x32 (![0, 1] : Fin 2 → Fin S22188x32.rank)
  bcast_S_S22188x32 : S_.BroadcastsInDim S22188x32 (![] : Fin 0 → Fin S22188x32.rank)
  bcast_S_S8192x64 : S_.BroadcastsInDim S8192x64 (![] : Fin 0 → Fin S8192x64.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  slices_S4x64x32_S1x64x32_3_0_0 : S4x64x32.Slices ![3, 0, 0] S1x64x32
  slices_S4x32_S1x32_3_0 : S4x32.Slices ![3, 0] S1x32
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  bcast_S250000x32_S250000x1x32_0_2 : S250000x32.BroadcastsInDim S250000x1x32 (![0, 2] : Fin 2 → Fin S250000x1x32.rank)
  concatenates_S250000x1x32_S250000x1x32_S250000x1x32_S250000x1x32_S250000x4x32_d1 : Shape.Concatenates [S250000x1x32, S250000x1x32, S250000x1x32, S250000x1x32] S250000x4x32 1
  reducesTo_S250000x4x32_S250000x32_d1 : S250000x4x32.ReducesTo [1] S250000x32
  h_S_ : 0 < S_.numel
  bcast_S_S250000x32 : S_.BroadcastsInDim S250000x32 (![] : Fin 0 → Fin S250000x32.rank)
  slices_S4x32x32_S1x32x32_0_0_0 : S4x32x32.Slices ![0, 0, 0] S1x32x32
  shapeCasts_S1x32x32_S32x32 : S1x32x32.ShapeCasts S32x32
  bcast_S1x32_S250000x32_0_1 : S1x32.BroadcastsInDim S250000x32 (![0, 1] : Fin 2 → Fin S250000x32.rank)
  slices_S4x32x32_S1x32x32_1_0_0 : S4x32x32.Slices ![1, 0, 0] S1x32x32
  slices_S4x32x32_S1x32x32_2_0_0 : S4x32x32.Slices ![2, 0, 0] S1x32x32
  slices_S4x32x32_S1x32x32_3_0_0 : S4x32x32.Slices ![3, 0, 0] S1x32x32
  bcast_S_S250000x4x32 : S_.BroadcastsInDim S250000x4x32 (![] : Fin 0 → Fin S250000x4x32.rank)
  concatenates_S250000x64_S250000x64_S250000x128_d1 : Shape.Concatenates [S250000x64, S250000x64] S250000x128 1
  dot_S250000x64_S64x64_S250000x64_1_0_0_1_n_n_wf : DotDims.WF S250000x64 S64x64 S250000x64 [1] [0] [0] [1] [] []
  scatter_S524288x64_S250000x1_S250000x64_1_0_0_1_wf : ScatterDims.WF S524288x64 S250000x1 S250000x64 [1] [0] [0] 1
  scatter_S524288x1_S250000x1_S250000x1_1_0_0_1_wf : ScatterDims.WF S524288x1 S250000x1 S250000x1 [1] [0] [0] 1
  dot_S524288x64_S64x32_S524288x32_1_0_0_1_n_n_wf : DotDims.WF S524288x64 S64x32 S524288x32 [1] [0] [0] [1] [] []
  gather_S524288x32_S250000x1_S250000x32_1_0_n_n_0_1_132_wf : GatherDims.WF S524288x32 S250000x1 S250000x32 [1] [0] [] [0] [] 1 ![1, 32]
  scatter_S65536x64_S250000x1_S250000x64_1_0_0_1_wf : ScatterDims.WF S65536x64 S250000x1 S250000x64 [1] [0] [0] 1
  scatter_S65536x1_S250000x1_S250000x1_1_0_0_1_wf : ScatterDims.WF S65536x1 S250000x1 S250000x1 [1] [0] [0] 1
  dot_S65536x64_S64x32_S65536x32_1_0_0_1_n_n_wf : DotDims.WF S65536x64 S64x32 S65536x32 [1] [0] [0] [1] [] []
  gather_S65536x32_S250000x1_S250000x32_1_0_n_n_0_1_132_wf : GatherDims.WF S65536x32 S250000x1 S250000x32 [1] [0] [] [0] [] 1 ![1, 32]
  scatter_S22188x64_S250000x1_S250000x64_1_0_0_1_wf : ScatterDims.WF S22188x64 S250000x1 S250000x64 [1] [0] [0] 1
  scatter_S22188x1_S250000x1_S250000x1_1_0_0_1_wf : ScatterDims.WF S22188x1 S250000x1 S250000x1 [1] [0] [0] 1
  dot_S22188x64_S64x32_S22188x32_1_0_0_1_n_n_wf : DotDims.WF S22188x64 S64x32 S22188x32 [1] [0] [0] [1] [] []
  gather_S22188x32_S250000x1_S250000x32_1_0_n_n_0_1_132_wf : GatherDims.WF S22188x32 S250000x1 S250000x32 [1] [0] [] [0] [] 1 ![1, 32]
  scatter_S8192x64_S250000x1_S250000x64_1_0_0_1_wf : ScatterDims.WF S8192x64 S250000x1 S250000x64 [1] [0] [0] 1
  scatter_S8192x1_S250000x1_S250000x1_1_0_0_1_wf : ScatterDims.WF S8192x1 S250000x1 S250000x1 [1] [0] [0] 1
  dot_S8192x64_S64x32_S8192x32_1_0_0_1_n_n_wf : DotDims.WF S8192x64 S64x32 S8192x32 [1] [0] [0] [1] [] []
  gather_S8192x32_S250000x1_S250000x32_1_0_n_n_0_1_132_wf : GatherDims.WF S8192x32 S250000x1 S250000x32 [1] [0] [] [0] [] 1 ![1, 32]
  dot_S250000x32_S32x32_S250000x32_1_0_0_1_n_n_wf : DotDims.WF S250000x32 S32x32 S250000x32 [1] [0] [0] [1] [] []
  dot_S250000x32_S32x64_S250000x64_1_0_0_1_n_n_wf : DotDims.WF S250000x32 S32x64 S250000x64 [1] [0] [0] [1] [] []
  dot_S250000x128_S128x64_S250000x64_1_0_0_1_n_n_wf : DotDims.WF S250000x128 S128x64 S250000x64 [1] [0] [0] [1] [] []
  gather_S250000x64_S250000x1_S250000x64_1_0_n_n_0_1_164_wf : GatherDims.WF S250000x64 S250000x1 S250000x64 [1] [0] [] [0] [] 1 ![1, 64]

variable [Facts₀]

def dot_S250000x64_S64x64_S250000x64_1_0_0_1_n_n : DotDims S250000x64 S64x64 S250000x64 where
  lhsContracting := [1]
  rhsContracting := [0]
  lhsNonContracting := [0]
  rhsNonContracting := [1]
  lhsBatch := []
  rhsBatch := []
  wf := dot_S250000x64_S64x64_S250000x64_1_0_0_1_n_n_wf
def scatter_S524288x64_S250000x1_S250000x64_1_0_0_1 : ScatterDims S524288x64 S250000x1 S250000x64 where
  updateWindowDims := [1]
  insertedWindowDims := [0]
  scatterDimsToOperandDims := [0]
  indexVectorDim := 1
  wf := scatter_S524288x64_S250000x1_S250000x64_1_0_0_1_wf
def scatter_S524288x1_S250000x1_S250000x1_1_0_0_1 : ScatterDims S524288x1 S250000x1 S250000x1 where
  updateWindowDims := [1]
  insertedWindowDims := [0]
  scatterDimsToOperandDims := [0]
  indexVectorDim := 1
  wf := scatter_S524288x1_S250000x1_S250000x1_1_0_0_1_wf
def dot_S524288x64_S64x32_S524288x32_1_0_0_1_n_n : DotDims S524288x64 S64x32 S524288x32 where
  lhsContracting := [1]
  rhsContracting := [0]
  lhsNonContracting := [0]
  rhsNonContracting := [1]
  lhsBatch := []
  rhsBatch := []
  wf := dot_S524288x64_S64x32_S524288x32_1_0_0_1_n_n_wf
def gather_S524288x32_S250000x1_S250000x32_1_0_n_n_0_1_132 : GatherDims S524288x32 S250000x1 S250000x32 where
  offsetDims := [1]
  collapsedSliceDims := [0]
  operandBatchingDims := []
  startIndicesBatchingDims := []
  startIndexMap := [0]
  indexVectorDim := 1
  sliceSizes := ![1, 32]
  wf := gather_S524288x32_S250000x1_S250000x32_1_0_n_n_0_1_132_wf
def scatter_S65536x64_S250000x1_S250000x64_1_0_0_1 : ScatterDims S65536x64 S250000x1 S250000x64 where
  updateWindowDims := [1]
  insertedWindowDims := [0]
  scatterDimsToOperandDims := [0]
  indexVectorDim := 1
  wf := scatter_S65536x64_S250000x1_S250000x64_1_0_0_1_wf
def scatter_S65536x1_S250000x1_S250000x1_1_0_0_1 : ScatterDims S65536x1 S250000x1 S250000x1 where
  updateWindowDims := [1]
  insertedWindowDims := [0]
  scatterDimsToOperandDims := [0]
  indexVectorDim := 1
  wf := scatter_S65536x1_S250000x1_S250000x1_1_0_0_1_wf
def dot_S65536x64_S64x32_S65536x32_1_0_0_1_n_n : DotDims S65536x64 S64x32 S65536x32 where
  lhsContracting := [1]
  rhsContracting := [0]
  lhsNonContracting := [0]
  rhsNonContracting := [1]
  lhsBatch := []
  rhsBatch := []
  wf := dot_S65536x64_S64x32_S65536x32_1_0_0_1_n_n_wf
def gather_S65536x32_S250000x1_S250000x32_1_0_n_n_0_1_132 : GatherDims S65536x32 S250000x1 S250000x32 where
  offsetDims := [1]
  collapsedSliceDims := [0]
  operandBatchingDims := []
  startIndicesBatchingDims := []
  startIndexMap := [0]
  indexVectorDim := 1
  sliceSizes := ![1, 32]
  wf := gather_S65536x32_S250000x1_S250000x32_1_0_n_n_0_1_132_wf
def scatter_S22188x64_S250000x1_S250000x64_1_0_0_1 : ScatterDims S22188x64 S250000x1 S250000x64 where
  updateWindowDims := [1]
  insertedWindowDims := [0]
  scatterDimsToOperandDims := [0]
  indexVectorDim := 1
  wf := scatter_S22188x64_S250000x1_S250000x64_1_0_0_1_wf
def scatter_S22188x1_S250000x1_S250000x1_1_0_0_1 : ScatterDims S22188x1 S250000x1 S250000x1 where
  updateWindowDims := [1]
  insertedWindowDims := [0]
  scatterDimsToOperandDims := [0]
  indexVectorDim := 1
  wf := scatter_S22188x1_S250000x1_S250000x1_1_0_0_1_wf
def dot_S22188x64_S64x32_S22188x32_1_0_0_1_n_n : DotDims S22188x64 S64x32 S22188x32 where
  lhsContracting := [1]
  rhsContracting := [0]
  lhsNonContracting := [0]
  rhsNonContracting := [1]
  lhsBatch := []
  rhsBatch := []
  wf := dot_S22188x64_S64x32_S22188x32_1_0_0_1_n_n_wf
def gather_S22188x32_S250000x1_S250000x32_1_0_n_n_0_1_132 : GatherDims S22188x32 S250000x1 S250000x32 where
  offsetDims := [1]
  collapsedSliceDims := [0]
  operandBatchingDims := []
  startIndicesBatchingDims := []
  startIndexMap := [0]
  indexVectorDim := 1
  sliceSizes := ![1, 32]
  wf := gather_S22188x32_S250000x1_S250000x32_1_0_n_n_0_1_132_wf
def scatter_S8192x64_S250000x1_S250000x64_1_0_0_1 : ScatterDims S8192x64 S250000x1 S250000x64 where
  updateWindowDims := [1]
  insertedWindowDims := [0]
  scatterDimsToOperandDims := [0]
  indexVectorDim := 1
  wf := scatter_S8192x64_S250000x1_S250000x64_1_0_0_1_wf
def scatter_S8192x1_S250000x1_S250000x1_1_0_0_1 : ScatterDims S8192x1 S250000x1 S250000x1 where
  updateWindowDims := [1]
  insertedWindowDims := [0]
  scatterDimsToOperandDims := [0]
  indexVectorDim := 1
  wf := scatter_S8192x1_S250000x1_S250000x1_1_0_0_1_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def gather_S8192x32_S250000x1_S250000x32_1_0_n_n_0_1_132 : GatherDims S8192x32 S250000x1 S250000x32 where
  offsetDims := [1]
  collapsedSliceDims := [0]
  operandBatchingDims := []
  startIndicesBatchingDims := []
  startIndexMap := [0]
  indexVectorDim := 1
  sliceSizes := ![1, 32]
  wf := gather_S8192x32_S250000x1_S250000x32_1_0_n_n_0_1_132_wf
def dot_S250000x32_S32x32_S250000x32_1_0_0_1_n_n : DotDims S250000x32 S32x32 S250000x32 where
  lhsContracting := [1]
  rhsContracting := [0]
  lhsNonContracting := [0]
  rhsNonContracting := [1]
  lhsBatch := []
  rhsBatch := []
  wf := dot_S250000x32_S32x32_S250000x32_1_0_0_1_n_n_wf
def dot_S250000x32_S32x64_S250000x64_1_0_0_1_n_n : DotDims S250000x32 S32x64 S250000x64 where
  lhsContracting := [1]
  rhsContracting := [0]
  lhsNonContracting := [0]
  rhsNonContracting := [1]
  lhsBatch := []
  rhsBatch := []
  wf := dot_S250000x32_S32x64_S250000x64_1_0_0_1_n_n_wf
def dot_S250000x128_S128x64_S250000x64_1_0_0_1_n_n : DotDims S250000x128 S128x64 S250000x64 where
  lhsContracting := [1]
  rhsContracting := [0]
  lhsNonContracting := [0]
  rhsNonContracting := [1]
  lhsBatch := []
  rhsBatch := []
  wf := dot_S250000x128_S128x64_S250000x64_1_0_0_1_n_n_wf
def gather_S250000x64_S250000x1_S250000x64_1_0_n_n_0_1_164 : GatherDims S250000x64 S250000x1 S250000x64 where
  offsetDims := [1]
  collapsedSliceDims := [0]
  operandBatchingDims := []
  startIndicesBatchingDims := []
  startIndexMap := [0]
  indexVectorDim := 1
  sliceSizes := ![1, 64]
  wf := gather_S250000x64_S250000x1_S250000x64_1_0_n_n_0_1_164_wf

class Facts : Prop extends Facts₀ where

variable [Facts]
-- ==== Proof.IR0.lean ====
import proofs.«418858_j49108656062716_3_alg».proof.Proof.Gen.KernelIdeal.Launch
import proofs.«418858_j49108656062716_3_alg».proof.Proof.Gen.KernelIdeal.Skeleton
import proofs.«418858_j49108656062716_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x64 := Rect.unit (s := S10000x64) ![0, 0] S10000x64.size inb_S10000x64_S10000x64_0_0
abbrev r0_1 : Rect S64x64 := Rect.unit (s := S64x64) ![0, 0] S64x64.size inb_S64x64_S64x64_0_0
abbrev r0_2 : Rect S1x64 := Rect.unit (s := S1x64) ![0, 0] S1x64.size inb_S1x64_S1x64_0_0

def out0_3 (x0 : Vec F S10000x64 .f32) (x1 : Vec F S64x64 .f32) (x2 : Vec F S1x64 .f32) : Vec F S10000x64 .f32 :=
  View.canon [⟨r0_0, k0_pay1 (View.ld x0 r0_0) (View.ld x1 r0_1) (View.ld x2 r0_2)⟩]

theorem cover0_3 (p0 : Vec F S10000x64 .f32) (y : S10000x64.Idx) :
    ∃ pc ∈ ([⟨r0_0, p0⟩] : List (View.Piece (Elt F) S10000x64 .f32)), y ∈ pc.1.set :=
  View.cover_of_tiled [⟨r0_0, p0⟩] S10000x64.size (by rfl) y

set_option maxHeartbeats 1000000 in
theorem sound_kernel0 (c : Dev nD) (i : grid0.Coords)
    {arg1 : Memref sig .tc .vmem S10000x64 .f32} (harg1 : arg1.IsWhole)
    {arg2 : Memref sig .tc .vmem S64x64 .f32} (harg2 : arg2.IsWhole)
    {arg3 : Memref sig .tc .vmem S1x64 .f32} (harg3 : arg3.IsWhole)
    {arg4 : Memref sig .tc .vmem S10000x64 .f32} (harg4 : arg4.IsWhole)
    {Φ Ω : sProp 𝕄} {D0 D1 D2 D3 : Type}
    {b0 : D0 → Vec F S10000x64 .f32} {b1 : D1 → Vec F S64x64 .f32} {b2 : D2 → Vec F S1x64 .f32}
    {b3 : D3 → Vec F S10000x64 .f32}
    {x0 : Vec F S10000x64 .f32} {x1 : Vec F S64x64 .f32} {x2 : Vec F S1x64 .f32}
    (h0 : ∀ d, b0 d = x0) (h1 : ∀ d, b1 d = x1) (h2 : ∀ d, b2 d = x2) :
    iprop(Φ ∗ Ω ∗ (∃ d, owns (c : Thread nD τ) arg1 fullShare (b0 d)) ∗ (∃ d, owns (c : Thread nD τ) arg2 fullShare (b1 d))
        ∗ (∃ d, owns (c : Thread nD τ) arg3 fullShare (b2 d)) ∗ (∃ d, owns (c : Thread nD τ) arg4 fullShare (b3 d)))
      ⊢ wp frame (wpE (defs₀ (F := F)) Variants.none c none) Set.univ
          (cc0__linear_relu_kernel i arg1 harg1 arg2 harg2 arg3 harg3 arg4 harg4) fun _ =>
          iprop(Φ ∗ Ω ∗ owns (c : Thread nD τ) arg1 fullShare x0 ∗ owns (c : Thread nD τ) arg2 fullShare x1
            ∗ owns (c : Thread nD τ) arg3 fullShare x2 ∗ owns (c : Thread nD τ) arg4 fullShare (out0_3 x0 x1 x2)) := by
  simp only [cc0__linear_relu_kernel_eq_skeleton, h0, h1, h2]; unfold cc0__linear_relu_kernel_skel owns
  iintro ⟨HΦ, Ho, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HΦ]; · iexact HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

-- the body's triple at the point's three input blocks
theorem body_obligation0 (c : Dev nD) : BodyObligation (dat0 (F := F) V c) (defs₀ (F := F)) Variants.none () Set.univ := fun t => by
  rw [bigSep_W0, bigSep_W0, after0_3]
  exact sound_kernel0 (x0 := iblk0 V c 0 t) (x1 := iblk0 V c 1 t) (x2 := iblk0 V c 2 t) c (grid0.coords t) (stage_whole0 0 _) (stage_whole0 1 _) (stage_whole0 2 _) (stage_whole0 3 _)
    ((dat0 V c).before_in_eq_fetched 0 rfl (fun _ => rfl) (fun _ _ _ => rfl) (fun _ => rfl) t)
    ((dat0 V c).before_in_eq_fetched 1 rfl (fun _ => rfl) (fun _ _ _ => rfl) (fun _ => rfl) t)
    ((dat0 V c).before_in_eq_fetched 2 rfl (fun _ => rfl) (fun _ _ _ => rfl) (fun _ => rfl) t)

end Cert.KernelIdeal.Hand
-- ==== Proof.IR1.lean ====
import proofs.«418858_j49108656062716_3_alg».proof.Proof.Gen.KernelIdeal.Launch
import proofs.«418858_j49108656062716_3_alg».proof.Proof.Gen.KernelIdeal.Skeleton
import proofs.«418858_j49108656062716_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem pool_zero_off : (![0, 0] : Fin 2 → Nat) = fun _ => 0 := funext fun a => by
  match a with
  | ⟨0, _⟩ => rfl
  | ⟨1, _⟩ => rfl

theorem cover1_3 (p : Vec F S4096x32 .bf16) (y : S4096x32.Idx) :
    ∃ pc ∈ ([⟨Rect.unit (s := S4096x32) ![0, 0] S4096x32.size inb_S4096x32_S4096x32_0_0, p⟩] :
      List (View.Piece (Elt F) S4096x32 .bf16)), y ∈ pc.1.set :=
  View.cover_of_tiled _ S4096x32.size (by rfl) y

-- the body loads its three inputs whole, stores their payload over the whole result block and never reads the grid coordinate, so one triple serves every region
set_option maxHeartbeats 1000000 in
theorem pool_body (c : Dev nD)
    {arg1 : Memref sig .tc .vmem S4096x65 .f32} (harg1 : arg1.IsWhole)
    {arg2 : Memref sig .tc .vmem S64x32 .f32} (harg2 : arg2.IsWhole)
    {arg3 : Memref sig .tc .vmem S1x32 .f32} (harg3 : arg3.IsWhole)
    {arg4 : Memref sig .tc .vmem S4096x32 .bf16} (harg4 : arg4.IsWhole)
    {Φ Ω : sProp 𝕄} {D0 D1 D2 D3 : Type}
    {b0 : D0 → Vec F S4096x65 .f32} {b1 : D1 → Vec F S64x32 .f32} {b2 : D2 → Vec F S1x32 .f32}
    {b3 : D3 → Vec F S4096x32 .bf16}
    {x0 : Vec F S4096x65 .f32} {x1 : Vec F S64x32 .f32} {x2 : Vec F S1x32 .f32}
    (h0 : ∀ d, b0 d = x0) (h1 : ∀ d, b1 d = x1) (h2 : ∀ d, b2 d = x2) :
    iprop(Φ ∗ Ω ∗ (∃ d, owns (c : Thread nD τ) arg1 fullShare (b0 d)) ∗ (∃ d, owns (c : Thread nD τ) arg2 fullShare (b1 d))
        ∗ (∃ d, owns (c : Thread nD τ) arg3 fullShare (b2 d)) ∗ (∃ d, owns (c : Thread nD τ) arg4 fullShare (b3 d)))
      ⊢ wp frame (wpE (defs₀ (F := F)) Variants.none c none) Set.univ
          (cc1__pool_kernel (grid1.coords ⟨0, by decide⟩) arg1 harg1 arg2 harg2 arg3 harg3 arg4 harg4) fun _ =>
          iprop(Φ ∗ Ω ∗ owns (c : Thread nD τ) arg1 fullShare x0 ∗ owns (c : Thread nD τ) arg2 fullShare x1
            ∗ owns (c : Thread nD τ) arg3 fullShare x2 ∗ owns (c : Thread nD τ) arg4 fullShare (k1_pay1 x0 x1 x2)) := by
  simp only [cc1__pool_kernel_eq_skeleton, h0, h1, h2]; unfold cc1__pool_kernel_skel owns
  iintro ⟨HΦ, Ho, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HΦ]; · iexact HΦ
  isplitl [Ho]; · iexact Ho
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  iexists _; isplitr
  rotate_left
  · iexact H3
  · ipureintro
    exact (View.read_writes_eq_canon _ _ _ (cover1_3 _)).trans ((View.canon_unit_zero pool_zero_off _ _).trans
      (congr (congr (congrArg k1_pay1 (View.ld_unit_zero pool_zero_off _ _)) (View.ld_unit_zero pool_zero_off _ _))
        (View.ld_unit_zero pool_zero_off _ _)))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

-- the body's triple at the point's three input blocks
theorem body_obligation1 (c : Dev nD) :
    BodyObligation (dat1 (F := F) V c) (defs₀ (F := F)) Variants.none () Set.univ := fun t => by
  rw [bigSep_W1, bigSep_W1]
  exact pool_body c (stage_whole1 0 _) (stage_whole1 1 _) (stage_whole1 2 _) (stage_whole1 3 _)
    ((dat1 V c).before_in_eq_fetched 0 rfl (fun _ => rfl) (fun _ _ _ => rfl) (fun _ => rfl) t)
    ((dat1 V c).before_in_eq_fetched 1 rfl (fun _ => rfl) (fun _ _ _ => rfl) (fun _ => rfl) t)
    ((dat1 V c).before_in_eq_fetched 2 rfl (fun _ => rfl) (fun _ _ _ => rfl) (fun _ => rfl) t)

end Cert.KernelIdeal.Hand

end
-- ==== Proof.IR2.lean ====
import proofs.«418858_j49108656062716_3_alg».proof.Proof.IR1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k1_pay1 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

-- the body's triple at the point's three input blocks
theorem body_obligation2 (c : Dev nD) :
    BodyObligation (dat2 (F := F) V c) (defs₀ (F := F)) Variants.none () Set.univ := fun t => by
  rw [bigSep_W2, bigSep_W2]
  exact pool_body c (stage_whole2 0 _) (stage_whole2 1 _) (stage_whole2 2 _) (stage_whole2 3 _)
    ((dat2 V c).before_in_eq_fetched 0 rfl (fun _ => rfl) (fun _ _ _ => rfl) (fun _ => rfl) t)
    ((dat2 V c).before_in_eq_fetched 1 rfl (fun _ => rfl) (fun _ _ _ => rfl) (fun _ => rfl) t)
    ((dat2 V c).before_in_eq_fetched 2 rfl (fun _ => rfl) (fun _ _ _ => rfl) (fun _ => rfl) t)

end Cert.KernelIdeal.Hand

end
-- ==== Proof.IR3.lean ====
import proofs.«418858_j49108656062716_3_alg».proof.Proof.IR1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k1_pay1 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

-- the body's triple at the point's three input blocks
theorem body_obligation3 (c : Dev nD) :
    BodyObligation (dat3 (F := F) V c) (defs₀ (F := F)) Variants.none () Set.univ := fun t => by
  rw [bigSep_W3, bigSep_W3]
  exact pool_body c (stage_whole3 0 _) (stage_whole3 1 _) (stage_whole3 2 _) (stage_whole3 3 _)
    ((dat3 V c).before_in_eq_fetched 0 rfl (fun _ => rfl) (fun _ _ _ => rfl) (fun _ => rfl) t)
    ((dat3 V c).before_in_eq_fetched 1 rfl (fun _ => rfl) (fun _ _ _ => rfl) (fun _ => rfl) t)
    ((dat3 V c).before_in_eq_fetched 2 rfl (fun _ => rfl) (fun _ _ _ => rfl) (fun _ => rfl) t)

end Cert.KernelIdeal.Hand

end
-- ==== Proof.IR4.lean ====
import proofs.«418858_j49108656062716_3_alg».proof.Proof.IR1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k1_pay1 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

-- the body's triple at the point's three input blocks
theorem body_obligation4 (c : Dev nD) :
    BodyObligation (dat4 (F := F) V c) (defs₀ (F := F)) Variants.none () Set.univ := fun t => by
  rw [bigSep_W4, bigSep_W4]
  exact pool_body c (stage_whole4 0 _) (stage_whole4 1 _) (stage_whole4 2 _) (stage_whole4 3 _)
    ((dat4 V c).before_in_eq_fetched 0 rfl (fun _ => rfl) (fun _ _ _ => rfl) (fun _ => rfl) t)
    ((dat4 V c).before_in_eq_fetched 1 rfl (fun _ => rfl) (fun _ _ _ => rfl) (fun _ => rfl) t)
    ((dat4 V c).before_in_eq_fetched 2 rfl (fun _ => rfl) (fun _ _ _ => rfl) (fun _ => rfl) t)

end Cert.KernelIdeal.Hand

end
-- ==== Proof.IR5.lean ====
import proofs.«418858_j49108656062716_3_alg».proof.Proof.Gen.KernelIdeal.Launch
import proofs.«418858_j49108656062716_3_alg».proof.Proof.Gen.KernelIdeal.Skeleton
import proofs.«418858_j49108656062716_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S2000x64 := Rect.unit (s := S2000x64) ![0, 0] S2000x64.size inb_S2000x64_S2000x64_0_0
abbrev r5_1 : Rect S2000x128 := Rect.unit (s := S2000x128) ![0, 0] S2000x128.size inb_S2000x128_S2000x128_0_0
abbrev r5_2 : Rect S32x32 := Rect.unit (s := S32x32) ![0, 0] S32x32.size inb_S32x32_S32x32_0_0
abbrev r5_3_0 : Rect S4x32x32 := Rect.unit (s := S4x32x32) ![0, 0, 0] S1x32x32.size inb_S4x32x32_S1x32x32_0_0_0
abbrev r5_3_1 : Rect S4x32x32 := Rect.unit (s := S4x32x32) ![1, 0, 0] S1x32x32.size inb_S4x32x32_S1x32x32_1_0_0
abbrev r5_3_2 : Rect S4x32x32 := Rect.unit (s := S4x32x32) ![2, 0, 0] S1x32x32.size inb_S4x32x32_S1x32x32_2_0_0
abbrev r5_3_3 : Rect S4x32x32 := Rect.unit (s := S4x32x32) ![3, 0, 0] S1x32x32.size inb_S4x32x32_S1x32x32_3_0_0
abbrev r5_4_0 : Rect S4x1x32 := Rect.unit (s := S4x1x32) ![0, 0, 0] S1x1x32.size inb_S4x1x32_S1x1x32_0_0_0
abbrev r5_4_1 : Rect S4x1x32 := Rect.unit (s := S4x1x32) ![1, 0, 0] S1x1x32.size inb_S4x1x32_S1x1x32_1_0_0
abbrev r5_4_2 : Rect S4x1x32 := Rect.unit (s := S4x1x32) ![2, 0, 0] S1x1x32.size inb_S4x1x32_S1x1x32_2_0_0
abbrev r5_4_3 : Rect S4x1x32 := Rect.unit (s := S4x1x32) ![3, 0, 0] S1x1x32.size inb_S4x1x32_S1x1x32_3_0_0
abbrev r5_5 : Rect S32x64 := Rect.unit (s := S32x64) ![0, 0] S32x64.size inb_S32x64_S32x64_0_0
abbrev r5_6 : Rect S64x64 := Rect.unit (s := S64x64) ![0, 0] S64x64.size inb_S64x64_S64x64_0_0
abbrev r5_9 : Rect S1x64 := Rect.unit (s := S1x64) ![0, 0] S1x64.size inb_S1x64_S1x64_0_0

def out5_10 (x0 : Vec F S2000x64 .f32) (x1 : Vec F S2000x128 .bf16) (x2 : Vec F S32x32 .f32) (x3 : Vec F S4x32x32 .f32) (x4 : Vec F S4x1x32 .f32) (x5 : Vec F S32x64 .f32) (x6 : Vec F S64x64 .f32) (x7 : Vec F S64x64 .f32) (x8 : Vec F S64x64 .f32) (x9 : Vec F S1x64 .f32) : Vec F S2000x64 .f32 :=
  View.canon [⟨r5_0,
    k5_pay1
      (k5_pay11 (View.ld x7 r5_6))
      (k5_pay12 (k5_pay2 (View.ld x0 r5_0)) (View.ld x6 r5_6))
      (k5_pay13 (k5_pay5 (View.ld x1 r5_1)) (k5_pay6 (View.ld x1 r5_1)) (k5_pay7 (View.ld x1 r5_1))
        (k5_pay8 (View.ld x1 r5_1) (View.ld x2 r5_2))
        (k5_pay9 (View.ld x1 r5_1) (View.ld x2 r5_2) (View.ld x3 r5_3_0) (View.ld x4 r5_4_0))
        (k5_pay10 (View.ld x1 r5_1) (View.ld x2 r5_2) (View.ld x3 r5_3_1) (View.ld x4 r5_4_1))
        (View.ld x3 r5_3_2) (View.ld x4 r5_4_2) (View.ld x3 r5_3_3) (View.ld x4 r5_4_3) (View.ld x5 r5_5))
      (View.ld x8 r5_6) (View.ld x9 r5_9)⟩]

theorem cover5_10 (p0 : Vec F S2000x64 .f32) (y : S2000x64.Idx) :
    ∃ pc ∈ ([⟨r5_0, p0⟩] : List (View.Piece (Elt F) S2000x64 .f32)), y ∈ pc.1.set :=
  View.cover_of_wholeMem _ (View.Piece.wholeMem_here (by rfl)) y

set_option maxHeartbeats 1000000 in
theorem sound_kernel5 (c : Dev nD) (i : grid5.Coords)
    {arg1 : Memref sig .tc .vmem S2000x64 .f32} (harg1 : arg1.IsWhole)
    {arg2 : Memref sig .tc .vmem S2000x128 .bf16} (harg2 : arg2.IsWhole)
    {arg3 : Memref sig .tc .vmem S32x32 .f32} (harg3 : arg3.IsWhole)
    {arg4 : Memref sig .tc .vmem S4x32x32 .f32} (harg4 : arg4.IsWhole)
    {arg5 : Memref sig .tc .vmem S4x1x32 .f32} (harg5 : arg5.IsWhole)
    {arg6 : Memref sig .tc .vmem S32x64 .f32} (harg6 : arg6.IsWhole)
    {arg7 : Memref sig .tc .vmem S64x64 .f32} (harg7 : arg7.IsWhole)
    {arg8 : Memref sig .tc .vmem S64x64 .f32} (harg8 : arg8.IsWhole)
    {arg9 : Memref sig .tc .vmem S64x64 .f32} (harg9 : arg9.IsWhole)
    {arg10 : Memref sig .tc .vmem S1x64 .f32} (harg10 : arg10.IsWhole)
    {arg11 : Memref sig .tc .vmem S2000x64 .f32} (harg11 : arg11.IsWhole)
    {Φ Ω : sProp 𝕄} {D0 D1 D2 D3 D4 D5 D6 D7 D8 D9 D10 : Type}
    {b0 : D0 → Vec F S2000x64 .f32}
    {b1 : D1 → Vec F S2000x128 .bf16}
    {b2 : D2 → Vec F S32x32 .f32}
    {b3 : D3 → Vec F S4x32x32 .f32}
    {b4 : D4 → Vec F S4x1x32 .f32}
    {b5 : D5 → Vec F S32x64 .f32}
    {b6 : D6 → Vec F S64x64 .f32}
    {b7 : D7 → Vec F S64x64 .f32}
    {b8 : D8 → Vec F S64x64 .f32}
    {b9 : D9 → Vec F S1x64 .f32}
    {b10 : D10 → Vec F S2000x64 .f32}
    {x0 : Vec F S2000x64 .f32}
    {x1 : Vec F S2000x128 .bf16}
    {x2 : Vec F S32x32 .f32}
    {x3 : Vec F S4x32x32 .f32}
    {x4 : Vec F S4x1x32 .f32}
    {x5 : Vec F S32x64 .f32}
    {x6 : Vec F S64x64 .f32}
    {x7 : Vec F S64x64 .f32}
    {x8 : Vec F S64x64 .f32}
    {x9 : Vec F S1x64 .f32}
    (h0 : ∀ d, b0 d = x0) (h1 : ∀ d, b1 d = x1) (h2 : ∀ d, b2 d = x2) (h3 : ∀ d, b3 d = x3) (h4 : ∀ d, b4 d = x4) (h5 : ∀ d, b5 d = x5) (h6 : ∀ d, b6 d = x6) (h7 : ∀ d, b7 d = x7) (h8 : ∀ d, b8 d = x8) (h9 : ∀ d, b9 d = x9) :
    iprop(Φ ∗ Ω
        ∗ (∃ d, owns (c : Thread nD τ) arg1 fullShare (b0 d))
        ∗ (∃ d, owns (c : Thread nD τ) arg2 fullShare (b1 d))
        ∗ (∃ d, owns (c : Thread nD τ) arg3 fullShare (b2 d))
        ∗ (∃ d, owns (c : Thread nD τ) arg4 fullShare (b3 d))
        ∗ (∃ d, owns (c : Thread nD τ) arg5 fullShare (b4 d))
        ∗ (∃ d, owns (c : Thread nD τ) arg6 fullShare (b5 d))
        ∗ (∃ d, owns (c : Thread nD τ) arg7 fullShare (b6 d))
        ∗ (∃ d, owns (c : Thread nD τ) arg8 fullShare (b7 d))
        ∗ (∃ d, owns (c : Thread nD τ) arg9 fullShare (b8 d))
        ∗ (∃ d, owns (c : Thread nD τ) arg10 fullShare (b9 d))
        ∗ (∃ d, owns (c : Thread nD τ) arg11 fullShare (b10 d)))
      ⊢ wp frame (wpE (defs₀ (F := F)) Variants.none c none) Set.univ (cc5__fused_kernel i arg1 harg1 arg2 harg2 arg3 harg3 arg4 harg4 arg5 harg5 arg6 harg6 arg7 harg7 arg8 harg8 arg9 harg9 arg10 harg10 arg11 harg11) fun _ =>
          iprop(Φ ∗ Ω
            ∗ owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare (out5_10 x0 x1 x2 x3 x4 x5 x6 x7 x8 x9)) := by
  simp only [cc5__fused_kernel_eq_skeleton, h0, h1, h2, h3, h4, h5, h6, h7, h8, h9]; unfold cc5__fused_kernel_skel
  simp only [k5_part1_eq_skeleton, k5_part2_eq_skeleton]; unfold k5_part1_skel k5_part2_skel
  unfold owns
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%_, %f6, %hf6, H6⟩, ⟨%_, %f7, %hf7, H7⟩, ⟨%_, %f8, %hf8, H8⟩, ⟨%_, %f9, %hf9, H9⟩, ⟨%_, %f10, -, H10⟩⟩
  subst hf0 hf1 hf2 hf3 hf4 hf5 hf6 hf7 hf8 hf9
  sl_exec
  sl_step
  isplitl [HΦ]; · iexact HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover5_10 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => out5_10 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_10 (c : Dev nD) (t : Fin cfg5.N) :
    (dat5 V c).after 10 t = out5_10 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) := by dsimp only [dat5]

-- the body's triple at the point's ten input blocks
theorem body_obligation5 (c : Dev nD) : BodyObligation (dat5 (F := F) V c) (defs₀ (F := F)) Variants.none () Set.univ := fun t => by
  rw [bigSep_W5, bigSep_W5, after5_10]
  exact sound_kernel5 (x0 := iblk5 V c 0 t) (x1 := iblk5 V c 1 t) (x2 := iblk5 V c 2 t) (x3 := iblk5 V c 3 t) (x4 := iblk5 V c 4 t) (x5 := iblk5 V c 5 t) (x6 := iblk5 V c 6 t) (x7 := iblk5 V c 7 t) (x8 := iblk5 V c 8 t) (x9 := iblk5 V c 9 t) c (grid5.coords t)
    (stage_whole5 0 _) (stage_whole5 1 _) (stage_whole5 2 _) (stage_whole5 3 _) (stage_whole5 4 _) (stage_whole5 5 _) (stage_whole5 6 _) (stage_whole5 7 _) (stage_whole5 8 _) (stage_whole5 9 _) (stage_whole5 10 _)
    ((dat5 V c).before_in_eq_fetched 0 rfl (fun _ => rfl) (fun _ _ _ => rfl) (fun _ => rfl) t)
    ((dat5 V c).before_in_eq_fetched 1 rfl (fun _ => rfl) (fun _ _ _ => rfl) (fun _ => rfl) t)
    ((dat5 V c).before_in_eq_fetched 2 rfl (fun _ => rfl) (fun _ _ _ => rfl) (fun _ => rfl) t)
    ((dat5 V c).before_in_eq_fetched 3 rfl (fun _ => rfl) (fun _ _ _ => rfl) (fun _ => rfl) t)
    ((dat5 V c).before_in_eq_fetched 4 rfl (fun _ => rfl) (fun _ _ _ => rfl) (fun _ => rfl) t)
    ((dat5 V c).before_in_eq_fetched 5 rfl (fun _ => rfl) (fun _ _ _ => rfl) (fun _ => rfl) t)
    ((dat5 V c).before_in_eq_fetched 6 rfl (fun _ => rfl) (fun _ _ _ => rfl) (fun _ => rfl) t)
    ((dat5 V c).before_in_eq_fetched 7 rfl (fun _ => rfl) (fun _ _ _ => rfl) (fun _ => rfl) t)
    ((dat5 V c).before_in_eq_fetched 8 rfl (fun _ => rfl) (fun _ _ _ => rfl) (fun _ => rfl) t)
    ((dat5 V c).before_in_eq_fetched 9 rfl (fun _ => rfl) (fun _ _ _ => rfl) (fun _ => rfl) t)

end Cert.KernelIdeal.Hand

end
-- ==== Proof.IW.lean ====
import proofs.«418858_j49108656062716_3_alg».proof.Proof.IR0
import proofs.«418858_j49108656062716_3_alg».proof.Proof.IR1
import proofs.«418858_j49108656062716_3_alg».proof.Proof.IR2
import proofs.«418858_j49108656062716_3_alg».proof.Proof.IR3
import proofs.«418858_j49108656062716_3_alg».proof.Proof.IR4
import proofs.«418858_j49108656062716_3_alg».proof.Proof.IR5
import proofs.«418858_j49108656062716_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev W1 : Dev nD → Valuation τ sig (Elt F) := fun c => StableHlo.after hostOps0 (W0 m c)
abbrev Vr1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (Vr1 m) c).arrAt w cfg0.N
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev Vr5 : (c : Dev nD) → (b : Ref sig .tc) → Buf (Elt F) ((c : Thread nD τ).loc b) := fun c b => W5 m c b
def W6 (c : Dev nD) : Valuation τ sig (Elt F) :=
  Pipeline.withArrays spec1 c (W5 m c) fun w => (dat1 (Vr5 m) c).arrAt w cfg1.N
abbrev W7 : Dev nD → Valuation τ sig (Elt F) := fun c => StableHlo.after hostOps2 (W6 m c)
abbrev W8 : Dev nD → Valuation τ sig (Elt F) := fun c => StableHlo.after hostOps2_1 (W7 m c)
abbrev W9 : Dev nD → Valuation τ sig (Elt F) := fun c => StableHlo.after hostOps2_2 (W8 m c)
abbrev Vr9 : (c : Dev nD) → (b : Ref sig .tc) → Buf (Elt F) ((c : Thread nD τ).loc b) := fun c b => W9 m c b
def W10 (c : Dev nD) : Valuation τ sig (Elt F) :=
  Pipeline.withArrays spec2 c (W9 m c) fun w => (dat2 (Vr9 m) c).arrAt w cfg2.N
abbrev W11 : Dev nD → Valuation τ sig (Elt F) := fun c => StableHlo.after hostOps3 (W10 m c)
abbrev W12 : Dev nD → Valuation τ sig (Elt F) := fun c => StableHlo.after hostOps3_1 (W11 m c)
abbrev W13 : Dev nD → Valuation τ sig (Elt F) := fun c => StableHlo.after hostOps3_2 (W12 m c)
abbrev W14 : Dev nD → Valuation τ sig (Elt F) := fun c => StableHlo.after hostOps3_3 (W13 m c)
abbrev W15 : Dev nD → Valuation τ sig (Elt F) := fun c => StableHlo.after hostOps3_4 (W14 m c)
abbrev Vr15 : (c : Dev nD) → (b : Ref sig .tc) → Buf (Elt F) ((c : Thread nD τ).loc b) := fun c b => W15 m c b
def W16 (c : Dev nD) : Valuation τ sig (Elt F) :=
  Pipeline.withArrays spec3 c (W15 m c) fun w => (dat3 (Vr15 m) c).arrAt w cfg3.N
abbrev W17 : Dev nD → Valuation τ sig (Elt F) := fun c => StableHlo.after hostOps4 (W16 m c)
abbrev W18 : Dev nD → Valuation τ sig (Elt F) := fun c => StableHlo.after hostOps4_1 (W17 m c)
abbrev W19 : Dev nD → Valuation τ sig (Elt F) := fun c => StableHlo.after hostOps4_2 (W18 m c)
abbrev Vr19 : (c : Dev nD) → (b : Ref sig .tc) → Buf (Elt F) ((c : Thread nD τ).loc b) := fun c b => W19 m c b
def W20 (c : Dev nD) : Valuation τ sig (Elt F) :=
  Pipeline.withArrays spec4 c (W19 m c) fun w => (dat4 (Vr19 m) c).arrAt w cfg4.N
abbrev W21 : Dev nD → Valuation τ sig (Elt F) := fun c => StableHlo.after hostOps5 (W20 m c)
abbrev Vr21 : (c : Dev nD) → (b : Ref sig .tc) → Buf (Elt F) ((c : Thread nD τ).loc b) := fun c b => W21 m c b
def W22 (c : Dev nD) : Valuation τ sig (Elt F) :=
  Pipeline.withArrays spec5 c (W21 m c) fun w => (dat5 (Vr21 m) c).arrAt w cfg5.N
abbrev W23 : Dev nD → Valuation τ sig (Elt F) := fun c => StableHlo.after hostOps6 (W22 m c)

def pdats : (p : Fin 6) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr5 m) c
  | ⟨2, _⟩ => fun c => dat2 (Vr9 m) c
  | ⟨3, _⟩ => fun c => dat3 (Vr15 m) c
  | ⟨4, _⟩ => fun c => dat4 (Vr19 m) c
  | ⟨5, _⟩ => fun c => dat5 (Vr21 m) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.IReg0.lean ====
import proofs.«418858_j49108656062716_3_alg».proof.Proof.IW

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode

variable {F : FTy → Type} [FloatOps F]

variable (m : (ℓ : Loc nD τ sig) → Buf (Elt F) ℓ)

section
variable (p : Fin 6) (kit : Pipeline.LaunchFacts (nD := nD) (τ := τ) cfgs p) (V V' : Dev nD → Valuation τ sig (Elt F))
  (hV' : ∀ c, V' c = Pipeline.withArrays (cfgs p).spec c (V c) fun w => (pdats m p c).arrAt w (cfgs p).N)
  (hA : ∀ c w, (pdats m p c).A w = V c (Pipeline.arrRef (cfgs p).spec w))
include kit hV'

theorem out_arr (c : Dev nD) (w : Fin (cfgs p).W) :
    V' c (Proc.devRef .tc (Pipeline.arrRef (cfgs p).spec w)) = (pdats m p c).arrAt w (cfgs p).N := by
  rw [hV']; exact Pipeline.withArrays_arr _ kit.win.arr_inj c _ _ w

theorem out_of_ne (c : Dev nD) (b : Ref sig .tc) (hb : ∀ w, Pipeline.arrRef (cfgs p).spec w ≠ b) :
    V' c (Proc.devRef .tc b) = V c (Proc.devRef .tc b) := by
  rw [hV']; exact Pipeline.withArrays_of_ne _ c _ _ b hb

include hA

theorem out_kept (o : Ref sig .tc) (ho : ∀ w, Pipeline.arrRef (cfgs p).spec w ≠ o → ((cfgs p).win w).isOut = false)
    (c : Dev nD) (b : Ref sig .tc) (hb : b ≠ o) : V' c (Proc.devRef .tc b) = V c (Proc.devRef .tc b) := by
  by_cases h : ∃ w, Pipeline.arrRef (cfgs p).spec w = b
  · obtain ⟨w, rfl⟩ := h
    exact (out_arr m p kit V V' hV' c w).trans (((pdats m p c).arrAt_in w (ho w hb) _).trans (hA c w))
  · exact out_of_ne m p kit V V' hV' c b fun w e => h ⟨w, e⟩

def regOf (hb : ∀ c, Pipeline.BodyObligationLoose (pdats m p c) defs₀ 𝒱₀ () Set.univ)
    (hq : ∀ c w, (pdats m p c).q w = fullShare := by exact fun _ _ => rfl)
    (hΦ : ∀ c t, (pdats m p c).Φ t = Pipeline.ΦA (cfgs p).spec c := by exact fun _ _ => rfl)
    (ho : ∀ c t, (pdats m p c).owed t = 0 := by exact fun _ _ => rfl)
    (hr : ∀ c t, (pdats m p c).recorded t = Set.univ := by exact fun _ _ => rfl) :
    Pipeline.RegionSeg pcfgs adm (pdats m) () defs₀ 𝒱₀ L lv p where
  win := kit.win.to₀
  block_pos := kit.block_pos
  stage_whole := kit.stage_whole
  K := PEmpty
  osem k := k.elim
  ho := Pipeline.OwnSemFacts.none _
  hbody := hb
  hwaits := Pipeline.hwaits_of_owed_zero _ _ _ _ L lv p ho
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (cfgs p).spec c (V c ·)
  hentry c := by
    rw [Pipeline.ownSems0_none]; unfold Pipeline.Dat.owesAt Pipeline.Dat.bound; rw [ho, hr]
    have hsplit := Pipeline.arrays_of_unscopedBufs (p := p) pcfgs adm (pdats m) kit.win kit.arr_whole c
      ((pdats m p c).share_full (hq c)) (V c ·) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.owesWithin
      icases HO with ⟨%W, HO⟩; iexists W; isplitr; · ipureintro; exact fun _ _ => Or.inl trivial
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    unfold Pipeline.Dat.owesAt; rw [ho]
    have hjoin := Pipeline.unscopedBufs_of_arrays (p := p) pcfgs adm (Ix := Unit) (Name := ℕ) (U := UR sig nD τ) (Lvl := ℕ)
      kit.win kit.arr_whole c (pdats m) ((pdats m p c).share_full (hq c))
      (V c ·) (V' c ·) ((pdats m p c).arrAt · (cfgs p).N) (fun w => (out_arr m p kit V V' hV' c w).symm)
      fun b hb => out_of_ne m p kit V V' hV' c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.owesWithin
    icases HO with ⟨%W, -, HO⟩; iexists W; iexact HO

end

theorem W2_arr (c : Dev nD) (w : Fin cfg0.W) :
    W2 m c (Proc.devRef .tc (Pipeline.arrRef spec0 w)) = (dat0 (Vr1 m) c).arrAt w cfg0.N :=
  out_arr m 0 launch0 (W1 m) (W2 m) (fun _ => rfl) c w
theorem W2_kept (c : Dev nD) (b : Ref sig .tc) (hb : b ≠ main_v1) :
    W2 m c (Proc.devRef .tc b) = W1 m c (Proc.devRef .tc b) :=
  out_kept m 0 launch0 (W1 m) (W2 m) (fun _ => rfl) (fun _ _ => rfl) main_v1 (by decide) c b hb
def reg0 : Pipeline.RegionSeg pcfgs adm (pdats m) () defs₀ 𝒱₀ L lv 0 :=
  regOf m 0 launch0 (W1 m) (W2 m) (fun _ => rfl) (fun _ _ => rfl) fun c => (body_obligation0 (Vr1 m) c).loose

theorem W6_arr (c : Dev nD) (w : Fin cfg1.W) :
    W6 m c (Proc.devRef .tc (Pipeline.arrRef spec1 w)) = (dat1 (Vr5 m) c).arrAt w cfg1.N :=
  out_arr m 1 launch1 (W5 m) (W6 m) (fun _ => rfl) c w
theorem W6_kept (c : Dev nD) (b : Ref sig .tc) (hb : b ≠ main_v31) :
    W6 m c (Proc.devRef .tc b) = W5 m c (Proc.devRef .tc b) :=
  out_kept m 1 launch1 (W5 m) (W6 m) (fun _ => rfl) (fun _ _ => rfl) main_v31 (by decide) c b hb
def reg1 : Pipeline.RegionSeg pcfgs adm (pdats m) () defs₀ 𝒱₀ L lv 1 :=
  regOf m 1 launch1 (W5 m) (W6 m) (fun _ => rfl) (fun _ _ => rfl) fun c => (body_obligation1 (Vr5 m) c).loose

theorem W10_arr (c : Dev nD) (w : Fin cfg2.W) :
    W10 m c (Proc.devRef .tc (Pipeline.arrRef spec2 w)) = (dat2 (Vr9 m) c).arrAt w cfg2.N :=
  out_arr m 2 launch2 (W9 m) (W10 m) (fun _ => rfl) c w
theorem W10_kept (c : Dev nD) (b : Ref sig .tc) (hb : b ≠ main_v58) :
    W10 m c (Proc.devRef .tc b) = W9 m c (Proc.devRef .tc b) :=
  out_kept m 2 launch2 (W9 m) (W10 m) (fun _ => rfl) (fun _ _ => rfl) main_v58 (by decide) c b hb
def reg2 : Pipeline.RegionSeg pcfgs adm (pdats m) () defs₀ 𝒱₀ L lv 2 :=
  regOf m 2 launch2 (W9 m) (W10 m) (fun _ => rfl) (fun _ _ => rfl) fun c => (body_obligation2 (Vr9 m) c).loose

theorem W16_arr (c : Dev nD) (w : Fin cfg3.W) :
    W16 m c (Proc.devRef .tc (Pipeline.arrRef spec3 w)) = (dat3 (Vr15 m) c).arrAt w cfg3.N :=
  out_arr m 3 launch3 (W15 m) (W16 m) (fun _ => rfl) c w
theorem W16_kept (c : Dev nD) (b : Ref sig .tc) (hb : b ≠ main_v86) :
    W16 m c (Proc.devRef .tc b) = W15 m c (Proc.devRef .tc b) :=
  out_kept m 3 launch3 (W15 m) (W16 m) (fun _ => rfl) (fun _ _ => rfl) main_v86 (by decide) c b hb
def reg3 : Pipeline.RegionSeg pcfgs adm (pdats m) () defs₀ 𝒱₀ L lv 3 :=
  regOf m 3 launch3 (W15 m) (W16 m) (fun _ => rfl) (fun _ _ => rfl) fun c => (body_obligation3 (Vr15 m) c).loose

theorem W20_arr (c : Dev nD) (w : Fin cfg4.W) :
    W20 m c (Proc.devRef .tc (Pipeline.arrRef spec4 w)) = (dat4 (Vr19 m) c).arrAt w cfg4.N :=
  out_arr m 4 launch4 (W19 m) (W20 m) (fun _ => rfl) c w
theorem W20_kept (c : Dev nD) (b : Ref sig .tc) (hb : b ≠ main_v113) :
    W20 m c (Proc.devRef .tc b) = W19 m c (Proc.devRef .tc b) :=
  out_kept m 4 launch4 (W19 m) (W20 m) (fun _ => rfl) (fun _ _ => rfl) main_v113 (by decide) c b hb
def reg4 : Pipeline.RegionSeg pcfgs adm (pdats m) () defs₀ 𝒱₀ L lv 4 :=
  regOf m 4 launch4 (W19 m) (W20 m) (fun _ => rfl) (fun _ _ => rfl) fun c => (body_obligation4 (Vr19 m) c).loose

theorem W22_arr (c : Dev nD) (w : Fin cfg5.W) :
    W22 m c (Proc.devRef .tc (Pipeline.arrRef spec5 w)) = (dat5 (Vr21 m) c).arrAt w cfg5.N :=
  out_arr m 5 launch5 (W21 m) (W22 m) (fun _ => rfl) c w
theorem W22_kept (c : Dev nD) (b : Ref sig .tc) (hb : b ≠ main_v134) :
    W22 m c (Proc.devRef .tc b) = W21 m c (Proc.devRef .tc b) :=
  out_kept m 5 launch5 (W21 m) (W22 m) (fun _ => rfl) (fun _ _ => rfl) main_v134 (by decide) c b hb
def reg5 : Pipeline.RegionSeg pcfgs adm (pdats m) () defs₀ 𝒱₀ L lv 5 :=
  regOf m 5 launch5 (W21 m) (W22 m) (fun _ => rfl) (fun _ _ => rfl) fun c => (body_obligation5 (Vr21 m) c).loose

end Cert.KernelIdeal.Hand

end
-- ==== Proof.IRun.lean ====
import proofs.«418858_j49108656062716_3_alg».proof.Proof.IReg0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Tₙ (c : Dev nD) : sProp 𝕄 := StableHlo.held (c : Thread nD τ) (Pipeline.ucRefs τ sig) (W23 m c)

abbrev segs : List (Pipeline.Seg (pcfgs (F := F)) adm (pdats m) () defs₀ 𝒱₀ L lv) :=
  [
    .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .host (hseg hostOps2_1 hostOps2_1_sub hostOps2_1_fresh (W7 m)),
    .host (hseg hostOps2_2 hostOps2_2_sub hostOps2_2_fresh (W8 m)),
    .region (reg2 m),
    .host (hseg hostOps3 hostOps3_sub hostOps3_fresh (W10 m)),
    .host (hseg hostOps3_1 hostOps3_1_sub hostOps3_1_fresh (W11 m)),
    .host (hseg hostOps3_2 hostOps3_2_sub hostOps3_2_fresh (W12 m)),
    .host (hseg hostOps3_3 hostOps3_3_sub hostOps3_3_fresh (W13 m)),
    .host (hseg hostOps3_4 hostOps3_4_sub hostOps3_4_fresh (W14 m)),
    .region (reg3 m),
    .host (hseg hostOps4 hostOps4_sub hostOps4_fresh (W16 m)),
    .host (hseg hostOps4_1 hostOps4_1_sub hostOps4_1_fresh (W17 m)),
    .host (hseg hostOps4_2 hostOps4_2_sub hostOps4_2_fresh (W18 m)),
    .region (reg4 m),
    .host (hseg hostOps5 hostOps5_sub hostOps5_fresh (W20 m)),
    .region (reg5 m),
    .host (hseg hostOps6 hostOps6_sub hostOps6_fresh (W22 m)) ]

theorem main_run (c : Dev nD) : main (F := F) c = Pipeline.Seg.run (segs m) := (main_chain c).trans (by chain_rfl)

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = W23 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := by
      repeat' apply And.intro
      all_goals first | exact fun _ => .rfl | exact fun c => sep_mono .rfl (by iintro ⟨-, H⟩; iexact H))
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m c b)
    (hfin := fun c s' => by
      unfold Tₙ StableHlo.held
      iintro ⟨Hh, HSI⟩
      imodintro
      iapply (pointsTo_read_all (Pipeline.ucRefs τ sig) (fun b => (((c : Thread nD τ)).1, b)) (W23 m c) s')
      isplitl [Hh] <;> iassumption)
    (hQ := fun s h c => h c)

end Cert.KernelIdeal.Hand

end
-- ==== Proof.IKept.lean ====
import proofs.«418858_j49108656062716_3_alg».proof.Proof.IRun

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode

variable {F : FTy → Type} [FloatOps F]

variable (m : (ℓ : Loc nD τ sig) → Buf (Elt F) ℓ) (ρ : Dev nD → PrngReg)

abbrev keptW : List (Ref sig .tc) :=
  hostOps0_W ++ hostOps1_W ++ hostOps1_1_W ++ hostOps1_2_W ++ hostOps2_W ++ hostOps2_1_W ++ hostOps2_2_W ++ hostOps3_W ++ hostOps3_1_W ++ hostOps3_2_W ++ hostOps3_3_W ++ hostOps3_4_W ++ hostOps4_W ++ hostOps4_1_W ++ hostOps4_2_W ++ hostOps5_W ++ hostOps6_W ++ [main_v1, main_v31, main_v58, main_v86, main_v113, main_v134]

-- a buffer no host stretch writes and no region puts out holds at the last boundary what the launch memory held
theorem W23_kept (c : Dev nD) (b : Ref sig .tc) (hb : b ∉ keptW) :
    W23 m c (Proc.devRef .tc b) = m ((c : Thread nD τ).loc b) := by
  simp only [keptW, List.mem_append, not_or] at hb
  obtain ⟨⟨⟨⟨⟨⟨⟨⟨⟨⟨⟨⟨⟨⟨⟨⟨⟨h_hostOps0, h_hostOps1⟩, h_hostOps1_1⟩, h_hostOps1_2⟩, h_hostOps2⟩, h_hostOps2_1⟩, h_hostOps2_2⟩, h_hostOps3⟩, h_hostOps3_1⟩, h_hostOps3_2⟩, h_hostOps3_3⟩, h_hostOps3_4⟩, h_hostOps4⟩, h_hostOps4_1⟩, h_hostOps4_2⟩, h_hostOps5⟩, h_hostOps6⟩, hr⟩ := hb
  exact (StableHlo.after_of_writes_sub hostOps6 _ hostOps6_writes h_hostOps6).trans <|
    (W22_kept m c b (fun e => hr (by subst e; decide))).trans <|
    (StableHlo.after_of_writes_sub hostOps5 _ hostOps5_writes h_hostOps5).trans <|
    (W20_kept m c b (fun e => hr (by subst e; decide))).trans <|
    (StableHlo.after_of_writes_sub hostOps4_2 _ hostOps4_2_writes h_hostOps4_2).trans <|
    (StableHlo.after_of_writes_sub hostOps4_1 _ hostOps4_1_writes h_hostOps4_1).trans <|
    (StableHlo.after_of_writes_sub hostOps4 _ hostOps4_writes h_hostOps4).trans <|
    (W16_kept m c b (fun e => hr (by subst e; decide))).trans <|
    (StableHlo.after_of_writes_sub hostOps3_4 _ hostOps3_4_writes h_hostOps3_4).trans <|
    (StableHlo.after_of_writes_sub hostOps3_3 _ hostOps3_3_writes h_hostOps3_3).trans <|
    (StableHlo.after_of_writes_sub hostOps3_2 _ hostOps3_2_writes h_hostOps3_2).trans <|
    (StableHlo.after_of_writes_sub hostOps3_1 _ hostOps3_1_writes h_hostOps3_1).trans <|
    (StableHlo.after_of_writes_sub hostOps3 _ hostOps3_writes h_hostOps3).trans <|
    (W10_kept m c b (fun e => hr (by subst e; decide))).trans <|
    (StableHlo.after_of_writes_sub hostOps2_2 _ hostOps2_2_writes h_hostOps2_2).trans <|
    (StableHlo.after_of_writes_sub hostOps2_1 _ hostOps2_1_writes h_hostOps2_1).trans <|
    (StableHlo.after_of_writes_sub hostOps2 _ hostOps2_writes h_hostOps2).trans <|
    (W6_kept m c b (fun e => hr (by subst e; decide))).trans <|
    (StableHlo.after_of_writes_sub hostOps1_2 _ hostOps1_2_writes h_hostOps1_2).trans <|
    (StableHlo.after_of_writes_sub hostOps1_1 _ hostOps1_1_writes h_hostOps1_1).trans <|
    (StableHlo.after_of_writes_sub hostOps1 _ hostOps1_writes h_hostOps1).trans <|
    (W2_kept m c b (fun e => hr (by subst e; decide))).trans <|
    StableHlo.after_of_writes_sub hostOps0 _ hostOps0_writes h_hostOps0

-- the run read at every unscoped buffer, and at each of the fourteen arguments, which are as launched
theorem run_args : θ_run defs (onTc (τ := τ) (main (F := F))) ⟨m, fun _ => 0, ρ⟩ (fun r => ∀ c : Dev nD,
      (∀ b ∈ Pipeline.ucRefs τ sig, r.2.mem (((c : Thread nD τ)).1, b) = W23 m c b)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => by
    have a (b : Ref sig .tc) (hu : ¬ (Proc.devRef .tc b : DevRef τ sig).isScoped) (hk : b ∉ keptW) :=
      (h c _ (mem_uc b hu)).trans (W23_kept m c b hk)
    refine ⟨h c, ?_⟩; repeat' apply And.intro
    all_goals exact a _ (by decide) (by decide))
    (run m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => (h c).2) (run_args m ρ)

end Cert.KernelIdeal.Hand

end
-- ==== Proof.RefOps.lean ====
import proofs.«418858_j49108656062716_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev opsRed : List (HloOp τ sig (Elt F)) :=
  [ StableHlo.binary main_arg0 main_arg3 main_v0 ((fun l r => Host.dotGeneral dot_S250000x64_S64x64_S250000x64_1_0_0_1_n_n none l r) : (⟨S250000x64, .f32⟩ : BufTy).Contents (Elt F) → (⟨S64x64, .f32⟩ : BufTy).Contents (Elt F) → (⟨S250000x64, .f32⟩ : BufTy).Contents (Elt F)),
    StableHlo.unary main_arg4 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S250000x64 ![0, 1] bcast_S1x64_S250000x64_0_1 : (⟨S1x64, .f32⟩ : BufTy).Contents (Elt F) → (⟨S250000x64, .f32⟩ : BufTy).Contents (Elt F)),
    StableHlo.binary main_v0 main_v2 main_v3 (addf : (⟨S250000x64, .f32⟩ : BufTy).Contents (Elt F) → (⟨S250000x64, .f32⟩ : BufTy).Contents (Elt F) → (⟨S250000x64, .f32⟩ : BufTy).Contents (Elt F)),
    StableHlo.TRef.nullary main_call0.cst (constant S_ .f32 0x00000000#32),
    StableHlo.TRef.unary main_call0.cst main_call0.v0 (broadcastInDim S250000x64 ![] bcast_S_S250000x64),
    StableHlo.TRef.binary (.of main_v3 : StableHlo.TRef sig ⟨S250000x64, .f32⟩) main_call0.v0 main_call0.v1 maximumf ]

abbrev opsIdx : List (HloOp τ sig (Elt F)) :=
  [ StableHlo.unary main_arg1 main_v5 ((extractStridedSlice S250000x1 ![0, 0] · slices_S250000x4_S250000x1_0_0) : (⟨S250000x4, .i32⟩ : BufTy).Contents (Elt F) → (⟨S250000x1, .i32⟩ : BufTy).Contents (Elt F)),
    StableHlo.reshape main_v5 main_v6 rfl shapeCasts_S250000x1_S250000,
    StableHlo.unary main_arg1 main_v7 ((extractStridedSlice S250000x3 ![0, 1] · slices_S250000x4_S250000x3_0_1) : (⟨S250000x4, .i32⟩ : BufTy).Contents (Elt F) → (⟨S250000x3, .i32⟩ : BufTy).Contents (Elt F)) ]

abbrev opsSeg0 : List (HloOp τ sig (Elt F)) :=
  [ StableHlo.nullary main_c (constantI S_ 32 2#32),
    StableHlo.TRef.unary (.of main_c : StableHlo.TRef sig ⟨S_, .i32⟩) main_call1.v0 id,
    StableHlo.TRef.unary main_call1.v0 main_call1.v1 (broadcastInDim S250000x3 ![] bcast_S_S250000x3),
    StableHlo.TRef.binary (.of main_v7 : StableHlo.TRef sig ⟨S250000x3, .i32⟩) main_call1.v1 main_call1.v2 Host.divsi,
    StableHlo.TRef.unary (.of main_v7 : StableHlo.TRef sig ⟨S250000x3, .i32⟩) main_call1.v3 signi,
    StableHlo.TRef.unary main_call1.v0 main_call1.v4 signi,
    StableHlo.TRef.unary main_call1.v4 main_call1.v5 (broadcastInDim S250000x3 ![] bcast_S_S250000x3),
    StableHlo.TRef.binary main_call1.v3 main_call1.v5 main_call1.v6 (cmpi .ne),
    StableHlo.TRef.unary main_call1.v0 main_call1.v7 (broadcastInDim S250000x3 ![] bcast_S_S250000x3),
    StableHlo.TRef.binary (.of main_v7 : StableHlo.TRef sig ⟨S250000x3, .i32⟩) main_call1.v7 main_call1.v8 Host.remsi,
    StableHlo.TRef.nullary main_call1.c (constantI S_ 32 0#32),
    StableHlo.TRef.unary main_call1.c main_call1.v9 (broadcastInDim S250000x3 ![] bcast_S_S250000x3),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S250000x3 ![] bcast_S_S250000x3),
    StableHlo.TRef.binary main_call1.v2 main_call1.v12 main_call1.v13 subi,
    StableHlo.TRef.ternary main_call1.v11 main_call1.v13 main_call1.v2 main_call1.call0.v0 select,
    StableHlo.nullary main_c_0 (constantI S_ 32 128#32),
    StableHlo.unary main_c_0 main_v9 (broadcastInDim S250000 ![] bcast_S_S250000 : (⟨S_, .i32⟩ : BufTy).Contents (Elt F) → (⟨S250000, .i32⟩ : BufTy).Contents (Elt F)),
    StableHlo.binary main_v6 main_v9 main_v10 (muli : (⟨S250000, .i32⟩ : BufTy).Contents (Elt F) → (⟨S250000, .i32⟩ : BufTy).Contents (Elt F) → (⟨S250000, .i32⟩ : BufTy).Contents (Elt F)),
    StableHlo.unary main_v8 main_v11 ((extractStridedSlice S250000x1 ![0, 0] · slices_S250000x3_S250000x1_0_0) : (⟨S250000x3, .i32⟩ : BufTy).Contents (Elt F) → (⟨S250000x1, .i32⟩ : BufTy).Contents (Elt F)),
    StableHlo.reshape main_v11 main_v12 rfl shapeCasts_S250000x1_S250000,
    StableHlo.binary main_v10 main_v12 main_v13 (addi : (⟨S250000, .i32⟩ : BufTy).Contents (Elt F) → (⟨S250000, .i32⟩ : BufTy).Contents (Elt F) → (⟨S250000, .i32⟩ : BufTy).Contents (Elt F)),
    StableHlo.nullary main_c_1 (constantI S_ 32 128#32),
    StableHlo.unary main_c_1 main_v14 (broadcastInDim S250000 ![] bcast_S_S250000 : (⟨S_, .i32⟩ : BufTy).Contents (Elt F) → (⟨S250000, .i32⟩ : BufTy).Contents (Elt F)),
    StableHlo.binary main_v13 main_v14 main_v15 (muli : (⟨S250000, .i32⟩ : BufTy).Contents (Elt F) → (⟨S250000, .i32⟩ : BufTy).Contents (Elt F) → (⟨S250000, .i32⟩ : BufTy).Contents (Elt F)),
    StableHlo.unary main_v8 main_v16 ((extractStridedSlice S250000x1 ![0, 1] · slices_S250000x3_S250000x1_0_1) : (⟨S250000x3, .i32⟩ : BufTy).Contents (Elt F) → (⟨S250000x1, .i32⟩ : BufTy).Contents (Elt F)),
    StableHlo.reshape main_v16 main_v17 rfl shapeCasts_S250000x1_S250000,
    StableHlo.binary main_v15 main_v17 main_v18 (addi : (⟨S250000, .i32⟩ : BufTy).Contents (Elt F) → (⟨S250000, .i32⟩ : BufTy).Contents (Elt F) → (⟨S250000, .i32⟩ : BufTy).Contents (Elt F)),
    StableHlo.nullary main_c_2 (constantI S_ 32 16#32),
    StableHlo.unary main_c_2 main_v19 (broadcastInDim S250000 ![] bcast_S_S250000 : (⟨S_, .i32⟩ : BufTy).Contents (Elt F) → (⟨S250000, .i32⟩ : BufTy).Contents (Elt F)),
    StableHlo.binary main_v18 main_v19 main_v20 (muli : (⟨S250000, .i32⟩ : BufTy).Contents (Elt F) → (⟨S250000, .i32⟩ : BufTy).Contents (Elt F) → (⟨S250000, .i32⟩ : BufTy).Contents (Elt F)),
    StableHlo.unary main_v8 main_v21 ((extractStridedSlice S250000x1 ![0, 2] · slices_S250000x3_S250000x1_0_2) : (⟨S250000x3, .i32⟩ : BufTy).Contents (Elt F) → (⟨S250000x1, .i32⟩ : BufTy).Contents (Elt F)),
    StableHlo.reshape main_v21 main_v22 rfl shapeCasts_S250000x1_S250000,
    StableHlo.binary main_v20 main_v22 main_v23 (addi : (⟨S250000, .i32⟩ : BufTy).Contents (Elt F) → (⟨S250000, .i32⟩ : BufTy).Contents (Elt F) → (⟨S250000, .i32⟩ : BufTy).Contents (Elt F)) ]

abbrev opsPool0 : List (HloOp τ sig (Elt F)) :=
  [ StableHlo.nullary main_cst (constant S_ .f32 0x00000000#32),
    StableHlo.unary main_cst main_v24 (broadcastInDim S524288x64 ![] bcast_S_S524288x64 : (⟨S_, .f32⟩ : BufTy).Contents (Elt F) → (⟨S524288x64, .f32⟩ : BufTy).Contents (Elt F)),
    StableHlo.unary main_v23 main_v25 (broadcastInDim S250000x1 ![0] bcast_S250000_S250000x1_0 : (⟨S250000, .i32⟩ : BufTy).Contents (Elt F) → (⟨S250000x1, .i32⟩ : BufTy).Contents (Elt F)),
    StableHlo.ternary main_v24 main_v25 main_v4 main_v26 ((fun x i u => Host.scatterAdd scatter_S524288x64_S250000x1_S250000x64_1_0_0_1 x i u) : (⟨S524288x64, .f32⟩ : BufTy).Contents (Elt F) → (⟨S250000x1, .i32⟩ : BufTy).Contents (Elt F) → (⟨S250000x64, .f32⟩ : BufTy).Contents (Elt F) → (⟨S524288x64, .f32⟩ : BufTy).Contents (Elt F)),
    StableHlo.nullary main_cst_3 (constant S_ .f32 0x3F800000#32),
    StableHlo.unary main_cst_3 main_v27 (broadcastInDim S250000x1 ![] bcast_S_S250000x1 : (⟨S_, .f32⟩ : BufTy).Contents (Elt F) → (⟨S250000x1, .f32⟩ : BufTy).Contents (Elt F)),
    StableHlo.nullary main_cst_4 (constant S_ .f32 0x00000000#32),
    StableHlo.unary main_cst_4 main_v28 (broadcastInDim S524288x1 ![] bcast_S_S524288x1 : (⟨S_, .f32⟩ : BufTy).Contents (Elt F) → (⟨S524288x1, .f32⟩ : BufTy).Contents (Elt F)),
    StableHlo.unary main_v23 main_v29 (broadcastInDim S250000x1 ![0] bcast_S250000_S250000x1_0 : (⟨S250000, .i32⟩ : BufTy).Contents (Elt F) → (⟨S250000x1, .i32⟩ : BufTy).Contents (Elt F)),
    StableHlo.ternary main_v28 main_v29 main_v27 main_v30 ((fun x i u => Host.scatterAdd scatter_S524288x1_S250000x1_S250000x1_1_0_0_1 x i u) : (⟨S524288x1, .f32⟩ : BufTy).Contents (Elt F) → (⟨S250000x1, .i32⟩ : BufTy).Contents (Elt F) → (⟨S250000x1, .f32⟩ : BufTy).Contents (Elt F) → (⟨S524288x1, .f32⟩ : BufTy).Contents (Elt F)),
    StableHlo.nullary main_cst_5 (constant S_ .f32 0x3F800000#32),
    StableHlo.unary main_cst_5 main_v31 (broadcastInDim S524288x1 ![] bcast_S_S524288x1 : (⟨S_, .f32⟩ : BufTy).Contents (Elt F) → (⟨S524288x1, .f32⟩ : BufTy).Contents (Elt F)),
    StableHlo.binary main_v30 main_v31 main_v32 (maximumf : (⟨S524288x1, .f32⟩ : BufTy).Contents (Elt F) → (⟨S524288x1, .f32⟩ : BufTy).Contents (Elt F) → (⟨S524288x1, .f32⟩ : BufTy).Contents (Elt F)),
    StableHlo.unary main_v32 main_v33 (broadcastInDim S524288x64 ![0, 1] bcast_S524288x1_S524288x64_0_1 : (⟨S524288x1, .f32⟩ : BufTy).Contents (Elt F) → (⟨S524288x64, .f32⟩ : BufTy).Contents (Elt F)),
    StableHlo.binary main_v26 main_v33 main_v34 (Host.divf : (⟨S524288x64, .f32⟩ : BufTy).Contents (Elt F) → (⟨S524288x64, .f32⟩ : BufTy).Contents (Elt F) → (⟨S524288x64, .f32⟩ : BufTy).Contents (Elt F)),
    StableHlo.unary main_arg5 main_v35 ((extractStridedSlice S1x64x32 ![0, 0, 0] · slices_S4x64x32_S1x64x32_0_0_0) : (⟨S4x64x32, .f32⟩ : BufTy).Contents (Elt F) → (⟨S1x64x32, .f32⟩ : BufTy).Contents (Elt F)),
    StableHlo.reshape main_v35 main_v36 rfl shapeCasts_S1x64x32_S64x32,
    StableHlo.binary main_v34 main_v36 main_v37 ((fun l r => Host.dotGeneral dot_S524288x64_S64x32_S524288x32_1_0_0_1_n_n none l r) : (⟨S524288x64, .f32⟩ : BufTy).Contents (Elt F) → (⟨S64x32, .f32⟩ : BufTy).Contents (Elt F) → (⟨S524288x32, .f32⟩ : BufTy).Contents (Elt F)),
    StableHlo.unary main_arg6 main_v38 ((extractStridedSlice S1x32 ![0, 0] · slices_S4x32_S1x32_0_0) : (⟨S4x32, .f32⟩ : BufTy).Contents (Elt F) → (⟨S1x32, .f32⟩ : BufTy).Contents (Elt F)),
    StableHlo.reshape main_v38 main_v39 rfl shapeCasts_S1x32_S32,
    StableHlo.unary main_v39 main_v40 (broadcastInDim S1x32 ![1] bcast_S32_S1x32_1 : (⟨S32, .f32⟩ : BufTy).Contents (Elt F) → (⟨S1x32, .f32⟩ : BufTy).Contents (Elt F)),
    StableHlo.unary main_v40 main_v41 (broadcastInDim S524288x32 ![0, 1] bcast_S1x32_S524288x32_0_1 : (⟨S1x32, .f32⟩ : BufTy).Contents (Elt F) → (⟨S524288x32, .f32⟩ : BufTy).Contents (Elt F)),
    StableHlo.binary main_v37 main_v41 main_v42 (addf : (⟨S524288x32, .f32⟩ : BufTy).Contents (Elt F) → (⟨S524288x32, .f32⟩ : BufTy).Contents (Elt F) → (⟨S524288x32, .f32⟩ : BufTy).Contents (Elt F)),
    StableHlo.TRef.nullary main_call2.cst (constant S_ .f32 0x00000000#32),
    StableHlo.TRef.unary main_call2.cst main_call2.v0 (broadcastInDim S524288x32 ![] bcast_S_S524288x32),
    StableHlo.TRef.binary (.of main_v42 : StableHlo.TRef sig ⟨S524288x32, .f32⟩) main_call2.v0 main_call2.v1 maximumf ]

abbrev opsGather0 : List (HloOp τ sig (Elt F)) :=
  [ StableHlo.nullary main_c_6 (constantI S_ 32 0#32),
    StableHlo.unary main_c_6 main_v44 (broadcastInDim S250000 ![] bcast_S_S250000 : (⟨S_, .i32⟩ : BufTy).Contents (Elt F) → (⟨S250000, .i32⟩ : BufTy).Contents (Elt F)),
    StableHlo.binary main_v23 main_v44 main_v45 (cmpi .slt : (⟨S250000, .i32⟩ : BufTy).Contents (Elt F) → (⟨S250000, .i32⟩ : BufTy).Contents (Elt F) → (⟨S250000, .i1⟩ : BufTy).Contents (Elt F)),
    StableHlo.nullary main_c_7 (constantI S_ 32 524288#32),
    StableHlo.unary main_c_7 main_v46 (broadcastInDim S250000 ![] bcast_S_S250000 : (⟨S_, .i32⟩ : BufTy).Contents (Elt F) → (⟨S250000, .i32⟩ : BufTy).Contents (Elt F)),
    StableHlo.binary main_v23 main_v46 main_v47 (addi : (⟨S250000, .i32⟩ : BufTy).Contents (Elt F) → (⟨S250000, .i32⟩ : BufTy).Contents (Elt F) → (⟨S250000, .i32⟩ : BufTy).Contents (Elt F)),
    StableHlo.ternary main_v45 main_v47 main_v23 main_v48 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v48 main_v49 (broadcastInDim S250000x1 ![0] bcast_S250000_S250000x1_0 : (⟨S250000, .i32⟩ : BufTy).Contents (Elt F) → (⟨S250000x1, .i32⟩ : BufTy).Contents (Elt F)),
    StableHlo.binary main_v43 main_v49 main_v50 ((fun x i => Host.gather gather_S524288x32_S250000x1_S250000x32_1_0_n_n_0_1_132 x i) : (⟨S524288x32, .f32⟩ : BufTy).Contents (Elt F) → (⟨S250000x1, .i32⟩ : BufTy).Contents (Elt F) → (⟨S250000x32, .f32⟩ : BufTy).Contents (Elt F)) ]

abbrev opsSeg1 : List (HloOp τ sig (Elt F)) :=
  [ StableHlo.nullary main_c_8 (constantI S_ 32 4#32),
    StableHlo.TRef.unary (.of main_c_8 : StableHlo.TRef sig ⟨S_, .i32⟩) main_call3.v0 id,
    StableHlo.TRef.unary main_call3.v0 main_call3.v1 (broadcastInDim S250000x3 ![] bcast_S_S250000x3),
    StableHlo.TRef.binary (.of main_v7 : StableHlo.TRef sig ⟨S250000x3, .i32⟩) main_call3.v1 main_call3.v2 Host.divsi,
    StableHlo.TRef.unary (.of main_v7 : StableHlo.TRef sig ⟨S250000x3, .i32⟩) main_call3.v3 signi,
    StableHlo.TRef.unary main_call3.v0 main_call3.v4 signi,
    StableHlo.TRef.unary main_call3.v4 main_call3.v5 (broadcastInDim S250000x3 ![] bcast_S_S250000x3),
    StableHlo.TRef.binary main_call3.v3 main_call3.v5 main_call3.v6 (cmpi .ne),
    StableHlo.TRef.unary main_call3.v0 main_call3.v7 (broadcastInDim S250000x3 ![] bcast_S_S250000x3),
    StableHlo.TRef.binary (.of main_v7 : StableHlo.TRef sig ⟨S250000x3, .i32⟩) main_call3.v7 main_call3.v8 Host.remsi,
    StableHlo.TRef.nullary main_call3.c (constantI S_ 32 0#32),
    StableHlo.TRef.unary main_call3.c main_call3.v9 (broadcastInDim S250000x3 ![] bcast_S_S250000x3),
    StableHlo.TRef.binary main_call3.v8 main_call3.v9 main_call3.v10 (cmpi .ne),
    StableHlo.TRef.binary main_call3.v6 main_call3.v10 main_call3.v11 andi,
    StableHlo.TRef.nullary main_call3.c_0 (constantI S_ 32 1#32),
    StableHlo.TRef.unary main_call3.c_0 main_call3.v12 (broadcastInDim S250000x3 ![] bcast_S_S250000x3),
    StableHlo.TRef.binary main_call3.v2 main_call3.v12 main_call3.v13 subi,
    StableHlo.TRef.ternary main_call3.v11 main_call3.v13 main_call3.v2 main_call3.call0.v0 select,
    StableHlo.nullary main_c_9 (constantI S_ 32 64#32),
    StableHlo.unary main_c_9 main_v52 (broadcastInDim S250000 ![] bcast_S_S250000 : (⟨S_, .i32⟩ : BufTy).Contents (Elt F) → (⟨S250000, .i32⟩ : BufTy).Contents (Elt F)),
    StableHlo.binary main_v6 main_v52 main_v53 (muli : (⟨S250000, .i32⟩ : BufTy).Contents (Elt F) → (⟨S250000, .i32⟩ : BufTy).Contents (Elt F) → (⟨S250000, .i32⟩ : BufTy).Contents (Elt F)),
    StableHlo.unary main_v51 main_v54 ((extractStridedSlice S250000x1 ![0, 0] · slices_S250000x3_S250000x1_0_0) : (⟨S250000x3, .i32⟩ : BufTy).Contents (Elt F) → (⟨S250000x1, .i32⟩ : BufTy).Contents (Elt F)),
    StableHlo.reshape main_v54 main_v55 rfl shapeCasts_S250000x1_S250000,
    StableHlo.binary main_v53 main_v55 main_v56 (addi : (⟨S250000, .i32⟩ : BufTy).Contents (Elt F) → (⟨S250000, .i32⟩ : BufTy).Contents (Elt F) → (⟨S250000, .i32⟩ : BufTy).Contents (Elt F)),
    StableHlo.nullary main_c_10 (constantI S_ 32 64#32),
    StableHlo.unary main_c_10 main_v57 (broadcastInDim S250000 ![] bcast_S_S250000 : (⟨S_, .i32⟩ : BufTy).Contents (Elt F) → (⟨S250000, .i32⟩ : BufTy).Contents (Elt F)),
    StableHlo.binary main_v56 main_v57 main_v58 (muli : (⟨S250000, .i32⟩ : BufTy).Contents (Elt F) → (⟨S250000, .i32⟩ : BufTy).Contents (Elt F) → (⟨S250000, .i32⟩ : BufTy).Contents (Elt F)),
    StableHlo.unary main_v51 main_v59 ((extractStridedSlice S250000x1 ![0, 1] · slices_S250000x3_S250000x1_0_1) : (⟨S250000x3, .i32⟩ : BufTy).Contents (Elt F) → (⟨S250000x1, .i32⟩ : BufTy).Contents (Elt F)),
    StableHlo.reshape main_v59 main_v60 rfl shapeCasts_S250000x1_S250000,
    StableHlo.binary main_v58 main_v60 main_v61 (addi : (⟨S250000, .i32⟩ : BufTy).Contents (Elt F) → (⟨S250000, .i32⟩ : BufTy).Contents (Elt F) → (⟨S250000, .i32⟩ : BufTy).Contents (Elt F)),
    StableHlo.nullary main_c_11 (constantI S_ 32 8#32),
    StableHlo.unary main_c_11 main_v62 (broadcastInDim S250000 ![] bcast_S_S250000 : (⟨S_, .i32⟩ : BufTy).Contents (Elt F) → (⟨S250000, .i32⟩ : BufTy).Contents (Elt F)),
    StableHlo.binary main_v61 main_v62 main_v63 (muli : (⟨S250000, .i32⟩ : BufTy).Contents (Elt F) → (⟨S250000, .i32⟩ : BufTy).Contents (Elt F) → (⟨S250000, .i32⟩ : BufTy).Contents (Elt F)),
    StableHlo.unary main_v51 main_v64 ((extractStridedSlice S250000x1 ![0, 2] · slices_S250000x3_S250000x1_0_2) : (⟨S250000x3, .i32⟩ : BufTy).Contents (Elt F) → (⟨S250000x1, .i32⟩ : BufTy).Contents (Elt F)),
    StableHlo.reshape main_v64 main_v65 rfl shapeCasts_S250000x1_S250000,
    StableHlo.binary main_v63 main_v65 main_v66 (addi : (⟨S250000, .i32⟩ : BufTy).Contents (Elt F) → (⟨S250000, .i32⟩ : BufTy).Contents (Elt F) → (⟨S250000, .i32⟩ : BufTy).Contents (Elt F)) ]

abbrev opsPool1 : List (HloOp τ sig (Elt F)) :=
  [ StableHlo.nullary main_cst_12 (constant S_ .f32 0x00000000#32),
    StableHlo.unary main_cst_12 main_v67 (broadcastInDim S65536x64 ![] bcast_S_S65536x64 : (⟨S_, .f32⟩ : BufTy).Contents (Elt F) → (⟨S65536x64, .f32⟩ : BufTy).Contents (Elt F)),
    StableHlo.unary main_v66 main_v68 (broadcastInDim S250000x1 ![0] bcast_S250000_S250000x1_0 : (⟨S250000, .i32⟩ : BufTy).Contents (Elt F) → (⟨S250000x1, .i32⟩ : BufTy).Contents (Elt F)),
    StableHlo.ternary main_v67 main_v68 main_v4 main_v69 ((fun x i u => Host.scatterAdd scatter_S65536x64_S250000x1_S250000x64_1_0_0_1 x i u) : (⟨S65536x64, .f32⟩ : BufTy).Contents (Elt F) → (⟨S250000x1, .i32⟩ : BufTy).Contents (Elt F) → (⟨S250000x64, .f32⟩ : BufTy).Contents (Elt F) → (⟨S65536x64, .f32⟩ : BufTy).Contents (Elt F)),
    StableHlo.nullary main_cst_13 (constant S_ .f32 0x3F800000#32),
    StableHlo.unary main_cst_13 main_v70 (broadcastInDim S250000x1 ![] bcast_S_S250000x1 : (⟨S_, .f32⟩ : BufTy).Contents (Elt F) → (⟨S250000x1, .f32⟩ : BufTy).Contents (Elt F)),
    StableHlo.nullary main_cst_14 (constant S_ .f32 0x00000000#32),
    StableHlo.unary main_cst_14 main_v71 (broadcastInDim S65536x1 ![] bcast_S_S65536x1 : (⟨S_, .f32⟩ : BufTy).Contents (Elt F) → (⟨S65536x1, .f32⟩ : BufTy).Contents (Elt F)),
    StableHlo.unary main_v66 main_v72 (broadcastInDim S250000x1 ![0] bcast_S250000_S250000x1_0 : (⟨S250000, .i32⟩ : BufTy).Contents (Elt F) → (⟨S250000x1, .i32⟩ : BufTy).Contents (Elt F)),
    StableHlo.ternary main_v71 main_v72 main_v70 main_v73 ((fun x i u => Host.scatterAdd scatter_S65536x1_S250000x1_S250000x1_1_0_0_1 x i u) : (⟨S65536x1, .f32⟩ : BufTy).Contents (Elt F) → (⟨S250000x1, .i32⟩ : BufTy).Contents (Elt F) → (⟨S250000x1, .f32⟩ : BufTy).Contents (Elt F) → (⟨S65536x1, .f32⟩ : BufTy).Contents (Elt F)),
    StableHlo.nullary main_cst_15 (constant S_ .f32 0x3F800000#32),
    StableHlo.unary main_cst_15 main_v74 (broadcastInDim S65536x1 ![] bcast_S_S65536x1 : (⟨S_, .f32⟩ : BufTy).Contents (Elt F) → (⟨S65536x1, .f32⟩ : BufTy).Contents (Elt F)),
    StableHlo.binary main_v73 main_v74 main_v75 (maximumf : (⟨S65536x1, .f32⟩ : BufTy).Contents (Elt F) → (⟨S65536x1, .f32⟩ : BufTy).Contents (Elt F) → (⟨S65536x1, .f32⟩ : BufTy).Contents (Elt F)),
    StableHlo.unary main_v75 main_v76 (broadcastInDim S65536x64 ![0, 1] bcast_S65536x1_S65536x64_0_1 : (⟨S65536x1, .f32⟩ : BufTy).Contents (Elt F) → (⟨S65536x64, .f32⟩ : BufTy).Contents (Elt F)),
    StableHlo.binary main_v69 main_v76 main_v77 (Host.divf : (⟨S65536x64, .f32⟩ : BufTy).Contents (Elt F) → (⟨S65536x64, .f32⟩ : BufTy).Contents (Elt F) → (⟨S65536x64, .f32⟩ : BufTy).Contents (Elt F)),
    StableHlo.unary main_arg5 main_v78 ((extractStridedSlice S1x64x32 ![1, 0, 0] · slices_S4x64x32_S1x64x32_1_0_0) : (⟨S4x64x32, .f32⟩ : BufTy).Contents (Elt F) → (⟨S1x64x32, .f32⟩ : BufTy).Contents (Elt F)),
    StableHlo.reshape main_v78 main_v79 rfl shapeCasts_S1x64x32_S64x32,
    StableHlo.binary main_v77 main_v79 main_v80 ((fun l r => Host.dotGeneral dot_S65536x64_S64x32_S65536x32_1_0_0_1_n_n none l r) : (⟨S65536x64, .f32⟩ : BufTy).Contents (Elt F) → (⟨S64x32, .f32⟩ : BufTy).Contents (Elt F) → (⟨S65536x32, .f32⟩ : BufTy).Contents (Elt F)),
    StableHlo.unary main_arg6 main_v81 ((extractStridedSlice S1x32 ![1, 0] · slices_S4x32_S1x32_1_0) : (⟨S4x32, .f32⟩ : BufTy).Contents (Elt F) → (⟨S1x32, .f32⟩ : BufTy).Contents (Elt F)),
    StableHlo.reshape main_v81 main_v82 rfl shapeCasts_S1x32_S32,
    StableHlo.unary main_v82 main_v83 (broadcastInDim S1x32 ![1] bcast_S32_S1x32_1 : (⟨S32, .f32⟩ : BufTy).Contents (Elt F) → (⟨S1x32, .f32⟩ : BufTy).Contents (Elt F)),
    StableHlo.unary main_v83 main_v84 (broadcastInDim S65536x32 ![0, 1] bcast_S1x32_S65536x32_0_1 : (⟨S1x32, .f32⟩ : BufTy).Contents (Elt F) → (⟨S65536x32, .f32⟩ : BufTy).Contents (Elt F)),
    StableHlo.binary main_v80 main_v84 main_v85 (addf : (⟨S65536x32, .f32⟩ : BufTy).Contents (Elt F) → (⟨S65536x32, .f32⟩ : BufTy).Contents (Elt F) → (⟨S65536x32, .f32⟩ : BufTy).Contents (Elt F)),
    StableHlo.TRef.nullary main_call4.cst (constant S_ .f32 0x00000000#32),
    StableHlo.TRef.unary main_call4.cst main_call4.v0 (broadcastInDim S65536x32 ![] bcast_S_S65536x32),
    StableHlo.TRef.binary (.of main_v85 : StableHlo.TRef sig ⟨S65536x32, .f32⟩) main_call4.v0 main_call4.v1 maximumf ]

abbrev opsGather1 : List (HloOp τ sig (Elt F)) :=
  [ StableHlo.nullary main_c_16 (constantI S_ 32 0#32),
    StableHlo.unary main_c_16 main_v87 (broadcastInDim S250000 ![] bcast_S_S250000 : (⟨S_, .i32⟩ : BufTy).Contents (Elt F) → (⟨S250000, .i32⟩ : BufTy).Contents (Elt F)),
    StableHlo.binary main_v66 main_v87 main_v88 (cmpi .slt : (⟨S250000, .i32⟩ : BufTy).Contents (Elt F) → (⟨S250000, .i32⟩ : BufTy).Contents (Elt F) → (⟨S250000, .i1⟩ : BufTy).Contents (Elt F)),
    StableHlo.nullary main_c_17 (constantI S_ 32 65536#32),
    StableHlo.unary main_c_17 main_v89 (broadcastInDim S250000 ![] bcast_S_S250000 : (⟨S_, .i32⟩ : BufTy).Contents (Elt F) → (⟨S250000, .i32⟩ : BufTy).Contents (Elt F)),
    StableHlo.binary main_v66 main_v89 main_v90 (addi : (⟨S250000, .i32⟩ : BufTy).Contents (Elt F) → (⟨S250000, .i32⟩ : BufTy).Contents (Elt F) → (⟨S250000, .i32⟩ : BufTy).Contents (Elt F)),
    StableHlo.ternary main_v88 main_v90 main_v66 main_v91 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v91 main_v92 (broadcastInDim S250000x1 ![0] bcast_S250000_S250000x1_0 : (⟨S250000, .i32⟩ : BufTy).Contents (Elt F) → (⟨S250000x1, .i32⟩ : BufTy).Contents (Elt F)),
    StableHlo.binary main_v86 main_v92 main_v93 ((fun x i => Host.gather gather_S65536x32_S250000x1_S250000x32_1_0_n_n_0_1_132 x i) : (⟨S65536x32, .f32⟩ : BufTy).Contents (Elt F) → (⟨S250000x1, .i32⟩ : BufTy).Contents (Elt F) → (⟨S250000x32, .f32⟩ : BufTy).Contents (Elt F)) ]

abbrev opsSeg2 : List (HloOp τ sig (Elt F)) :=
  [ StableHlo.nullary main_c_18 (constantI S_ 32 6#32),
    StableHlo.TRef.unary (.of main_c_18 : StableHlo.TRef sig ⟨S_, .i32⟩) main_call5.v0 id,
    StableHlo.TRef.unary main_call5.v0 main_call5.v1 (broadcastInDim S250000x3 ![] bcast_S_S250000x3),
    StableHlo.TRef.binary (.of main_v7 : StableHlo.TRef sig ⟨S250000x3, .i32⟩) main_call5.v1 main_call5.v2 Host.divsi,
    StableHlo.TRef.unary (.of main_v7 : StableHlo.TRef sig ⟨S250000x3, .i32⟩) main_call5.v3 signi,
    StableHlo.TRef.unary main_call5.v0 main_call5.v4 signi,
    StableHlo.TRef.unary main_call5.v4 main_call5.v5 (broadcastInDim S250000x3 ![] bcast_S_S250000x3),
    StableHlo.TRef.binary main_call5.v3 main_call5.v5 main_call5.v6 (cmpi .ne),
    StableHlo.TRef.unary main_call5.v0 main_call5.v7 (broadcastInDim S250000x3 ![] bcast_S_S250000x3),
    StableHlo.TRef.binary (.of main_v7 : StableHlo.TRef sig ⟨S250000x3, .i32⟩) main_call5.v7 main_call5.v8 Host.remsi,
    StableHlo.TRef.nullary main_call5.c (constantI S_ 32 0#32),
    StableHlo.TRef.unary main_call5.c main_call5.v9 (broadcastInDim S250000x3 ![] bcast_S_S250000x3),
    StableHlo.TRef.binary main_call5.v8 main_call5.v9 main_call5.v10 (cmpi .ne),
    StableHlo.TRef.binary main_call5.v6 main_call5.v10 main_call5.v11 andi,
    StableHlo.TRef.nullary main_call5.c_0 (constantI S_ 32 1#32),
    StableHlo.TRef.unary main_call5.c_0 main_call5.v12 (broadcastInDim S250000x3 ![] bcast_S_S250000x3),
    StableHlo.TRef.binary main_call5.v2 main_call5.v12 main_call5.v13 subi,
    StableHlo.TRef.ternary main_call5.v11 main_call5.v13 main_call5.v2 main_call5.call0.v0 select,
    StableHlo.nullary main_c_19 (constantI S_ 32 43#32),
    StableHlo.unary main_c_19 main_v95 (broadcastInDim S250000 ![] bcast_S_S250000 : (⟨S_, .i32⟩ : BufTy).Contents (Elt F) → (⟨S250000, .i32⟩ : BufTy).Contents (Elt F)),
    StableHlo.binary main_v6 main_v95 main_v96 (muli : (⟨S250000, .i32⟩ : BufTy).Contents (Elt F) → (⟨S250000, .i32⟩ : BufTy).Contents (Elt F) → (⟨S250000, .i32⟩ : BufTy).Contents (Elt F)),
    StableHlo.unary main_v94 main_v97 ((extractStridedSlice S250000x1 ![0, 0] · slices_S250000x3_S250000x1_0_0) : (⟨S250000x3, .i32⟩ : BufTy).Contents (Elt F) → (⟨S250000x1, .i32⟩ : BufTy).Contents (Elt F)),
    StableHlo.reshape main_v97 main_v98 rfl shapeCasts_S250000x1_S250000,
    StableHlo.binary main_v96 main_v98 main_v99 (addi : (⟨S250000, .i32⟩ : BufTy).Contents (Elt F) → (⟨S250000, .i32⟩ : BufTy).Contents (Elt F) → (⟨S250000, .i32⟩ : BufTy).Contents (Elt F)),
    StableHlo.nullary main_c_20 (constantI S_ 32 43#32),
    StableHlo.unary main_c_20 main_v100 (broadcastInDim S250000 ![] bcast_S_S250000 : (⟨S_, .i32⟩ : BufTy).Contents (Elt F) → (⟨S250000, .i32⟩ : BufTy).Contents (Elt F)),
    StableHlo.binary main_v99 main_v100 main_v101 (muli : (⟨S250000, .i32⟩ : BufTy).Contents (Elt F) → (⟨S250000, .i32⟩ : BufTy).Contents (Elt F) → (⟨S250000, .i32⟩ : BufTy).Contents (Elt F)),
    StableHlo.unary main_v94 main_v102 ((extractStridedSlice S250000x1 ![0, 1] · slices_S250000x3_S250000x1_0_1) : (⟨S250000x3, .i32⟩ : BufTy).Contents (Elt F) → (⟨S250000x1, .i32⟩ : BufTy).Contents (Elt F)),
    StableHlo.reshape main_v102 main_v103 rfl shapeCasts_S250000x1_S250000,
    StableHlo.binary main_v101 main_v103 main_v104 (addi : (⟨S250000, .i32⟩ : BufTy).Contents (Elt F) → (⟨S250000, .i32⟩ : BufTy).Contents (Elt F) → (⟨S250000, .i32⟩ : BufTy).Contents (Elt F)),
    StableHlo.nullary main_c_21 (constantI S_ 32 6#32),
    StableHlo.unary main_c_21 main_v105 (broadcastInDim S250000 ![] bcast_S_S250000 : (⟨S_, .i32⟩ : BufTy).Contents (Elt F) → (⟨S250000, .i32⟩ : BufTy).Contents (Elt F)),
    StableHlo.binary main_v104 main_v105 main_v106 (muli : (⟨S250000, .i32⟩ : BufTy).Contents (Elt F) → (⟨S250000, .i32⟩ : BufTy).Contents (Elt F) → (⟨S250000, .i32⟩ : BufTy).Contents (Elt F)),
    StableHlo.unary main_v94 main_v107 ((extractStridedSlice S250000x1 ![0, 2] · slices_S250000x3_S250000x1_0_2) : (⟨S250000x3, .i32⟩ : BufTy).Contents (Elt F) → (⟨S250000x1, .i32⟩ : BufTy).Contents (Elt F)),
    StableHlo.reshape main_v107 main_v108 rfl shapeCasts_S250000x1_S250000,
    StableHlo.binary main_v106 main_v108 main_v109 (addi : (⟨S250000, .i32⟩ : BufTy).Contents (Elt F) → (⟨S250000, .i32⟩ : BufTy).Contents (Elt F) → (⟨S250000, .i32⟩ : BufTy).Contents (Elt F)) ]

abbrev opsPool2 : List (HloOp τ sig (Elt F)) :=
  [ StableHlo.nullary main_cst_22 (constant S_ .f32 0x00000000#32),
    StableHlo.unary main_cst_22 main_v110 (broadcastInDim S22188x64 ![] bcast_S_S22188x64 : (⟨S_, .f32⟩ : BufTy).Contents (Elt F) → (⟨S22188x64, .f32⟩ : BufTy).Contents (Elt F)),
    StableHlo.unary main_v109 main_v111 (broadcastInDim S250000x1 ![0] bcast_S250000_S250000x1_0 : (⟨S250000, .i32⟩ : BufTy).Contents (Elt F) → (⟨S250000x1, .i32⟩ : BufTy).Contents (Elt F)),
    StableHlo.ternary main_v110 main_v111 main_v4 main_v112 ((fun x i u => Host.scatterAdd scatter_S22188x64_S250000x1_S250000x64_1_0_0_1 x i u) : (⟨S22188x64, .f32⟩ : BufTy).Contents (Elt F) → (⟨S250000x1, .i32⟩ : BufTy).Contents (Elt F) → (⟨S250000x64, .f32⟩ : BufTy).Contents (Elt F) → (⟨S22188x64, .f32⟩ : BufTy).Contents (Elt F)),
    StableHlo.nullary main_cst_23 (constant S_ .f32 0x3F800000#32),
    StableHlo.unary main_cst_23 main_v113 (broadcastInDim S250000x1 ![] bcast_S_S250000x1 : (⟨S_, .f32⟩ : BufTy).Contents (Elt F) → (⟨S250000x1, .f32⟩ : BufTy).Contents (Elt F)),
    StableHlo.nullary main_cst_24 (constant S_ .f32 0x00000000#32),
    StableHlo.unary main_cst_24 main_v114 (broadcastInDim S22188x1 ![] bcast_S_S22188x1 : (⟨S_, .f32⟩ : BufTy).Contents (Elt F) → (⟨S22188x1, .f32⟩ : BufTy).Contents (Elt F)),
    StableHlo.unary main_v109 main_v115 (broadcastInDim S250000x1 ![0] bcast_S250000_S250000x1_0 : (⟨S250000, .i32⟩ : BufTy).Contents (Elt F) → (⟨S250000x1, .i32⟩ : BufTy).Contents (Elt F)),
    StableHlo.ternary main_v114 main_v115 main_v113 main_v116 ((fun x i u => Host.scatterAdd scatter_S22188x1_S250000x1_S250000x1_1_0_0_1 x i u) : (⟨S22188x1, .f32⟩ : BufTy).Contents (Elt F) → (⟨S250000x1, .i32⟩ : BufTy).Contents (Elt F) → (⟨S250000x1, .f32⟩ : BufTy).Contents (Elt F) → (⟨S22188x1, .f32⟩ : BufTy).Contents (Elt F)),
    StableHlo.nullary main_cst_25 (constant S_ .f32 0x3F800000#32),
    StableHlo.unary main_cst_25 main_v117 (broadcastInDim S22188x1 ![] bcast_S_S22188x1 : (⟨S_, .f32⟩ : BufTy).Contents (Elt F) → (⟨S22188x1, .f32⟩ : BufTy).Contents (Elt F)),
    StableHlo.binary main_v116 main_v117 main_v118 (maximumf : (⟨S22188x1, .f32⟩ : BufTy).Contents (Elt F) → (⟨S22188x1, .f32⟩ : BufTy).Contents (Elt F) → (⟨S22188x1, .f32⟩ : BufTy).Contents (Elt F)),
    StableHlo.unary main_v118 main_v119 (broadcastInDim S22188x64 ![0, 1] bcast_S22188x1_S22188x64_0_1 : (⟨S22188x1, .f32⟩ : BufTy).Contents (Elt F) → (⟨S22188x64, .f32⟩ : BufTy).Contents (Elt F)),
    StableHlo.binary main_v112 main_v119 main_v120 (Host.divf : (⟨S22188x64, .f32⟩ : BufTy).Contents (Elt F) → (⟨S22188x64, .f32⟩ : BufTy).Contents (Elt F) → (⟨S22188x64, .f32⟩ : BufTy).Contents (Elt F)),
    StableHlo.unary main_arg5 main_v121 ((extractStridedSlice S1x64x32 ![2, 0, 0] · slices_S4x64x32_S1x64x32_2_0_0) : (⟨S4x64x32, .f32⟩ : BufTy).Contents (Elt F) → (⟨S1x64x32, .f32⟩ : BufTy).Contents (Elt F)),
    StableHlo.reshape main_v121 main_v122 rfl shapeCasts_S1x64x32_S64x32,
    StableHlo.binary main_v120 main_v122 main_v123 ((fun l r => Host.dotGeneral dot_S22188x64_S64x32_S22188x32_1_0_0_1_n_n none l r) : (⟨S22188x64, .f32⟩ : BufTy).Contents (Elt F) → (⟨S64x32, .f32⟩ : BufTy).Contents (Elt F) → (⟨S22188x32, .f32⟩ : BufTy).Contents (Elt F)),
    StableHlo.unary main_arg6 main_v124 ((extractStridedSlice S1x32 ![2, 0] · slices_S4x32_S1x32_2_0) : (⟨S4x32, .f32⟩ : BufTy).Contents (Elt F) → (⟨S1x32, .f32⟩ : BufTy).Contents (Elt F)),
    StableHlo.reshape main_v124 main_v125 rfl shapeCasts_S1x32_S32,
    StableHlo.unary main_v125 main_v126 (broadcastInDim S1x32 ![1] bcast_S32_S1x32_1 : (⟨S32, .f32⟩ : BufTy).Contents (Elt F) → (⟨S1x32, .f32⟩ : BufTy).Contents (Elt F)),
    StableHlo.unary main_v126 main_v127 (broadcastInDim S22188x32 ![0, 1] bcast_S1x32_S22188x32_0_1 : (⟨S1x32, .f32⟩ : BufTy).Contents (Elt F) → (⟨S22188x32, .f32⟩ : BufTy).Contents (Elt F)),
    StableHlo.binary main_v123 main_v127 main_v128 (addf : (⟨S22188x32, .f32⟩ : BufTy).Contents (Elt F) → (⟨S22188x32, .f32⟩ : BufTy).Contents (Elt F) → (⟨S22188x32, .f32⟩ : BufTy).Contents (Elt F)),
    StableHlo.TRef.nullary main_call6.cst (constant S_ .f32 0x00000000#32),
    StableHlo.TRef.unary main_call6.cst main_call6.v0 (broadcastInDim S22188x32 ![] bcast_S_S22188x32),
    StableHlo.TRef.binary (.of main_v128 : StableHlo.TRef sig ⟨S22188x32, .f32⟩) main_call6.v0 main_call6.v1 maximumf ]

abbrev opsGather2 : List (HloOp τ sig (Elt F)) :=
  [ StableHlo.nullary main_c_26 (constantI S_ 32 0#32),
    StableHlo.unary main_c_26 main_v130 (broadcastInDim S250000 ![] bcast_S_S250000 : (⟨S_, .i32⟩ : BufTy).Contents (Elt F) → (⟨S250000, .i32⟩ : BufTy).Contents (Elt F)),
    StableHlo.binary main_v109 main_v130 main_v131 (cmpi .slt : (⟨S250000, .i32⟩ : BufTy).Contents (Elt F) → (⟨S250000, .i32⟩ : BufTy).Contents (Elt F) → (⟨S250000, .i1⟩ : BufTy).Contents (Elt F)),
    StableHlo.nullary main_c_27 (constantI S_ 32 22188#32),
    StableHlo.unary main_c_27 main_v132 (broadcastInDim S250000 ![] bcast_S_S250000 : (⟨S_, .i32⟩ : BufTy).Contents (Elt F) → (⟨S250000, .i32⟩ : BufTy).Contents (Elt F)),
    StableHlo.binary main_v109 main_v132 main_v133 (addi : (⟨S250000, .i32⟩ : BufTy).Contents (Elt F) → (⟨S250000, .i32⟩ : BufTy).Contents (Elt F) → (⟨S250000, .i32⟩ : BufTy).Contents (Elt F)),
    StableHlo.ternary main_v131 main_v133 main_v109 main_v134 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v134 main_v135 (broadcastInDim S250000x1 ![0] bcast_S250000_S250000x1_0 : (⟨S250000, .i32⟩ : BufTy).Contents (Elt F) → (⟨S250000x1, .i32⟩ : BufTy).Contents (Elt F)),
    StableHlo.binary main_v129 main_v135 main_v136 ((fun x i => Host.gather gather_S22188x32_S250000x1_S250000x32_1_0_n_n_0_1_132 x i) : (⟨S22188x32, .f32⟩ : BufTy).Contents (Elt F) → (⟨S250000x1, .i32⟩ : BufTy).Contents (Elt F) → (⟨S250000x32, .f32⟩ : BufTy).Contents (Elt F)) ]

abbrev opsSeg3 : List (HloOp τ sig (Elt F)) :=
  [ StableHlo.nullary main_c_28 (constantI S_ 32 8#32),
    StableHlo.TRef.unary (.of main_c_28 : StableHlo.TRef sig ⟨S_, .i32⟩) main_call7.v0 id,
    StableHlo.TRef.unary main_call7.v0 main_call7.v1 (broadcastInDim S250000x3 ![] bcast_S_S250000x3),
    StableHlo.TRef.binary (.of main_v7 : StableHlo.TRef sig ⟨S250000x3, .i32⟩) main_call7.v1 main_call7.v2 Host.divsi,
    StableHlo.TRef.unary (.of main_v7 : StableHlo.TRef sig ⟨S250000x3, .i32⟩) main_call7.v3 signi,
    StableHlo.TRef.unary main_call7.v0 main_call7.v4 signi,
    StableHlo.TRef.unary main_call7.v4 main_call7.v5 (broadcastInDim S250000x3 ![] bcast_S_S250000x3),
    StableHlo.TRef.binary main_call7.v3 main_call7.v5 main_call7.v6 (cmpi .ne),
    StableHlo.TRef.unary main_call7.v0 main_call7.v7 (broadcastInDim S250000x3 ![] bcast_S_S250000x3),
    StableHlo.TRef.binary (.of main_v7 : StableHlo.TRef sig ⟨S250000x3, .i32⟩) main_call7.v7 main_call7.v8 Host.remsi,
    StableHlo.TRef.nullary main_call7.c (constantI S_ 32 0#32),
    StableHlo.TRef.unary main_call7.c main_call7.v9 (broadcastInDim S250000x3 ![] bcast_S_S250000x3),
    StableHlo.TRef.binary main_call7.v8 main_call7.v9 main_call7.v10 (cmpi .ne),
    StableHlo.TRef.binary main_call7.v6 main_call7.v10 main_call7.v11 andi,
    StableHlo.TRef.nullary main_call7.c_0 (constantI S_ 32 1#32),
    StableHlo.TRef.unary main_call7.c_0 main_call7.v12 (broadcastInDim S250000x3 ![] bcast_S_S250000x3),
    StableHlo.TRef.binary main_call7.v2 main_call7.v12 main_call7.v13 subi,
    StableHlo.TRef.ternary main_call7.v11 main_call7.v13 main_call7.v2 main_call7.call0.v0 select,
    StableHlo.nullary main_c_29 (constantI S_ 32 32#32),
    StableHlo.unary main_c_29 main_v138 (broadcastInDim S250000 ![] bcast_S_S250000 : (⟨S_, .i32⟩ : BufTy).Contents (Elt F) → (⟨S250000, .i32⟩ : BufTy).Contents (Elt F)),
    StableHlo.binary main_v6 main_v138 main_v139 (muli : (⟨S250000, .i32⟩ : BufTy).Contents (Elt F) → (⟨S250000, .i32⟩ : BufTy).Contents (Elt F) → (⟨S250000, .i32⟩ : BufTy).Contents (Elt F)),
    StableHlo.unary main_v137 main_v140 ((extractStridedSlice S250000x1 ![0, 0] · slices_S250000x3_S250000x1_0_0) : (⟨S250000x3, .i32⟩ : BufTy).Contents (Elt F) → (⟨S250000x1, .i32⟩ : BufTy).Contents (Elt F)),
    StableHlo.reshape main_v140 main_v141 rfl shapeCasts_S250000x1_S250000,
    StableHlo.binary main_v139 main_v141 main_v142 (addi : (⟨S250000, .i32⟩ : BufTy).Contents (Elt F) → (⟨S250000, .i32⟩ : BufTy).Contents (Elt F) → (⟨S250000, .i32⟩ : BufTy).Contents (Elt F)),
    StableHlo.nullary main_c_30 (constantI S_ 32 32#32),
    StableHlo.unary main_c_30 main_v143 (broadcastInDim S250000 ![] bcast_S_S250000 : (⟨S_, .i32⟩ : BufTy).Contents (Elt F) → (⟨S250000, .i32⟩ : BufTy).Contents (Elt F)),
    StableHlo.binary main_v142 main_v143 main_v144 (muli : (⟨S250000, .i32⟩ : BufTy).Contents (Elt F) → (⟨S250000, .i32⟩ : BufTy).Contents (Elt F) → (⟨S250000, .i32⟩ : BufTy).Contents (Elt F)),
    StableHlo.unary main_v137 main_v145 ((extractStridedSlice S250000x1 ![0, 1] · slices_S250000x3_S250000x1_0_1) : (⟨S250000x3, .i32⟩ : BufTy).Contents (Elt F) → (⟨S250000x1, .i32⟩ : BufTy).Contents (Elt F)),
    StableHlo.reshape main_v145 main_v146 rfl shapeCasts_S250000x1_S250000,
    StableHlo.binary main_v144 main_v146 main_v147 (addi : (⟨S250000, .i32⟩ : BufTy).Contents (Elt F) → (⟨S250000, .i32⟩ : BufTy).Contents (Elt F) → (⟨S250000, .i32⟩ : BufTy).Contents (Elt F)),
    StableHlo.nullary main_c_31 (constantI S_ 32 4#32),
    StableHlo.unary main_c_31 main_v148 (broadcastInDim S250000 ![] bcast_S_S250000 : (⟨S_, .i32⟩ : BufTy).Contents (Elt F) → (⟨S250000, .i32⟩ : BufTy).Contents (Elt F)),
    StableHlo.binary main_v147 main_v148 main_v149 (muli : (⟨S250000, .i32⟩ : BufTy).Contents (Elt F) → (⟨S250000, .i32⟩ : BufTy).Contents (Elt F) → (⟨S250000, .i32⟩ : BufTy).Contents (Elt F)),
    StableHlo.unary main_v137 main_v150 ((extractStridedSlice S250000x1 ![0, 2] · slices_S250000x3_S250000x1_0_2) : (⟨S250000x3, .i32⟩ : BufTy).Contents (Elt F) → (⟨S250000x1, .i32⟩ : BufTy).Contents (Elt F)),
    StableHlo.reshape main_v150 main_v151 rfl shapeCasts_S250000x1_S250000,
    StableHlo.binary main_v149 main_v151 main_v152 (addi : (⟨S250000, .i32⟩ : BufTy).Contents (Elt F) → (⟨S250000, .i32⟩ : BufTy).Contents (Elt F) → (⟨S250000, .i32⟩ : BufTy).Contents (Elt F)) ]

abbrev opsPool3 : List (HloOp τ sig (Elt F)) :=
  [ StableHlo.nullary main_cst_32 (constant S_ .f32 0x00000000#32),
    StableHlo.unary main_cst_32 main_v153 (broadcastInDim S8192x64 ![] bcast_S_S8192x64 : (⟨S_, .f32⟩ : BufTy).Contents (Elt F) → (⟨S8192x64, .f32⟩ : BufTy).Contents (Elt F)),
    StableHlo.unary main_v152 main_v154 (broadcastInDim S250000x1 ![0] bcast_S250000_S250000x1_0 : (⟨S250000, .i32⟩ : BufTy).Contents (Elt F) → (⟨S250000x1, .i32⟩ : BufTy).Contents (Elt F)),
    StableHlo.ternary main_v153 main_v154 main_v4 main_v155 ((fun x i u => Host.scatterAdd scatter_S8192x64_S250000x1_S250000x64_1_0_0_1 x i u) : (⟨S8192x64, .f32⟩ : BufTy).Contents (Elt F) → (⟨S250000x1, .i32⟩ : BufTy).Contents (Elt F) → (⟨S250000x64, .f32⟩ : BufTy).Contents (Elt F) → (⟨S8192x64, .f32⟩ : BufTy).Contents (Elt F)),
    StableHlo.nullary main_cst_33 (constant S_ .f32 0x3F800000#32),
    StableHlo.unary main_cst_33 main_v156 (broadcastInDim S250000x1 ![] bcast_S_S250000x1 : (⟨S_, .f32⟩ : BufTy).Contents (Elt F) → (⟨S250000x1, .f32⟩ : BufTy).Contents (Elt F)),
    StableHlo.nullary main_cst_34 (constant S_ .f32 0x00000000#32),
    StableHlo.unary main_cst_34 main_v157 (broadcastInDim S8192x1 ![] bcast_S_S8192x1 : (⟨S_, .f32⟩ : BufTy).Contents (Elt F) → (⟨S8192x1, .f32⟩ : BufTy).Contents (Elt F)),
    StableHlo.unary main_v152 main_v158 (broadcastInDim S250000x1 ![0] bcast_S250000_S250000x1_0 : (⟨S250000, .i32⟩ : BufTy).Contents (Elt F) → (⟨S250000x1, .i32⟩ : BufTy).Contents (Elt F)),
    StableHlo.ternary main_v157 main_v158 main_v156 main_v159 ((fun x i u => Host.scatterAdd scatter_S8192x1_S250000x1_S250000x1_1_0_0_1 x i u) : (⟨S8192x1, .f32⟩ : BufTy).Contents (Elt F) → (⟨S250000x1, .i32⟩ : BufTy).Contents (Elt F) → (⟨S250000x1, .f32⟩ : BufTy).Contents (Elt F) → (⟨S8192x1, .f32⟩ : BufTy).Contents (Elt F)),
    StableHlo.nullary main_cst_35 (constant S_ .f32 0x3F800000#32),
    StableHlo.unary main_cst_35 main_v160 (broadcastInDim S8192x1 ![] bcast_S_S8192x1 : (⟨S_, .f32⟩ : BufTy).Contents (Elt F) → (⟨S8192x1, .f32⟩ : BufTy).Contents (Elt F)),
    StableHlo.binary main_v159 main_v160 main_v161 (maximumf : (⟨S8192x1, .f32⟩ : BufTy).Contents (Elt F) → (⟨S8192x1, .f32⟩ : BufTy).Contents (Elt F) → (⟨S8192x1, .f32⟩ : BufTy).Contents (Elt F)),
    StableHlo.unary main_v161 main_v162 (broadcastInDim S8192x64 ![0, 1] bcast_S8192x1_S8192x64_0_1 : (⟨S8192x1, .f32⟩ : BufTy).Contents (Elt F) → (⟨S8192x64, .f32⟩ : BufTy).Contents (Elt F)),
    StableHlo.binary main_v155 main_v162 main_v163 (Host.divf : (⟨S8192x64, .f32⟩ : BufTy).Contents (Elt F) → (⟨S8192x64, .f32⟩ : BufTy).Contents (Elt F) → (⟨S8192x64, .f32⟩ : BufTy).Contents (Elt F)),
    StableHlo.unary main_arg5 main_v164 ((extractStridedSlice S1x64x32 ![3, 0, 0] · slices_S4x64x32_S1x64x32_3_0_0) : (⟨S4x64x32, .f32⟩ : BufTy).Contents (Elt F) → (⟨S1x64x32, .f32⟩ : BufTy).Contents (Elt F)),
    StableHlo.reshape main_v164 main_v165 rfl shapeCasts_S1x64x32_S64x32,
    StableHlo.binary main_v163 main_v165 main_v166 ((fun l r => Host.dotGeneral dot_S8192x64_S64x32_S8192x32_1_0_0_1_n_n none l r) : (⟨S8192x64, .f32⟩ : BufTy).Contents (Elt F) → (⟨S64x32, .f32⟩ : BufTy).Contents (Elt F) → (⟨S8192x32, .f32⟩ : BufTy).Contents (Elt F)),
    StableHlo.unary main_arg6 main_v167 ((extractStridedSlice S1x32 ![3, 0] · slices_S4x32_S1x32_3_0) : (⟨S4x32, .f32⟩ : BufTy).Contents (Elt F) → (⟨S1x32, .f32⟩ : BufTy).Contents (Elt F)),
    StableHlo.reshape main_v167 main_v168 rfl shapeCasts_S1x32_S32,
    StableHlo.unary main_v168 main_v169 (broadcastInDim S1x32 ![1] bcast_S32_S1x32_1 : (⟨S32, .f32⟩ : BufTy).Contents (Elt F) → (⟨S1x32, .f32⟩ : BufTy).Contents (Elt F)),
    StableHlo.unary main_v169 main_v170 (broadcastInDim S8192x32 ![0, 1] bcast_S1x32_S8192x32_0_1 : (⟨S1x32, .f32⟩ : BufTy).Contents (Elt F) → (⟨S8192x32, .f32⟩ : BufTy).Contents (Elt F)),
    StableHlo.binary main_v166 main_v170 main_v171 (addf : (⟨S8192x32, .f32⟩ : BufTy).Contents (Elt F) → (⟨S8192x32, .f32⟩ : BufTy).Contents (Elt F) → (⟨S8192x32, .f32⟩ : BufTy).Contents (Elt F)),
    StableHlo.TRef.nullary main_call8.cst (constant S_ .f32 0x00000000#32),
    StableHlo.TRef.unary main_call8.cst main_call8.v0 (broadcastInDim S8192x32 ![] bcast_S_S8192x32),
    StableHlo.TRef.binary (.of main_v171 : StableHlo.TRef sig ⟨S8192x32, .f32⟩) main_call8.v0 main_call8.v1 maximumf ]

abbrev opsGather3 : List (HloOp τ sig (Elt F)) :=
  [ StableHlo.nullary main_c_36 (constantI S_ 32 0#32),
    StableHlo.unary main_c_36 main_v173 (broadcastInDim S250000 ![] bcast_S_S250000 : (⟨S_, .i32⟩ : BufTy).Contents (Elt F) → (⟨S250000, .i32⟩ : BufTy).Contents (Elt F)),
    StableHlo.binary main_v152 main_v173 main_v174 (cmpi .slt : (⟨S250000, .i32⟩ : BufTy).Contents (Elt F) → (⟨S250000, .i32⟩ : BufTy).Contents (Elt F) → (⟨S250000, .i1⟩ : BufTy).Contents (Elt F)),
    StableHlo.nullary main_c_37 (constantI S_ 32 8192#32),
    StableHlo.unary main_c_37 main_v175 (broadcastInDim S250000 ![] bcast_S_S250000 : (⟨S_, .i32⟩ : BufTy).Contents (Elt F) → (⟨S250000, .i32⟩ : BufTy).Contents (Elt F)),
    StableHlo.binary main_v152 main_v175 main_v176 (addi : (⟨S250000, .i32⟩ : BufTy).Contents (Elt F) → (⟨S250000, .i32⟩ : BufTy).Contents (Elt F) → (⟨S250000, .i32⟩ : BufTy).Contents (Elt F)),
    StableHlo.ternary main_v174 main_v176 main_v152 main_v177 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v177 main_v178 (broadcastInDim S250000x1 ![0] bcast_S250000_S250000x1_0 : (⟨S250000, .i32⟩ : BufTy).Contents (Elt F) → (⟨S250000x1, .i32⟩ : BufTy).Contents (Elt F)),
    StableHlo.binary main_v172 main_v178 main_v179 ((fun x i => Host.gather gather_S8192x32_S250000x1_S250000x32_1_0_n_n_0_1_132 x i) : (⟨S8192x32, .f32⟩ : BufTy).Contents (Elt F) → (⟨S250000x1, .i32⟩ : BufTy).Contents (Elt F) → (⟨S250000x32, .f32⟩ : BufTy).Contents (Elt F)) ]

abbrev opsTail : List (HloOp τ sig (Elt F)) :=
  [ StableHlo.unary main_v50 main_v180 (broadcastInDim S250000x1x32 ![0, 2] bcast_S250000x32_S250000x1x32_0_2 : (⟨S250000x32, .f32⟩ : BufTy).Contents (Elt F) → (⟨S250000x1x32, .f32⟩ : BufTy).Contents (Elt F)),
    StableHlo.unary main_v93 main_v181 (broadcastInDim S250000x1x32 ![0, 2] bcast_S250000x32_S250000x1x32_0_2 : (⟨S250000x32, .f32⟩ : BufTy).Contents (Elt F) → (⟨S250000x1x32, .f32⟩ : BufTy).Contents (Elt F)),
    StableHlo.unary main_v136 main_v182 (broadcastInDim S250000x1x32 ![0, 2] bcast_S250000x32_S250000x1x32_0_2 : (⟨S250000x32, .f32⟩ : BufTy).Contents (Elt F) → (⟨S250000x1x32, .f32⟩ : BufTy).Contents (Elt F)),
    StableHlo.unary main_v179 main_v183 (broadcastInDim S250000x1x32 ![0, 2] bcast_S250000x32_S250000x1x32_0_2 : (⟨S250000x32, .f32⟩ : BufTy).Contents (Elt F) → (⟨S250000x1x32, .f32⟩ : BufTy).Contents (Elt F)),
    StableHlo.nary ![main_v180, main_v181, main_v182, main_v183] main_v184 (fun u => concatenate S250000x4x32 1 [⟨S250000x1x32, u 0⟩, ⟨S250000x1x32, u 1⟩, ⟨S250000x1x32, u 2⟩, ⟨S250000x1x32, u 3⟩] concatenates_S250000x1x32_S250000x1x32_S250000x1x32_S250000x1x32_S250000x4x32_d1),
    StableHlo.nullary main_cst_38 (constant S_ .f32 0x00000000#32),
    StableHlo.binary main_v184 main_cst_38 main_v185 ((fun x v => Host.reduceAdd x v reducesTo_S250000x4x32_S250000x32_d1 h_S_) : (⟨S250000x4x32, .f32⟩ : BufTy).Contents (Elt F) → (⟨S_, .f32⟩ : BufTy).Contents (Elt F) → (⟨S250000x32, .f32⟩ : BufTy).Contents (Elt F)),
    StableHlo.binary main_v185 main_arg9 main_v186 ((fun l r => Host.dotGeneral dot_S250000x32_S32x32_S250000x32_1_0_0_1_n_n none l r) : (⟨S250000x32, .f32⟩ : BufTy).Contents (Elt F) → (⟨S32x32, .f32⟩ : BufTy).Contents (Elt F) → (⟨S250000x32, .f32⟩ : BufTy).Contents (Elt F)),
    StableHlo.TRef.nullary main_call9.cst (constant S_ .f32 0x00000000#32),
    StableHlo.TRef.unary main_call9.cst main_call9.v0 (broadcastInDim S250000x32 ![] bcast_S_S250000x32),
    StableHlo.TRef.binary (.of main_v186 : StableHlo.TRef sig ⟨S250000x32, .f32⟩) main_call9.v0 main_call9.v1 maximumf,
    StableHlo.unary main_arg7 main_v188 ((extractStridedSlice S1x32x32 ![0, 0, 0] · slices_S4x32x32_S1x32x32_0_0_0) : (⟨S4x32x32, .f32⟩ : BufTy).Contents (Elt F) → (⟨S1x32x32, .f32⟩ : BufTy).Contents (Elt F)),
    StableHlo.reshape main_v188 main_v189 rfl shapeCasts_S1x32x32_S32x32,
    StableHlo.binary main_v187 main_v189 main_v190 ((fun l r => Host.dotGeneral dot_S250000x32_S32x32_S250000x32_1_0_0_1_n_n none l r) : (⟨S250000x32, .f32⟩ : BufTy).Contents (Elt F) → (⟨S32x32, .f32⟩ : BufTy).Contents (Elt F) → (⟨S250000x32, .f32⟩ : BufTy).Contents (Elt F)),
    StableHlo.unary main_arg8 main_v191 ((extractStridedSlice S1x32 ![0, 0] · slices_S4x32_S1x32_0_0) : (⟨S4x32, .f32⟩ : BufTy).Contents (Elt F) → (⟨S1x32, .f32⟩ : BufTy).Contents (Elt F)),
    StableHlo.reshape main_v191 main_v192 rfl shapeCasts_S1x32_S32,
    StableHlo.unary main_v192 main_v193 (broadcastInDim S1x32 ![1] bcast_S32_S1x32_1 : (⟨S32, .f32⟩ : BufTy).Contents (Elt F) → (⟨S1x32, .f32⟩ : BufTy).Contents (Elt F)),
    StableHlo.unary main_v193 main_v194 (broadcastInDim S250000x32 ![0, 1] bcast_S1x32_S250000x32_0_1 : (⟨S1x32, .f32⟩ : BufTy).Contents (Elt F) → (⟨S250000x32, .f32⟩ : BufTy).Contents (Elt F)),
    StableHlo.binary main_v190 main_v194 main_v195 (addf : (⟨S250000x32, .f32⟩ : BufTy).Contents (Elt F) → (⟨S250000x32, .f32⟩ : BufTy).Contents (Elt F) → (⟨S250000x32, .f32⟩ : BufTy).Contents (Elt F)),
    StableHlo.unary main_arg7 main_v196 ((extractStridedSlice S1x32x32 ![1, 0, 0] · slices_S4x32x32_S1x32x32_1_0_0) : (⟨S4x32x32, .f32⟩ : BufTy).Contents (Elt F) → (⟨S1x32x32, .f32⟩ : BufTy).Contents (Elt F)),
    StableHlo.reshape main_v196 main_v197 rfl shapeCasts_S1x32x32_S32x32,
    StableHlo.binary main_v187 main_v197 main_v198 ((fun l r => Host.dotGeneral dot_S250000x32_S32x32_S250000x32_1_0_0_1_n_n none l r) : (⟨S250000x32, .f32⟩ : BufTy).Contents (Elt F) → (⟨S32x32, .f32⟩ : BufTy).Contents (Elt F) → (⟨S250000x32, .f32⟩ : BufTy).Contents (Elt F)),
    StableHlo.unary main_arg8 main_v199 ((extractStridedSlice S1x32 ![1, 0] · slices_S4x32_S1x32_1_0) : (⟨S4x32, .f32⟩ : BufTy).Contents (Elt F) → (⟨S1x32, .f32⟩ : BufTy).Contents (Elt F)),
    StableHlo.reshape main_v199 main_v200 rfl shapeCasts_S1x32_S32,
    StableHlo.unary main_v200 main_v201 (broadcastInDim S1x32 ![1] bcast_S32_S1x32_1 : (⟨S32, .f32⟩ : BufTy).Contents (Elt F) → (⟨S1x32, .f32⟩ : BufTy).Contents (Elt F)),
    StableHlo.unary main_v201 main_v202 (broadcastInDim S250000x32 ![0, 1] bcast_S1x32_S250000x32_0_1 : (⟨S1x32, .f32⟩ : BufTy).Contents (Elt F) → (⟨S250000x32, .f32⟩ : BufTy).Contents (Elt F)),
    StableHlo.binary main_v198 main_v202 main_v203 (addf : (⟨S250000x32, .f32⟩ : BufTy).Contents (Elt F) → (⟨S250000x32, .f32⟩ : BufTy).Contents (Elt F) → (⟨S250000x32, .f32⟩ : BufTy).Contents (Elt F)),
    StableHlo.unary main_arg7 main_v204 ((extractStridedSlice S1x32x32 ![2, 0, 0] · slices_S4x32x32_S1x32x32_2_0_0) : (⟨S4x32x32, .f32⟩ : BufTy).Contents (Elt F) → (⟨S1x32x32, .f32⟩ : BufTy).Contents (Elt F)),
    StableHlo.reshape main_v204 main_v205 rfl shapeCasts_S1x32x32_S32x32,
    StableHlo.binary main_v187 main_v205 main_v206 ((fun l r => Host.dotGeneral dot_S250000x32_S32x32_S250000x32_1_0_0_1_n_n none l r) : (⟨S250000x32, .f32⟩ : BufTy).Contents (Elt F) → (⟨S32x32, .f32⟩ : BufTy).Contents (Elt F) → (⟨S250000x32, .f32⟩ : BufTy).Contents (Elt F)),
    StableHlo.unary main_arg8 main_v207 ((extractStridedSlice S1x32 ![2, 0] · slices_S4x32_S1x32_2_0) : (⟨S4x32, .f32⟩ : BufTy).Contents (Elt F) → (⟨S1x32, .f32⟩ : BufTy).Contents (Elt F)),
    StableHlo.reshape main_v207 main_v208 rfl shapeCasts_S1x32_S32,
    StableHlo.unary main_v208 main_v209 (broadcastInDim S1x32 ![1] bcast_S32_S1x32_1 : (⟨S32, .f32⟩ : BufTy).Contents (Elt F) → (⟨S1x32, .f32⟩ : BufTy).Contents (Elt F)),
    StableHlo.unary main_v209 main_v210 (broadcastInDim S250000x32 ![0, 1] bcast_S1x32_S250000x32_0_1 : (⟨S1x32, .f32⟩ : BufTy).Contents (Elt F) → (⟨S250000x32, .f32⟩ : BufTy).Contents (Elt F)),
    StableHlo.binary main_v206 main_v210 main_v211 (addf : (⟨S250000x32, .f32⟩ : BufTy).Contents (Elt F) → (⟨S250000x32, .f32⟩ : BufTy).Contents (Elt F) → (⟨S250000x32, .f32⟩ : BufTy).Contents (Elt F)),
    StableHlo.unary main_arg7 main_v212 ((extractStridedSlice S1x32x32 ![3, 0, 0] · slices_S4x32x32_S1x32x32_3_0_0) : (⟨S4x32x32, .f32⟩ : BufTy).Contents (Elt F) → (⟨S1x32x32, .f32⟩ : BufTy).Contents (Elt F)),
    StableHlo.reshape main_v212 main_v213 rfl shapeCasts_S1x32x32_S32x32,
    StableHlo.binary main_v187 main_v213 main_v214 ((fun l r => Host.dotGeneral dot_S250000x32_S32x32_S250000x32_1_0_0_1_n_n none l r) : (⟨S250000x32, .f32⟩ : BufTy).Contents (Elt F) → (⟨S32x32, .f32⟩ : BufTy).Contents (Elt F) → (⟨S250000x32, .f32⟩ : BufTy).Contents (Elt F)),
    StableHlo.unary main_arg8 main_v215 ((extractStridedSlice S1x32 ![3, 0] · slices_S4x32_S1x32_3_0) : (⟨S4x32, .f32⟩ : BufTy).Contents (Elt F) → (⟨S1x32, .f32⟩ : BufTy).Contents (Elt F)),
    StableHlo.reshape main_v215 main_v216 rfl shapeCasts_S1x32_S32,
    StableHlo.unary main_v216 main_v217 (broadcastInDim S1x32 ![1] bcast_S32_S1x32_1 : (⟨S32, .f32⟩ : BufTy).Contents (Elt F) → (⟨S1x32, .f32⟩ : BufTy).Contents (Elt F)),
    StableHlo.unary main_v217 main_v218 (broadcastInDim S250000x32 ![0, 1] bcast_S1x32_S250000x32_0_1 : (⟨S1x32, .f32⟩ : BufTy).Contents (Elt F) → (⟨S250000x32, .f32⟩ : BufTy).Contents (Elt F)),
    StableHlo.binary main_v214 main_v218 main_v219 (addf : (⟨S250000x32, .f32⟩ : BufTy).Contents (Elt F) → (⟨S250000x32, .f32⟩ : BufTy).Contents (Elt F) → (⟨S250000x32, .f32⟩ : BufTy).Contents (Elt F)),
    StableHlo.unary main_v195 main_v220 (broadcastInDim S250000x1x32 ![0, 2] bcast_S250000x32_S250000x1x32_0_2 : (⟨S250000x32, .f32⟩ : BufTy).Contents (Elt F) → (⟨S250000x1x32, .f32⟩ : BufTy).Contents (Elt F)),
    StableHlo.unary main_v203 main_v221 (broadcastInDim S250000x1x32 ![0, 2] bcast_S250000x32_S250000x1x32_0_2 : (⟨S250000x32, .f32⟩ : BufTy).Contents (Elt F) → (⟨S250000x1x32, .f32⟩ : BufTy).Contents (Elt F)),
    StableHlo.unary main_v211 main_v222 (broadcastInDim S250000x1x32 ![0, 2] bcast_S250000x32_S250000x1x32_0_2 : (⟨S250000x32, .f32⟩ : BufTy).Contents (Elt F) → (⟨S250000x1x32, .f32⟩ : BufTy).Contents (Elt F)),
    StableHlo.unary main_v219 main_v223 (broadcastInDim S250000x1x32 ![0, 2] bcast_S250000x32_S250000x1x32_0_2 : (⟨S250000x32, .f32⟩ : BufTy).Contents (Elt F) → (⟨S250000x1x32, .f32⟩ : BufTy).Contents (Elt F)),
    StableHlo.nary ![main_v220, main_v221, main_v222, main_v223] main_v224 (fun u => concatenate S250000x4x32 1 [⟨S250000x1x32, u 0⟩, ⟨S250000x1x32, u 1⟩, ⟨S250000x1x32, u 2⟩, ⟨S250000x1x32, u 3⟩] concatenates_S250000x1x32_S250000x1x32_S250000x1x32_S250000x1x32_S250000x4x32_d1),
    StableHlo.unary main_v224 main_v225 (Host.negf : (⟨S250000x4x32, .f32⟩ : BufTy).Contents (Elt F) → (⟨S250000x4x32, .f32⟩ : BufTy).Contents (Elt F)),
    StableHlo.unary main_v225 main_v226 (Host.exp : (⟨S250000x4x32, .f32⟩ : BufTy).Contents (Elt F) → (⟨S250000x4x32, .f32⟩ : BufTy).Contents (Elt F)),
    StableHlo.nullary main_cst_39 (constant S_ .f32 0x3F800000#32),
    StableHlo.unary main_cst_39 main_v227 (broadcastInDim S250000x4x32 ![] bcast_S_S250000x4x32 : (⟨S_, .f32⟩ : BufTy).Contents (Elt F) → (⟨S250000x4x32, .f32⟩ : BufTy).Contents (Elt F)),
    StableHlo.binary main_v227 main_v226 main_v228 (addf : (⟨S250000x4x32, .f32⟩ : BufTy).Contents (Elt F) → (⟨S250000x4x32, .f32⟩ : BufTy).Contents (Elt F) → (⟨S250000x4x32, .f32⟩ : BufTy).Contents (Elt F)),
    StableHlo.nullary main_cst_40 (constant S_ .f32 0x3F800000#32),
    StableHlo.unary main_cst_40 main_v229 (broadcastInDim S250000x4x32 ![] bcast_S_S250000x4x32 : (⟨S_, .f32⟩ : BufTy).Contents (Elt F) → (⟨S250000x4x32, .f32⟩ : BufTy).Contents (Elt F)),
    StableHlo.binary main_v229 main_v228 main_v230 (Host.divf : (⟨S250000x4x32, .f32⟩ : BufTy).Contents (Elt F) → (⟨S250000x4x32, .f32⟩ : BufTy).Contents (Elt F) → (⟨S250000x4x32, .f32⟩ : BufTy).Contents (Elt F)),
    StableHlo.binary main_v184 main_v230 main_v231 (mulf : (⟨S250000x4x32, .f32⟩ : BufTy).Contents (Elt F) → (⟨S250000x4x32, .f32⟩ : BufTy).Contents (Elt F) → (⟨S250000x4x32, .f32⟩ : BufTy).Contents (Elt F)),
    StableHlo.nullary main_cst_41 (constant S_ .f32 0x00000000#32),
    StableHlo.binary main_v231 main_cst_41 main_v232 ((fun x v => Host.reduceAdd x v reducesTo_S250000x4x32_S250000x32_d1 h_S_) : (⟨S250000x4x32, .f32⟩ : BufTy).Contents (Elt F) → (⟨S_, .f32⟩ : BufTy).Contents (Elt F) → (⟨S250000x32, .f32⟩ : BufTy).Contents (Elt F)),
    StableHlo.binary main_v232 main_arg10 main_v233 ((fun l r => Host.dotGeneral dot_S250000x32_S32x64_S250000x64_1_0_0_1_n_n none l r) : (⟨S250000x32, .f32⟩ : BufTy).Contents (Elt F) → (⟨S32x64, .f32⟩ : BufTy).Contents (Elt F) → (⟨S250000x64, .f32⟩ : BufTy).Contents (Elt F)),
    StableHlo.binary main_v4 main_v233 main_v234 ((fun a b => concatenate S250000x128 1 [⟨S250000x64, a⟩, ⟨S250000x64, b⟩] concatenates_S250000x64_S250000x64_S250000x128_d1) : (⟨S250000x64, .f32⟩ : BufTy).Contents (Elt F) → (⟨S250000x64, .f32⟩ : BufTy).Contents (Elt F) → (⟨S250000x128, .f32⟩ : BufTy).Contents (Elt F)),
    StableHlo.binary main_v234 main_arg11 main_v235 ((fun l r => Host.dotGeneral dot_S250000x128_S128x64_S250000x64_1_0_0_1_n_n none l r) : (⟨S250000x128, .f32⟩ : BufTy).Contents (Elt F) → (⟨S128x64, .f32⟩ : BufTy).Contents (Elt F) → (⟨S250000x64, .f32⟩ : BufTy).Contents (Elt F)),
    StableHlo.TRef.nullary main_call10.cst (constant S_ .f32 0x00000000#32),
    StableHlo.TRef.unary main_call10.cst main_call10.v0 (broadcastInDim S250000x64 ![] bcast_S_S250000x64),
    StableHlo.TRef.binary (.of main_v235 : StableHlo.TRef sig ⟨S250000x64, .f32⟩) main_call10.v0 main_call10.v1 maximumf,
    StableHlo.binary main_v236 main_arg12 main_v237 ((fun l r => Host.dotGeneral dot_S250000x64_S64x64_S250000x64_1_0_0_1_n_n none l r) : (⟨S250000x64, .f32⟩ : BufTy).Contents (Elt F) → (⟨S64x64, .f32⟩ : BufTy).Contents (Elt F) → (⟨S250000x64, .f32⟩ : BufTy).Contents (Elt F)),
    StableHlo.unary main_arg13 main_v238 (broadcastInDim S1x64 ![1] bcast_S64_S1x64_1 : (⟨S64, .f32⟩ : BufTy).Contents (Elt F) → (⟨S1x64, .f32⟩ : BufTy).Contents (Elt F)),
    StableHlo.unary main_v238 main_v239 (broadcastInDim S250000x64 ![0, 1] bcast_S1x64_S250000x64_0_1 : (⟨S1x64, .f32⟩ : BufTy).Contents (Elt F) → (⟨S250000x64, .f32⟩ : BufTy).Contents (Elt F)),
    StableHlo.binary main_v237 main_v239 main_v240 (addf : (⟨S250000x64, .f32⟩ : BufTy).Contents (Elt F) → (⟨S250000x64, .f32⟩ : BufTy).Contents (Elt F) → (⟨S250000x64, .f32⟩ : BufTy).Contents (Elt F)) ]

abbrev opsOut : List (HloOp τ sig (Elt F)) :=
  [ StableHlo.nullary main_c_42 (constantI S_ 32 0#32),
    StableHlo.unary main_c_42 main_v241 (broadcastInDim S250000 ![] bcast_S_S250000 : (⟨S_, .i32⟩ : BufTy).Contents (Elt F) → (⟨S250000, .i32⟩ : BufTy).Contents (Elt F)),
    StableHlo.binary main_arg2 main_v241 main_v242 (cmpi .slt : (⟨S250000, .i32⟩ : BufTy).Contents (Elt F) → (⟨S250000, .i32⟩ : BufTy).Contents (Elt F) → (⟨S250000, .i1⟩ : BufTy).Contents (Elt F)),
    StableHlo.nullary main_c_43 (constantI S_ 32 250000#32),
    StableHlo.unary main_c_43 main_v243 (broadcastInDim S250000 ![] bcast_S_S250000 : (⟨S_, .i32⟩ : BufTy).Contents (Elt F) → (⟨S250000, .i32⟩ : BufTy).Contents (Elt F)),
    StableHlo.binary main_arg2 main_v243 main_v244 (addi : (⟨S250000, .i32⟩ : BufTy).Contents (Elt F) → (⟨S250000, .i32⟩ : BufTy).Contents (Elt F) → (⟨S250000, .i32⟩ : BufTy).Contents (Elt F)),
    StableHlo.ternary main_v242 main_v244 main_arg2 main_v245 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v245 main_v246 (broadcastInDim S250000x1 ![0] bcast_S250000_S250000x1_0 : (⟨S250000, .i32⟩ : BufTy).Contents (Elt F) → (⟨S250000x1, .i32⟩ : BufTy).Contents (Elt F)),
    StableHlo.binary main_v240 main_v246 main_v247 ((fun x i => Host.gather gather_S250000x64_S250000x1_S250000x64_1_0_n_n_0_1_164 x i) : (⟨S250000x64, .f32⟩ : BufTy).Contents (Elt F) → (⟨S250000x1, .i32⟩ : BufTy).Contents (Elt F) → (⟨S250000x64, .f32⟩ : BufTy).Contents (Elt F)) ]

abbrev ops : List (HloOp τ sig (Elt F)) :=
  opsRed ++ opsIdx ++ opsSeg0 ++ opsPool0 ++ opsGather0 ++ opsSeg1 ++ opsPool1 ++ opsGather1 ++ opsSeg2 ++ opsPool2 ++ opsGather2 ++ opsSeg3 ++ opsPool3 ++ opsGather3 ++ opsTail ++ opsOut

abbrev opsRed_W : List (Ref sig .tc) :=
  [main_v0, main_v1, main_v2, main_v3, main_call0.cst.ref, main_call0.v0.ref, main_call0.v1.ref]

abbrev opsIdx_W : List (Ref sig .tc) :=
  [main_v5, main_v6, main_v7]

abbrev opsSeg0_W : List (Ref sig .tc) :=
  [main_c, main_call1.v0.ref, main_call1.v1.ref, main_call1.v2.ref, main_call1.v3.ref, main_call1.v4.ref, main_call1.v5.ref, main_call1.v6.ref, main_call1.v7.ref, main_call1.v8.ref, main_call1.c.ref, main_call1.v9.ref, main_call1.v10.ref, main_call1.v11.ref, main_call1.c_0.ref, main_call1.v12.ref, main_call1.v13.ref, main_call1.call0.v0.ref, main_c_0, main_v9, main_v10, main_v11, main_v12, main_v13, main_c_1, main_v14, main_v15, main_v16, main_v17, main_v18, main_c_2, main_v19, main_v20, main_v21, main_v22, main_v23]

abbrev opsPool0_W : List (Ref sig .tc) :=
  [main_cst, main_v24, main_v25, main_v26, main_cst_3, main_v27, main_cst_4, main_v28, main_v29, main_v30, main_cst_5, main_v31, main_v32, main_v33, main_v34, main_v35, main_v36, main_v37, main_v38, main_v39, main_v40, main_v41, main_v42, main_call2.cst.ref, main_call2.v0.ref, main_call2.v1.ref]

abbrev opsGather0_W : List (Ref sig .tc) :=
  [main_c_6, main_v44, main_v45, main_c_7, main_v46, main_v47, main_v48, main_v49, main_v50]

abbrev opsSeg1_W : List (Ref sig .tc) :=
  [main_c_8, main_call3.v0.ref, main_call3.v1.ref, main_call3.v2.ref, main_call3.v3.ref, main_call3.v4.ref, main_call3.v5.ref, main_call3.v6.ref, main_call3.v7.ref, main_call3.v8.ref, main_call3.c.ref, main_call3.v9.ref, main_call3.v10.ref, main_call3.v11.ref, main_call3.c_0.ref, main_call3.v12.ref, main_call3.v13.ref, main_call3.call0.v0.ref, main_c_9, main_v52, main_v53, main_v54, main_v55, main_v56, main_c_10, main_v57, main_v58, main_v59, main_v60, main_v61, main_c_11, main_v62, main_v63, main_v64, main_v65, main_v66]

abbrev opsPool1_W : List (Ref sig .tc) :=
  [main_cst_12, main_v67, main_v68, main_v69, main_cst_13, main_v70, main_cst_14, main_v71, main_v72, main_v73, main_cst_15, main_v74, main_v75, main_v76, main_v77, main_v78, main_v79, main_v80, main_v81, main_v82, main_v83, main_v84, main_v85, main_call4.cst.ref, main_call4.v0.ref, main_call4.v1.ref]

abbrev opsGather1_W : List (Ref sig .tc) :=
  [main_c_16, main_v87, main_v88, main_c_17, main_v89, main_v90, main_v91, main_v92, main_v93]

abbrev opsSeg2_W : List (Ref sig .tc) :=
  [main_c_18, main_call5.v0.ref, main_call5.v1.ref, main_call5.v2.ref, main_call5.v3.ref, main_call5.v4.ref, main_call5.v5.ref, main_call5.v6.ref, main_call5.v7.ref, main_call5.v8.ref, main_call5.c.ref, main_call5.v9.ref, main_call5.v10.ref, main_call5.v11.ref, main_call5.c_0.ref, main_call5.v12.ref, main_call5.v13.ref, main_call5.call0.v0.ref, main_c_19, main_v95, main_v96, main_v97, main_v98, main_v99, main_c_20, main_v100, main_v101, main_v102, main_v103, main_v104, main_c_21, main_v105, main_v106, main_v107, main_v108, main_v109]

abbrev opsPool2_W : List (Ref sig .tc) :=
  [main_cst_22, main_v110, main_v111, main_v112, main_cst_23, main_v113, main_cst_24, main_v114, main_v115, main_v116, main_cst_25, main_v117, main_v118, main_v119, main_v120, main_v121, main_v122, main_v123, main_v124, main_v125, main_v126, main_v127, main_v128, main_call6.cst.ref, main_call6.v0.ref, main_call6.v1.ref]

abbrev opsGather2_W : List (Ref sig .tc) :=
  [main_c_26, main_v130, main_v131, main_c_27, main_v132, main_v133, main_v134, main_v135, main_v136]

abbrev opsSeg3_W : List (Ref sig .tc) :=
  [main_c_28, main_call7.v0.ref, main_call7.v1.ref, main_call7.v2.ref, main_call7.v3.ref, main_call7.v4.ref, main_call7.v5.ref, main_call7.v6.ref, main_call7.v7.ref, main_call7.v8.ref, main_call7.c.ref, main_call7.v9.ref, main_call7.v10.ref, main_call7.v11.ref, main_call7.c_0.ref, main_call7.v12.ref, main_call7.v13.ref, main_call7.call0.v0.ref, main_c_29, main_v138, main_v139, main_v140, main_v141, main_v142, main_c_30, main_v143, main_v144, main_v145, main_v146, main_v147, main_c_31, main_v148, main_v149, main_v150, main_v151, main_v152]

abbrev opsPool3_W : List (Ref sig .tc) :=
  [main_cst_32, main_v153, main_v154, main_v155, main_cst_33, main_v156, main_cst_34, main_v157, main_v158, main_v159, main_cst_35, main_v160, main_v161, main_v162, main_v163, main_v164, main_v165, main_v166, main_v167, main_v168, main_v169, main_v170, main_v171, main_call8.cst.ref, main_call8.v0.ref, main_call8.v1.ref]

abbrev opsGather3_W : List (Ref sig .tc) :=
  [main_c_36, main_v173, main_v174, main_c_37, main_v175, main_v176, main_v177, main_v178, main_v179]

abbrev opsTail_W : List (Ref sig .tc) :=
  [main_v180, main_v181, main_v182, main_v183, main_v184, main_cst_38, main_v185, main_v186, main_call9.cst.ref, main_call9.v0.ref, main_call9.v1.ref, main_v188, main_v189, main_v190, main_v191, main_v192, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_v223, main_v224, main_v225, main_v226, main_cst_39, main_v227, main_v228, main_cst_40, main_v229, main_v230, main_v231, main_cst_41, main_v232, main_v233, main_v234, main_v235, main_call10.cst.ref, main_call10.v0.ref, main_call10.v1.ref, main_v237, main_v238, main_v239, main_v240]

abbrev opsOut_W : List (Ref sig .tc) :=
  [main_c_42, main_v241, main_v242, main_c_43, main_v243, main_v244, main_v245, main_v246, main_v247]

abbrev win0 : List (HloOp τ sig (Elt F)) := (ops (F := F)).take 80
abbrev win1 : List (HloOp τ sig (Elt F)) := ((ops (F := F)).drop 80).take 94
abbrev win2 : List (HloOp τ sig (Elt F)) := (((ops (F := F)).drop 80).drop 94).take 78
abbrev win3 : List (HloOp τ sig (Elt F)) := ((((ops (F := F)).drop 80).drop 94).drop 78).take 64
abbrev win4 : List (HloOp τ sig (Elt F)) := ((((ops (F := F)).drop 80).drop 94).drop 78).drop 64

end Cert.ReferenceIdeal.RefRun

end
-- ==== Proof.RefRun.lean ====
import proofs.«418858_j49108656062716_3_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- a list is its first stretch followed by the rest, four times over
theorem ops_eq_windows : (ops : List (HloOp τ sig (Elt F))) = win0 ++ (win1 ++ (win2 ++ (win3 ++ win4))) := by
  simp only [win0, win1, win2, win3, win4, List.take_append_drop]

set_option maxRecDepth 16384 in
set_option maxHeartbeats 4000000 in
theorem main_part0_eq (d : Dev nD) : main_part0 (F := F) d = seq win0 := by
  simp only [main_part0, fn_relu.body, fn_relu_0.body, fn_floor_divide.body, fn_where.body, seq, bind_assoc, pure_bind, win0, ops, opsRed, opsIdx, opsSeg0, opsPool0, opsGather0, opsSeg1, opsPool1, opsGather1, opsSeg2, opsPool2, opsGather2, opsSeg3, opsPool3, opsGather3, opsTail, opsOut,
    List.append_assoc, List.cons_append, List.nil_append, List.drop_succ_cons, List.drop_zero, List.take_succ_cons, List.take_zero]
  rfl

set_option maxRecDepth 16384 in
set_option maxHeartbeats 4000000 in
theorem main_part1_eq (d : Dev nD) : main_part1 (F := F) d = seq win1 := by
  simp only [main_part1, fn_relu_1.body, fn_floor_divide.body, fn_where.body, seq, bind_assoc, pure_bind, win1, ops, opsRed, opsIdx, opsSeg0, opsPool0, opsGather0, opsSeg1, opsPool1, opsGather1, opsSeg2, opsPool2, opsGather2, opsSeg3, opsPool3, opsGather3, opsTail, opsOut,
    List.append_assoc, List.cons_append, List.nil_append, List.drop_succ_cons, List.drop_zero, List.take_succ_cons, List.take_zero]
  rfl

set_option maxRecDepth 16384 in
set_option maxHeartbeats 4000000 in
theorem main_part2_eq (d : Dev nD) : main_part2 (F := F) d = seq win2 := by
  simp only [main_part2, fn_relu_2.body, fn_floor_divide.body, fn_where.body, seq, bind_assoc, pure_bind, win2, ops, opsRed, opsIdx, opsSeg0, opsPool0, opsGather0, opsSeg1, opsPool1, opsGather1, opsSeg2, opsPool2, opsGather2, opsSeg3, opsPool3, opsGather3, opsTail, opsOut,
    List.append_assoc, List.cons_append, List.nil_append, List.drop_succ_cons, List.drop_zero, List.take_succ_cons, List.take_zero]
  rfl

set_option maxRecDepth 16384 in
set_option maxHeartbeats 4000000 in
theorem main_part3_eq (d : Dev nD) : main_part3 (F := F) d = seq win3 := by
  simp only [main_part3, fn_relu_3.body, fn_relu_4.body, seq, bind_assoc, pure_bind, win3, ops, opsRed, opsIdx, opsSeg0, opsPool0, opsGather0, opsSeg1, opsPool1, opsGather1, opsSeg2, opsPool2, opsGather2, opsSeg3, opsPool3, opsGather3, opsTail, opsOut,
    List.append_assoc, List.cons_append, List.nil_append, List.drop_succ_cons, List.drop_zero, List.take_succ_cons, List.take_zero]
  rfl

set_option maxRecDepth 16384 in
set_option maxHeartbeats 4000000 in
theorem main_part4_eq (d : Dev nD) : main_part4 (F := F) d = seq win4 := by
  simp only [main_part4, fn_relu.body, seq, bind_assoc, pure_bind, win4, ops, opsRed, opsIdx, opsSeg0, opsPool0, opsGather0, opsSeg1, opsPool1, opsGather1, opsSeg2, opsPool2, opsGather2, opsSeg3, opsPool3, opsGather3, opsTail, opsOut,
    List.append_assoc, List.cons_append, List.nil_append, List.drop_succ_cons, List.drop_zero, List.take_succ_cons, List.take_zero]

theorem main_eq (d : Dev nD) : main (F := F) d = seq ops := by
  rw [ops_eq_windows, seq_append, seq_append, seq_append, seq_append,
    ← main_part0_eq d, ← main_part1_eq d, ← main_part2_eq d, ← main_part3_eq d, ← main_part4_eq d]
  simp only [main, bind_assoc]

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops_sub : (ops : List (HloOp τ sig (Elt F))).Forall fun op => op.bufs ⊆ tcRefs τ sig := by
  simp only [ops, opsRed, opsIdx, opsSeg0, opsPool0, opsGather0, opsSeg1, opsPool1, opsGather1, opsSeg2, opsPool2, opsGather2, opsSeg3, opsPool3, opsGather3, opsTail, opsOut, List.forall_append, List.Forall, nullary_bufs_sub, unary_bufs_sub, binary_bufs_sub,
    ternary_bufs_sub, reshape_bufs_sub, nary_bufs_sub, and_self]

set_option maxRecDepth 16384 in
theorem ops_fresh : ∀ op ∈ (ops : List (HloOp τ sig (Elt F))), op.fresh = ∅ := by
  refine List.forall_iff_forall_mem.mp ?_
  simp only [ops, opsRed, opsIdx, opsSeg0, opsPool0, opsGather0, opsSeg1, opsPool1, opsGather1, opsSeg2, opsPool2, opsGather2, opsSeg3, opsPool3, opsGather3, opsTail, opsOut, List.forall_append, List.Forall]
  and_intros <;> rfl

theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

abbrev opsW : List (Ref sig .tc) :=
  opsRed_W ++ opsIdx_W ++ opsSeg0_W ++ opsPool0_W ++ opsGather0_W ++ opsSeg1_W ++ opsPool1_W ++ opsGather1_W ++ opsSeg2_W ++ opsPool2_W ++ opsGather2_W ++ opsSeg3_W ++ opsPool3_W ++ opsGather3_W ++ opsTail_W ++ opsOut_W

-- a line that writes into a list of references writes into any list holding them all
theorem writes_mono {W W' : List (Ref sig .tc)} (hWW : ∀ x ∈ W, x ∈ W') {l : List (HloOp τ sig (Elt F))}
    (h : l.Forall fun op => op.writes ⊆ (W.map (Proc.devRef (τ := τ) .tc)).toFinset) :
    l.Forall fun op => op.writes ⊆ (W'.map (Proc.devRef (τ := τ) .tc)).toFinset :=
  h.imp fun op ho b hb => by
    obtain ⟨y, hy, rfl⟩ := List.mem_map.mp (List.mem_toFinset.mp (ho hb))
    exact List.mem_toFinset.mpr (List.mem_map_of_mem (hWW y hy))

local macro "writes_tac" : tactic =>
  `(tactic| (
    simp only [List.Forall, nullary_writes, unary_writes, binary_writes, ternary_writes, reshape_writes, nary_writes,
      Finset.singleton_subset_iff, List.mem_toFinset]
    and_intros <;> exact List.mem_map_of_mem (by decide)))

local macro "in_opsW" : tactic => `(tactic| (intro x hx; simp only [opsW, List.mem_append, hx, true_or, or_true]))

theorem opsRed_writes : (opsRed : List (HloOp τ sig (Elt F))).Forall fun op => op.writes ⊆ (opsRed_W.map (Proc.devRef (τ := τ) .tc)).toFinset := by writes_tac
theorem opsIdx_writes : (opsIdx : List (HloOp τ sig (Elt F))).Forall fun op => op.writes ⊆ (opsIdx_W.map (Proc.devRef (τ := τ) .tc)).toFinset := by writes_tac
theorem opsSeg0_writes : (opsSeg0 : List (HloOp τ sig (Elt F))).Forall fun op => op.writes ⊆ (opsSeg0_W.map (Proc.devRef (τ := τ) .tc)).toFinset := by writes_tac
theorem opsPool0_writes : (opsPool0 : List (HloOp τ sig (Elt F))).Forall fun op => op.writes ⊆ (opsPool0_W.map (Proc.devRef (τ := τ) .tc)).toFinset := by writes_tac
theorem opsGather0_writes : (opsGather0 : List (HloOp τ sig (Elt F))).Forall fun op => op.writes ⊆ (opsGather0_W.map (Proc.devRef (τ := τ) .tc)).toFinset := by writes_tac
theorem opsSeg1_writes : (opsSeg1 : List (HloOp τ sig (Elt F))).Forall fun op => op.writes ⊆ (opsSeg1_W.map (Proc.devRef (τ := τ) .tc)).toFinset := by writes_tac
theorem opsPool1_writes : (opsPool1 : List (HloOp τ sig (Elt F))).Forall fun op => op.writes ⊆ (opsPool1_W.map (Proc.devRef (τ := τ) .tc)).toFinset := by writes_tac
theorem opsGather1_writes : (opsGather1 : List (HloOp τ sig (Elt F))).Forall fun op => op.writes ⊆ (opsGather1_W.map (Proc.devRef (τ := τ) .tc)).toFinset := by writes_tac
theorem opsSeg2_writes : (opsSeg2 : List (HloOp τ sig (Elt F))).Forall fun op => op.writes ⊆ (opsSeg2_W.map (Proc.devRef (τ := τ) .tc)).toFinset := by writes_tac
theorem opsPool2_writes : (opsPool2 : List (HloOp τ sig (Elt F))).Forall fun op => op.writes ⊆ (opsPool2_W.map (Proc.devRef (τ := τ) .tc)).toFinset := by writes_tac
theorem opsGather2_writes : (opsGather2 : List (HloOp τ sig (Elt F))).Forall fun op => op.writes ⊆ (opsGather2_W.map (Proc.devRef (τ := τ) .tc)).toFinset := by writes_tac
theorem opsSeg3_writes : (opsSeg3 : List (HloOp τ sig (Elt F))).Forall fun op => op.writes ⊆ (opsSeg3_W.map (Proc.devRef (τ := τ) .tc)).toFinset := by writes_tac
theorem opsPool3_writes : (opsPool3 : List (HloOp τ sig (Elt F))).Forall fun op => op.writes ⊆ (opsPool3_W.map (Proc.devRef (τ := τ) .tc)).toFinset := by writes_tac
theorem opsGather3_writes : (opsGather3 : List (HloOp τ sig (Elt F))).Forall fun op => op.writes ⊆ (opsGather3_W.map (Proc.devRef (τ := τ) .tc)).toFinset := by writes_tac
theorem opsTail_writes : (opsTail : List (HloOp τ sig (Elt F))).Forall fun op => op.writes ⊆ (opsTail_W.map (Proc.devRef (τ := τ) .tc)).toFinset := by writes_tac
theorem opsOut_writes : (opsOut : List (HloOp τ sig (Elt F))).Forall fun op => op.writes ⊆ (opsOut_W.map (Proc.devRef (τ := τ) .tc)).toFinset := by writes_tac

theorem ops_writes : (ops : List (HloOp τ sig (Elt F))).Forall fun op => op.writes ⊆ (opsW.map (Proc.devRef (τ := τ) .tc)).toFinset := by
  simp only [ops, List.forall_append]
  exact ⟨⟨⟨⟨⟨⟨⟨⟨⟨⟨⟨⟨⟨⟨⟨writes_mono (by in_opsW) opsRed_writes, writes_mono (by in_opsW) opsIdx_writes⟩, writes_mono (by in_opsW) opsSeg0_writes⟩, writes_mono (by in_opsW) opsPool0_writes⟩, writes_mono (by in_opsW) opsGather0_writes⟩, writes_mono (by in_opsW) opsSeg1_writes⟩, writes_mono (by in_opsW) opsPool1_writes⟩, writes_mono (by in_opsW) opsGather1_writes⟩, writes_mono (by in_opsW) opsSeg2_writes⟩, writes_mono (by in_opsW) opsPool2_writes⟩, writes_mono (by in_opsW) opsGather2_writes⟩, writes_mono (by in_opsW) opsSeg3_writes⟩, writes_mono (by in_opsW) opsPool3_writes⟩, writes_mono (by in_opsW) opsGather3_writes⟩, writes_mono (by in_opsW) opsTail_writes⟩, writes_mono (by in_opsW) opsOut_writes⟩

theorem ops_kept {r : Ref sig .tc} (hr : r ∉ opsW) (V : Valuation τ sig (Elt F)) :
    after ops V (Proc.devRef .tc r) = V (Proc.devRef .tc r) :=
  after_of_writes_sub ops V ops_writes hr

-- the run, with each of @main's fourteen arguments, which no operation writes, as launched
theorem run_kept (m : (ℓ : Loc nD τ sig) → Buf (Elt F) ℓ) (ρ : Dev nD → PrngReg) :
    θ_run defs (onTc (τ := τ) (main (F := F))) ⟨m, fun _ => 0, ρ⟩ fun r => ∀ c : Dev nD,
      (∀ b : Ref sig .tc, r.2.mem ((c.tc : Thread nD τ).loc b) = after ops (launchContents m c) (Proc.devRef .tc b))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨h c, (h c _).trans (ops_kept (r := main_arg0) (by decide) _),
    (h c _).trans (ops_kept (r := main_arg1) (by decide) _),
    (h c _).trans (ops_kept (r := main_arg2) (by decide) _),
    (h c _).trans (ops_kept (r := main_arg3) (by decide) _),
    (h c _).trans (ops_kept (r := main_arg4) (by decide) _),
    (h c _).trans (ops_kept (r := main_arg5) (by decide) _),
    (h c _).trans (ops_kept (r := main_arg6) (by decide) _),
    (h c _).trans (ops_kept (r := main_arg7) (by decide) _),
    (h c _).trans (ops_kept (r := main_arg8) (by decide) _),
    (h c _).trans (ops_kept (r := main_arg9) (by decide) _),
    (h c _).trans (ops_kept (r := main_arg10) (by decide) _),
    (h c _).trans (ops_kept (r := main_arg11) (by decide) _),
    (h c _).trans (ops_kept (r := main_arg12) (by decide) _),
    (h c _).trans (ops_kept (r := main_arg13) (by decide) _)⟩) (run m ρ)

end Cert.ReferenceIdeal.RefRun

end
-- ==== Proof.RefVal.lean ====
import proofs.«418858_j49108656062716_3_alg».proof.Proof.RefOps
import proofs.«418858_j49108656062716_3_alg».proof.Proof.RefRun
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def stRed (x : FVec F S250000x64 .f32) (w : FVec F S64x64 .f32) (b : FVec F S64 .f32) : FVec F S250000x64 .f32 :=
  maximumf
    (addf (Host.dotGeneral dot_S250000x64_S64x64_S250000x64_1_0_0_1_n_n none x w)
      (broadcastInDim S250000x64 ![0, 1] bcast_S1x64_S250000x64_0_1 (broadcastInDim S1x64 ![1] bcast_S64_S1x64_1 b)))
    (broadcastInDim S250000x64 ![] bcast_S_S250000x64 (constant S_ .f32 0x00000000#32))

def stBidx (t : IVec S250000x4 32) : IVec S250000 32 :=
  shapeCast S250000 (extractStridedSlice S250000x1 ![0, 0] t slices_S250000x4_S250000x1_0_0) shapeCasts_S250000x1_S250000

def stCxyz (t : IVec S250000x4 32) : IVec S250000x3 32 :=
  extractStridedSlice S250000x3 ![0, 1] t slices_S250000x4_S250000x3_0_1

def stFloorDiv (ps : BitVec 32) (c : IVec S250000x3 32) : IVec S250000x3 32 :=
  select
    (andi
      (cmpi .ne (signi c) (broadcastInDim S250000x3 ![] bcast_S_S250000x3 (signi (constantI S_ 32 ps))))
      (cmpi .ne (Host.remsi c (broadcastInDim S250000x3 ![] bcast_S_S250000x3 (constantI S_ 32 ps)))
        (broadcastInDim S250000x3 ![] bcast_S_S250000x3 (constantI S_ 32 0#32))))
    (subi (Host.divsi c (broadcastInDim S250000x3 ![] bcast_S_S250000x3 (constantI S_ 32 ps)))
      (broadcastInDim S250000x3 ![] bcast_S_S250000x3 (constantI S_ 32 1#32)))
    (Host.divsi c (broadcastInDim S250000x3 ![] bcast_S_S250000x3 (constantI S_ 32 ps)))

def stSeg (gx gy gz ps : BitVec 32) (bidx : IVec S250000 32) (cxyz : IVec S250000x3 32) : IVec S250000 32 :=
  addi
    (muli
      (addi
        (muli
          (addi
            (muli bidx (broadcastInDim S250000 ![] bcast_S_S250000 (constantI S_ 32 gx)))
            (shapeCast S250000 (extractStridedSlice S250000x1 ![0, 0] (stFloorDiv ps cxyz) slices_S250000x3_S250000x1_0_0)
              shapeCasts_S250000x1_S250000))
          (broadcastInDim S250000 ![] bcast_S_S250000 (constantI S_ 32 gy)))
        (shapeCast S250000 (extractStridedSlice S250000x1 ![0, 1] (stFloorDiv ps cxyz) slices_S250000x3_S250000x1_0_1)
          shapeCasts_S250000x1_S250000))
      (broadcastInDim S250000 ![] bcast_S_S250000 (constantI S_ 32 gz)))
    (shapeCast S250000 (extractStridedSlice S250000x1 ![0, 2] (stFloorDiv ps cxyz) slices_S250000x3_S250000x1_0_2)
      shapeCasts_S250000x1_S250000)

-- The pooled table of one scale: the per-segment mean through that scale's slab of the weights, plus its bias row, rectified.
def stTableOf {R : Nat} (s64 : ScatterDims ⟨2, ![R, 64]⟩ S250000x1 S250000x64) (s1 : ScatterDims ⟨2, ![R, 1]⟩ S250000x1 S250000x1)
    (d : DotDims ⟨2, ![R, 64]⟩ S64x32 ⟨2, ![R, 32]⟩)
    (hz64 : S_.BroadcastsInDim ⟨2, ![R, 64]⟩ ![]) (hz1 : S_.BroadcastsInDim ⟨2, ![R, 1]⟩ ![])
    (hmx : (⟨2, ![R, 1]⟩ : Shape).BroadcastsInDim ⟨2, ![R, 64]⟩ ![0, 1])
    (hb2 : S1x32.BroadcastsInDim ⟨2, ![R, 32]⟩ ![0, 1]) (hz32 : S_.BroadcastsInDim ⟨2, ![R, 32]⟩ ![])
    (o : Nat) (hW : S4x64x32.Slices ![o, 0, 0] S1x64x32) (hB : S4x32.Slices ![o, 0] S1x32)
    (red : FVec F S250000x64 .f32) (seg : IVec S250000 32) (w : FVec F S4x64x32 .f32) (b : FVec F S4x32 .f32) :
    FVec F ⟨2, ![R, 32]⟩ .f32 :=
  maximumf
    (addf
      (Host.dotGeneral d none
        (Host.divf
          (Host.scatterAdd s64 (broadcastInDim ⟨2, ![R, 64]⟩ ![] hz64 (constant S_ .f32 0x00000000#32))
            (broadcastInDim S250000x1 ![0] bcast_S250000_S250000x1_0 seg) red)
          (broadcastInDim ⟨2, ![R, 64]⟩ ![0, 1] hmx
            (maximumf
              (Host.scatterAdd s1 (broadcastInDim ⟨2, ![R, 1]⟩ ![] hz1 (constant S_ .f32 0x00000000#32))
                (broadcastInDim S250000x1 ![0] bcast_S250000_S250000x1_0 seg)
                (broadcastInDim S250000x1 ![] bcast_S_S250000x1 (constant S_ .f32 0x3F800000#32)))
              (broadcastInDim ⟨2, ![R, 1]⟩ ![] hz1 (constant S_ .f32 0x3F800000#32)))))
        (shapeCast S64x32 (extractStridedSlice S1x64x32 ![o, 0, 0] w hW) shapeCasts_S1x64x32_S64x32))
      (broadcastInDim ⟨2, ![R, 32]⟩ ![0, 1] hb2
        (broadcastInDim S1x32 ![1] bcast_S32_S1x32_1 (shapeCast S32 (extractStridedSlice S1x32 ![o, 0] b hB) shapeCasts_S1x32_S32))))
    (broadcastInDim ⟨2, ![R, 32]⟩ ![] hz32 (constant S_ .f32 0x00000000#32))

def stTable0 (red : FVec F S250000x64 .f32) (seg : IVec S250000 32) (w : FVec F S4x64x32 .f32) (b : FVec F S4x32 .f32) :
    FVec F S524288x32 .f32 :=
  stTableOf scatter_S524288x64_S250000x1_S250000x64_1_0_0_1 scatter_S524288x1_S250000x1_S250000x1_1_0_0_1 dot_S524288x64_S64x32_S524288x32_1_0_0_1_n_n
    bcast_S_S524288x64 bcast_S_S524288x1 bcast_S524288x1_S524288x64_0_1 bcast_S1x32_S524288x32_0_1 bcast_S_S524288x32
    0 slices_S4x64x32_S1x64x32_0_0_0 slices_S4x32_S1x32_0_0 red seg w b

def stTable1 (red : FVec F S250000x64 .f32) (seg : IVec S250000 32) (w : FVec F S4x64x32 .f32) (b : FVec F S4x32 .f32) :
    FVec F S65536x32 .f32 :=
  stTableOf scatter_S65536x64_S250000x1_S250000x64_1_0_0_1 scatter_S65536x1_S250000x1_S250000x1_1_0_0_1 dot_S65536x64_S64x32_S65536x32_1_0_0_1_n_n
    bcast_S_S65536x64 bcast_S_S65536x1 bcast_S65536x1_S65536x64_0_1 bcast_S1x32_S65536x32_0_1 bcast_S_S65536x32
    1 slices_S4x64x32_S1x64x32_1_0_0 slices_S4x32_S1x32_1_0 red seg w b

def stTable2 (red : FVec F S250000x64 .f32) (seg : IVec S250000 32) (w : FVec F S4x64x32 .f32) (b : FVec F S4x32 .f32) :
    FVec F S22188x32 .f32 :=
  stTableOf scatter_S22188x64_S250000x1_S250000x64_1_0_0_1 scatter_S22188x1_S250000x1_S250000x1_1_0_0_1 dot_S22188x64_S64x32_S22188x32_1_0_0_1_n_n
    bcast_S_S22188x64 bcast_S_S22188x1 bcast_S22188x1_S22188x64_0_1 bcast_S1x32_S22188x32_0_1 bcast_S_S22188x32
    2 slices_S4x64x32_S1x64x32_2_0_0 slices_S4x32_S1x32_2_0 red seg w b

def stTable3 (red : FVec F S250000x64 .f32) (seg : IVec S250000 32) (w : FVec F S4x64x32 .f32) (b : FVec F S4x32 .f32) :
    FVec F S8192x32 .f32 :=
  stTableOf scatter_S8192x64_S250000x1_S250000x64_1_0_0_1 scatter_S8192x1_S250000x1_S250000x1_1_0_0_1 dot_S8192x64_S64x32_S8192x32_1_0_0_1_n_n
    bcast_S_S8192x64 bcast_S_S8192x1 bcast_S8192x1_S8192x64_0_1 bcast_S1x32_S8192x32_0_1 bcast_S_S8192x32
    3 slices_S4x64x32_S1x64x32_3_0_0 slices_S4x32_S1x32_3_0 red seg w b

def stWrap (n : BitVec 32) (i : IVec S250000 32) : IVec S250000x1 32 :=
  broadcastInDim S250000x1 ![0] bcast_S250000_S250000x1_0
    (select (cmpi .slt i (broadcastInDim S250000 ![] bcast_S_S250000 (constantI S_ 32 0#32)))
      (addi i (broadcastInDim S250000 ![] bcast_S_S250000 (constantI S_ 32 n)))
      i)

def stGather0 (table : FVec F S524288x32 .f32) (seg : IVec S250000 32) : FVec F S250000x32 .f32 :=
  Host.gather gather_S524288x32_S250000x1_S250000x32_1_0_n_n_0_1_132 table (stWrap 524288#32 seg)

def stGather1 (table : FVec F S65536x32 .f32) (seg : IVec S250000 32) : FVec F S250000x32 .f32 :=
  Host.gather gather_S65536x32_S250000x1_S250000x32_1_0_n_n_0_1_132 table (stWrap 65536#32 seg)

def stGather2 (table : FVec F S22188x32 .f32) (seg : IVec S250000 32) : FVec F S250000x32 .f32 :=
  Host.gather gather_S22188x32_S250000x1_S250000x32_1_0_n_n_0_1_132 table (stWrap 22188#32 seg)

def stGather3 (table : FVec F S8192x32 .f32) (seg : IVec S250000 32) : FVec F S250000x32 .f32 :=
  Host.gather gather_S8192x32_S250000x1_S250000x32_1_0_n_n_0_1_132 table (stWrap 8192#32 seg)

def stStack (a0 a1 a2 a3 : FVec F S250000x32 .f32) : FVec F S250000x4x32 .f32 :=
  concatenate S250000x4x32 1
    [⟨S250000x1x32, broadcastInDim S250000x1x32 ![0, 2] bcast_S250000x32_S250000x1x32_0_2 a0⟩,
     ⟨S250000x1x32, broadcastInDim S250000x1x32 ![0, 2] bcast_S250000x32_S250000x1x32_0_2 a1⟩,
     ⟨S250000x1x32, broadcastInDim S250000x1x32 ![0, 2] bcast_S250000x32_S250000x1x32_0_2 a2⟩,
     ⟨S250000x1x32, broadcastInDim S250000x1x32 ![0, 2] bcast_S250000x32_S250000x1x32_0_2 a3⟩]
    concatenates_S250000x1x32_S250000x1x32_S250000x1x32_S250000x1x32_S250000x4x32_d1

def stSumStack (s : FVec F S250000x4x32 .f32) : FVec F S250000x32 .f32 :=
  Host.reduceAdd s (constant S_ .f32 0x00000000#32) reducesTo_S250000x4x32_S250000x32_d1 h_S_

def stRelu32 (x : FVec F S250000x32 .f32) : FVec F S250000x32 .f32 :=
  maximumf x (broadcastInDim S250000x32 ![] bcast_S_S250000x32 (constant S_ .f32 0x00000000#32))

def stRelu64 (x : FVec F S250000x64 .f32) : FVec F S250000x64 .f32 :=
  maximumf x (broadcastInDim S250000x64 ![] bcast_S_S250000x64 (constant S_ .f32 0x00000000#32))

def stLogit (o7 : Fin S4x32x32.rank → Nat) (h7 : S4x32x32.Slices o7 S1x32x32) (o8 : Fin S4x32.rank → Nat)
    (h8 : S4x32.Slices o8 S1x32) (h : FVec F S250000x32 .f32) (w : FVec F S4x32x32 .f32) (b : FVec F S4x32 .f32) :
    FVec F S250000x32 .f32 :=
  addf
    (Host.dotGeneral dot_S250000x32_S32x32_S250000x32_1_0_0_1_n_n none h
      (shapeCast S32x32 (extractStridedSlice S1x32x32 o7 w h7) shapeCasts_S1x32x32_S32x32))
    (broadcastInDim S250000x32 ![0, 1] bcast_S1x32_S250000x32_0_1
      (broadcastInDim S1x32 ![1] bcast_S32_S1x32_1
        (shapeCast S32 (extractStridedSlice S1x32 o8 b h8) shapeCasts_S1x32_S32)))

def stGate (l : FVec F S250000x4x32 .f32) : FVec F S250000x4x32 .f32 :=
  Host.divf (broadcastInDim S250000x4x32 ![] bcast_S_S250000x4x32 (constant S_ .f32 0x3F800000#32))
    (addf (broadcastInDim S250000x4x32 ![] bcast_S_S250000x4x32 (constant S_ .f32 0x3F800000#32))
      (Host.exp (Host.negf l)))

def stHidden (s : FVec F S250000x4x32 .f32) (w9 : FVec F S32x32 .f32) : FVec F S250000x32 .f32 :=
  stRelu32 (Host.dotGeneral dot_S250000x32_S32x32_S250000x32_1_0_0_1_n_n none (stSumStack s) w9)

def stLogits (h : FVec F S250000x32 .f32) (w7 : FVec F S4x32x32 .f32) (w8 : FVec F S4x32 .f32) : FVec F S250000x4x32 .f32 :=
  stStack
    (stLogit ![0, 0, 0] slices_S4x32x32_S1x32x32_0_0_0 ![0, 0] slices_S4x32_S1x32_0_0 h w7 w8)
    (stLogit ![1, 0, 0] slices_S4x32x32_S1x32x32_1_0_0 ![1, 0] slices_S4x32_S1x32_1_0 h w7 w8)
    (stLogit ![2, 0, 0] slices_S4x32x32_S1x32x32_2_0_0 ![2, 0] slices_S4x32_S1x32_2_0 h w7 w8)
    (stLogit ![3, 0, 0] slices_S4x32x32_S1x32x32_3_0_0 ![3, 0] slices_S4x32_S1x32_3_0 h w7 w8)

def stMixed (s l : FVec F S250000x4x32 .f32) (w10 : FVec F S32x64 .f32) : FVec F S250000x64 .f32 :=
  Host.dotGeneral dot_S250000x32_S32x64_S250000x64_1_0_0_1_n_n none (stSumStack (mulf s (stGate l))) w10

def stHead (red m : FVec F S250000x64 .f32) (w11 : FVec F S128x64 .f32) (w12 : FVec F S64x64 .f32) (w13 : FVec F S64 .f32) :
    FVec F S250000x64 .f32 :=
  addf
    (Host.dotGeneral dot_S250000x64_S64x64_S250000x64_1_0_0_1_n_n none
      (stRelu64 (Host.dotGeneral dot_S250000x128_S128x64_S250000x64_1_0_0_1_n_n none
        (concatenate S250000x128 1 [⟨S250000x64, red⟩, ⟨S250000x64, m⟩] concatenates_S250000x64_S250000x64_S250000x128_d1)
        w11))
      w12)
    (broadcastInDim S250000x64 ![0, 1] bcast_S1x64_S250000x64_0_1 (broadcastInDim S1x64 ![1] bcast_S64_S1x64_1 w13))

def stTail (red : FVec F S250000x64 .f32) (a0 a1 a2 a3 : FVec F S250000x32 .f32)
    (w7 : FVec F S4x32x32 .f32) (w8 : FVec F S4x32 .f32) (w9 : FVec F S32x32 .f32) (w10 : FVec F S32x64 .f32)
    (w11 : FVec F S128x64 .f32) (w12 : FVec F S64x64 .f32) (w13 : FVec F S64 .f32) : FVec F S250000x64 .f32 :=
  stHead red
    (stMixed (stStack a0 a1 a2 a3) (stLogits (stHidden (stStack a0 a1 a2 a3) w9) w7 w8) w10)
    w11 w12 w13

def stOut (y : FVec F S250000x64 .f32) (perm : IVec S250000 32) : FVec F S250000x64 .f32 :=
  Host.gather gather_S250000x64_S250000x1_S250000x64_1_0_n_n_0_1_164 y (stWrap 250000#32 perm)

variable (X : Valuation τ sig (Elt F))

theorem red_v4 :
    StableHlo.after (opsRed (F := F)) X (Proc.devRef .tc main_v4) = stRed (X main_arg0) (X main_arg3) (X main_arg4) := by
  after_results
  rfl

theorem idx_v6 :
    StableHlo.after (opsIdx (F := F)) X (Proc.devRef .tc main_v6) = stBidx (X main_arg1) := by
  after_results
  rfl

theorem idx_v7 :
    StableHlo.after (opsIdx (F := F)) X (Proc.devRef .tc main_v7) = stCxyz (X main_arg1) := by
  after_results
  rfl

theorem seg0_v23 :
    StableHlo.after (opsSeg0 (F := F)) X (Proc.devRef .tc main_v23)
      = stSeg 128#32 128#32 16#32 2#32 (X main_v6) (X main_v7) := by
  after_results_simp
  rfl

theorem seg1_v66 :
    StableHlo.after (opsSeg1 (F := F)) X (Proc.devRef .tc main_v66)
      = stSeg 64#32 64#32 8#32 4#32 (X main_v6) (X main_v7) := by
  after_results_simp
  rfl

theorem seg2_v109 :
    StableHlo.after (opsSeg2 (F := F)) X (Proc.devRef .tc main_v109)
      = stSeg 43#32 43#32 6#32 6#32 (X main_v6) (X main_v7) := by
  after_results_simp
  rfl

theorem seg3_v152 :
    StableHlo.after (opsSeg3 (F := F)) X (Proc.devRef .tc main_v152)
      = stSeg 32#32 32#32 4#32 8#32 (X main_v6) (X main_v7) := by
  after_results_simp
  rfl

theorem pool0_v43 :
    StableHlo.after (opsPool0 (F := F)) X (Proc.devRef .tc main_v43)
      = stTable0 (X main_v4) (X main_v23) (X main_arg5) (X main_arg6) := by
  after_results_simp
  rfl

theorem pool1_v86 :
    StableHlo.after (opsPool1 (F := F)) X (Proc.devRef .tc main_v86)
      = stTable1 (X main_v4) (X main_v66) (X main_arg5) (X main_arg6) := by
  after_results_simp
  rfl

theorem pool2_v129 :
    StableHlo.after (opsPool2 (F := F)) X (Proc.devRef .tc main_v129)
      = stTable2 (X main_v4) (X main_v109) (X main_arg5) (X main_arg6) := by
  after_results_simp
  rfl

theorem pool3_v172 :
    StableHlo.after (opsPool3 (F := F)) X (Proc.devRef .tc main_v172)
      = stTable3 (X main_v4) (X main_v152) (X main_arg5) (X main_arg6) := by
  after_results_simp
  rfl

theorem gather0_v50 :
    StableHlo.after (opsGather0 (F := F)) X (Proc.devRef .tc main_v50)
      = stGather0 (X main_v43) (X main_v23) := by
  after_results
  rfl

theorem gather1_v93 :
    StableHlo.after (opsGather1 (F := F)) X (Proc.devRef .tc main_v93)
      = stGather1 (X main_v86) (X main_v66) := by
  after_results
  rfl

theorem gather2_v136 :
    StableHlo.after (opsGather2 (F := F)) X (Proc.devRef .tc main_v136)
      = stGather2 (X main_v129) (X main_v109) := by
  after_results
  rfl

theorem gather3_v179 :
    StableHlo.after (opsGather3 (F := F)) X (Proc.devRef .tc main_v179)
      = stGather3 (X main_v172) (X main_v152) := by
  after_results
  rfl

local macro "carry" l:term : tactic => `(tactic| repeat (rw [$l:term]; rotate_left; decide))

abbrev tailA : List (HloOp τ sig (Elt F)) := (opsTail (F := F)).take 11
abbrev tailB : List (HloOp τ sig (Elt F)) := ((opsTail (F := F)).drop 11).take 32
abbrev tailC : List (HloOp τ sig (Elt F)) := ((opsTail (F := F)).drop 43).take 5
abbrev tailD : List (HloOp τ sig (Elt F)) := (opsTail (F := F)).drop 48

theorem opsTail_eq : (opsTail (F := F)) = tailA ++ (tailB ++ (tailC ++ tailD)) := rfl

theorem tailA_v184 :
    StableHlo.after (tailA (F := F)) X (Proc.devRef .tc main_v184)
      = stStack (X main_v50) (X main_v93) (X main_v136) (X main_v179) := by
  simp only [tailA, opsTail, List.take_succ_cons, List.take_zero]
  after_results
  rfl

theorem tailA_v187 :
    StableHlo.after (tailA (F := F)) X (Proc.devRef .tc main_v187)
      = stHidden (stStack (X main_v50) (X main_v93) (X main_v136) (X main_v179)) (X main_arg9) := by
  simp only [tailA, opsTail, List.take_succ_cons, List.take_zero]
  after_results
  rfl

theorem tailB_v195 :
    StableHlo.after (tailB (F := F)) X (Proc.devRef .tc main_v195)
      = stLogit ![0, 0, 0] slices_S4x32x32_S1x32x32_0_0_0 ![0, 0] slices_S4x32_S1x32_0_0 (X main_v187) (X main_arg7) (X main_arg8) := by
  simp only [tailB, opsTail, List.drop_succ_cons, List.drop_zero, List.take_succ_cons, List.take_zero]
  after_results_simp
  rfl

theorem tailB_v203 :
    StableHlo.after (tailB (F := F)) X (Proc.devRef .tc main_v203)
      = stLogit ![1, 0, 0] slices_S4x32x32_S1x32x32_1_0_0 ![1, 0] slices_S4x32_S1x32_1_0 (X main_v187) (X main_arg7) (X main_arg8) := by
  simp only [tailB, opsTail, List.drop_succ_cons, List.drop_zero, List.take_succ_cons, List.take_zero]
  after_results_simp
  rfl

theorem tailB_v211 :
    StableHlo.after (tailB (F := F)) X (Proc.devRef .tc main_v211)
      = stLogit ![2, 0, 0] slices_S4x32x32_S1x32x32_2_0_0 ![2, 0] slices_S4x32_S1x32_2_0 (X main_v187) (X main_arg7) (X main_arg8) := by
  simp only [tailB, opsTail, List.drop_succ_cons, List.drop_zero, List.take_succ_cons, List.take_zero]
  after_results_simp
  rfl

theorem tailB_v219 :
    StableHlo.after (tailB (F := F)) X (Proc.devRef .tc main_v219)
      = stLogit ![3, 0, 0] slices_S4x32x32_S1x32x32_3_0_0 ![3, 0] slices_S4x32_S1x32_3_0 (X main_v187) (X main_arg7) (X main_arg8) := by
  simp only [tailB, opsTail, List.drop_succ_cons, List.drop_zero, List.take_succ_cons, List.take_zero]
  after_results_simp
  rfl

theorem tailB_v184 :
    StableHlo.after (tailB (F := F)) X (Proc.devRef .tc main_v184) = X (Proc.devRef .tc main_v184) := by
  simp only [tailB, opsTail, List.drop_succ_cons, List.drop_zero, List.take_succ_cons, List.take_zero]
  after_results_simp

theorem tailC_v224 :
    StableHlo.after (tailC (F := F)) X (Proc.devRef .tc main_v224)
      = stStack (X main_v195) (X main_v203) (X main_v211) (X main_v219) := by
  simp only [tailC, opsTail, List.drop_succ_cons, List.drop_zero, List.take_succ_cons, List.take_zero]
  after_results
  rfl

theorem tailC_v184 :
    StableHlo.after (tailC (F := F)) X (Proc.devRef .tc main_v184) = X (Proc.devRef .tc main_v184) := by
  simp only [tailC, opsTail, List.drop_succ_cons, List.drop_zero, List.take_succ_cons, List.take_zero]
  after_results

theorem tailD_v240 :
    StableHlo.after (tailD (F := F)) X (Proc.devRef .tc main_v240)
      = stHead (X main_v4) (stMixed (X main_v184) (X main_v224) (X main_arg10)) (X main_arg11) (X main_arg12) (X main_arg13) := by
  simp only [tailD, opsTail, List.drop_succ_cons, List.drop_zero, List.take_succ_cons, List.take_zero]
  after_results_simp
  rfl

theorem keepTailPart (L : List (HloOp τ sig (Elt F))) (hL : ∀ op ∈ L, op ∈ (opsTail (F := F)))
    {r : Ref sig .tc} (h : r ∉ opsTail_W) :
    StableHlo.after L X (Proc.devRef .tc r) = X (Proc.devRef .tc r) :=
  StableHlo.after_of_writes_sub L X
    (List.forall_iff_forall_mem.mpr fun op hop => List.forall_iff_forall_mem.mp opsTail_writes op (hL op hop)) h

theorem keepTailA {r : Ref sig .tc} (h : r ∉ opsTail_W) :
    StableHlo.after (tailA (F := F)) X (Proc.devRef .tc r) = X (Proc.devRef .tc r) :=
  keepTailPart X _ (fun _ ho => List.mem_of_mem_take ho) h

theorem keepTailB {r : Ref sig .tc} (h : r ∉ opsTail_W) :
    StableHlo.after (tailB (F := F)) X (Proc.devRef .tc r) = X (Proc.devRef .tc r) :=
  keepTailPart X _ (fun _ ho => List.mem_of_mem_drop (List.mem_of_mem_take ho)) h

theorem keepTailC {r : Ref sig .tc} (h : r ∉ opsTail_W) :
    StableHlo.after (tailC (F := F)) X (Proc.devRef .tc r) = X (Proc.devRef .tc r) :=
  keepTailPart X _ (fun _ ho => List.mem_of_mem_drop (List.mem_of_mem_take ho)) h

theorem tail_v240 :
    StableHlo.after (opsTail (F := F)) X (Proc.devRef .tc main_v240)
      = stTail (X main_v4) (X main_v50) (X main_v93) (X main_v136) (X main_v179)
          (X main_arg7) (X main_arg8) (X main_arg9) (X main_arg10) (X main_arg11) (X main_arg12) (X main_arg13) := by
  rw [opsTail_eq]
  simp only [StableHlo.after_append]
  rw [tailD_v240, tailC_v224, tailC_v184]; carry keepTailC
  rw [tailB_v195, tailB_v203, tailB_v211, tailB_v219, tailB_v184]; carry keepTailB
  rw [tailA_v187, tailA_v184]; carry keepTailA
  rfl

theorem out_v247 :
    StableHlo.after (opsOut (F := F)) X (Proc.devRef .tc main_v247) = stOut (X main_v240) (X main_arg2) := by
  after_results
  rfl

def stAtt0 (red : FVec F S250000x64 .f32) (bidx : IVec S250000 32) (cxyz : IVec S250000x3 32)
    (w5 : FVec F S4x64x32 .f32) (w6 : FVec F S4x32 .f32) : FVec F S250000x32 .f32 :=
  stGather0 (stTable0 red (stSeg 128#32 128#32 16#32 2#32 bidx cxyz) w5 w6) (stSeg 128#32 128#32 16#32 2#32 bidx cxyz)

def stAtt1 (red : FVec F S250000x64 .f32) (bidx : IVec S250000 32) (cxyz : IVec S250000x3 32)
    (w5 : FVec F S4x64x32 .f32) (w6 : FVec F S4x32 .f32) : FVec F S250000x32 .f32 :=
  stGather1 (stTable1 red (stSeg 64#32 64#32 8#32 4#32 bidx cxyz) w5 w6) (stSeg 64#32 64#32 8#32 4#32 bidx cxyz)

def stAtt2 (red : FVec F S250000x64 .f32) (bidx : IVec S250000 32) (cxyz : IVec S250000x3 32)
    (w5 : FVec F S4x64x32 .f32) (w6 : FVec F S4x32 .f32) : FVec F S250000x32 .f32 :=
  stGather2 (stTable2 red (stSeg 43#32 43#32 6#32 6#32 bidx cxyz) w5 w6) (stSeg 43#32 43#32 6#32 6#32 bidx cxyz)

def stAtt3 (red : FVec F S250000x64 .f32) (bidx : IVec S250000 32) (cxyz : IVec S250000x3 32)
    (w5 : FVec F S4x64x32 .f32) (w6 : FVec F S4x32 .f32) : FVec F S250000x32 .f32 :=
  stGather3 (stTable3 red (stSeg 32#32 32#32 4#32 8#32 bidx cxyz) w5 w6) (stSeg 32#32 32#32 4#32 8#32 bidx cxyz)

def stResult (a0 : FVec F S250000x64 .f32) (a1 : IVec S250000x4 32) (a2 : IVec S250000 32) (a3 : FVec F S64x64 .f32)
    (a4 : FVec F S64 .f32) (a5 : FVec F S4x64x32 .f32) (a6 : FVec F S4x32 .f32) (a7 : FVec F S4x32x32 .f32)
    (a8 : FVec F S4x32 .f32) (a9 : FVec F S32x32 .f32) (a10 : FVec F S32x64 .f32) (a11 : FVec F S128x64 .f32)
    (a12 : FVec F S64x64 .f32) (a13 : FVec F S64 .f32) : FVec F S250000x64 .f32 :=
  stOut
    (stTail (stRed a0 a3 a4)
      (stAtt0 (stRed a0 a3 a4) (stBidx a1) (stCxyz a1) a5 a6) (stAtt1 (stRed a0 a3 a4) (stBidx a1) (stCxyz a1) a5 a6)
      (stAtt2 (stRed a0 a3 a4) (stBidx a1) (stCxyz a1) a5 a6) (stAtt3 (stRed a0 a3 a4) (stBidx a1) (stCxyz a1) a5 a6)
      a7 a8 a9 a10 a11 a12 a13)
    a2

set_option maxHeartbeats 1000000 in

theorem result :
    StableHlo.after (ops (F := F)) X (Proc.devRef .tc main_v247)
      = stResult (X main_arg0) (X main_arg1) (X main_arg2) (X main_arg3) (X main_arg4) (X main_arg5) (X main_arg6)
          (X main_arg7) (X main_arg8) (X main_arg9) (X main_arg10) (X main_arg11) (X main_arg12) (X main_arg13) := by
  simp only [ops, StableHlo.after_append]
  rw [out_v247, tail_v240]; carry (StableHlo.after_of_writes_sub _ _ opsTail_writes)
  rw [gather3_v179]; carry (StableHlo.after_of_writes_sub _ _ opsGather3_writes)
  rw [pool3_v172]; carry (StableHlo.after_of_writes_sub _ _ opsPool3_writes)
  rw [seg3_v152]; carry (StableHlo.after_of_writes_sub _ _ opsSeg3_writes)
  rw [gather2_v136]; carry (StableHlo.after_of_writes_sub _ _ opsGather2_writes)
  rw [pool2_v129]; carry (StableHlo.after_of_writes_sub _ _ opsPool2_writes)
  rw [seg2_v109]; carry (StableHlo.after_of_writes_sub _ _ opsSeg2_writes)
  rw [gather1_v93]; carry (StableHlo.after_of_writes_sub _ _ opsGather1_writes)
  rw [pool1_v86]; carry (StableHlo.after_of_writes_sub _ _ opsPool1_writes)
  rw [seg1_v66]; carry (StableHlo.after_of_writes_sub _ _ opsSeg1_writes)
  rw [gather0_v50]; carry (StableHlo.after_of_writes_sub _ _ opsGather0_writes)
  rw [pool0_v43]; carry (StableHlo.after_of_writes_sub _ _ opsPool0_writes)
  rw [seg0_v23]; carry (StableHlo.after_of_writes_sub _ _ opsSeg0_writes)
  rw [idx_v6, idx_v7]; carry (StableHlo.after_of_writes_sub _ _ opsIdx_writes)
  rw [red_v4]; carry (StableHlo.after_of_writes_sub _ _ opsRed_writes)
  rfl

-- the same from a launch memory, the arguments read where the memory keeps them
theorem result_launch (m : (ℓ : Loc nD τ sig) → Buf (Elt F) ℓ) (c : Dev nD) :
    StableHlo.after (ops (F := F)) (StableHlo.launchContents m c) (Proc.devRef .tc main_v247)
      = stResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  result _

end Cert.ReferenceIdeal.RefRun
-- ==== Proof.VRedRef.lean ====
import proofs.«418858_j49108656062716_3_alg».proof.Proof.Gen.ReferenceIdeal
import Idealize.ShloMosaic.PureOps.Ideal.Laws
import Idealize.ShloMosaic.Lib.ValueIdx
import Idealize.ShloMosaic.Lib.Pipeline.Value
import Idealize.ShloMosaic.Lib.IdealHost
import Idealize.ShloMosaic.Lib.StackMember

noncomputable section

namespace Cert.Value.Red

open Cert.ReferenceIdeal Cert.ReferenceIdeal.Facts₀
open Idealize.ShloMosaic Idealize.ShloMosaic.ValueIdx
open scoped BigOperators

def redR (x : FVec Ideal S250000x64 .f32) (w : FVec Ideal S64x64 .f32) (b : FVec Ideal S64 .f32) : FVec Ideal S250000x64 .f32 :=
  maximumf
    (addf (Host.dotGeneral dot_S250000x64_S64x64_S250000x64_1_0_0_1_n_n none x w)
      (broadcastInDim S250000x64 ![0, 1] bcast_S1x64_S250000x64_0_1 (broadcastInDim S1x64 ![1] bcast_S64_S1x64_1 b)))
    (broadcastInDim S250000x64 ![] bcast_S_S250000x64 (constant (F := Ideal) S_ .f32 0x00000000#32))

theorem dotRed_apply (x : FVec Ideal S250000x64 .f32) (w : FVec Ideal S64x64 .f32) (n : Fin 250000) (k : Fin 64) :
    Host.dotGeneral dot_S250000x64_S64x64_S250000x64_1_0_0_1_n_n none x w (ix2 n k) = ∑ j : Fin 64, x (ix2 n j) * w (ix2 j k) :=
  StackMember.dotGeneral_plain_apply none x w n k

theorem redR_apply (x : FVec Ideal S250000x64 .f32) (w : FVec Ideal S64x64 .f32) (b : FVec Ideal S64 .f32)
    (n : Fin 250000) (k : Fin 64) :
    redR x w b (ix2 n k) = max ((∑ j : Fin 64, x (ix2 n j) * w (ix2 j k)) + b (ix1 k)) 0 := by
  unfold redR
  rw [maximumf_apply, addf_apply, dotRed_apply, broadcastInDim_scalar_apply, constant_apply, Ideal.ofBits_zero_f32]
  rw [broadcastInDim_apply ![0, 1] bcast_S1x64_S250000x64_0_1 _ (ix2 n k) (ix2 (0 : Fin 1) k)
    (fun a => match a with | ⟨0, _⟩ => rfl | ⟨1, _⟩ => rfl)]
  rw [broadcastInDim_apply ![1] bcast_S64_S1x64_1 b (ix2 (0 : Fin 1) k) (ix1 k)
    (fun a => match a with | ⟨0, _⟩ => rfl)]

end Cert.Value.Red
-- ==== Proof.VRedKer.lean ====
import proofs.«418858_j49108656062716_3_alg».proof.Proof.IR0
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

set_option maxRecDepth 16384

noncomputable section

namespace Cert.Value.Red

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

theorem dotBlk_apply (a : FVec Ideal S10000x64 .bf16) (w : FVec Ideal S64x64 .bf16) (p : Fin 10000) (k : Fin 64) :
    FloatOps.matmul dot_S10000x64_S64x64_S10000x64_1_0_0_1_n_n none a w (constant (F := Ideal) S10000x64 .f32 0x00000000#32) (ix2 p k)
      = ∑ j : Fin 64, a (ix2 p j) * w (ix2 j k) :=
  (congrFun (matmul_zero_eq_dotGeneral _ none a w) _).trans (StackMember.dotGeneral_plain_apply none a w p k)

theorem pay0_apply (v0 : Vec Ideal S10000x64 .f32) (v2 : Vec Ideal S64x64 .f32) (v5 : Vec Ideal S1x64 .f32)
    (p : Fin 10000) (k : Fin 64) :
    k0_pay1 v0 v2 v5 (ix2 p k) = max ((∑ j : Fin 64, v0 (ix2 p j) * v2 (ix2 j k)) + v5 (ix2 (0 : Fin 1) k)) 0 := by
  unfold k0_pay1
  show max (FloatOps.matmul dot_S10000x64_S64x64_S10000x64_1_0_0_1_n_n none (truncf .bf16 v0 bitsLt_bf16_f32) (truncf .bf16 v2 bitsLt_bf16_f32)
        (constant (F := Ideal) S10000x64 .f32 0x00000000#32) (ix2 p k)
      + broadcastTo S10000x64 (shapeCast S1x64 v5 shapeCasts_S1x64_S1x64) broadcasts_S1x64_S10000x64 (ix2 p k))
      (Ideal.ofBits .f32 0x00000000#32) = _
  rw [dotBlk_apply, broadcastTo_1b_ab_apply, shapeCast_self, Ideal.ofBits_zero_f32]
  rfl

variable (V : (c : Dev nD) → (b : Ref sig .tc) → Buf (Elt Ideal) ((c : Thread nD τ).loc b))

def redK (x : Vec Ideal S250000x64 .f32) (w : Vec Ideal S64x64 .f32) (b1 : Vec Ideal S1x64 .f32) : Vec Ideal S250000x64 .f32 :=
  fun i => max ((∑ j : Fin 64, x (ix2 (i 0) j) * w (ix2 j (i 1))) + b1 (ix2 (0 : Fin 1) (i 1))) 0

theorem hz0 : (![0, 0] : Fin 2 → Nat) = fun _ => 0 := funext fun a => by fin_cases a <;> rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem flushed3_eq (c : Dev nD) (t : Fin cfg0.N) :
    (dat0 V c).flushed 3 t = ((cfg0.win 3).blk t).view.read (Elt Ideal)
      (redK (V c main_arg0) (V c main_arg3) (V c main_v0)) := by
  show (cfg0.win 3).cut (grid0.coords t) ((dat0 V c).after 3 t) = _
  rw [after0_3]
  unfold out0_3
  rw [View.canon_unit_zero hz0]
  simp only [View.ld_unit_zero (S := S10000x64) hz0, View.ld_unit_zero (S := S64x64) hz0, View.ld_unit_zero (S := S1x64) hz0]
  obtain ⟨e00, e01, e10, e11, e20, e21, e30, e31⟩ := idx_facts0 t
  funext j
  show k0_pay1 (iblk0 V c 0 t) (iblk0 V c 1 t) (iblk0 V c 2 t) j
    = redK (V c main_arg0) (V c main_arg3) (V c main_v0) (((cfg0.win 3).blk t).view.emb j)
  obtain ⟨p, k, rfl⟩ : ∃ (p : Fin 10000) (k : Fin 64), j = ix2 p k := ⟨j 0, j 1, eq_ix2 j⟩
  refine (pay0_apply (iblk0 V c 0 t) (iblk0 V c 1 t) (iblk0 V c 2 t) p k).trans ?_
  unfold redK
  have hp : p.val < 10000 := p.isLt
  have hk : k.val < 64 := k.isLt
  have h0 : ∀ q : Fin 64, iblk0 V c 0 t (ix2 p q)
      = V c main_arg0 (ix2 ((((cfg0.win 3).blk t).view.emb (ix2 p k)) 0) q) := fun q => by
    show V c main_arg0 (((cfg0.win 0).blk t).view.emb (ix2 p q)) = _
    refine congrArg (V c main_arg0) (funext fun a => Fin.ext ?_)
    match a with
    | ⟨0, _⟩ => show win0_0.index t (0 : Fin 2) * 10000 + 1 * p.val = win0_3.index t (0 : Fin 2) * 10000 + 1 * p.val; omega
    | ⟨1, _⟩ => show win0_0.index t (1 : Fin 2) * 64 + 1 * q.val = q.val; omega
  have h1 : ∀ q : Fin 64, iblk0 V c 1 t (ix2 q k)
      = V c main_arg3 (ix2 q ((((cfg0.win 3).blk t).view.emb (ix2 p k)) 1)) := fun q => by
    show V c main_arg3 (((cfg0.win 1).blk t).view.emb (ix2 q k)) = _
    refine congrArg (V c main_arg3) (funext fun a => Fin.ext ?_)
    match a with
    | ⟨0, _⟩ => show win0_1.index t (0 : Fin 2) * 64 + 1 * q.val = q.val; omega
    | ⟨1, _⟩ => show win0_1.index t (1 : Fin 2) * 64 + 1 * k.val = win0_3.index t (1 : Fin 2) * 64 + 1 * k.val; omega
  have h2 : iblk0 V c 2 t (ix2 (0 : Fin 1) k)
      = V c main_v0 (ix2 (0 : Fin 1) ((((cfg0.win 3).blk t).view.emb (ix2 p k)) 1)) := by
    show V c main_v0 (((cfg0.win 2).blk t).view.emb (ix2 (0 : Fin 1) k)) = _
    refine congrArg (V c main_v0) (funext fun a => Fin.ext ?_)
    match a with
    | ⟨0, _⟩ => show win0_2.index t (0 : Fin 2) * 1 + 1 * 0 = 0; omega
    | ⟨1, _⟩ => show win0_2.index t (1 : Fin 2) * 64 + 1 * k.val = win0_3.index t (1 : Fin 2) * 64 + 1 * k.val; omega
  rw [h2]
  simp only [h0, h1]

theorem mem_blk3 (t : Fin cfg0.N) (i : S250000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v1).slice (win0_3.rect t)).set ↔ _
  rw [View.set_slice_whole, Rect.mem_set_unit]
  exact Iff.rfl

theorem cover3 (i : S250000x64.Idx) : ∃ t : Fin cfg0.N, (cfg0.win 3).flush t = true ∧ i ∈ ((cfg0.win 3).blk t).view.set := by
  have hi0 : (i 0).val < 250000 := (i 0).isLt
  have hi1 : (i 1).val < 64 := (i 1).isLt
  let t : Fin cfg0.N := ⟨(i 0).val / 10000, by show (i 0).val / 10000 < 25; omega⟩
  obtain ⟨-, -, -, -, -, -, e30, e31⟩ := idx_facts0 t
  have ht : t.val = (i 0).val / 10000 := rfl
  refine ⟨t, flush0_3 t, ?_⟩
  rw [mem_blk3]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

theorem final0 (c : Dev nD) :
    (dat0 V c).arrAt 3 cfg0.N = redK (V c main_arg0) (V c main_arg3) (V c main_v0) :=
  (dat0 V c).arrAt_eq_of_cover 3 (redK (V c main_arg0) (V c main_arg3) (V c main_v0))
    (fun t _ => flushed3_eq V c t) cover3

end Cert.Value.Red
-- ==== Proof.VRed.lean ====
import proofs.«418858_j49108656062716_3_alg».proof.Proof.VRedRef
import proofs.«418858_j49108656062716_3_alg».proof.Proof.VRedKer

noncomputable section

namespace Cert.Value.Red

open Idealize.ShloMosaic Idealize.ShloMosaic.ValueIdx
open scoped BigOperators

theorem oneRow_apply (b : Vec Ideal Cert.KernelIdeal.S64 .f32) (h : Cert.KernelIdeal.S64.ShapeCasts Cert.KernelIdeal.S1x64)
    (k : Fin 64) : shapeCast Cert.KernelIdeal.S1x64 b h (ix2 (0 : Fin 1) k) = b (ix1 k) :=
  shapeCast_apply b h (ix2 (0 : Fin 1) k) (ix1 k) (by
    rw [Shape.rowMajor_val_one, Shape.rowMajor_val_two]
    show k.val = (0 : Fin 1).val * 64 + k.val
    simp)

theorem redK_oneRow_eq_redR (x : Vec Ideal Cert.KernelIdeal.S250000x64 .f32) (w : Vec Ideal Cert.KernelIdeal.S64x64 .f32)
    (b : Vec Ideal Cert.KernelIdeal.S64 .f32) (h : Cert.KernelIdeal.S64.ShapeCasts Cert.KernelIdeal.S1x64) :
    redK x w (shapeCast Cert.KernelIdeal.S1x64 b h) = redR x w b := by
  funext i
  obtain ⟨n, k, rfl⟩ : ∃ (n : Fin 250000) (k : Fin 64), i = ix2 n k := ⟨i 0, i 1, eq_ix2 i⟩
  rw [redR_apply]
  show max ((∑ j : Fin 64, x (ix2 n j) * w (ix2 j k)) + shapeCast Cert.KernelIdeal.S1x64 b h (ix2 (0 : Fin 1) k)) 0 = _
  rw [oneRow_apply]

end Cert.Value.Red
-- ==== Proof.IHost.lean ====
import proofs.«418858_j49108656062716_3_alg».proof.Proof.Gen.KernelIdeal.Launch
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F]

def tablesOf (t0 : Vec F S524288x32 .bf16) (t1 : Vec F S65536x32 .bf16) (t2 : Vec F S24576x32 .bf16) (t3 : Vec F S8192x32 .bf16) :
    Vec F S622592x32 .bf16 :=
  concatenate S622592x32 0 [⟨S524288x32, t0⟩, ⟨S65536x32, t1⟩, ⟨S24576x32, t2⟩, ⟨S8192x32, t3⟩]
    concatenates_S524288x32_S65536x32_S24576x32_S8192x32_S622592x32_d0

def idxOf (s0 s1 s2 s3 : IVec S250000 32) : IVec S250000x4 32 :=
  concatenate S250000x4 1
    [⟨S250000x1, broadcastInDim S250000x1 ![0] bcast_S250000_S250000x1_0 s0⟩,
     ⟨S250000x1, broadcastInDim S250000x1 ![0] bcast_S250000_S250000x1_0 s1⟩,
     ⟨S250000x1, broadcastInDim S250000x1 ![0] bcast_S250000_S250000x1_0 s2⟩,
     ⟨S250000x1, broadcastInDim S250000x1 ![0] bcast_S250000_S250000x1_0 s3⟩]
    concatenates_S250000x1_S250000x1_S250000x1_S250000x1_S250000x4_d1

def wrapIdx (i : IVec S250000x4 32) : IVec S250000x4 32 :=
  select (cmpi .slt i (broadcastInDim S250000x4 ![] bcast_S_S250000x4 (constantI S_ 32 0#32))) (addi i (broadcastInDim S250000x4 ![] bcast_S_S250000x4 (constantI S_ 32 622592#32))) i

def gatherOf (T : Vec F S622592x32 .bf16) (i : IVec S250000x4 32) : Vec F S250000x4x32 .bf16 :=
  Host.gather gather_S622592x32_S250000x4x1_S250000x4x32_2_0_n_n_0_2_132 T
    (broadcastInDim S250000x4x1 ![0, 1] bcast_S250000x4_S250000x4x1_0_1 (wrapIdx i))

def wrapInv (i : IVec S250000 32) : IVec S250000 32 :=
  select (cmpi .slt i (broadcastInDim S250000 ![] bcast_S_S250000 (constantI S_ 32 0#32))) (addi i (broadcastInDim S250000 ![] bcast_S_S250000 (constantI S_ 32 250000#32))) i

end Cert.KernelIdeal.Hand

namespace Cert.Value.Chain

open Cert.KernelIdeal Cert.KernelIdeal.Gen Cert.KernelIdeal.Hand
open Idealize.ShloMosaic Idealize.ShloMosaic.TcCoe
open Idealize.SL.Sem

def kAug (red : Vec Ideal S250000x64 .f32) : Vec Ideal S250000x65 .f32 :=
  concatenate S250000x65 1 [⟨S250000x64, red⟩, ⟨S250000x1, broadcastInDim S250000x1 ![] bcast_S_S250000x1 (constant (F := Ideal) S_ .f32 0x3F800000#32)⟩]
    concatenates_S250000x64_S250000x1_S250000x65_d1

def kAcc0 (aug : Vec Ideal S250000x65 .f32) (s : IVec S250000 32) : Vec Ideal S524288x65 .f32 :=
  Host.scatterAdd scatter_S524288x65_S250000x1_S250000x65_1_0_0_1
    (broadcastInDim S524288x65 ![] bcast_S_S524288x65 (constant (F := Ideal) S_ .f32 0x00000000#32))
    (broadcastInDim S250000x1 ![0] bcast_S250000_S250000x1_0 s) aug

def kAcc1 (aug : Vec Ideal S250000x65 .f32) (s : IVec S250000 32) : Vec Ideal S65536x65 .f32 :=
  Host.scatterAdd scatter_S65536x65_S250000x1_S250000x65_1_0_0_1
    (broadcastInDim S65536x65 ![] bcast_S_S65536x65 (constant (F := Ideal) S_ .f32 0x00000000#32))
    (broadcastInDim S250000x1 ![0] bcast_S250000_S250000x1_0 s) aug

def kAcc2 (aug : Vec Ideal S250000x65 .f32) (s : IVec S250000 32) : Vec Ideal S24576x65 .f32 :=
  pad S24576x65 ![0, 0] ![2388, 0] ![0, 0]
    (Host.scatterAdd scatter_S22188x65_S250000x1_S250000x65_1_0_0_1
      (broadcastInDim S22188x65 ![] bcast_S_S22188x65 (constant (F := Ideal) S_ .f32 0x00000000#32))
      (broadcastInDim S250000x1 ![0] bcast_S250000_S250000x1_0 s) aug)
    (sitofp (F := Ideal) .f32 (constantI S_ 32 0#32) : Vec Ideal S_ .f32) pads_S22188x65_S24576x65_023880_000 h_S_

def kAcc3 (aug : Vec Ideal S250000x65 .f32) (s : IVec S250000 32) : Vec Ideal S8192x65 .f32 :=
  Host.scatterAdd scatter_S8192x65_S250000x1_S250000x65_1_0_0_1
    (broadcastInDim S8192x65 ![] bcast_S_S8192x65 (constant (F := Ideal) S_ .f32 0x00000000#32))
    (broadcastInDim S250000x1 ![0] bcast_S250000_S250000x1_0 s) aug

def kW0 (Wpool : Vec Ideal S4x64x32 .f32) : Vec Ideal S64x32 .f32 :=
  shapeCast S64x32 (extractStridedSlice S1x64x32 ![0, 0, 0] Wpool slices_S4x64x32_S1x64x32_0_0_0) shapeCasts_S1x64x32_S64x32
def kB0 (bpool : Vec Ideal S4x32 .f32) : Vec Ideal S1x32 .f32 :=
  shapeCast S1x32 (shapeCast S32 (extractStridedSlice S1x32 ![0, 0] bpool slices_S4x32_S1x32_0_0) shapeCasts_S1x32_S32) shapeCasts_S32_S1x32

def kW1 (Wpool : Vec Ideal S4x64x32 .f32) : Vec Ideal S64x32 .f32 :=
  shapeCast S64x32 (extractStridedSlice S1x64x32 ![1, 0, 0] Wpool slices_S4x64x32_S1x64x32_1_0_0) shapeCasts_S1x64x32_S64x32
def kB1 (bpool : Vec Ideal S4x32 .f32) : Vec Ideal S1x32 .f32 :=
  shapeCast S1x32 (shapeCast S32 (extractStridedSlice S1x32 ![1, 0] bpool slices_S4x32_S1x32_1_0) shapeCasts_S1x32_S32) shapeCasts_S32_S1x32

def kW2 (Wpool : Vec Ideal S4x64x32 .f32) : Vec Ideal S64x32 .f32 :=
  shapeCast S64x32 (extractStridedSlice S1x64x32 ![2, 0, 0] Wpool slices_S4x64x32_S1x64x32_2_0_0) shapeCasts_S1x64x32_S64x32
def kB2 (bpool : Vec Ideal S4x32 .f32) : Vec Ideal S1x32 .f32 :=
  shapeCast S1x32 (shapeCast S32 (extractStridedSlice S1x32 ![2, 0] bpool slices_S4x32_S1x32_2_0) shapeCasts_S1x32_S32) shapeCasts_S32_S1x32

def kW3 (Wpool : Vec Ideal S4x64x32 .f32) : Vec Ideal S64x32 .f32 :=
  shapeCast S64x32 (extractStridedSlice S1x64x32 ![3, 0, 0] Wpool slices_S4x64x32_S1x64x32_3_0_0) shapeCasts_S1x64x32_S64x32
def kB3 (bpool : Vec Ideal S4x32 .f32) : Vec Ideal S1x32 .f32 :=
  shapeCast S1x32 (shapeCast S32 (extractStridedSlice S1x32 ![3, 0] bpool slices_S4x32_S1x32_3_0) shapeCasts_S1x32_S32) shapeCasts_S32_S1x32

def kOff (s : IVec S250000 32) (k : BitVec 32) : IVec S250000 32 :=
  addi s (broadcastInDim S250000 ![] bcast_S_S250000 (constantI S_ 32 k))

def kPacked (t0 : Vec Ideal S524288x32 .bf16) (t1 : Vec Ideal S65536x32 .bf16) (t2 : Vec Ideal S24576x32 .bf16)
    (t3 : Vec Ideal S8192x32 .bf16) (s0 s1 s2 s3 : IVec S250000 32) : Vec Ideal S250000x128 .bf16 :=
  shapeCast S250000x128
    (gatherOf (F := Ideal) (tablesOf (F := Ideal) t0 t1 t2 t3)
      (idxOf (kOff s0 0#32) (kOff s1 524288#32) (kOff s2 589824#32) (kOff s3 614400#32)))
    shapeCasts_S250000x4x32_S250000x128

def kOut (tail : Vec Ideal S250000x64 .f32) (inv : IVec S250000 32) : Vec Ideal S250000x64 .f32 :=
  Host.gather gather_S250000x64_S250000x1_S250000x64_1_0_n_n_0_1_164 tail
    (broadcastInDim S250000x1 ![0] bcast_S250000_S250000x1_0 (wrapInv inv))

variable (X : Valuation τ sig (Elt Ideal))

-- each lemma reads one buffer after one stretch as the stretch's operations on the contents it is entered with
theorem hostOps1_v6 :
    StableHlo.after hostOps1 X (Proc.devRef .tc main_v6) = kAug (X (Proc.devRef .tc main_v1)) := by
  after_results <;> rfl

set_option maxHeartbeats 2000000 in
theorem hostOps1_2_v25 :
    StableHlo.after hostOps1_2 X (Proc.devRef .tc main_v25) = kAcc0 (X (Proc.devRef .tc main_v6)) (StableHlo.after hostOps1_2 X (Proc.devRef .tc main_v22)) := by
  after_results_simp <;> rfl
theorem hostOps1_2_v27 :
    StableHlo.after hostOps1_2 X (Proc.devRef .tc main_v27) = kW0 (X (Proc.devRef .tc main_arg5)) := by
  after_results <;> rfl
theorem hostOps1_2_v30 :
    StableHlo.after hostOps1_2 X (Proc.devRef .tc main_v30) = kB0 (X (Proc.devRef .tc main_arg6)) := by
  after_results <;> rfl
set_option maxHeartbeats 2000000 in
theorem hostOps2_2_v52 :
    StableHlo.after hostOps2_2 X (Proc.devRef .tc main_v52) = kAcc1 (X (Proc.devRef .tc main_v6)) (StableHlo.after hostOps2_2 X (Proc.devRef .tc main_v49)) := by
  after_results_simp <;> rfl
theorem hostOps2_2_v54 :
    StableHlo.after hostOps2_2 X (Proc.devRef .tc main_v54) = kW1 (X (Proc.devRef .tc main_arg5)) := by
  after_results <;> rfl
theorem hostOps2_2_v57 :
    StableHlo.after hostOps2_2 X (Proc.devRef .tc main_v57) = kB1 (X (Proc.devRef .tc main_arg6)) := by
  after_results <;> rfl
set_option maxHeartbeats 2000000 in
theorem hostOps4_2_v107 :
    StableHlo.after hostOps4_2 X (Proc.devRef .tc main_v107) = kAcc3 (X (Proc.devRef .tc main_v6)) (StableHlo.after hostOps4_2 X (Proc.devRef .tc main_v104)) := by
  after_results_simp <;> rfl
theorem hostOps4_2_v109 :
    StableHlo.after hostOps4_2 X (Proc.devRef .tc main_v109) = kW3 (X (Proc.devRef .tc main_arg5)) := by
  after_results <;> rfl
theorem hostOps4_2_v112 :
    StableHlo.after hostOps4_2 X (Proc.devRef .tc main_v112) = kB3 (X (Proc.devRef .tc main_arg6)) := by
  after_results <;> rfl

set_option maxHeartbeats 2000000 in
theorem hostOps3_3_v80 :
    StableHlo.after hostOps3_3 (StableHlo.after hostOps3_2 X) (Proc.devRef .tc main_v80)
      = kAcc2 (X (Proc.devRef .tc main_v6)) (StableHlo.after hostOps3_2 X (Proc.devRef .tc main_v76)) := by
  after_results_simp <;> rfl
theorem hostOps3_4_v82 :
    StableHlo.after hostOps3_4 X (Proc.devRef .tc main_v82) = kW2 (X (Proc.devRef .tc main_arg5)) := by
  after_results <;> rfl
theorem hostOps3_4_v85 :
    StableHlo.after hostOps3_4 X (Proc.devRef .tc main_v85) = kB2 (X (Proc.devRef .tc main_arg6)) := by
  after_results <;> rfl

theorem hostOps2_v33 :
    StableHlo.after hostOps2 X (Proc.devRef .tc main_v33) = kOff (X (Proc.devRef .tc main_v22)) 0#32 := by
  after_results <;> rfl
theorem hostOps3_v60 :
    StableHlo.after hostOps3 X (Proc.devRef .tc main_v60) = kOff (X (Proc.devRef .tc main_v49)) 524288#32 := by
  after_results <;> rfl
theorem hostOps4_v88 :
    StableHlo.after hostOps4 X (Proc.devRef .tc main_v88) = kOff (X (Proc.devRef .tc main_v76)) 589824#32 := by
  after_results <;> rfl

set_option maxHeartbeats 4000000 in
theorem hostOps5_v129 :
    StableHlo.after hostOps5 X (Proc.devRef .tc main_v129)
      = shapeCast S250000x128 (gatherOf (tablesOf (X (Proc.devRef .tc main_v31)) (X (Proc.devRef .tc main_v58)) (X (Proc.devRef .tc main_v86)) (X (Proc.devRef .tc main_v113))) (idxOf (X (Proc.devRef .tc main_v33)) (X (Proc.devRef .tc main_v60)) (X (Proc.devRef .tc main_v88)) (kOff (X (Proc.devRef .tc main_v104)) 614400#32))) shapeCasts_S250000x4x32_S250000x128 := by
  unfold gatherOf wrapIdx idxOf tablesOf kOff
  after_results
  all_goals rfl
theorem hostOps5_v130 :
    StableHlo.after hostOps5 X (Proc.devRef .tc main_v130) = extractStridedSlice S64x64 ![0, 0] (X (Proc.devRef .tc main_arg11)) slices_S128x64_S64x64_0_0 := by
  after_results <;> rfl
theorem hostOps5_v131 :
    StableHlo.after hostOps5 X (Proc.devRef .tc main_v131) = extractStridedSlice S64x64 ![64, 0] (X (Proc.devRef .tc main_arg11)) slices_S128x64_S64x64_64_0 := by
  after_results <;> rfl
theorem hostOps5_v132 :
    StableHlo.after hostOps5 X (Proc.devRef .tc main_v132) = shapeCast S4x1x32 (X (Proc.devRef .tc main_arg8)) shapeCasts_S4x32_S4x1x32 := by
  after_results <;> rfl
theorem hostOps5_v133 :
    StableHlo.after hostOps5 X (Proc.devRef .tc main_v133) = shapeCast S1x64 (X (Proc.devRef .tc main_arg13)) shapeCasts_S64_S1x64 := by
  after_results <;> rfl
theorem hostOps6_v141 :
    StableHlo.after hostOps6 X (Proc.devRef .tc main_v141) = kOut (X (Proc.devRef .tc main_v134)) (X (Proc.devRef .tc main_arg2)) := by
  after_results <;> rfl

end Cert.Value.Chain

end
-- ==== Proof.SegRange.lean ====
import Idealize.ShloMosaic.Lib.Affine
import Idealize.ShloMosaic.Lib.StableHlo.Predicate
import Idealize.ShloMosaic.Lib.ValueIdx
import Idealize.ShloMosaic.Lib.ValueLayout
import Idealize.ShloMosaic.Lib.WordArith

noncomputable section

namespace Cert.SegRange

open Idealize.ShloMosaic Idealize.ShloMosaic.ValueIdx Idealize.ShloMosaic.WordArith

def sgn (x : BitVec 32) : BitVec 32 := if x = 0 then 0 else if x.msb then -1 else 1

def fdiv (x ps : BitVec 32) : BitVec 32 :=
  Scalar.select
    (IntOp.andi (IntOp.cmpi .ne (sgn x) (sgn ps)) (IntOp.cmpi .ne (IntOp.remsi .host x ps) 0#32))
    (IntOp.subi (IntOp.divsi .host x ps) 1#32)
    (IntOp.divsi .host x ps)

def seg (b q0 q1 q2 gx gy gz : BitVec 32) : BitVec 32 :=
  IntOp.addi (IntOp.muli (IntOp.addi (IntOp.muli (IntOp.addi (IntOp.muli b gx) q0) gy) q1) gz) q2

theorem msb_false_of_nonneg {x : BitVec 32} (h : 0 ≤ x.toInt) : x.msb = false :=
  BitVec.msb_eq_false_iff_two_mul_lt.2 (BitVec.toInt_pos_iff.1 h)

theorem toNat_lt_of_toInt {x : BitVec 32} {c : Nat} (h0 : 0 ≤ x.toInt) (hc : x.toInt < (c : Int)) : x.toNat < c := by
  rw [BitVec.toInt_eq_toNat_of_lt (BitVec.toInt_pos_iff.1 h0)] at hc
  exact_mod_cast hc

theorem sgn_of_pos {x : BitVec 32} (h : 0 < x.toInt) : sgn x = 1#32 := by
  have hne : x ≠ 0 := by
    rintro rfl
    exact absurd h (by decide)
  unfold sgn
  rw [if_neg hne, msb_false_of_nonneg h.le]
  rfl

-- A positive dividend has the divisor's sign and zero divides exactly: no step down, and clear top bits make it unsigned.
theorem fdiv_eq_udiv {x ps : BitVec 32} (hx : 0 ≤ x.toInt) (hps : 0 < ps.toInt) : fdiv x ps = x / ps := by
  have hmx := msb_false_of_nonneg hx
  have hmp := msb_false_of_nonneg hps.le
  have hd : IntOp.divsi .host x ps = x / ps := by
    rw [IntOp.divsi, if_neg (IntOp.not_corner_of_pos hps), BitVec.sdiv_eq, hmx, hmp]
    rfl
  have hcond : IntOp.andi (IntOp.cmpi .ne (sgn x) (sgn ps)) (IntOp.cmpi .ne (IntOp.remsi .host x ps) 0#32) = 0#1 := by
    by_cases h0 : x = 0
    · subst h0
      rw [IntOp.remsi_of_pos .host hps, BitVec.srem_eq, hmx, hmp]
      show IntOp.andi _ (IntOp.cmpi .ne (0#32 % ps) 0#32) = 0#1
      rw [BitVec.zero_umod]
      generalize IntOp.cmpi .ne (sgn 0) (sgn ps) = c
      revert c; decide
    · have hxpos : 0 < x.toInt := lt_of_le_of_ne hx fun h => h0 (BitVec.eq_of_toInt_eq (by rw [← h]; decide))
      rw [sgn_of_pos hxpos, sgn_of_pos hps]
      generalize IntOp.cmpi .ne (IntOp.remsi .host x ps) 0#32 = c
      revert c; decide
  unfold fdiv
  rw [hcond, select_zero, hd]

-- The quotient of a word below `c ≤ ps · g` is below `g`.
theorem toNat_fdiv_lt (x : BitVec 32) (ps g c : Nat) (hx : 0 ≤ x.toInt) (hxc : x.toInt < (c : Int)) (hps : 0 < ps) (hps' : ps < 2 ^ 31)
    (hg : c ≤ ps * g) : (fdiv x (BitVec.ofNat 32 ps)).toNat < g := by
  have hlt : x.toNat < c := toNat_lt_of_toInt hx hxc
  rw [fdiv_eq_udiv hx (by rw [toInt_ofNat_small ps hps']; exact_mod_cast hps), BitVec.toNat_udiv, toNat_ofNat_of_lt ps (by omega),
    Nat.div_lt_iff_lt_mul hps, Nat.mul_comm]
  omega

theorem step_ofNat (a q : BitVec 32) (g N : Nat) (ha : a = BitVec.ofNat 32 N) :
    IntOp.addi (IntOp.muli a (BitVec.ofNat 32 g)) q = BitVec.ofNat 32 (N * g + q.toNat) := by
  subst ha
  apply BitVec.eq_of_toNat_eq
  simp only [IntOp.addi, IntOp.muli, BitVec.toNat_add, BitVec.toNat_mul, BitVec.toNat_ofNat]
  simp [Nat.add_mod, Nat.mul_mod]

-- Wrapping arithmetic is arithmetic modulo 2³².
theorem seg_eq_ofNat (b q0 q1 q2 : BitVec 32) (gx gy gz : Nat) :
    seg b q0 q1 q2 (BitVec.ofNat 32 gx) (BitVec.ofNat 32 gy) (BitVec.ofNat 32 gz)
      = BitVec.ofNat 32 (((b.toNat * gx + q0.toNat) * gy + q1.toNat) * gz + q2.toNat) := by
  unfold seg
  rw [step_ofNat b q0 gx b.toNat (by simp), step_ofNat _ q1 gy _ rfl, step_ofNat _ q2 gz _ rfl]

theorem radix {a A q G : Nat} (ha : a < A) (hq : q < G) : a * G + q < A * G := by
  have h : (a + 1) * G ≤ A * G := Nat.mul_le_mul_right G ha
  rw [Nat.add_mul, Nat.one_mul] at h
  omega

abbrev Covers (ps gx gy gz NS : Nat) : Prop :=
  0 < ps ∧ ps < 2 ^ 31 ∧ 256 ≤ ps * gx ∧ 256 ≤ ps * gy ∧ 32 ≤ ps * gz ∧ 2 * gx * gy * gz ≤ NS ∧ NS ≤ 2 ^ 31

-- Mixed-radix digits in range give a number below 2 · gx · gy · gz ≤ 2³¹: nothing wraps and the word reads nonnegative.
theorem seg_range (ps gx gy gz NS : Nat) (h : Covers ps gx gy gz NS) {b x y z v : BitVec 32}
    (hb0 : 0 ≤ b.toInt) (hb : b.toInt < 2) (hx0 : 0 ≤ x.toInt) (hx : x.toInt < 256)
    (hy0 : 0 ≤ y.toInt) (hy : y.toInt < 256) (hz0 : 0 ≤ z.toInt) (hz : z.toInt < 32)
    (hv : v = seg b (fdiv x (.ofNat 32 ps)) (fdiv y (.ofNat 32 ps)) (fdiv z (.ofNat 32 ps))
      (.ofNat 32 gx) (.ofNat 32 gy) (.ofNat 32 gz)) :
    0 ≤ v.toInt ∧ v.toInt < (NS : Int) := by
  obtain ⟨hps, hps', hgx, hgy, hgz, hns, hNS⟩ := h
  have l := radix (radix (radix (toNat_lt_of_toInt (c := 2) hb0 hb) (toNat_fdiv_lt x ps gx 256 hx0 hx hps hps' hgx))
    (toNat_fdiv_lt y ps gy 256 hy0 hy hps hps' hgy)) (toNat_fdiv_lt z ps gz 32 hz0 hz hps hps' hgz)
  rw [hv, seg_eq_ofNat, toInt_ofNat_small]
  · exact ⟨Int.natCast_nonneg _, by exact_mod_cast lt_of_lt_of_le l hns⟩
  · omega

theorem col_apply {α : Type} {N m : Nat} (X : (⟨2, ![N, m]⟩ : Shape).Idx → α) (o : Nat)
    (hs : (⟨2, ![N, m]⟩ : Shape).Slices ![0, o] ⟨2, ![N, 1]⟩) (hc : (⟨2, ![N, 1]⟩ : Shape).ShapeCasts ⟨1, ![N]⟩)
    (n : Fin N) (k : Fin m) (hk : k.val = o) :
    shapeCast ⟨1, ![N]⟩ (extractStridedSlice ⟨2, ![N, 1]⟩ ![0, o] X hs) hc (ix1 n) = X (ix2 n k) := by
  refine (shapeCast_apply _ hc (ix1 n) (ix2 n (0 : Fin 1)) ?_).trans (slice2_axis1_apply o X hs n (0 : Fin 1) k (by rw [hk]; rfl))
  rw [Shape.rowMajor_val_two, Shape.rowMajor_val_one]
  show n.val * 1 + 0 = n.val
  omega

section Table
variable {s : Shape} (v : IVec s 32) (ps : BitVec 32) (hb : (⟨0, ![]⟩ : Shape).BroadcastsInDim s ![])

def fdivVec : IVec s 32 :=
  select
    (andi
      (cmpi .ne (signi v) (broadcastInDim s ![] hb (signi (constantI ⟨0, ![]⟩ 32 ps))))
      (cmpi .ne (Host.remsi v (broadcastInDim s ![] hb (constantI ⟨0, ![]⟩ 32 ps)))
        (broadcastInDim s ![] hb (constantI ⟨0, ![]⟩ 32 0#32))))
    (subi (Host.divsi v (broadcastInDim s ![] hb (constantI ⟨0, ![]⟩ 32 ps)))
      (broadcastInDim s ![] hb (constantI ⟨0, ![]⟩ 32 1#32)))
    (Host.divsi v (broadcastInDim s ![] hb (constantI ⟨0, ![]⟩ 32 ps)))

theorem fdivVec_apply (i : s.Idx) : fdivVec v ps hb i = fdiv (v i) ps := rfl

end Table

section Table
variable {N : Nat} (coords : IVec ⟨2, ![N, 4]⟩ 32) (ps gx gy gz : BitVec 32)
    (hs0 : (⟨2, ![N, 4]⟩ : Shape).Slices ![0, 0] ⟨2, ![N, 1]⟩) (hs3 : (⟨2, ![N, 4]⟩ : Shape).Slices ![0, 1] ⟨2, ![N, 3]⟩)
    (hq0 : (⟨2, ![N, 3]⟩ : Shape).Slices ![0, 0] ⟨2, ![N, 1]⟩) (hq1 : (⟨2, ![N, 3]⟩ : Shape).Slices ![0, 1] ⟨2, ![N, 1]⟩)
    (hq2 : (⟨2, ![N, 3]⟩ : Shape).Slices ![0, 2] ⟨2, ![N, 1]⟩) (hc : (⟨2, ![N, 1]⟩ : Shape).ShapeCasts ⟨1, ![N]⟩)
    (hb1 : (⟨0, ![]⟩ : Shape).BroadcastsInDim ⟨1, ![N]⟩ ![]) (hb3 : (⟨0, ![]⟩ : Shape).BroadcastsInDim ⟨2, ![N, 3]⟩ ![])

def segVec : IVec ⟨1, ![N]⟩ 32 :=
  addi (muli (addi (muli (addi
    (muli (shapeCast ⟨1, ![N]⟩ (extractStridedSlice ⟨2, ![N, 1]⟩ ![0, 0] coords hs0) hc)
      (broadcastInDim ⟨1, ![N]⟩ ![] hb1 (constantI ⟨0, ![]⟩ 32 gx)))
    (shapeCast ⟨1, ![N]⟩ (extractStridedSlice ⟨2, ![N, 1]⟩ ![0, 0]
      (fdivVec (extractStridedSlice ⟨2, ![N, 3]⟩ ![0, 1] coords hs3) ps hb3) hq0) hc))
    (broadcastInDim ⟨1, ![N]⟩ ![] hb1 (constantI ⟨0, ![]⟩ 32 gy)))
    (shapeCast ⟨1, ![N]⟩ (extractStridedSlice ⟨2, ![N, 1]⟩ ![0, 1]
      (fdivVec (extractStridedSlice ⟨2, ![N, 3]⟩ ![0, 1] coords hs3) ps hb3) hq1) hc))
    (broadcastInDim ⟨1, ![N]⟩ ![] hb1 (constantI ⟨0, ![]⟩ 32 gz)))
    (shapeCast ⟨1, ![N]⟩ (extractStridedSlice ⟨2, ![N, 1]⟩ ![0, 2]
      (fdivVec (extractStridedSlice ⟨2, ![N, 3]⟩ ![0, 1] coords hs3) ps hb3) hq2) hc)

-- Each operation of the chain acts entry by entry; a one-column slice reshaped to a vector reads the table's column.
theorem segVec_apply (n : Fin N) :
    segVec coords ps gx gy gz hs0 hs3 hq0 hq1 hq2 hc hb1 hb3 (ix1 n)
      = seg (coords (ix2 n 0)) (fdiv (coords (ix2 n 1)) ps) (fdiv (coords (ix2 n 2)) ps) (fdiv (coords (ix2 n 3)) ps)
          gx gy gz := by
  show seg _ _ _ _ gx gy gz = _
  rw [col_apply coords 0 hs0 hc n (0 : Fin 4) rfl,
    col_apply _ 0 hq0 hc n (0 : Fin 3) rfl, col_apply _ 1 hq1 hc n (1 : Fin 3) rfl, col_apply _ 2 hq2 hc n (2 : Fin 3) rfl,
    fdivVec_apply, fdivVec_apply, fdivVec_apply,
    slice2_axis1_apply 1 coords hs3 n (0 : Fin 3) (1 : Fin 4) rfl, slice2_axis1_apply 1 coords hs3 n (1 : Fin 3) (2 : Fin 4) rfl,
    slice2_axis1_apply 1 coords hs3 n (2 : Fin 3) (3 : Fin 4) rfl]

end Table

end Cert.SegRange

end
-- ==== Proof.ISeg.lean ====
import proofs.«418858_j49108656062716_3_alg».proof.Proof.Gen.KernelIdeal.Launch
import proofs.«418858_j49108656062716_3_alg».proof.Proof.SegRange
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx
open Cert.SegRange

variable {F : FTy → Type} [FloatOps F]

-- the segment vector of the table of coordinates, at this program's shapes
def segV (coords : IVec S250000x4 32) (ps gx gy gz : BitVec 32) : IVec S250000 32 :=
  segVec coords ps gx gy gz slices_S250000x4_S250000x1_0_0 slices_S250000x4_S250000x3_0_1 slices_S250000x3_S250000x1_0_0
    slices_S250000x3_S250000x1_0_1 slices_S250000x3_S250000x1_0_2 shapeCasts_S250000x1_S250000 bcast_S_S250000 bcast_S_S250000x3

-- the contents hold the batch column and the coordinate columns of the table
def Cols (X : Valuation τ sig (Elt F)) (coords : IVec S250000x4 32) : Prop :=
  (X (Proc.devRef .tc main_v3) : S250000.Idx → BitVec 32)
      = shapeCast S250000 (extractStridedSlice S250000x1 ![0, 0] coords slices_S250000x4_S250000x1_0_0) shapeCasts_S250000x1_S250000
    ∧ (X (Proc.devRef .tc main_v4) : S250000x3.Idx → BitVec 32) = extractStridedSlice S250000x3 ![0, 1] coords slices_S250000x4_S250000x3_0_1

-- each operation's result read at its own buffer
theorem cols (X : Valuation τ sig (Elt F)) (coords : IVec S250000x4 32)
    (h : (X (Proc.devRef .tc main_arg1) : S250000x4.Idx → BitVec 32) = coords) : Cols (after hostOps1 X) coords := by
  subst h
  constructor <;> after_results_simp <;> rfl

theorem seg0_eq (X : Valuation τ sig (Elt F)) :
    (after hostOps1_2 (after hostOps1_1 (after hostOps1 X)) (Proc.devRef .tc main_v22) : S250000.Idx → BitVec 32)
      = segV (X (Proc.devRef .tc main_arg1)) 2#32 128#32 128#32 16#32 := by
  after_results_simp
  rfl

-- the later scales read the two columns as an earlier stretch left them
theorem seg1_eq (X : Valuation τ sig (Elt F)) (coords : IVec S250000x4 32) (h : Cols X coords) :
    (after hostOps2_2 (after hostOps2_1 (after hostOps2 X)) (Proc.devRef .tc main_v49) : S250000.Idx → BitVec 32)
      = segV coords 4#32 64#32 64#32 8#32 := by
  after_results_simp
  rw [h.1, h.2]
  rfl

theorem seg2_eq (X : Valuation τ sig (Elt F)) (coords : IVec S250000x4 32) (h : Cols X coords) :
    (after hostOps3_2 (after hostOps3_1 (after hostOps3 X)) (Proc.devRef .tc main_v76) : S250000.Idx → BitVec 32)
      = segV coords 6#32 43#32 43#32 6#32 := by
  after_results_simp
  rw [h.1, h.2]
  rfl

theorem seg3_eq (X : Valuation τ sig (Elt F)) (coords : IVec S250000x4 32) (h : Cols X coords) :
    (after hostOps4_2 (after hostOps4_1 (after hostOps4 X)) (Proc.devRef .tc main_v104) : S250000.Idx → BitVec 32)
      = segV coords 8#32 32#32 32#32 4#32 := by
  after_results_simp
  rw [h.1, h.2]
  rfl

end Cert.KernelIdeal.Hand

end
-- ==== Proof.VPoolKer.lean ====
import proofs.«418858_j49108656062716_3_alg».proof.Proof.IR1
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import Idealize.ShloMosaic.Lib.KernelVsHost
import Idealize.ShloMosaic.Lib.StackMember

noncomputable section

namespace Cert.Value.S1

open Cert.KernelIdeal Cert.KernelIdeal.Gen Cert.KernelIdeal.Hand
open Idealize.ShloMosaic Idealize.ShloMosaic.ValueIdx

abbrev sumCol (j : Fin 64) : Fin 65 := ⟨j.val, by omega⟩

abbrev cntCol : Fin 65 := ⟨64, by omega⟩

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

-- A product into the zero splat is the host product, read at an index.
theorem matmul_pool_apply (A : FVec Ideal S4096x64 .bf16) (B : FVec Ideal S64x32 .bf16) (p : Fin 4096) (k : Fin 32) :
    matmul dot_S4096x64_S64x32_S4096x32_1_0_0_1_n_n none A B (constant (F := Ideal) S4096x32 .f32 0x00000000#32) (ix2 p k)
      = ∑ j : Fin 64, A (ix2 p j) * B (ix2 j k) :=
  (congrFun (matmul_zero_eq_dotGeneral _ none A B) _).trans
    (StackMember.dotGeneral_plain_apply (m := 4096) (n := 32) (k := 64) none A B p k)

theorem k1_pay1_apply (v0 : Vec Ideal S4096x65 .f32) (v8 : Vec Ideal S64x32 .f32) (v13 : Vec Ideal S1x32 .f32) (p : Fin 4096) (k : Fin 32) :
    k1_pay1 (F := Ideal) v0 v8 v13 (ix2 p k)
      = max ((0 + ∑ j : Fin 64, Ideal.div (v0 (ix2 p (sumCol j))) (max (v0 (ix2 p cntCol)) 1) * v8 (ix2 j k)) + v13 (ix2 (0 : Fin 1) k)) 0 := by
  unfold k1_pay1
  simp only [shapeCast_self]
  rw [truncf_apply, maximumf_apply, broadcast_apply, addf_apply, broadcastTo_1b_ab_apply, matmul_pool_apply, zero_add]
  show max ((∑ j : Fin 64, _) + _) (Ideal.ofBits .f32 0x00000000#32) = _
  rw [Ideal.ofBits_zero_f32]
  congr 2
  refine Finset.sum_congr rfl fun j _ => ?_
  rw [truncf_apply, truncf_apply, divf_apply, broadcastTo_a1_ab_apply, maximumf_apply, broadcast_apply,
    slice2_axis1_apply 0 v0 _ p j (sumCol j) (by show j.val = 0 + j.val; omega),
    slice2_axis1_apply 64 v0 _ p (0 : Fin 1) cntCol (by rfl)]
  show Ideal.div _ (max _ (Ideal.ofBits .f32 0x3F800000#32)) * _ = _
  rw [Ideal.ofBits_one_f32]

def poolAt {R : ℕ} (a : (⟨2, ![R, 65]⟩ : Shape).Idx → EReal) (w : S64x32.Idx → EReal) (b : S1x32.Idx → EReal) (r : Fin R) (k : Fin 32) : EReal :=
  max ((0 + ∑ j : Fin 64, Ideal.div (a (ix2 r (sumCol j))) (max (a (ix2 r cntCol)) 1) * w (ix2 j k)) + b (ix2 (0 : Fin 1) k)) 0

def pool {R : ℕ} (a : (⟨2, ![R, 65]⟩ : Shape).Idx → EReal) (w : S64x32.Idx → EReal) (b : S1x32.Idx → EReal) : (⟨2, ![R, 32]⟩ : Shape).Idx → EReal :=
  fun i => poolAt a w b (i 0) (i 1)

abbrev pool1 (a : S524288x65.Idx → EReal) (w : S64x32.Idx → EReal) (b : S1x32.Idx → EReal) : S524288x32.Idx → EReal := pool (R := 524288) a w b
abbrev pool2 (a : S65536x65.Idx → EReal) (w : S64x32.Idx → EReal) (b : S1x32.Idx → EReal) : S65536x32.Idx → EReal := pool (R := 65536) a w b
abbrev pool3 (a : S24576x65.Idx → EReal) (w : S64x32.Idx → EReal) (b : S1x32.Idx → EReal) : S24576x32.Idx → EReal := pool (R := 24576) a w b
abbrev pool4 (a : S8192x65.Idx → EReal) (w : S64x32.Idx → EReal) (b : S1x32.Idx → EReal) : S8192x32.Idx → EReal := pool (R := 8192) a w b

theorem pay_eq_poolAt {R : ℕ} (a : (⟨2, ![R, 65]⟩ : Shape).Idx → EReal) (w : S64x32.Idx → EReal) (b : S1x32.Idx → EReal)
    (x0 : Vec Ideal S4096x65 .f32) (x1 : Vec Ideal S64x32 .f32) (x2 : Vec Ideal S1x32 .f32)
    (p : Fin 4096) (k : Fin 32) (r : Fin R)
    (h0 : ∀ q : Fin 65, x0 (ix2 p q) = a (ix2 r q)) (h1 : ∀ j : Fin 64, x1 (ix2 j k) = w (ix2 j k))
    (h2 : x2 (ix2 (0 : Fin 1) k) = b (ix2 (0 : Fin 1) k)) :
    k1_pay1 (F := Ideal) x0 x1 x2 (ix2 p k) = poolAt a w b r k := by
  rw [k1_pay1_apply]
  unfold poolAt
  rw [h0 cntCol, h2]
  congr 3
  refine Finset.sum_congr rfl fun j _ => ?_
  rw [h0 (sumCol j), h1 j]

end Cert.Value.S1
-- ==== Proof.IR1Blocks.lean ====
import proofs.«418858_j49108656062716_3_alg».proof.Proof.IR1
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

variable {F : FTy → Type} [FloatOps F]

variable (V : (c : Dev nD) → (b : Ref sig .tc) → Buf (Elt F) ((c : Thread nD τ).loc b))

-- e places a block of 4096 rows at row 4096 t of an array of the same width
def RowTile {R C : ℕ} (t : ℕ) (e : (⟨2, ![4096, C]⟩ : Shape).Idx → (⟨2, ![R, C]⟩ : Shape).Idx) : Prop :=
  ∀ y, ((e y) 0).val = 4096 * t + (y 0).val ∧ ((e y) 1).val = (y 1).val

-- an index whose row lies in the block is the image of that row's offset in the block
theorem RowTile.surj {R C : ℕ} {t : ℕ} {e : (⟨2, ![4096, C]⟩ : Shape).Idx → (⟨2, ![R, C]⟩ : Shape).Idx} (h : RowTile t e)
    (i : (⟨2, ![R, C]⟩ : Shape).Idx) (hi : (i 0).val / 4096 = t) : ∃ y, e y = i :=
  ⟨ValueIdx.ix2 (n0 := 4096) (n1 := C) ⟨(i 0).val % 4096, Nat.mod_lt _ (by decide)⟩ ⟨(i 1).val, (i 1).isLt⟩,
    Shape.idx_ext₂ (by rw [(h _).1]; show 4096 * t + (i 0).val % 4096 = (i 0).val; omega) (h _).2⟩

theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem tile1 (t : Fin cfg1.N) :
    RowTile (R := 524288) (C := 65) t.val (fun y => ((cfg1.win 0).blk t).view.emb y)
    ∧ RowTile (R := 524288) (C := 32) t.val (fun y => ((cfg1.win 3).blk t).view.emb y) := by
  obtain ⟨a0, a1, -, -, -, -, d0, d1⟩ := idx1 t
  refine ⟨fun y => ⟨?_, ?_⟩, fun y => ⟨?_, ?_⟩⟩
  · show win1_0.index t (0 : Fin 2) * 4096 + 1 * (y 0).val = _
    omega
  · show win1_0.index t (1 : Fin 2) * 65 + 1 * (y 1).val = _
    omega
  · show win1_3.index t (0 : Fin 2) * 4096 + 1 * (y 0).val = _
    omega
  · show win1_3.index t (1 : Fin 2) * 32 + 1 * (y 1).val = _
    omega

-- the weights and the bias are one block each
theorem whole1 (c : Dev nD) (t : Fin cfg1.N) :
    (iblk1 V c 1 t : Vec F S64x32 .f32) = (V c (Pipeline.arrRef spec1 1) : Vec F S64x32 .f32)
    ∧ (iblk1 V c 2 t : Vec F S1x32 .f32) = (V c (Pipeline.arrRef spec1 2) : Vec F S1x32 .f32) := by
  obtain ⟨-, -, b0, b1, c0, c1, -⟩ := idx1 t
  refine ⟨funext fun y => ?_, funext fun y => ?_⟩
  · show V c (Pipeline.arrRef spec1 1) (((cfg1.win 1).blk t).view.emb y) = V c (Pipeline.arrRef spec1 1) y
    refine congrArg _ (Shape.idx_ext₂ ?_ ?_)
    · show win1_1.index t (0 : Fin 2) * 64 + 1 * (y 0).val = (y 0).val
      omega
    · show win1_1.index t (1 : Fin 2) * 32 + 1 * (y 1).val = (y 1).val
      omega
  · show V c (Pipeline.arrRef spec1 2) (((cfg1.win 2).blk t).view.emb y) = V c (Pipeline.arrRef spec1 2) y
    refine congrArg _ (Shape.idx_ext₂ ?_ ?_)
    · show win1_2.index t (0 : Fin 2) * 1 + 1 * (y 0).val = (y 0).val
      omega
    · show win1_2.index t (1 : Fin 2) * 32 + 1 * (y 1).val = (y 1).val
      omega

theorem cover1_arr (i : S524288x32.Idx) :
    ∃ t : Fin cfg1.N, (cfg1.win 3).flush t = true ∧ i ∈ ((cfg1.win 3).blk t).view.set := by
  have hr : (i 0).val < 524288 := (i 0).isLt
  have hN : (i 0).val / 4096 < cfg1.N := by rw [show cfg1.N = 128 from N_1]; omega
  obtain ⟨y, hy⟩ := (tile1 ⟨_, hN⟩).2.surj i rfl
  exact ⟨_, flush1_3 _, Finset.mem_map.mpr ⟨y, Finset.mem_univ _, hy⟩⟩

end Cert.KernelIdeal.Hand

end
-- ==== Proof.IR2Blocks.lean ====
import proofs.«418858_j49108656062716_3_alg».proof.Proof.IR2
import proofs.«418858_j49108656062716_3_alg».proof.Proof.IR1Blocks

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

variable {F : FTy → Type} [FloatOps F]

variable (V : (c : Dev nD) → (b : Ref sig .tc) → Buf (Elt F) ((c : Thread nD τ).loc b))

theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem tile2 (t : Fin cfg2.N) :
    RowTile (R := 65536) (C := 65) t.val (fun y => ((cfg2.win 0).blk t).view.emb y)
    ∧ RowTile (R := 65536) (C := 32) t.val (fun y => ((cfg2.win 3).blk t).view.emb y) := by
  obtain ⟨a0, a1, -, -, -, -, d0, d1⟩ := idx2 t
  refine ⟨fun y => ⟨?_, ?_⟩, fun y => ⟨?_, ?_⟩⟩
  · show win2_0.index t (0 : Fin 2) * 4096 + 1 * (y 0).val = _
    omega
  · show win2_0.index t (1 : Fin 2) * 65 + 1 * (y 1).val = _
    omega
  · show win2_3.index t (0 : Fin 2) * 4096 + 1 * (y 0).val = _
    omega
  · show win2_3.index t (1 : Fin 2) * 32 + 1 * (y 1).val = _
    omega

-- the weights and the bias are one block each
theorem whole2 (c : Dev nD) (t : Fin cfg2.N) :
    (iblk2 V c 1 t : Vec F S64x32 .f32) = (V c (Pipeline.arrRef spec2 1) : Vec F S64x32 .f32)
    ∧ (iblk2 V c 2 t : Vec F S1x32 .f32) = (V c (Pipeline.arrRef spec2 2) : Vec F S1x32 .f32) := by
  obtain ⟨-, -, b0, b1, c0, c1, -⟩ := idx2 t
  refine ⟨funext fun y => ?_, funext fun y => ?_⟩
  · show V c (Pipeline.arrRef spec2 1) (((cfg2.win 1).blk t).view.emb y) = V c (Pipeline.arrRef spec2 1) y
    refine congrArg _ (Shape.idx_ext₂ ?_ ?_)
    · show win2_1.index t (0 : Fin 2) * 64 + 1 * (y 0).val = (y 0).val
      omega
    · show win2_1.index t (1 : Fin 2) * 32 + 1 * (y 1).val = (y 1).val
      omega
  · show V c (Pipeline.arrRef spec2 2) (((cfg2.win 2).blk t).view.emb y) = V c (Pipeline.arrRef spec2 2) y
    refine congrArg _ (Shape.idx_ext₂ ?_ ?_)
    · show win2_2.index t (0 : Fin 2) * 1 + 1 * (y 0).val = (y 0).val
      omega
    · show win2_2.index t (1 : Fin 2) * 32 + 1 * (y 1).val = (y 1).val
      omega

theorem cover2_arr (i : S65536x32.Idx) :
    ∃ t : Fin cfg2.N, (cfg2.win 3).flush t = true ∧ i ∈ ((cfg2.win 3).blk t).view.set := by
  have hr : (i 0).val < 65536 := (i 0).isLt
  have hN : (i 0).val / 4096 < cfg2.N := by rw [show cfg2.N = 16 from N_2]; omega
  obtain ⟨y, hy⟩ := (tile2 ⟨_, hN⟩).2.surj i rfl
  exact ⟨_, flush2_3 _, Finset.mem_map.mpr ⟨y, Finset.mem_univ _, hy⟩⟩

end Cert.KernelIdeal.Hand

end
-- ==== Proof.IR3Blocks.lean ====
import proofs.«418858_j49108656062716_3_alg».proof.Proof.IR3
import proofs.«418858_j49108656062716_3_alg».proof.Proof.IR1Blocks

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

variable {F : FTy → Type} [FloatOps F]

variable (V : (c : Dev nD) → (b : Ref sig .tc) → Buf (Elt F) ((c : Thread nD τ).loc b))

theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem tile3 (t : Fin cfg3.N) :
    RowTile (R := 24576) (C := 65) t.val (fun y => ((cfg3.win 0).blk t).view.emb y)
    ∧ RowTile (R := 24576) (C := 32) t.val (fun y => ((cfg3.win 3).blk t).view.emb y) := by
  obtain ⟨a0, a1, -, -, -, -, d0, d1⟩ := idx3 t
  refine ⟨fun y => ⟨?_, ?_⟩, fun y => ⟨?_, ?_⟩⟩
  · show win3_0.index t (0 : Fin 2) * 4096 + 1 * (y 0).val = _
    omega
  · show win3_0.index t (1 : Fin 2) * 65 + 1 * (y 1).val = _
    omega
  · show win3_3.index t (0 : Fin 2) * 4096 + 1 * (y 0).val = _
    omega
  · show win3_3.index t (1 : Fin 2) * 32 + 1 * (y 1).val = _
    omega

-- the weights and the bias are one block each
theorem whole3 (c : Dev nD) (t : Fin cfg3.N) :
    (iblk3 V c 1 t : Vec F S64x32 .f32) = (V c (Pipeline.arrRef spec3 1) : Vec F S64x32 .f32)
    ∧ (iblk3 V c 2 t : Vec F S1x32 .f32) = (V c (Pipeline.arrRef spec3 2) : Vec F S1x32 .f32) := by
  obtain ⟨-, -, b0, b1, c0, c1, -⟩ := idx3 t
  refine ⟨funext fun y => ?_, funext fun y => ?_⟩
  · show V c (Pipeline.arrRef spec3 1) (((cfg3.win 1).blk t).view.emb y) = V c (Pipeline.arrRef spec3 1) y
    refine congrArg _ (Shape.idx_ext₂ ?_ ?_)
    · show win3_1.index t (0 : Fin 2) * 64 + 1 * (y 0).val = (y 0).val
      omega
    · show win3_1.index t (1 : Fin 2) * 32 + 1 * (y 1).val = (y 1).val
      omega
  · show V c (Pipeline.arrRef spec3 2) (((cfg3.win 2).blk t).view.emb y) = V c (Pipeline.arrRef spec3 2) y
    refine congrArg _ (Shape.idx_ext₂ ?_ ?_)
    · show win3_2.index t (0 : Fin 2) * 1 + 1 * (y 0).val = (y 0).val
      omega
    · show win3_2.index t (1 : Fin 2) * 32 + 1 * (y 1).val = (y 1).val
      omega

theorem cover3_arr (i : S24576x32.Idx) :
    ∃ t : Fin cfg3.N, (cfg3.win 3).flush t = true ∧ i ∈ ((cfg3.win 3).blk t).view.set := by
  have hr : (i 0).val < 24576 := (i 0).isLt
  have hN : (i 0).val / 4096 < cfg3.N := by rw [show cfg3.N = 6 from N_3]; omega
  obtain ⟨y, hy⟩ := (tile3 ⟨_, hN⟩).2.surj i rfl
  exact ⟨_, flush3_3 _, Finset.mem_map.mpr ⟨y, Finset.mem_univ _, hy⟩⟩

end Cert.KernelIdeal.Hand

end
-- ==== Proof.IR4Blocks.lean ====
import proofs.«418858_j49108656062716_3_alg».proof.Proof.IR4
import proofs.«418858_j49108656062716_3_alg».proof.Proof.IR1Blocks

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

variable {F : FTy → Type} [FloatOps F]

variable (V : (c : Dev nD) → (b : Ref sig .tc) → Buf (Elt F) ((c : Thread nD τ).loc b))

theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem tile4 (t : Fin cfg4.N) :
    RowTile (R := 8192) (C := 65) t.val (fun y => ((cfg4.win 0).blk t).view.emb y)
    ∧ RowTile (R := 8192) (C := 32) t.val (fun y => ((cfg4.win 3).blk t).view.emb y) := by
  obtain ⟨a0, a1, -, -, -, -, d0, d1⟩ := idx4 t
  refine ⟨fun y => ⟨?_, ?_⟩, fun y => ⟨?_, ?_⟩⟩
  · show win4_0.index t (0 : Fin 2) * 4096 + 1 * (y 0).val = _
    omega
  · show win4_0.index t (1 : Fin 2) * 65 + 1 * (y 1).val = _
    omega
  · show win4_3.index t (0 : Fin 2) * 4096 + 1 * (y 0).val = _
    omega
  · show win4_3.index t (1 : Fin 2) * 32 + 1 * (y 1).val = _
    omega

-- the weights and the bias are one block each
theorem whole4 (c : Dev nD) (t : Fin cfg4.N) :
    (iblk4 V c 1 t : Vec F S64x32 .f32) = (V c (Pipeline.arrRef spec4 1) : Vec F S64x32 .f32)
    ∧ (iblk4 V c 2 t : Vec F S1x32 .f32) = (V c (Pipeline.arrRef spec4 2) : Vec F S1x32 .f32) := by
  obtain ⟨-, -, b0, b1, c0, c1, -⟩ := idx4 t
  refine ⟨funext fun y => ?_, funext fun y => ?_⟩
  · show V c (Pipeline.arrRef spec4 1) (((cfg4.win 1).blk t).view.emb y) = V c (Pipeline.arrRef spec4 1) y
    refine congrArg _ (Shape.idx_ext₂ ?_ ?_)
    · show win4_1.index t (0 : Fin 2) * 64 + 1 * (y 0).val = (y 0).val
      omega
    · show win4_1.index t (1 : Fin 2) * 32 + 1 * (y 1).val = (y 1).val
      omega
  · show V c (Pipeline.arrRef spec4 2) (((cfg4.win 2).blk t).view.emb y) = V c (Pipeline.arrRef spec4 2) y
    refine congrArg _ (Shape.idx_ext₂ ?_ ?_)
    · show win4_2.index t (0 : Fin 2) * 1 + 1 * (y 0).val = (y 0).val
      omega
    · show win4_2.index t (1 : Fin 2) * 32 + 1 * (y 1).val = (y 1).val
      omega

theorem cover4_arr (i : S8192x32.Idx) :
    ∃ t : Fin cfg4.N, (cfg4.win 3).flush t = true ∧ i ∈ ((cfg4.win 3).blk t).view.set := by
  have hr : (i 0).val < 8192 := (i 0).isLt
  have hN : (i 0).val / 4096 < cfg4.N := by rw [show cfg4.N = 2 from N_4]; omega
  obtain ⟨y, hy⟩ := (tile4 ⟨_, hN⟩).2.surj i rfl
  exact ⟨_, flush4_3 _, Finset.mem_map.mpr ⟨y, Finset.mem_univ _, hy⟩⟩

end Cert.KernelIdeal.Hand

end
-- ==== Proof.VPoolFin.lean ====
import proofs.«418858_j49108656062716_3_alg».proof.Proof.VPoolKer
import proofs.«418858_j49108656062716_3_alg».proof.Proof.IR1Blocks
import proofs.«418858_j49108656062716_3_alg».proof.Proof.IR2Blocks
import proofs.«418858_j49108656062716_3_alg».proof.Proof.IR3Blocks
import proofs.«418858_j49108656062716_3_alg».proof.Proof.IR4Blocks

noncomputable section

namespace Cert.Value.S1

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

-- the operand's block and the result's block sit at the same rows of their arrays, and the pooled layer works row by row
theorem pay_eq_pool_of_tile {R : ℕ} {a : (⟨2, ![R, 65]⟩ : Shape).Idx → EReal} {w : S64x32.Idx → EReal} {b : S1x32.Idx → EReal}
    {x0 : Vec Ideal S4096x65 .f32} {x1 : Vec Ideal S64x32 .f32} {x2 : Vec Ideal S1x32 .f32} {t : ℕ}
    {e0 : S4096x65.Idx → (⟨2, ![R, 65]⟩ : Shape).Idx} {e : S4096x32.Idx → (⟨2, ![R, 32]⟩ : Shape).Idx}
    (h0 : RowTile t e0) (h3 : RowTile t e) (hx : ∀ y, x0 y = a (e0 y)) (h1 : x1 = w) (h2 : x2 = b) (y : S4096x32.Idx) :
    k1_pay1 (F := Ideal) x0 x1 x2 y = pool a w b (e y) := by
  obtain ⟨p, k, rfl⟩ : ∃ (p : Fin 4096) (k : Fin 32), y = ix2 p k := ⟨y 0, y 1, eq_ix2 y⟩
  have ek : (e (ix2 p k)) 1 = k := Fin.ext (h3 (ix2 p k)).2
  refine Eq.trans ?_ (congrArg (poolAt a w b ((e (ix2 p k)) 0)) ek.symm)
  exact pay_eq_poolAt a w b x0 x1 x2 p k ((e (ix2 p k)) 0)
    (fun q => (hx _).trans <| congrArg a (Shape.idx_ext₂ ((h0 (ix2 p q)).1.trans (h3 (ix2 p k)).1.symm) (h0 (ix2 p q)).2))
    (fun j => by rw [h1]) (by rw [h2])

variable (V : (c : Dev nD) → (b : Ref sig .tc) → Buf (Elt Ideal) ((c : Thread nD τ).loc b))

theorem final1 (c : Dev nD) :
    (dat1 V c).arrAt 3 cfg1.N = pool1 (V c main_v25) (V c main_v27) (V c main_v30) := by
  refine (dat1 V c).arrAt_eq_of_cover 3 _ (fun t _ => funext fun y => ?_) cover1_arr
  exact pay_eq_pool_of_tile (x0 := iblk1 V c 0 t) (a := V c main_v25) (tile1 t).1 (tile1 t).2 (fun _ => rfl)
    (whole1 V c t).1 (whole1 V c t).2 y

theorem final2 (c : Dev nD) :
    (dat2 V c).arrAt 3 cfg2.N = pool2 (V c main_v52) (V c main_v54) (V c main_v57) := by
  refine (dat2 V c).arrAt_eq_of_cover 3 _ (fun t _ => funext fun y => ?_) cover2_arr
  exact pay_eq_pool_of_tile (x0 := iblk2 V c 0 t) (a := V c main_v52) (tile2 t).1 (tile2 t).2 (fun _ => rfl)
    (whole2 V c t).1 (whole2 V c t).2 y

theorem final3 (c : Dev nD) :
    (dat3 V c).arrAt 3 cfg3.N = pool3 (V c main_v80) (V c main_v82) (V c main_v85) := by
  refine (dat3 V c).arrAt_eq_of_cover 3 _ (fun t _ => funext fun y => ?_) cover3_arr
  exact pay_eq_pool_of_tile (x0 := iblk3 V c 0 t) (a := V c main_v80) (tile3 t).1 (tile3 t).2 (fun _ => rfl)
    (whole3 V c t).1 (whole3 V c t).2 y

theorem final4 (c : Dev nD) :
    (dat4 V c).arrAt 3 cfg4.N = pool4 (V c main_v107) (V c main_v109) (V c main_v112) := by
  refine (dat4 V c).arrAt_eq_of_cover 3 _ (fun t _ => funext fun y => ?_) cover4_arr
  exact pay_eq_pool_of_tile (x0 := iblk4 V c 0 t) (a := V c main_v107) (tile4 t).1 (tile4 t).2 (fun _ => rfl)
    (whole4 V c t).1 (whole4 V c t).2 y

end Cert.Value.S1

end
-- ==== Proof.VTailSpec.lean ====
import Idealize.ShloMosaic.PureOps.Ideal
import Idealize.ShloMosaic.Lib.ValueIdx

noncomputable section

namespace Cert.Value.Tail

open Idealize.ShloMosaic Idealize.ShloMosaic.ValueIdx
open scoped BigOperators

def col (j : Fin 4) (k : Fin 32) : Fin 128 := ⟨32 * j.val + k.val, by have := j.isLt; have := k.isLt; omega⟩

section Row
variable (a : Fin 128 → EReal) (r : Fin 64 → EReal)
  (Wz : (⟨2, ![32, 32]⟩ : Shape).Idx → EReal) (Watt : (⟨3, ![4, 32, 32]⟩ : Shape).Idx → EReal)
  (batt : (⟨3, ![4, 1, 32]⟩ : Shape).Idx → EReal) (Wout : (⟨2, ![32, 64]⟩ : Shape).Idx → EReal)
  (Wl1a Wl1b Wl2 : (⟨2, ![64, 64]⟩ : Shape).Idx → EReal) (bl2 : (⟨2, ![1, 64]⟩ : Shape).Idx → EReal)

def sfsum (k : Fin 32) : EReal := ((a (col 0 k) + a (col 1 k)) + a (col 2 k)) + a (col 3 k)

def fz (k : Fin 32) : EReal := max (∑ i : Fin 32, sfsum a i * Wz (ix2 i k)) 0

def av (j : Fin 4) (k : Fin 32) : EReal :=
  Ideal.logistic ((∑ i : Fin 32, fz a Wz i * Watt (ix3 j i k)) + batt (ix3 j (0 : Fin 1) k))

def weighted (k : Fin 32) : EReal :=
  ((a (col 0 k) * av a Wz Watt batt 0 k + a (col 1 k) * av a Wz Watt batt 1 k) + a (col 2 k) * av a Wz Watt batt 2 k)
    + a (col 3 k) * av a Wz Watt batt 3 k

def sfeat (k : Fin 64) : EReal := ∑ i : Fin 32, weighted a Wz Watt batt i * Wout (ix2 i k)

def hid (k : Fin 64) : EReal :=
  max ((∑ i : Fin 64, r i * Wl1a (ix2 i k)) + (∑ i : Fin 64, sfeat a Wz Watt batt Wout i * Wl1b (ix2 i k))) 0

def tailRow (k : Fin 64) : EReal :=
  (∑ i : Fin 64, hid a r Wz Watt batt Wout Wl1a Wl1b i * Wl2 (ix2 i k)) + bl2 (ix2 (0 : Fin 1) k)

end Row

def tailK (red : (⟨2, ![250000, 64]⟩ : Shape).Idx → EReal) (packed : (⟨2, ![250000, 128]⟩ : Shape).Idx → EReal)
    (Wz : (⟨2, ![32, 32]⟩ : Shape).Idx → EReal) (Watt : (⟨3, ![4, 32, 32]⟩ : Shape).Idx → EReal)
    (batt : (⟨3, ![4, 1, 32]⟩ : Shape).Idx → EReal) (Wout : (⟨2, ![32, 64]⟩ : Shape).Idx → EReal)
    (Wl1a Wl1b Wl2 : (⟨2, ![64, 64]⟩ : Shape).Idx → EReal) (bl2 : (⟨2, ![1, 64]⟩ : Shape).Idx → EReal) :
    (⟨2, ![250000, 64]⟩ : Shape).Idx → EReal :=
  fun j => tailRow (fun c => packed (ix2 (j 0) c)) (fun i => red (ix2 (j 0) i)) Wz Watt batt Wout Wl1a Wl1b Wl2 bl2 (j 1)

end Cert.Value.Tail
-- ==== Proof.IR5Blocks.lean ====
import proofs.«418858_j49108656062716_3_alg».proof.Proof.IR5
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable {F : FTy → Type} [FloatOps F]

variable (V : (c : Dev nD) → (b : Ref sig .tc) → Buf (Elt F) ((c : Thread nD τ).loc b))

theorem idx5_rows : ∀ t : Fin cfg5.N,
    win5_0.index t (0 : Fin 2) = t.val ∧ win5_0.index t (1 : Fin 2) = 0
    ∧ win5_1.index t (0 : Fin 2) = t.val ∧ win5_1.index t (1 : Fin 2) = 0
    ∧ win5_10.index t (0 : Fin 2) = t.val ∧ win5_10.index t (1 : Fin 2) = 0 :=
  (by decide +kernel : ∀ t : Fin grid5.N, _)

theorem idx5_const : ∀ t : Fin cfg5.N,
    (∀ a, win5_2.index t a = 0) ∧ (∀ a, win5_3.index t a = 0) ∧ (∀ a, win5_4.index t a = 0) ∧ (∀ a, win5_5.index t a = 0)
    ∧ (∀ a, win5_6.index t a = 0) ∧ (∀ a, win5_7.index t a = 0) ∧ (∀ a, win5_8.index t a = 0) ∧ (∀ a, win5_9.index t a = 0) :=
  (by decide +kernel : ∀ t : Fin grid5.N, _)

-- An index map that keeps every coordinate reads the array itself.
theorem read_whole {s : Shape} {β : Type} (f : s.Idx → β) (e : s.Idx → s.Idx) (h : ∀ y a, (e y a).val = (y a).val) :
    (fun y => f (e y)) = f :=
  funext fun y => congrArg f (funext fun a => Fin.ext (h y a))

theorem iblk5_0_apply (c : Dev nD) (t : Fin cfg5.N) (y : S2000x64.Idx) (i : S250000x64.Idx)
    (h0 : (i 0).val = 2000 * t.val + (y 0).val) (h1 : (i 1).val = (y 1).val) :
    (iblk5 V c 0 t : Vec F S2000x64 .f32) y = (V c (Pipeline.arrRef spec5 0) : Vec F S250000x64 .f32) i := by
  obtain ⟨e0, e1, -⟩ := idx5_rows t
  show V c (Pipeline.arrRef spec5 0) (((cfg5.win 0).blk t).view.emb y) = V c (Pipeline.arrRef spec5 0) i
  refine congrArg _ ?_
  funext a; apply Fin.ext
  match a with
  | ⟨0, _⟩ => show win5_0.index t (0 : Fin 2) * 2000 + 1 * (y 0).val = (i 0).val; omega
  | ⟨1, _⟩ => show win5_0.index t (1 : Fin 2) * 64 + 1 * (y 1).val = (i 1).val; omega

theorem iblk5_1_apply (c : Dev nD) (t : Fin cfg5.N) (y : S2000x128.Idx) (i : S250000x128.Idx)
    (h0 : (i 0).val = 2000 * t.val + (y 0).val) (h1 : (i 1).val = (y 1).val) :
    (iblk5 V c 1 t : Vec F S2000x128 .bf16) y = (V c (Pipeline.arrRef spec5 1) : Vec F S250000x128 .bf16) i := by
  obtain ⟨-, -, e0, e1, -⟩ := idx5_rows t
  show V c (Pipeline.arrRef spec5 1) (((cfg5.win 1).blk t).view.emb y) = V c (Pipeline.arrRef spec5 1) i
  refine congrArg _ ?_
  funext a; apply Fin.ext
  match a with
  | ⟨0, _⟩ => show win5_1.index t (0 : Fin 2) * 2000 + 1 * (y 0).val = (i 0).val; omega
  | ⟨1, _⟩ => show win5_1.index t (1 : Fin 2) * 128 + 1 * (y 1).val = (i 1).val; omega

theorem row5_lt (t : Fin cfg5.N) (r : Fin 2000) : 2000 * t.val + r.val < 250000 := by
  have ht : t.val < 125 := Nat.lt_of_lt_of_eq t.isLt N_5
  have hr := r.isLt
  omega

theorem iblk5_0_ix (c : Dev nD) (t : Fin cfg5.N) (r : Fin 2000) (k : Fin 64) :
    (iblk5 V c 0 t : Vec F S2000x64 .f32) (ix2 r k)
      = (V c (Pipeline.arrRef spec5 0) : Vec F S250000x64 .f32) (ix2 ⟨2000 * t.val + r.val, row5_lt t r⟩ k) :=
  iblk5_0_apply V c t (ix2 r k) (ix2 ⟨2000 * t.val + r.val, row5_lt t r⟩ k) rfl rfl

theorem iblk5_1_ix (c : Dev nD) (t : Fin cfg5.N) (r : Fin 2000) (k : Fin 128) :
    (iblk5 V c 1 t : Vec F S2000x128 .bf16) (ix2 r k)
      = (V c (Pipeline.arrRef spec5 1) : Vec F S250000x128 .bf16) (ix2 ⟨2000 * t.val + r.val, row5_lt t r⟩ k) :=
  iblk5_1_apply V c t (ix2 r k) (ix2 ⟨2000 * t.val + r.val, row5_lt t r⟩ k) rfl rfl

theorem iblk5_2_eq (c : Dev nD) (t : Fin cfg5.N) :
    (iblk5 V c 2 t : Vec F S32x32 .f32) = (V c (Pipeline.arrRef spec5 2) : Vec F S32x32 .f32) :=
  read_whole (V c (Pipeline.arrRef spec5 2)) ((cfg5.win 2).blk t).view.emb fun y a => by
    have h := (idx5_const t).1
    match a with
    | ⟨0, _⟩ | ⟨1, _⟩ => show win5_2.index t _ * _ + 1 * (y _).val = _; rw [h]; omega

theorem iblk5_3_eq (c : Dev nD) (t : Fin cfg5.N) :
    (iblk5 V c 3 t : Vec F S4x32x32 .f32) = (V c (Pipeline.arrRef spec5 3) : Vec F S4x32x32 .f32) :=
  read_whole (V c (Pipeline.arrRef spec5 3)) ((cfg5.win 3).blk t).view.emb fun y a => by
    have h := (idx5_const t).2.1
    match a with
    | ⟨0, _⟩ | ⟨1, _⟩ | ⟨2, _⟩ => show win5_3.index t _ * _ + 1 * (y _).val = _; rw [h]; omega

theorem iblk5_4_eq (c : Dev nD) (t : Fin cfg5.N) :
    (iblk5 V c 4 t : Vec F S4x1x32 .f32) = (V c (Pipeline.arrRef spec5 4) : Vec F S4x1x32 .f32) :=
  read_whole (V c (Pipeline.arrRef spec5 4)) ((cfg5.win 4).blk t).view.emb fun y a => by
    have h := (idx5_const t).2.2.1
    match a with
    | ⟨0, _⟩ | ⟨1, _⟩ | ⟨2, _⟩ => show win5_4.index t _ * _ + 1 * (y _).val = _; rw [h]; omega

theorem iblk5_5_eq (c : Dev nD) (t : Fin cfg5.N) :
    (iblk5 V c 5 t : Vec F S32x64 .f32) = (V c (Pipeline.arrRef spec5 5) : Vec F S32x64 .f32) :=
  read_whole (V c (Pipeline.arrRef spec5 5)) ((cfg5.win 5).blk t).view.emb fun y a => by
    have h := (idx5_const t).2.2.2.1
    match a with
    | ⟨0, _⟩ | ⟨1, _⟩ => show win5_5.index t _ * _ + 1 * (y _).val = _; rw [h]; omega

theorem iblk5_6_eq (c : Dev nD) (t : Fin cfg5.N) :
    (iblk5 V c 6 t : Vec F S64x64 .f32) = (V c (Pipeline.arrRef spec5 6) : Vec F S64x64 .f32) :=
  read_whole (V c (Pipeline.arrRef spec5 6)) ((cfg5.win 6).blk t).view.emb fun y a => by
    have h := (idx5_const t).2.2.2.2.1
    match a with
    | ⟨0, _⟩ | ⟨1, _⟩ => show win5_6.index t _ * _ + 1 * (y _).val = _; rw [h]; omega

theorem iblk5_7_eq (c : Dev nD) (t : Fin cfg5.N) :
    (iblk5 V c 7 t : Vec F S64x64 .f32) = (V c (Pipeline.arrRef spec5 7) : Vec F S64x64 .f32) :=
  read_whole (V c (Pipeline.arrRef spec5 7)) ((cfg5.win 7).blk t).view.emb fun y a => by
    have h := (idx5_const t).2.2.2.2.2.1
    match a with
    | ⟨0, _⟩ | ⟨1, _⟩ => show win5_7.index t _ * _ + 1 * (y _).val = _; rw [h]; omega

theorem iblk5_8_eq (c : Dev nD) (t : Fin cfg5.N) :
    (iblk5 V c 8 t : Vec F S64x64 .f32) = (V c (Pipeline.arrRef spec5 8) : Vec F S64x64 .f32) :=
  read_whole (V c (Pipeline.arrRef spec5 8)) ((cfg5.win 8).blk t).view.emb fun y a => by
    have h := (idx5_const t).2.2.2.2.2.2.1
    match a with
    | ⟨0, _⟩ | ⟨1, _⟩ => show win5_8.index t _ * _ + 1 * (y _).val = _; rw [h]; omega

theorem iblk5_9_eq (c : Dev nD) (t : Fin cfg5.N) :
    (iblk5 V c 9 t : Vec F S1x64 .f32) = (V c (Pipeline.arrRef spec5 9) : Vec F S1x64 .f32) :=
  read_whole (V c (Pipeline.arrRef spec5 9)) ((cfg5.win 9).blk t).view.emb fun y a => by
    have h := (idx5_const t).2.2.2.2.2.2.2
    match a with
    | ⟨0, _⟩ | ⟨1, _⟩ => show win5_9.index t _ * _ + 1 * (y _).val = _; rw [h]; omega

theorem emb5_10 (t : Fin cfg5.N) (y : S2000x64.Idx) (i : S250000x64.Idx)
    (h0 : (i 0).val = 2000 * t.val + (y 0).val) (h1 : (i 1).val = (y 1).val) :
    ((cfg5.win 10).blk t).view.emb y = i := by
  obtain ⟨-, -, -, -, e0, e1⟩ := idx5_rows t
  funext a; apply Fin.ext
  match a with
  | ⟨0, _⟩ => show win5_10.index t (0 : Fin 2) * 2000 + 1 * (y 0).val = (i 0).val; omega
  | ⟨1, _⟩ => show win5_10.index t (1 : Fin 2) * 64 + 1 * (y 1).val = (i 1).val; omega

theorem flushed5_10_of (c : Dev nD) (G : Vec F S250000x64 .f32)
    (hG : ∀ (t : Fin cfg5.N) (y : S2000x64.Idx),
      out5_10 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) y = G (((cfg5.win 10).blk t).view.emb y))
    (t : Fin cfg5.N) :
    (dat5 V c).flushed 10 t = ((cfg5.win 10).blk t).view.read (Elt F) G := by
  show (cfg5.win 10).cut (grid5.coords t) ((dat5 V c).after 10 t) = _
  rw [after5_10]
  funext y
  exact hG t y

theorem mem_blk5_10 (t : Fin cfg5.N) (i : S250000x64.Idx) :
    i ∈ ((cfg5.win 10).blk t).view.set ↔ ∀ a : Fin 2, win5_10.index t a * S2000x64.size a ≤ (i a).val ∧ (i a).val < win5_10.index t a * S2000x64.size a + S2000x64.size a := by
  show i ∈ ((View.whole main_v134).slice (win5_10.rect t)).set ↔ _
  rw [View.set_slice_whole, Rect.mem_set_unit]
  exact Iff.rfl

theorem tiles5_10 (i : S250000x64.Idx) :
    ∃ t : Fin cfg5.N, (cfg5.win 10).flush t = true ∧ i ∈ ((cfg5.win 10).blk t).view.set := by
  have hi0 : (i 0).val < 250000 := (i 0).isLt
  have hi1 : (i 1).val < 64 := (i 1).isLt
  have hq : (i 0).val / 2000 < cfg5.N := by rw [show cfg5.N = 125 from N_5]; omega
  obtain ⟨-, -, -, -, e0, e1⟩ := idx5_rows ⟨(i 0).val / 2000, hq⟩
  have e0' : win5_10.index ⟨(i 0).val / 2000, hq⟩ (0 : Fin 2) = (i 0).val / 2000 := e0
  refine ⟨⟨(i 0).val / 2000, hq⟩, flush5_10 _, ?_⟩
  rw [mem_blk5_10]
  intro a
  match a with
  | ⟨0, _⟩ =>
    show win5_10.index ⟨(i 0).val / 2000, hq⟩ (0 : Fin 2) * 2000 ≤ (i 0).val ∧ (i 0).val < win5_10.index ⟨(i 0).val / 2000, hq⟩ (0 : Fin 2) * 2000 + 2000
    omega
  | ⟨1, _⟩ =>
    show win5_10.index ⟨(i 0).val / 2000, hq⟩ (1 : Fin 2) * 64 ≤ (i 1).val ∧ (i 1).val < win5_10.index ⟨(i 0).val / 2000, hq⟩ (1 : Fin 2) * 64 + 64
    omega

theorem final5_of (c : Dev nD) (G : Vec F S250000x64 .f32)
    (hG : ∀ (t : Fin cfg5.N) (y : S2000x64.Idx),
      out5_10 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) y = G (((cfg5.win 10).blk t).view.emb y)) :
    (dat5 V c).arrAt 10 cfg5.N = G :=
  (dat5 V c).arrAt_eq_of_cover 10 G (fun t _ => flushed5_10_of V c G hG t) tiles5_10

theorem final5_of_rows (c : Dev nD) (G : Vec F S250000x64 .f32)
    (hG : ∀ (t : Fin cfg5.N) (y : S2000x64.Idx) (i : S250000x64.Idx),
      (i 0).val = 2000 * t.val + (y 0).val → (i 1).val = (y 1).val →
      out5_10 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) y = G i) :
    (dat5 V c).arrAt 10 cfg5.N = G :=
  final5_of V c G fun t y => by
    have hy0 := (y 0).isLt
    have hy1 := (y 1).isLt
    have hrow : 2000 * t.val + (y 0).val < 250000 := row5_lt t (y 0)
    have e := emb5_10 t y (ix2 ⟨2000 * t.val + (y 0).val, hrow⟩ (y 1)) rfl rfl
    rw [e]
    exact hG t y _ rfl rfl

end Cert.KernelIdeal.Hand

end
-- ==== Proof.VTailPay.lean ====
import proofs.«418858_j49108656062716_3_alg».proof.Proof.Gen.KernelIdeal.Skeleton
import proofs.«418858_j49108656062716_3_alg».proof.Proof.VTailSpec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember

noncomputable section

namespace Cert.Value.Tail

open Cert.KernelIdeal Cert.KernelIdeal.Gen
open Idealize.ShloMosaic Idealize.ShloMosaic.ValueIdx
open scoped BigOperators

-- A product into the zero splat is the host product, read at an index.
theorem mm32 {φ₁ φ₂ : FTy} (A : FVec Ideal S2000x32 φ₁) (B : FVec Ideal S32x32 φ₂) (p : Fin 2000) (q : Fin 32) :
    matmul dot_S2000x32_S32x32_S2000x32_1_0_0_1_n_n none A B (constant S2000x32 .f32 0x00000000#32) (ix2 p q)
      = ∑ i : Fin 32, A (ix2 p i) * B (ix2 i q) :=
  (congrFun (matmul_zero_eq_dotGeneral _ none A B) _).trans
    (StackMember.dotGeneral_plain_apply (m := 2000) (n := 32) (k := 32) none A B p q)

theorem mm32x64 {φ₁ φ₂ : FTy} (A : FVec Ideal S2000x32 φ₁) (B : FVec Ideal S32x64 φ₂) (p : Fin 2000) (q : Fin 64) :
    matmul dot_S2000x32_S32x64_S2000x64_1_0_0_1_n_n none A B (constant S2000x64 .f32 0x00000000#32) (ix2 p q)
      = ∑ i : Fin 32, A (ix2 p i) * B (ix2 i q) :=
  (congrFun (matmul_zero_eq_dotGeneral _ none A B) _).trans
    (StackMember.dotGeneral_plain_apply (m := 2000) (n := 64) (k := 32) none A B p q)

theorem mm64 {φ₁ φ₂ : FTy} (A : FVec Ideal S2000x64 φ₁) (B : FVec Ideal S64x64 φ₂) (p : Fin 2000) (q : Fin 64) :
    matmul dot_S2000x64_S64x64_S2000x64_1_0_0_1_n_n none A B (constant S2000x64 .f32 0x00000000#32) (ix2 p q)
      = ∑ i : Fin 64, A (ix2 p i) * B (ix2 i q) :=
  (congrFun (matmul_zero_eq_dotGeneral _ none A B) _).trans
    (StackMember.dotGeneral_plain_apply (m := 2000) (n := 64) (k := 64) none A B p q)

theorem pay2_eq (v0 : Vec Ideal S2000x64 .f32) : k5_pay2 v0 = v0 := by
  unfold k5_pay2; exact shapeCast_self _ _

theorem pay3_eq (v2 : Vec Ideal S2000x128 .bf16) : k5_pay3 v2 = v2 := by
  unfold k5_pay3; exact shapeCast_self _ _

theorem pay4_apply (v2 : Vec Ideal S2000x128 .bf16) (p : Fin 2000) (k : Fin 32) :
    k5_pay4 v2 (ix2 p k) = v2 (ix2 p (col 0 k)) := by
  unfold k5_pay4; rw [pay3_eq]
  exact slice2_axis1_apply 0 _ _ p k (col 0 k) (by simp [col])

theorem pay5_apply (v2 : Vec Ideal S2000x128 .bf16) (p : Fin 2000) (k : Fin 32) :
    k5_pay5 v2 (ix2 p k) = v2 (ix2 p (col 1 k)) := by
  unfold k5_pay5; rw [pay3_eq]
  exact slice2_axis1_apply 32 _ _ p k (col 1 k) (by simp [col])

theorem pay6_apply (v2 : Vec Ideal S2000x128 .bf16) (p : Fin 2000) (k : Fin 32) :
    k5_pay6 v2 (ix2 p k) = v2 (ix2 p (col 2 k)) := by
  unfold k5_pay6; rw [pay3_eq]
  exact slice2_axis1_apply 64 _ _ p k (col 2 k) (by simp [col])

theorem pay7_apply (v2 : Vec Ideal S2000x128 .bf16) (p : Fin 2000) (k : Fin 32) :
    k5_pay7 v2 (ix2 p k) = v2 (ix2 p (col 3 k)) := by
  unfold k5_pay7; rw [pay3_eq]
  exact slice2_axis1_apply 96 _ _ p k (col 3 k) (by simp [col])

theorem pay8_apply (v2 : Vec Ideal S2000x128 .bf16) (v12 : Vec Ideal S32x32 .f32) (p : Fin 2000) (k : Fin 32) :
    k5_pay8 v2 v12 (ix2 p k) = fz (fun c => v2 (ix2 p c)) v12 k := by
  unfold k5_pay8
  rw [truncf_apply, maximumf_apply, broadcast_apply, mm32]
  unfold fz
  refine congrArg₂ max (Finset.sum_congr rfl fun i _ => ?_) Ideal.ofBits_zero_f32
  rw [truncf_apply, truncf_apply, addf_apply, addf_apply, addf_apply, pay4_apply, pay5_apply, pay6_apply, pay7_apply]
  rfl

theorem gate_apply (v18 : FVec Ideal S2000x32 .bf16) (W : Vec Ideal S1x32x32 .f32) (b : Vec Ideal S1x1x32 .f32)
    (p : Fin 2000) (k : Fin 32) :
    addf (matmul dot_S2000x32_S32x32_S2000x32_1_0_0_1_n_n none v18
          (truncf .bf16 (shapeCast S32x32 W shapeCasts_S1x32x32_S32x32) bitsLt_bf16_f32) (constant S2000x32 .f32 0x00000000#32))
        (broadcastTo S2000x32 (shapeCast S1x32 b shapeCasts_S1x1x32_S1x32) broadcasts_S1x32_S2000x32) (ix2 p k)
      = (∑ i : Fin 32, v18 (ix2 p i) * W (ix3 (0 : Fin 1) i k)) + b (ix3 (0 : Fin 1) (0 : Fin 1) k) := by
  rw [addf_apply, mm32, broadcastTo_1b_ab_apply, shapeCast_1ab_ab_apply]
  refine congrArg₂ (· + ·) (Finset.sum_congr rfl fun i _ => ?_) rfl
  rw [truncf_apply, shapeCast_1ab_ab_apply]

theorem pay9_apply (v2 : Vec Ideal S2000x128 .bf16) (v12 : Vec Ideal S32x32 .f32) (v19 : Vec Ideal S1x32x32 .f32)
    (v22 : Vec Ideal S1x1x32 .f32) (p : Fin 2000) (k : Fin 32) :
    k5_pay9 v2 v12 v19 v22 (ix2 p k)
      = v2 (ix2 p (col 0 k)) * Ideal.logistic ((∑ i : Fin 32, fz (fun c => v2 (ix2 p c)) v12 i * v19 (ix3 (0 : Fin 1) i k))
          + v22 (ix3 (0 : Fin 1) (0 : Fin 1) k)) := by
  unfold k5_pay9
  rw [mulf_apply, pay4_apply]
  refine congrArg (v2 (ix2 p (col 0 k)) * ·) (congrArg Ideal.logistic ?_)
  rw [gate_apply]
  refine congrArg₂ (· + ·) (Finset.sum_congr rfl fun i _ => ?_) rfl
  rw [pay8_apply]

theorem pay10_apply (v2 : Vec Ideal S2000x128 .bf16) (v12 : Vec Ideal S32x32 .f32) (v29 : Vec Ideal S1x32x32 .f32)
    (v32 : Vec Ideal S1x1x32 .f32) (p : Fin 2000) (k : Fin 32) :
    k5_pay10 v2 v12 v29 v32 (ix2 p k)
      = (∑ i : Fin 32, fz (fun c => v2 (ix2 p c)) v12 i * v29 (ix3 (0 : Fin 1) i k)) + v32 (ix3 (0 : Fin 1) (0 : Fin 1) k) := by
  unfold k5_pay10
  rw [gate_apply]
  refine congrArg₂ (· + ·) (Finset.sum_congr rfl fun i _ => ?_) rfl
  rw [pay8_apply]

theorem pay11_apply (v69 : Vec Ideal S64x64 .f32) (i : S64x64.Idx) : k5_pay11 v69 i = v69 i := by
  unfold k5_pay11; rw [truncf_apply, shapeCast_self]

theorem pay12_apply (v1 : FVec Ideal S2000x64 .f32) (v66 : Vec Ideal S64x64 .f32) (p : Fin 2000) (k : Fin 64) :
    k5_pay12 v1 v66 (ix2 p k) = ∑ i : Fin 64, v1 (ix2 p i) * v66 (ix2 i k) := by
  unfold k5_pay12
  rw [mm64]
  refine Finset.sum_congr rfl fun i _ => ?_
  rw [truncf_apply, truncf_apply, shapeCast_self]

theorem pay13_apply (v6 v7 v8 : FVec Ideal S2000x32 .f32) (v18 : FVec Ideal S2000x32 .bf16) (v28 v36 : FVec Ideal S2000x32 .f32)
    (v40 : Vec Ideal S1x32x32 .f32) (v43 : Vec Ideal S1x1x32 .f32) (v51 : Vec Ideal S1x32x32 .f32) (v54 : Vec Ideal S1x1x32 .f32)
    (v62 : Vec Ideal S32x64 .f32) (p : Fin 2000) (k : Fin 64) :
    k5_pay13 v6 v7 v8 v18 v28 v36 v40 v43 v51 v54 v62 (ix2 p k)
      = ∑ i : Fin 32,
          (((v28 (ix2 p i) + v6 (ix2 p i) * Ideal.logistic (v36 (ix2 p i)))
              + v7 (ix2 p i) * Ideal.logistic ((∑ l : Fin 32, v18 (ix2 p l) * v40 (ix3 (0 : Fin 1) l i)) + v43 (ix3 (0 : Fin 1) (0 : Fin 1) i)))
            + v8 (ix2 p i) * Ideal.logistic ((∑ l : Fin 32, v18 (ix2 p l) * v51 (ix3 (0 : Fin 1) l i)) + v54 (ix3 (0 : Fin 1) (0 : Fin 1) i)))
          * v62 (ix2 i k) := by
  unfold k5_pay13
  rw [truncf_apply, mm32x64]
  refine Finset.sum_congr rfl fun i _ => ?_
  rw [truncf_apply, truncf_apply, addf_apply, addf_apply, addf_apply, mulf_apply, mulf_apply, mulf_apply]
  refine congrArg₂ (· * ·) ?_ rfl
  refine congrArg₂ (· + ·) (congrArg₂ (· + ·) rfl ?_) ?_
  · exact congrArg (v7 (ix2 p i) * ·) (congrArg Ideal.logistic (gate_apply v18 v40 v43 p i))
  · exact congrArg (v8 (ix2 p i) * ·) (congrArg Ideal.logistic (gate_apply v18 v51 v54 p i))

theorem pay1_apply (v71 : FVec Ideal S64x64 .bf16) (v73 : FVec Ideal S2000x64 .f32) (v74 : FVec Ideal S2000x64 .bf16)
    (v79 : Vec Ideal S64x64 .f32) (v83 : Vec Ideal S1x64 .f32) (p : Fin 2000) (k : Fin 64) :
    k5_pay1 v71 v73 v74 v79 v83 (ix2 p k)
      = (∑ i : Fin 64, max (v73 (ix2 p i) + ∑ l : Fin 64, v74 (ix2 p l) * v71 (ix2 l i)) 0 * v79 (ix2 i k))
          + v83 (ix2 (0 : Fin 1) k) := by
  unfold k5_pay1
  rw [addf_apply, mm64, broadcastTo_1b_ab_apply, shapeCast_self]
  refine congrArg₂ (· + ·) (Finset.sum_congr rfl fun i _ => ?_) rfl
  rw [truncf_apply, truncf_apply, maximumf_apply, broadcast_apply, addf_apply, mm64]
  exact congrArg (max _ · * _) Ideal.ofBits_zero_f32

theorem chain_apply (v0 : Vec Ideal S2000x64 .f32) (v2 : Vec Ideal S2000x128 .bf16) (v12 : Vec Ideal S32x32 .f32)
    (v19 v29 v40 v51 : Vec Ideal S1x32x32 .f32) (v22 v32 v43 v54 : Vec Ideal S1x1x32 .f32)
    (v62 : Vec Ideal S32x64 .f32) (v66 v69 v79 : Vec Ideal S64x64 .f32) (v83 : Vec Ideal S1x64 .f32)
    (Watt : Vec Ideal S4x32x32 .f32) (batt : Vec Ideal S4x1x32 .f32)
    (hW0 : ∀ i k, v19 (ix3 (0 : Fin 1) i k) = Watt (ix3 (0 : Fin 4) i k))
    (hW1 : ∀ i k, v29 (ix3 (0 : Fin 1) i k) = Watt (ix3 (1 : Fin 4) i k))
    (hW2 : ∀ i k, v40 (ix3 (0 : Fin 1) i k) = Watt (ix3 (2 : Fin 4) i k))
    (hW3 : ∀ i k, v51 (ix3 (0 : Fin 1) i k) = Watt (ix3 (3 : Fin 4) i k))
    (hb0 : ∀ k, v22 (ix3 (0 : Fin 1) (0 : Fin 1) k) = batt (ix3 (0 : Fin 4) (0 : Fin 1) k))
    (hb1 : ∀ k, v32 (ix3 (0 : Fin 1) (0 : Fin 1) k) = batt (ix3 (1 : Fin 4) (0 : Fin 1) k))
    (hb2 : ∀ k, v43 (ix3 (0 : Fin 1) (0 : Fin 1) k) = batt (ix3 (2 : Fin 4) (0 : Fin 1) k))
    (hb3 : ∀ k, v54 (ix3 (0 : Fin 1) (0 : Fin 1) k) = batt (ix3 (3 : Fin 4) (0 : Fin 1) k))
    (p : Fin 2000) (k : Fin 64) :
    k5_pay1 (k5_pay11 v69) (k5_pay12 (k5_pay2 v0) v66)
        (k5_pay13 (k5_pay5 v2) (k5_pay6 v2) (k5_pay7 v2) (k5_pay8 v2 v12) (k5_pay9 v2 v12 v19 v22) (k5_pay10 v2 v12 v29 v32)
          v40 v43 v51 v54 v62) v79 v83 (ix2 p k)
      = tailRow (fun c => v2 (ix2 p c)) (fun i => v0 (ix2 p i)) v12 Watt batt v62 v66 v69 v79 v83 k := by
  rw [pay1_apply]
  unfold tailRow
  refine congrArg₂ (· + ·) (Finset.sum_congr rfl fun i _ => congrArg (· * v79 (ix2 i k)) ?_) rfl
  unfold hid
  refine congrArg (max · 0) (congrArg₂ (· + ·) ?_ (Finset.sum_congr rfl fun l _ => ?_))
  · rw [pay12_apply, pay2_eq]
  · rw [pay13_apply, pay11_apply]
    refine congrArg (· * v69 (ix2 l i)) ?_
    unfold sfeat
    refine Finset.sum_congr rfl fun m _ => congrArg (· * v62 (ix2 m l)) ?_
    unfold weighted av
    rw [pay9_apply, pay10_apply, pay5_apply, pay6_apply, pay7_apply]
    simp only [pay8_apply, hW0, hW1, hW2, hW3, hb0, hb1, hb2, hb3]

end Cert.Value.Tail
-- ==== Proof.VTailKer.lean ====
import proofs.«418858_j49108656062716_3_alg».proof.Proof.IR5
import proofs.«418858_j49108656062716_3_alg».proof.Proof.VTailSpec
import proofs.«418858_j49108656062716_3_alg».proof.Proof.IR5Blocks
import proofs.«418858_j49108656062716_3_alg».proof.Proof.VTailPay
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Value.Tail

open Cert.KernelIdeal Cert.KernelIdeal.Gen Cert.KernelIdeal.Hand
open Idealize.ShloMosaic Idealize.ShloMosaic.TcCoe Idealize.ShloMosaic.ValueIdx
open scoped BigOperators

theorem hz2 : (![0, 0] : Fin 2 → ℕ) = fun _ => 0 := funext fun a => by fin_cases a <;> rfl

theorem ldW (x3 : Vec Ideal S4x32x32 .f32) (j : Fin 4) (inb) (i k : Fin 32) :
    View.ld x3 (Rect.unit (s := S4x32x32) ![j.val, 0, 0] S1x32x32.size inb) (ix3 (0 : Fin 1) i k) = x3 (ix3 j i k) :=
  congrArg x3 (funext fun a => Fin.ext (by
    match a with
    | ⟨0, _⟩ => show j.val + 1 * 0 = j.val; omega
    | ⟨1, _⟩ => show 0 + 1 * i.val = i.val; omega
    | ⟨2, _⟩ => show 0 + 1 * k.val = k.val; omega))

theorem ldb (x4 : Vec Ideal S4x1x32 .f32) (j : Fin 4) (inb) (k : Fin 32) :
    View.ld x4 (Rect.unit (s := S4x1x32) ![j.val, 0, 0] S1x1x32.size inb) (ix3 (0 : Fin 1) (0 : Fin 1) k) = x4 (ix3 j (0 : Fin 1) k) :=
  congrArg x4 (funext fun a => Fin.ext (by
    match a with
    | ⟨0, _⟩ => show j.val + 1 * 0 = j.val; omega
    | ⟨1, _⟩ => show 0 + 1 * 0 = 0; omega
    | ⟨2, _⟩ => show 0 + 1 * k.val = k.val; omega))

theorem out5_apply (x0 : Vec Ideal S2000x64 .f32) (x1 : Vec Ideal S2000x128 .bf16) (x2 : Vec Ideal S32x32 .f32)
    (x3 : Vec Ideal S4x32x32 .f32) (x4 : Vec Ideal S4x1x32 .f32) (x5 : Vec Ideal S32x64 .f32)
    (x6 x7 x8 : Vec Ideal S64x64 .f32) (x9 : Vec Ideal S1x64 .f32) (p : Fin 2000) (k : Fin 64) :
    out5_10 (F := Ideal) x0 x1 x2 x3 x4 x5 x6 x7 x8 x9 (ix2 p k)
      = tailRow (fun c => x1 (ix2 p c)) (fun i => x0 (ix2 p i)) x2 x3 x4 x5 x6 x7 x8 x9 k := by
  unfold out5_10
  rw [View.canon_unit_zero hz2]
  simp only [View.ld_unit_zero (S := S2000x64) hz2, View.ld_unit_zero (S := S2000x128) hz2, View.ld_unit_zero (S := S32x32) hz2,
    View.ld_unit_zero (S := S32x64) hz2, View.ld_unit_zero (S := S64x64) hz2, View.ld_unit_zero (S := S1x64) hz2]
  exact chain_apply x0 x1 x2 _ _ _ _ _ _ _ _ x5 x6 x7 x8 x9 x3 x4
    (fun i k => ldW x3 0 _ i k) (fun i k => ldW x3 1 _ i k) (fun i k => ldW x3 2 _ i k) (fun i k => ldW x3 3 _ i k)
    (fun k => ldb x4 0 _ k) (fun k => ldb x4 1 _ k) (fun k => ldb x4 2 _ k) (fun k => ldb x4 3 _ k) p k

theorem tailRow_congr {a a' : Fin 128 → EReal} {r r' : Fin 64 → EReal}
    {Wz Wz' : (⟨2, ![32, 32]⟩ : Shape).Idx → EReal} {Watt Watt' : (⟨3, ![4, 32, 32]⟩ : Shape).Idx → EReal}
    {batt batt' : (⟨3, ![4, 1, 32]⟩ : Shape).Idx → EReal} {Wout Wout' : (⟨2, ![32, 64]⟩ : Shape).Idx → EReal}
    {Wl1a Wl1a' Wl1b Wl1b' Wl2 Wl2' : (⟨2, ![64, 64]⟩ : Shape).Idx → EReal} {bl2 bl2' : (⟨2, ![1, 64]⟩ : Shape).Idx → EReal}
    (ha : a = a') (hr : r = r') (h2 : Wz = Wz') (h3 : Watt = Watt') (h4 : batt = batt') (h5 : Wout = Wout')
    (h6 : Wl1a = Wl1a') (h7 : Wl1b = Wl1b') (h8 : Wl2 = Wl2') (h9 : bl2 = bl2') (k : Fin 64) :
    tailRow a r Wz Watt batt Wout Wl1a Wl1b Wl2 bl2 k = tailRow a' r' Wz' Watt' batt' Wout' Wl1a' Wl1b' Wl2' bl2' k := by
  subst ha hr h2 h3 h4 h5 h6 h7 h8 h9; rfl

variable (V : (c : Dev nD) → (b : Ref sig .tc) → Buf (Elt Ideal) ((c : Thread nD τ).loc b))

theorem final5 (c : Dev nD) :
    (dat5 (F := Ideal) V c).arrAt 10 cfg5.N
      = tailK (V c (Pipeline.arrRef spec5 0) : Vec Ideal S250000x64 .f32) (V c (Pipeline.arrRef spec5 1) : Vec Ideal S250000x128 .bf16)
          (V c (Pipeline.arrRef spec5 2) : Vec Ideal S32x32 .f32) (V c (Pipeline.arrRef spec5 3) : Vec Ideal S4x32x32 .f32)
          (V c (Pipeline.arrRef spec5 4) : Vec Ideal S4x1x32 .f32) (V c (Pipeline.arrRef spec5 5) : Vec Ideal S32x64 .f32)
          (V c (Pipeline.arrRef spec5 6) : Vec Ideal S64x64 .f32) (V c (Pipeline.arrRef spec5 7) : Vec Ideal S64x64 .f32)
          (V c (Pipeline.arrRef spec5 8) : Vec Ideal S64x64 .f32) (V c (Pipeline.arrRef spec5 9) : Vec Ideal S1x64 .f32) := by
  refine final5_of_rows V c _ fun t y i h0 h1 => ?_
  obtain ⟨p, k, rfl⟩ : ∃ (p : Fin 2000) (k : Fin 64), y = ix2 p k := ⟨y 0, y 1, eq_ix2 y⟩
  have ei : i = ix2 ⟨2000 * t.val + p.val, row5_lt t p⟩ k := by
    rw [eq_ix2 i]; exact congrArg₂ ix2 (Fin.ext h0) (Fin.ext h1)
  subst ei
  refine (out5_apply (iblk5 V c 0 t) (iblk5 V c 1 t) (iblk5 V c 2 t) (iblk5 V c 3 t) (iblk5 V c 4 t) (iblk5 V c 5 t)
    (iblk5 V c 6 t) (iblk5 V c 7 t) (iblk5 V c 8 t) (iblk5 V c 9 t) p k).trans ?_
  exact tailRow_congr (funext fun c' => iblk5_1_ix V c t p c') (funext fun i' => iblk5_0_ix V c t p i')
    (iblk5_2_eq V c t) (iblk5_3_eq V c t) (iblk5_4_eq V c t) (iblk5_5_eq V c t) (iblk5_6_eq V c t) (iblk5_7_eq V c t)
    (iblk5_8_eq V c t) (iblk5_9_eq V c t) k

end Cert.Value.Tail
-- ==== Proof.VTailRef.lean ====
import proofs.«418858_j49108656062716_3_alg».proof.Proof.Gen.ReferenceIdeal
import proofs.«418858_j49108656062716_3_alg».proof.Proof.VTailSpec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

set_option maxRecDepth 16384

noncomputable section

namespace Cert.Value.Tail

open Cert.ReferenceIdeal Cert.ReferenceIdeal.Gen Idealize.ShloMosaic Idealize.ShloMosaic.ValueIdx

def stack4 (x0 x1 x2 x3 : FVec Ideal S250000x32 .f32) : FVec Ideal S250000x4x32 .f32 :=
  concatenate S250000x4x32 1
    [⟨S250000x1x32, broadcastInDim S250000x1x32 ![0, 2] bcast_S250000x32_S250000x1x32_0_2 x0⟩,
     ⟨S250000x1x32, broadcastInDim S250000x1x32 ![0, 2] bcast_S250000x32_S250000x1x32_0_2 x1⟩,
     ⟨S250000x1x32, broadcastInDim S250000x1x32 ![0, 2] bcast_S250000x32_S250000x1x32_0_2 x2⟩,
     ⟨S250000x1x32, broadcastInDim S250000x1x32 ![0, 2] bcast_S250000x32_S250000x1x32_0_2 x3⟩]
    concatenates_S250000x1x32_S250000x1x32_S250000x1x32_S250000x1x32_S250000x4x32_d1

def sum4 (x : FVec Ideal S250000x4x32 .f32) : FVec Ideal S250000x32 .f32 :=
  Host.reduceAdd x (constant S_ .f32 0x00000000#32) reducesTo_S250000x4x32_S250000x32_d1 h_S_

def relu32 (x : FVec Ideal S250000x32 .f32) : FVec Ideal S250000x32 .f32 :=
  maximumf x (broadcastInDim S250000x32 ![] bcast_S_S250000x32 (constant S_ .f32 0x00000000#32))

def relu64 (x : FVec Ideal S250000x64 .f32) : FVec Ideal S250000x64 .f32 :=
  maximumf x (broadcastInDim S250000x64 ![] bcast_S_S250000x64 (constant S_ .f32 0x00000000#32))

def avR (o : Nat) (hW : S4x32x32.Slices ![o, 0, 0] S1x32x32) (hb : S4x32.Slices ![o, 0] S1x32)
    (fz : FVec Ideal S250000x32 .f32) (Watt : FVec Ideal S4x32x32 .f32) (batt : FVec Ideal S4x32 .f32) :
    FVec Ideal S250000x32 .f32 :=
  addf
    (Host.dotGeneral dot_S250000x32_S32x32_S250000x32_1_0_0_1_n_n none fz
      (shapeCast S32x32 (extractStridedSlice S1x32x32 ![o, 0, 0] Watt hW) shapeCasts_S1x32x32_S32x32))
    (broadcastInDim S250000x32 ![0, 1] bcast_S1x32_S250000x32_0_1
      (broadcastInDim S1x32 ![1] bcast_S32_S1x32_1
        (shapeCast S32 (extractStridedSlice S1x32 ![o, 0] batt hb) shapeCasts_S1x32_S32)))

def sigR (x : FVec Ideal S250000x4x32 .f32) : FVec Ideal S250000x4x32 .f32 :=
  Host.divf (broadcastInDim S250000x4x32 ![] bcast_S_S250000x4x32 (constant S_ .f32 0x3F800000#32))
    (addf (broadcastInDim S250000x4x32 ![] bcast_S_S250000x4x32 (constant S_ .f32 0x3F800000#32))
      (Host.exp (Host.negf x)))

def fzR (att0 att1 att2 att3 : FVec Ideal S250000x32 .f32) (Wz : FVec Ideal S32x32 .f32) : FVec Ideal S250000x32 .f32 :=
  relu32 (Host.dotGeneral dot_S250000x32_S32x32_S250000x32_1_0_0_1_n_n none (sum4 (stack4 att0 att1 att2 att3)) Wz)

def avStack (fz : FVec Ideal S250000x32 .f32) (Watt : FVec Ideal S4x32x32 .f32) (batt : FVec Ideal S4x32 .f32) :
    FVec Ideal S250000x4x32 .f32 :=
  stack4 (avR 0 slices_S4x32x32_S1x32x32_0_0_0 slices_S4x32_S1x32_0_0 fz Watt batt)
    (avR 1 slices_S4x32x32_S1x32x32_1_0_0 slices_S4x32_S1x32_1_0 fz Watt batt)
    (avR 2 slices_S4x32x32_S1x32x32_2_0_0 slices_S4x32_S1x32_2_0 fz Watt batt)
    (avR 3 slices_S4x32x32_S1x32x32_3_0_0 slices_S4x32_S1x32_3_0 fz Watt batt)

def rR (att0 att1 att2 att3 : FVec Ideal S250000x32 .f32) (Wz : FVec Ideal S32x32 .f32)
    (Watt : FVec Ideal S4x32x32 .f32) (batt : FVec Ideal S4x32 .f32) : FVec Ideal S250000x32 .f32 :=
  sum4 (mulf (stack4 att0 att1 att2 att3) (sigR (avStack (fzR att0 att1 att2 att3 Wz) Watt batt)))

def catR (red sfeat : FVec Ideal S250000x64 .f32) : FVec Ideal S250000x128 .f32 :=
  concatenate S250000x128 1 [⟨S250000x64, red⟩, ⟨S250000x64, sfeat⟩] concatenates_S250000x64_S250000x64_S250000x128_d1

def tailR (red : FVec Ideal S250000x64 .f32) (att0 att1 att2 att3 : FVec Ideal S250000x32 .f32)
    (Wz : FVec Ideal S32x32 .f32) (Watt : FVec Ideal S4x32x32 .f32) (batt : FVec Ideal S4x32 .f32)
    (Wout : FVec Ideal S32x64 .f32) (Wl1 : FVec Ideal S128x64 .f32) (Wl2 : FVec Ideal S64x64 .f32)
    (bl2 : FVec Ideal S64 .f32) : FVec Ideal S250000x64 .f32 :=
  addf
    (Host.dotGeneral dot_S250000x64_S64x64_S250000x64_1_0_0_1_n_n none
      (relu64 (Host.dotGeneral dot_S250000x128_S128x64_S250000x64_1_0_0_1_n_n none
        (catR red (Host.dotGeneral dot_S250000x32_S32x64_S250000x64_1_0_0_1_n_n none (rR att0 att1 att2 att3 Wz Watt batt) Wout))
        Wl1))
      Wl2)
    (broadcastInDim S250000x64 ![0, 1] bcast_S1x64_S250000x64_0_1 (broadcastInDim S1x64 ![1] bcast_S64_S1x64_1 bl2))

def outOf {α : Type} (proj : S250000x64.Idx → α) (ci : IVec S250000 32) : S250000x64.Idx → α :=
  Host.gather gather_S250000x64_S250000x1_S250000x64_1_0_n_n_0_1_164 proj
    (broadcastInDim S250000x1 ![0] bcast_S250000_S250000x1_0
      (select (cmpi .slt ci (broadcastInDim S250000 ![] bcast_S_S250000 (constantI S_ 32 0#32)))
        (addi ci (broadcastInDim S250000 ![] bcast_S_S250000 (constantI S_ 32 250000#32)))
        ci))

theorem bc3_apply (x : FVec Ideal S250000x32 .f32) (n : Fin 250000) (k : Fin 32) :
    broadcastInDim S250000x1x32 ![0, 2] bcast_S250000x32_S250000x1x32_0_2 x (ix3 n (0 : Fin 1) k) = x (ix2 n k) :=
  broadcastInDim_apply _ _ x _ _ (fun a => by fin_cases a <;> simp)

-- Row j of the stack is piece j of the concatenation: table j given a unit middle axis.
theorem stack4_apply (x0 x1 x2 x3 : FVec Ideal S250000x32 .f32) (n : Fin 250000) (j : Fin 4) (k : Fin 32) :
    stack4 x0 x1 x2 x3 (ix3 n j k) = ![x0, x1, x2, x3] j (ix2 n k) := by
  unfold stack4
  refine Eq.trans (concatenate_apply_piece (1 : Fin 3) _ _ (ix3 n j k) j.val (by simp) S250000x1x32 _ ?_ rfl j.val ?_
    (ix3 n (0 : Fin 1) k) (fun b hb => by fin_cases b <;> first | rfl | exact absurd rfl hb) rfl) (bc3_apply (![x0, x1, x2, x3] j) n k)
  all_goals (fin_cases j <;> rfl)

theorem sum4_apply (x : FVec Ideal S250000x4x32 .f32) (n : Fin 250000) (k : Fin 32) :
    sum4 x (ix2 n k) = 0 + (((x (ix3 n (0 : Fin 4) k) + x (ix3 n (1 : Fin 4) k)) + x (ix3 n (2 : Fin 4) k)) + x (ix3 n (3 : Fin 4) k)) := by
  have hR : S250000x4x32.Reduces [1] S250000x32 := by decide
  show Ideal.hostReduceAdd reducesTo_S250000x4x32_S250000x32_d1 x (Ideal.ofBits .f32 0x00000000#32) (ix2 n k) = _
  rw [Ideal.hostReduceAdd_single _ hR, Ideal.ofBits_zero_f32]
  show 0 + ∑ c : Fin 4, x (hR.lift (ix2 n k) c) = _
  rw [Fin.sum_univ_four]
  have e : ∀ c : Fin 4, hR.lift (ix2 n k) c = ix3 n c k := fun c => by
    funext a; apply Fin.ext; fin_cases a <;> rfl
  rw [e 0, e 1, e 2, e 3]

theorem dot32_apply (A : FVec Ideal S250000x32 .f32) (B : FVec Ideal S32x32 .f32) (n : Fin 250000) (k : Fin 32) :
    Host.dotGeneral dot_S250000x32_S32x32_S250000x32_1_0_0_1_n_n none A B (ix2 n k) = ∑ c : Fin 32, A (ix2 n c) * B (ix2 c k) :=
  StackMember.dotGeneral_plain_apply (m := 250000) (n := 32) (k := 32) none A B n k

theorem dot32x64_apply (A : FVec Ideal S250000x32 .f32) (B : FVec Ideal S32x64 .f32) (n : Fin 250000) (k : Fin 64) :
    Host.dotGeneral dot_S250000x32_S32x64_S250000x64_1_0_0_1_n_n none A B (ix2 n k) = ∑ c : Fin 32, A (ix2 n c) * B (ix2 c k) :=
  StackMember.dotGeneral_plain_apply (m := 250000) (n := 64) (k := 32) none A B n k

theorem dot128_apply (A : FVec Ideal S250000x128 .f32) (B : FVec Ideal S128x64 .f32) (n : Fin 250000) (k : Fin 64) :
    Host.dotGeneral dot_S250000x128_S128x64_S250000x64_1_0_0_1_n_n none A B (ix2 n k) = ∑ c : Fin 128, A (ix2 n c) * B (ix2 c k) :=
  StackMember.dotGeneral_plain_apply (m := 250000) (n := 64) (k := 128) none A B n k

theorem dot64_apply (A : FVec Ideal S250000x64 .f32) (B : FVec Ideal S64x64 .f32) (n : Fin 250000) (k : Fin 64) :
    Host.dotGeneral dot_S250000x64_S64x64_S250000x64_1_0_0_1_n_n none A B (ix2 n k) = ∑ c : Fin 64, A (ix2 n c) * B (ix2 c k) :=
  StackMember.dotGeneral_plain_apply (m := 250000) (n := 64) (k := 64) none A B n k

theorem relu32_apply (x : FVec Ideal S250000x32 .f32) (i : S250000x32.Idx) : relu32 x i = max (x i) 0 := by
  show max (x i) (Ideal.ofBits .f32 0x00000000#32) = _
  rw [Ideal.ofBits_zero_f32]

theorem relu64_apply (x : FVec Ideal S250000x64 .f32) (i : S250000x64.Idx) : relu64 x i = max (x i) 0 := by
  show max (x i) (Ideal.ofBits .f32 0x00000000#32) = _
  rw [Ideal.ofBits_zero_f32]

theorem wslice_apply (o : Nat) (ho : o < 4) (hW : S4x32x32.Slices ![o, 0, 0] S1x32x32) (Watt : FVec Ideal S4x32x32 .f32)
    (c k : Fin 32) :
    shapeCast S32x32 (extractStridedSlice S1x32x32 ![o, 0, 0] Watt hW) shapeCasts_S1x32x32_S32x32 (ix2 c k)
      = Watt (ix3 (⟨o, ho⟩ : Fin 4) c k) := by
  refine Eq.trans (shapeCast_apply _ shapeCasts_S1x32x32_S32x32 (ix2 c k) (ix3 (0 : Fin 1) c k) ?_) ?_
  · rw [Shape.rowMajor_val_three, Shape.rowMajor_val_two]; simp
  · exact extractStridedSlice_apply _ _ hW _ _ (fun a => by fin_cases a <;> simp)

theorem bslice_apply (o : Nat) (ho : o < 4) (hb : S4x32.Slices ![o, 0] S1x32) (batt : FVec Ideal S4x32 .f32)
    (n : Fin 250000) (k : Fin 32) :
    broadcastInDim S250000x32 ![0, 1] bcast_S1x32_S250000x32_0_1
        (broadcastInDim S1x32 ![1] bcast_S32_S1x32_1
          (shapeCast S32 (extractStridedSlice S1x32 ![o, 0] batt hb) shapeCasts_S1x32_S32)) (ix2 n k)
      = batt (ix2 (⟨o, ho⟩ : Fin 4) k) := by
  refine Eq.trans (broadcastInDim_apply _ bcast_S1x32_S250000x32_0_1 _ (ix2 n k) (ix2 (0 : Fin 1) k)
    (fun a => by fin_cases a <;> simp)) ?_
  refine Eq.trans (broadcastInDim_apply _ bcast_S32_S1x32_1 _ (ix2 (0 : Fin 1) k) (ix1 k)
    (fun a => by fin_cases a <;> simp)) ?_
  refine Eq.trans (shapeCast_apply _ shapeCasts_S1x32_S32 (ix1 k) (ix2 (0 : Fin 1) k) ?_) ?_
  · rw [Shape.rowMajor_val_two, Shape.rowMajor_val_one]; simp
  · exact extractStridedSlice_apply _ _ hb _ _ (fun a => by fin_cases a <;> simp)

theorem avR_apply (o : Nat) (ho : o < 4) (hW : S4x32x32.Slices ![o, 0, 0] S1x32x32) (hb : S4x32.Slices ![o, 0] S1x32)
    (fz : FVec Ideal S250000x32 .f32) (Watt : FVec Ideal S4x32x32 .f32) (batt : FVec Ideal S4x32 .f32)
    (n : Fin 250000) (k : Fin 32) :
    avR o hW hb fz Watt batt (ix2 n k)
      = (∑ c : Fin 32, fz (ix2 n c) * Watt (ix3 (⟨o, ho⟩ : Fin 4) c k)) + batt (ix2 (⟨o, ho⟩ : Fin 4) k) := by
  unfold avR
  rw [addf_apply, dot32_apply, bslice_apply o ho]
  exact congrArg (· + batt (ix2 (⟨o, ho⟩ : Fin 4) k)) (Finset.sum_congr rfl fun c _ => by rw [wslice_apply o ho])

theorem sigR_apply (x : FVec Ideal S250000x4x32 .f32) (i : S250000x4x32.Idx) : sigR x i = Ideal.logistic (x i) := by
  show Ideal.div (Ideal.ofBits .f32 0x3F800000#32) (Ideal.ofBits .f32 0x3F800000#32 + Ideal.exp (-(x i))) = _
  rw [Ideal.ofBits_one_f32]; rfl

theorem catR_apply_left (red sfeat : FVec Ideal S250000x64 .f32) (n : Fin 250000) (i : Fin 64) :
    catR red sfeat (ix2 n (⟨i.val, by omega⟩ : Fin 128)) = red (ix2 n i) := by
  unfold catR
  exact concatenate_pair_apply_left (t := S250000x128) (1 : Fin 2) red sfeat concatenates_S250000x64_S250000x64_S250000x128_d1
    (ix2 n (⟨i.val, by omega⟩ : Fin 128)) rfl (ix2 n i) (fun b => by fin_cases b <;> rfl)

theorem catR_apply_right (red sfeat : FVec Ideal S250000x64 .f32) (n : Fin 250000) (i : Fin 64) :
    catR red sfeat (ix2 n (⟨64 + i.val, by omega⟩ : Fin 128)) = sfeat (ix2 n i) := by
  unfold catR
  exact concatenate_pair_apply_right (t := S250000x128) (1 : Fin 2) red sfeat concatenates_S250000x64_S250000x64_S250000x128_d1
    (ix2 n (⟨64 + i.val, by omega⟩ : Fin 128)) rfl rfl (ix2 n i)
    (fun b hb => by fin_cases b <;> first | rfl | exact absurd rfl hb) (by show i.val + 64 = 64 + i.val; omega)

theorem bl2_apply (bl2 : FVec Ideal S64 .f32) (n : Fin 250000) (k : Fin 64) :
    broadcastInDim S250000x64 ![0, 1] bcast_S1x64_S250000x64_0_1 (broadcastInDim S1x64 ![1] bcast_S64_S1x64_1 bl2) (ix2 n k)
      = bl2 (ix1 k) := by
  refine Eq.trans (broadcastInDim_apply _ bcast_S1x64_S250000x64_0_1 _ (ix2 n k) (ix2 (0 : Fin 1) k)
    (fun a => by fin_cases a <;> simp)) ?_
  exact broadcastInDim_apply _ bcast_S64_S1x64_1 _ (ix2 (0 : Fin 1) k) (ix1 k) (fun a => by fin_cases a <;> simp)

theorem sum128_split (g : Fin 128 → EReal) :
    ∑ c : Fin 128, g c = (∑ i : Fin 64, g ⟨i.val, by omega⟩) + ∑ i : Fin 64, g ⟨64 + i.val, by omega⟩ :=
  Fin.sum_univ_add (a := 64) (b := 64) g

-- Row j of the stacked affine maps is head j's map.
theorem avStack_apply (fz : FVec Ideal S250000x32 .f32) (Watt : FVec Ideal S4x32x32 .f32) (batt : FVec Ideal S4x32 .f32)
    (n : Fin 250000) (j : Fin 4) (k : Fin 32) :
    avStack fz Watt batt (ix3 n j k) = (∑ c : Fin 32, fz (ix2 n c) * Watt (ix3 j c k)) + batt (ix2 j k) := by
  unfold avStack
  rw [stack4_apply]
  fin_cases j <;> exact avR_apply _ (by decide) _ _ fz Watt batt n k

section Row
variable (att0 att1 att2 att3 : FVec Ideal S250000x32 .f32) (Wz : FVec Ideal S32x32 .f32) (Watt : FVec Ideal S4x32x32 .f32)
  (batt : FVec Ideal S4x32 .f32) (a : Fin 128 → EReal) (n : Fin 250000)
  (ha : ∀ (j : Fin 4) (k : Fin 32), a (col j k) = ![att0, att1, att2, att3] j (ix2 n k))
  (battK : (⟨3, ![4, 1, 32]⟩ : Shape).Idx → EReal) (hb : ∀ (j : Fin 4) (k : Fin 32), battK (ix3 j (0 : Fin 1) k) = batt (ix2 j k))
include ha

theorem sum_eq_sfsum (c : Fin 32) : sum4 (stack4 att0 att1 att2 att3) (ix2 n c) = sfsum a c := by
  rw [sum4_apply, stack4_apply, stack4_apply, stack4_apply, stack4_apply, zero_add]
  unfold sfsum
  rw [ha, ha, ha, ha]

theorem fzR_eq (k : Fin 32) : fzR att0 att1 att2 att3 Wz (ix2 n k) = fz a Wz k := by
  unfold fzR fz
  rw [relu32_apply, dot32_apply]
  exact congrArg (max · 0) (Finset.sum_congr rfl fun c _ => by rw [sum_eq_sfsum att0 att1 att2 att3 a n ha c])

include hb

-- Head j's gate: the logistic of the shared layer through head j's matrix plus its bias.
theorem gate_eq (j : Fin 4) (k : Fin 32) :
    sigR (avStack (fzR att0 att1 att2 att3 Wz) Watt batt) (ix3 n j k) = av a Wz Watt battK j k := by
  rw [sigR_apply, avStack_apply]
  unfold av
  rw [hb]
  exact congrArg (fun s => Ideal.logistic (s + batt (ix2 j k)))
    (Finset.sum_congr rfl fun c _ => by rw [fzR_eq att0 att1 att2 att3 Wz a n ha c])

theorem rR_eq (k : Fin 32) : rR att0 att1 att2 att3 Wz Watt batt (ix2 n k) = weighted a Wz Watt battK k := by
  have g := gate_eq att0 att1 att2 att3 Wz Watt batt a n ha battK hb
  unfold rR
  rw [sum4_apply]
  simp only [mulf_apply]
  rw [stack4_apply, stack4_apply, stack4_apply, stack4_apply, g, g, g, g, zero_add]
  unfold weighted
  rw [ha, ha, ha, ha]

theorem sfeat_eq (Wout : FVec Ideal S32x64 .f32) (k : Fin 64) :
    Host.dotGeneral dot_S250000x32_S32x64_S250000x64_1_0_0_1_n_n none (rR att0 att1 att2 att3 Wz Watt batt) Wout (ix2 n k)
      = sfeat a Wz Watt battK Wout k := by
  rw [dot32x64_apply]
  unfold sfeat
  exact Finset.sum_congr rfl fun c _ => by rw [rR_eq att0 att1 att2 att3 Wz Watt batt a n ha battK hb c]

end Row

-- Entry (n, k) of the reference's tail is the row formula at row n of the inputs.
theorem tailR_eq_tailK (red : FVec Ideal S250000x64 .f32) (att0 att1 att2 att3 : FVec Ideal S250000x32 .f32)
    (Wz : FVec Ideal S32x32 .f32) (Watt : FVec Ideal S4x32x32 .f32) (batt : FVec Ideal S4x32 .f32)
    (Wout : FVec Ideal S32x64 .f32) (Wl1 : FVec Ideal S128x64 .f32) (Wl2 : FVec Ideal S64x64 .f32) (bl2 : FVec Ideal S64 .f32)
    (packed : (⟨2, ![250000, 128]⟩ : Shape).Idx → EReal)
    (hp0 : ∀ (n : Fin 250000) (k : Fin 32), packed (ix2 n (col 0 k)) = att0 (ix2 n k))
    (hp1 : ∀ (n : Fin 250000) (k : Fin 32), packed (ix2 n (col 1 k)) = att1 (ix2 n k))
    (hp2 : ∀ (n : Fin 250000) (k : Fin 32), packed (ix2 n (col 2 k)) = att2 (ix2 n k))
    (hp3 : ∀ (n : Fin 250000) (k : Fin 32), packed (ix2 n (col 3 k)) = att3 (ix2 n k))
    (battK : (⟨3, ![4, 1, 32]⟩ : Shape).Idx → EReal)
    (hb : ∀ (j : Fin 4) (k : Fin 32), battK (ix3 j (0 : Fin 1) k) = batt (ix2 j k))
    (Wl1a Wl1b : (⟨2, ![64, 64]⟩ : Shape).Idx → EReal)
    (hWa : ∀ i k : Fin 64, Wl1a (ix2 i k) = Wl1 (ix2 (⟨i.val, by omega⟩ : Fin 128) k))
    (hWb : ∀ i k : Fin 64, Wl1b (ix2 i k) = Wl1 (ix2 (⟨64 + i.val, by omega⟩ : Fin 128) k))
    (bl2K : (⟨2, ![1, 64]⟩ : Shape).Idx → EReal) (hbl : ∀ k : Fin 64, bl2K (ix2 (0 : Fin 1) k) = bl2 (ix1 k)) :
    tailR red att0 att1 att2 att3 Wz Watt batt Wout Wl1 Wl2 bl2
      = tailK red packed Wz Watt battK Wout Wl1a Wl1b Wl2 bl2K := by
  funext j
  obtain ⟨n, k, rfl⟩ : ∃ (n : Fin 250000) (k : Fin 64), j = ix2 n k := ⟨j 0, j 1, eq_ix2 j⟩
  have ha : ∀ (j : Fin 4) (k : Fin 32), (fun c => packed (ix2 n c)) (col j k) = ![att0, att1, att2, att3] j (ix2 n k) :=
    fun j => match j with | ⟨0, _⟩ => hp0 n | ⟨1, _⟩ => hp1 n | ⟨2, _⟩ => hp2 n | ⟨3, _⟩ => hp3 n
  show tailR red att0 att1 att2 att3 Wz Watt batt Wout Wl1 Wl2 bl2 (ix2 n k)
    = tailRow (fun c => packed (ix2 n c)) (fun i => red (ix2 n i)) Wz Watt battK Wout Wl1a Wl1b Wl2 bl2K k
  unfold tailR
  rw [addf_apply, dot64_apply, bl2_apply]
  unfold tailRow
  rw [hbl]
  refine congrArg (· + bl2 (ix1 k)) (Finset.sum_congr rfl fun c _ => congrArg (· * Wl2 (ix2 c k)) ?_)
  rw [relu64_apply, dot128_apply, sum128_split]
  unfold hid
  refine congrArg (max · 0) (congrArg₂ (· + ·) (Finset.sum_congr rfl fun i _ => ?_) (Finset.sum_congr rfl fun i _ => ?_))
  · rw [catR_apply_left, hWa]
  · rw [catR_apply_right, sfeat_eq att0 att1 att2 att3 Wz Watt batt (fun c => packed (ix2 n c)) n ha battK hb Wout i, hWb]

end Cert.Value.Tail

end
-- ==== Proof.IChain.lean ====
import proofs.«418858_j49108656062716_3_alg».proof.Proof.IKept
import proofs.«418858_j49108656062716_3_alg».proof.Proof.VRed
import proofs.«418858_j49108656062716_3_alg».proof.Proof.IHost
import proofs.«418858_j49108656062716_3_alg».proof.Proof.ISeg
import proofs.«418858_j49108656062716_3_alg».proof.Proof.VPoolFin
import proofs.«418858_j49108656062716_3_alg».proof.Proof.VTailKer
import proofs.«418858_j49108656062716_3_alg».proof.Proof.VTailRef
import Idealize.ShloMosaic.Lib.StableHlo.Run
set_option maxRecDepth 16384
noncomputable section
namespace Cert.Value.Chain
open Cert.KernelIdeal Cert.KernelIdeal.Gen Cert.KernelIdeal.Hand
open Idealize.ShloMosaic Idealize.ShloMosaic.TcCoe Idealize.SL.Sem
open Idealize.ShloMosaic.Pipeline (Dat)
open Cert.SegRange
variable (m : (ℓ : Loc nD τ sig) → Buf (Elt Ideal) ℓ)

def writes : Fin 23 → List (Ref sig .tc)
  | ⟨0, _⟩ => hostOps0_W
  | ⟨1, _⟩ => [main_v1]
  | ⟨2, _⟩ => hostOps1_W
  | ⟨3, _⟩ => hostOps1_1_W
  | ⟨4, _⟩ => hostOps1_2_W
  | ⟨5, _⟩ => [main_v31]
  | ⟨6, _⟩ => hostOps2_W
  | ⟨7, _⟩ => hostOps2_1_W
  | ⟨8, _⟩ => hostOps2_2_W
  | ⟨9, _⟩ => [main_v58]
  | ⟨10, _⟩ => hostOps3_W
  | ⟨11, _⟩ => hostOps3_1_W
  | ⟨12, _⟩ => hostOps3_2_W
  | ⟨13, _⟩ => hostOps3_3_W
  | ⟨14, _⟩ => hostOps3_4_W
  | ⟨15, _⟩ => [main_v86]
  | ⟨16, _⟩ => hostOps4_W
  | ⟨17, _⟩ => hostOps4_1_W
  | ⟨18, _⟩ => hostOps4_2_W
  | ⟨19, _⟩ => [main_v113]
  | ⟨20, _⟩ => hostOps5_W
  | ⟨21, _⟩ => [main_v134]
  | ⟨22, _⟩ => hostOps6_W
  | ⟨_ + 23, h⟩ => absurd h (Nat.not_lt.2 (Nat.le_add_left _ _))
def Wat : Fin 24 → Dev nD → Valuation τ sig (Elt Ideal)
  | ⟨0, _⟩ => W0 m | ⟨1, _⟩ => W1 m | ⟨2, _⟩ => W2 m | ⟨3, _⟩ => W3 m | ⟨4, _⟩ => W4 m | ⟨5, _⟩ => W5 m
  | ⟨6, _⟩ => W6 m | ⟨7, _⟩ => W7 m | ⟨8, _⟩ => W8 m | ⟨9, _⟩ => W9 m | ⟨10, _⟩ => W10 m | ⟨11, _⟩ => W11 m
  | ⟨12, _⟩ => W12 m | ⟨13, _⟩ => W13 m | ⟨14, _⟩ => W14 m | ⟨15, _⟩ => W15 m | ⟨16, _⟩ => W16 m | ⟨17, _⟩ => W17 m
  | ⟨18, _⟩ => W18 m | ⟨19, _⟩ => W19 m | ⟨20, _⟩ => W20 m | ⟨21, _⟩ => W21 m | ⟨22, _⟩ => W22 m | ⟨23, _⟩ => W23 m
  | ⟨_ + 24, h⟩ => absurd h (Nat.not_lt.2 (Nat.le_add_left _ _))
theorem Wat_step (c : Dev nD) (b : Ref sig .tc) : ∀ (i : Fin 23), b ∉ writes i →
    Wat m i.succ c (Proc.devRef .tc b) = Wat m i.castSucc c (Proc.devRef .tc b)
  | ⟨0, _⟩, h => StableHlo.after_of_writes_sub hostOps0 _ hostOps0_writes h
  | ⟨1, _⟩, h => W2_kept m c b (fun e => h (by subst e; exact List.mem_singleton.mpr rfl))
  | ⟨2, _⟩, h => StableHlo.after_of_writes_sub hostOps1 _ hostOps1_writes h
  | ⟨3, _⟩, h => StableHlo.after_of_writes_sub hostOps1_1 _ hostOps1_1_writes h
  | ⟨4, _⟩, h => StableHlo.after_of_writes_sub hostOps1_2 _ hostOps1_2_writes h
  | ⟨5, _⟩, h => W6_kept m c b (fun e => h (by subst e; exact List.mem_singleton.mpr rfl))
  | ⟨6, _⟩, h => StableHlo.after_of_writes_sub hostOps2 _ hostOps2_writes h
  | ⟨7, _⟩, h => StableHlo.after_of_writes_sub hostOps2_1 _ hostOps2_1_writes h
  | ⟨8, _⟩, h => StableHlo.after_of_writes_sub hostOps2_2 _ hostOps2_2_writes h
  | ⟨9, _⟩, h => W10_kept m c b (fun e => h (by subst e; exact List.mem_singleton.mpr rfl))
  | ⟨10, _⟩, h => StableHlo.after_of_writes_sub hostOps3 _ hostOps3_writes h
  | ⟨11, _⟩, h => StableHlo.after_of_writes_sub hostOps3_1 _ hostOps3_1_writes h
  | ⟨12, _⟩, h => StableHlo.after_of_writes_sub hostOps3_2 _ hostOps3_2_writes h
  | ⟨13, _⟩, h => StableHlo.after_of_writes_sub hostOps3_3 _ hostOps3_3_writes h
  | ⟨14, _⟩, h => StableHlo.after_of_writes_sub hostOps3_4 _ hostOps3_4_writes h
  | ⟨15, _⟩, h => W16_kept m c b (fun e => h (by subst e; exact List.mem_singleton.mpr rfl))
  | ⟨16, _⟩, h => StableHlo.after_of_writes_sub hostOps4 _ hostOps4_writes h
  | ⟨17, _⟩, h => StableHlo.after_of_writes_sub hostOps4_1 _ hostOps4_1_writes h
  | ⟨18, _⟩, h => StableHlo.after_of_writes_sub hostOps4_2 _ hostOps4_2_writes h
  | ⟨19, _⟩, h => W20_kept m c b (fun e => h (by subst e; exact List.mem_singleton.mpr rfl))
  | ⟨20, _⟩, h => StableHlo.after_of_writes_sub hostOps5 _ hostOps5_writes h
  | ⟨21, _⟩, h => W22_kept m c b (fun e => h (by subst e; exact List.mem_singleton.mpr rfl))
  | ⟨22, _⟩, h => StableHlo.after_of_writes_sub hostOps6 _ hostOps6_writes h
  | ⟨_ + 23, h⟩, _ => absurd h (Nat.not_lt.2 (Nat.le_add_left _ _))
theorem carry (c : Dev nD) (b : Ref sig .tc) (J : ℕ) : ∀ (K : ℕ) (hJK : J ≤ K) (hK : K ≤ 23),
    (∀ i : Fin 23, J ≤ i.val → i.val < K → b ∉ writes i) →
    Wat m ⟨K, by omega⟩ c (Proc.devRef .tc b) = Wat m ⟨J, by omega⟩ c (Proc.devRef .tc b) := by
  intro K hJK
  induction K, hJK using Nat.le_induction with
  | base => intro _ _; rfl
  | succ K hJK ih =>
    intro hK h
    have hs := Wat_step m c b ⟨K, by omega⟩ (h ⟨K, by omega⟩ hJK (Nat.lt_succ_self K))
    exact hs.trans (ih (by omega) fun i h1 h2 => h i h1 (by omega))

-- a buffer none of the items J … K - 1 writes holds at boundary K what it held at boundary J
theorem kept (c : Dev nD) (b : Ref sig .tc) (J K : ℕ) (hJK : J ≤ K := by decide) (hK : K ≤ 23 := by decide)
    (h : ∀ i : Fin 23, J ≤ i.val → i.val < K → b ∉ writes i := by decide) :
    Wat m ⟨K, by omega⟩ c (Proc.devRef .tc b) = Wat m ⟨J, by omega⟩ c (Proc.devRef .tc b) :=
  carry m c b J K hJK hK h

theorem launch (c : Dev nD) (b : Ref sig .tc) (K : ℕ) (hK : K ≤ 23 := by decide)
    (h : ∀ i : Fin 23, i.val < K → b ∉ writes i := by decide) :
    Wat m ⟨K, by omega⟩ c (Proc.devRef .tc b) = m ((c : Thread nD τ).loc b) :=
  carry m c b 0 K (Nat.zero_le K) hK fun i _ h2 => h i h2

def kRed (x : Vec Ideal S250000x64 .f32) (Wred : Vec Ideal S64x64 .f32) (bred : Vec Ideal S64 .f32) : Vec Ideal S250000x64 .f32 :=
  Cert.Value.Red.redR x Wred bred
def kSeg0 (coords : IVec S250000x4 32) : IVec S250000 32 :=
  segVec coords 2#32 128#32 128#32 16#32 slices_S250000x4_S250000x1_0_0 slices_S250000x4_S250000x3_0_1 slices_S250000x3_S250000x1_0_0
    slices_S250000x3_S250000x1_0_1 slices_S250000x3_S250000x1_0_2 shapeCasts_S250000x1_S250000 bcast_S_S250000 bcast_S_S250000x3
def kSeg1 (coords : IVec S250000x4 32) : IVec S250000 32 :=
  segVec coords 4#32 64#32 64#32 8#32 slices_S250000x4_S250000x1_0_0 slices_S250000x4_S250000x3_0_1 slices_S250000x3_S250000x1_0_0
    slices_S250000x3_S250000x1_0_1 slices_S250000x3_S250000x1_0_2 shapeCasts_S250000x1_S250000 bcast_S_S250000 bcast_S_S250000x3
def kSeg2 (coords : IVec S250000x4 32) : IVec S250000 32 :=
  segVec coords 6#32 43#32 43#32 6#32 slices_S250000x4_S250000x1_0_0 slices_S250000x4_S250000x3_0_1 slices_S250000x3_S250000x1_0_0
    slices_S250000x3_S250000x1_0_1 slices_S250000x3_S250000x1_0_2 shapeCasts_S250000x1_S250000 bcast_S_S250000 bcast_S_S250000x3
def kSeg3 (coords : IVec S250000x4 32) : IVec S250000 32 :=
  segVec coords 8#32 32#32 32#32 4#32 slices_S250000x4_S250000x1_0_0 slices_S250000x4_S250000x3_0_1 slices_S250000x3_S250000x1_0_0
    slices_S250000x3_S250000x1_0_1 slices_S250000x3_S250000x1_0_2 shapeCasts_S250000x1_S250000 bcast_S_S250000 bcast_S_S250000x3
def kTab0 (acc : Vec Ideal S524288x65 .f32) (w : Vec Ideal S64x32 .f32) (b : Vec Ideal S1x32 .f32) : Vec Ideal S524288x32 .bf16 :=
  Cert.Value.S1.pool1 acc w b
def kTab1 (acc : Vec Ideal S65536x65 .f32) (w : Vec Ideal S64x32 .f32) (b : Vec Ideal S1x32 .f32) : Vec Ideal S65536x32 .bf16 :=
  Cert.Value.S1.pool2 acc w b
def kTab2 (acc : Vec Ideal S24576x65 .f32) (w : Vec Ideal S64x32 .f32) (b : Vec Ideal S1x32 .f32) : Vec Ideal S24576x32 .bf16 :=
  Cert.Value.S1.pool3 acc w b
def kTab3 (acc : Vec Ideal S8192x65 .f32) (w : Vec Ideal S64x32 .f32) (b : Vec Ideal S1x32 .f32) : Vec Ideal S8192x32 .bf16 :=
  Cert.Value.S1.pool4 acc w b
def kTail (red : Vec Ideal S250000x64 .f32) (packed : Vec Ideal S250000x128 .bf16) (Wz : Vec Ideal S32x32 .f32)
    (Watt : Vec Ideal S4x32x32 .f32) (batt : Vec Ideal S4x32 .f32) (Wout : Vec Ideal S32x64 .f32)
    (Wl1 : Vec Ideal S128x64 .f32) (Wl2 : Vec Ideal S64x64 .f32) (bl2 : Vec Ideal S64 .f32) : Vec Ideal S250000x64 .f32 :=
  Cert.Value.Tail.tailK red packed Wz Watt (shapeCast S4x1x32 batt shapeCasts_S4x32_S4x1x32) Wout
    (extractStridedSlice S64x64 ![0, 0] Wl1 slices_S128x64_S64x64_0_0)
    (extractStridedSlice S64x64 ![64, 0] Wl1 slices_S128x64_S64x64_64_0) Wl2 (shapeCast S1x64 bl2 shapeCasts_S64_S1x64)
def kerTerm (x : Vec Ideal S250000x64 .f32) (coords : IVec S250000x4 32) (inv : IVec S250000 32)
    (Wred : Vec Ideal S64x64 .f32) (bred : Vec Ideal S64 .f32) (Wpool : Vec Ideal S4x64x32 .f32) (bpool : Vec Ideal S4x32 .f32)
    (Watt : Vec Ideal S4x32x32 .f32) (batt : Vec Ideal S4x32 .f32) (Wz : Vec Ideal S32x32 .f32) (Wout : Vec Ideal S32x64 .f32)
    (Wl1 : Vec Ideal S128x64 .f32) (Wl2 : Vec Ideal S64x64 .f32) (bl2 : Vec Ideal S64 .f32) : Vec Ideal S250000x64 .f32 :=
  kOut (kTail (kRed x Wred bred)
      (kPacked (kTab0 (kAcc0 (kAug (kRed x Wred bred)) (kSeg0 coords)) (kW0 Wpool) (kB0 bpool))
        (kTab1 (kAcc1 (kAug (kRed x Wred bred)) (kSeg1 coords)) (kW1 Wpool) (kB1 bpool))
        (kTab2 (kAcc2 (kAug (kRed x Wred bred)) (kSeg2 coords)) (kW2 Wpool) (kB2 bpool))
        (kTab3 (kAcc3 (kAug (kRed x Wred bred)) (kSeg3 coords)) (kW3 Wpool) (kB3 bpool))
        (kSeg0 coords) (kSeg1 coords) (kSeg2 coords) (kSeg3 coords))
      Wz Watt batt Wout Wl1 Wl2 bl2) inv
-- the launch memory's argument arrays, and the items' values of them
abbrev arg (c : Dev nD) (b : Ref sig .tc) : Buf (Elt Ideal) ((c : Thread nD τ).loc b) := m ((c : Thread nD τ).loc b)
abbrev red (c : Dev nD) : Vec Ideal S250000x64 .f32 := kRed (arg m c main_arg0) (arg m c main_arg3) (arg m c main_arg4)
abbrev tab0 (c : Dev nD) := kTab0 (kAcc0 (kAug (red m c)) (kSeg0 (arg m c main_arg1))) (kW0 (arg m c main_arg5)) (kB0 (arg m c main_arg6))
abbrev tab1 (c : Dev nD) := kTab1 (kAcc1 (kAug (red m c)) (kSeg1 (arg m c main_arg1))) (kW1 (arg m c main_arg5)) (kB1 (arg m c main_arg6))
abbrev tab2 (c : Dev nD) := kTab2 (kAcc2 (kAug (red m c)) (kSeg2 (arg m c main_arg1))) (kW2 (arg m c main_arg5)) (kB2 (arg m c main_arg6))
abbrev tab3 (c : Dev nD) := kTab3 (kAcc3 (kAug (red m c)) (kSeg3 (arg m c main_arg1))) (kW3 (arg m c main_arg5)) (kB3 (arg m c main_arg6))
abbrev packed (c : Dev nD) := kPacked (tab0 m c) (tab1 m c) (tab2 m c) (tab3 m c) (kSeg0 (arg m c main_arg1)) (kSeg1 (arg m c main_arg1)) (kSeg2 (arg m c main_arg1)) (kSeg3 (arg m c main_arg1))

theorem W2_main_v1 (c : Dev nD) : W2 m c (Proc.devRef .tc main_v1) = red m c := by
  have e0 : Vr1 m c main_arg0 = _ := launch m c main_arg0 1
  have e3 : Vr1 m c main_arg3 = _ := launch m c main_arg3 1
  have ev : Vr1 m c main_v0 = shapeCast S1x64 (arg m c main_arg4) shapeCasts_S64_S1x64 := by
    show StableHlo.after hostOps0 (fun b => m (c, b)) (Proc.devRef .tc main_v0) = _
    after_results
    rfl
  rw [show W2 m c (Proc.devRef .tc main_v1) = (dat0 (Vr1 m) c).arrAt 3 cfg0.N from W2_arr m c 3,
    Cert.Value.Red.final0 (Vr1 m) c, e0, e3, ev]
  exact Cert.Value.Red.redK_oneRow_eq_redR _ _ _ _

theorem W3_main_v6 (c : Dev nD) : W3 m c (Proc.devRef .tc main_v6) = kAug (red m c) :=
  (hostOps1_v6 (W2 m c)).trans (congrArg kAug (W2_main_v1 m c))

theorem W3_cols (c : Dev nD) : Cols (W3 m c) (arg m c main_arg1) := cols (W2 m c) _ (launch m c main_arg1 2)

theorem W5_main_v22 (c : Dev nD) : W5 m c (Proc.devRef .tc main_v22) = kSeg0 (arg m c main_arg1) :=
  (seg0_eq (W2 m c)).trans (congrArg kSeg0 (launch m c main_arg1 2))

theorem W9_main_v49 (c : Dev nD) : W9 m c (Proc.devRef .tc main_v49) = kSeg1 (arg m c main_arg1) :=
  seg1_eq (W6 m c) _ ⟨(kept m c main_v3 3 6).trans (W3_cols m c).1, (kept m c main_v4 3 6).trans (W3_cols m c).2⟩
theorem W13_main_v76 (c : Dev nD) : W13 m c (Proc.devRef .tc main_v76) = kSeg2 (arg m c main_arg1) :=
  seg2_eq (W10 m c) _ ⟨(kept m c main_v3 3 10).trans (W3_cols m c).1, (kept m c main_v4 3 10).trans (W3_cols m c).2⟩
theorem W19_main_v104 (c : Dev nD) : W19 m c (Proc.devRef .tc main_v104) = kSeg3 (arg m c main_arg1) :=
  seg3_eq (W16 m c) _ ⟨(kept m c main_v3 3 16).trans (W3_cols m c).1, (kept m c main_v4 3 16).trans (W3_cols m c).2⟩

theorem W5_main_v25 (c : Dev nD) : W5 m c (Proc.devRef .tc main_v25) = kAcc0 (kAug (red m c)) (kSeg0 (arg m c main_arg1)) := by
  have h6 : W4 m c (Proc.devRef .tc main_v6) = _ := (kept m c main_v6 3 4).trans (W3_main_v6 m c)
  have hs : StableHlo.after hostOps1_2 (W4 m c) (Proc.devRef .tc main_v22) = _ := W5_main_v22 m c
  rw [show W5 m c (Proc.devRef .tc main_v25) = _ from hostOps1_2_v25 (W4 m c), h6, hs]
theorem W6_main_v31 (c : Dev nD) : W6 m c (Proc.devRef .tc main_v31) = tab0 m c := by
  have h0 : Vr5 m c main_v25 = _ := W5_main_v25 m c
  have h1 : Vr5 m c main_v27 = _ := (hostOps1_2_v27 (W4 m c)).trans (congrArg kW0 (launch m c main_arg5 4))
  have h2 : Vr5 m c main_v30 = _ := (hostOps1_2_v30 (W4 m c)).trans (congrArg kB0 (launch m c main_arg6 4))
  rw [show W6 m c (Proc.devRef .tc main_v31) = (dat1 (Vr5 m) c).arrAt 3 cfg1.N from W6_arr m c 3,
    Cert.Value.S1.final1 (Vr5 m) c, h0, h1, h2]
  rfl

theorem W9_main_v52 (c : Dev nD) : W9 m c (Proc.devRef .tc main_v52) = kAcc1 (kAug (red m c)) (kSeg1 (arg m c main_arg1)) := by
  have h6 : W8 m c (Proc.devRef .tc main_v6) = _ := (kept m c main_v6 3 8).trans (W3_main_v6 m c)
  have hs : StableHlo.after hostOps2_2 (W8 m c) (Proc.devRef .tc main_v49) = _ := W9_main_v49 m c
  rw [show W9 m c (Proc.devRef .tc main_v52) = _ from hostOps2_2_v52 (W8 m c), h6, hs]
theorem W10_main_v58 (c : Dev nD) : W10 m c (Proc.devRef .tc main_v58) = tab1 m c := by
  have h0 : Vr9 m c main_v52 = _ := W9_main_v52 m c
  have h1 : Vr9 m c main_v54 = _ := (hostOps2_2_v54 (W8 m c)).trans (congrArg kW1 (launch m c main_arg5 8))
  have h2 : Vr9 m c main_v57 = _ := (hostOps2_2_v57 (W8 m c)).trans (congrArg kB1 (launch m c main_arg6 8))
  rw [show W10 m c (Proc.devRef .tc main_v58) = (dat2 (Vr9 m) c).arrAt 3 cfg2.N from W10_arr m c 3,
    Cert.Value.S1.final2 (Vr9 m) c, h0, h1, h2]
  rfl

theorem W19_main_v107 (c : Dev nD) : W19 m c (Proc.devRef .tc main_v107) = kAcc3 (kAug (red m c)) (kSeg3 (arg m c main_arg1)) := by
  have h6 : W18 m c (Proc.devRef .tc main_v6) = _ := (kept m c main_v6 3 18).trans (W3_main_v6 m c)
  have hs : StableHlo.after hostOps4_2 (W18 m c) (Proc.devRef .tc main_v104) = _ := W19_main_v104 m c
  rw [show W19 m c (Proc.devRef .tc main_v107) = _ from hostOps4_2_v107 (W18 m c), h6, hs]
theorem W20_main_v113 (c : Dev nD) : W20 m c (Proc.devRef .tc main_v113) = tab3 m c := by
  have h0 : Vr19 m c main_v107 = _ := W19_main_v107 m c
  have h1 : Vr19 m c main_v109 = _ := (hostOps4_2_v109 (W18 m c)).trans (congrArg kW3 (launch m c main_arg5 18))
  have h2 : Vr19 m c main_v112 = _ := (hostOps4_2_v112 (W18 m c)).trans (congrArg kB3 (launch m c main_arg6 18))
  rw [show W20 m c (Proc.devRef .tc main_v113) = (dat4 (Vr19 m) c).arrAt 3 cfg4.N from W20_arr m c 3,
    Cert.Value.S1.final4 (Vr19 m) c, h0, h1, h2]
  rfl

theorem W14_main_v80 (c : Dev nD) : W14 m c (Proc.devRef .tc main_v80) = kAcc2 (kAug (red m c)) (kSeg2 (arg m c main_arg1)) := by
  have h6 : W12 m c (Proc.devRef .tc main_v6) = _ := (kept m c main_v6 3 12).trans (W3_main_v6 m c)
  have hs : StableHlo.after hostOps3_2 (W12 m c) (Proc.devRef .tc main_v76) = _ := W13_main_v76 m c
  rw [show W14 m c (Proc.devRef .tc main_v80) = _ from hostOps3_3_v80 (W12 m c), h6, hs]
theorem W16_main_v86 (c : Dev nD) : W16 m c (Proc.devRef .tc main_v86) = tab2 m c := by
  have h0 : Vr15 m c main_v80 = _ := (kept m c main_v80 14 15).trans (W14_main_v80 m c)
  have h1 : Vr15 m c main_v82 = _ := (hostOps3_4_v82 (W14 m c)).trans (congrArg kW2 (launch m c main_arg5 14))
  have h2 : Vr15 m c main_v85 = _ := (hostOps3_4_v85 (W14 m c)).trans (congrArg kB2 (launch m c main_arg6 14))
  rw [show W16 m c (Proc.devRef .tc main_v86) = (dat3 (Vr15 m) c).arrAt 3 cfg3.N from W16_arr m c 3,
    Cert.Value.S1.final3 (Vr15 m) c, h0, h1, h2]
  rfl

theorem W7_main_v33 (c : Dev nD) : W7 m c (Proc.devRef .tc main_v33) = kOff (kSeg0 (arg m c main_arg1)) 0#32 :=
  (hostOps2_v33 (W6 m c)).trans (congrArg (kOff · 0#32) ((kept m c main_v22 5 6).trans (W5_main_v22 m c)))
theorem W11_main_v60 (c : Dev nD) : W11 m c (Proc.devRef .tc main_v60) = kOff (kSeg1 (arg m c main_arg1)) 524288#32 :=
  (hostOps3_v60 (W10 m c)).trans (congrArg (kOff · 524288#32) ((kept m c main_v49 9 10).trans (W9_main_v49 m c)))
theorem W17_main_v88 (c : Dev nD) : W17 m c (Proc.devRef .tc main_v88) = kOff (kSeg2 (arg m c main_arg1)) 589824#32 :=
  (hostOps4_v88 (W16 m c)).trans (congrArg (kOff · 589824#32) ((kept m c main_v76 13 16).trans (W13_main_v76 m c)))

theorem W21_main_v129 (c : Dev nD) : W21 m c (Proc.devRef .tc main_v129) = packed m c := by
  rw [show W21 m c (Proc.devRef .tc main_v129) = _ from hostOps5_v129 (W20 m c),
    show W20 m c (Proc.devRef .tc main_v31) = _ from (kept m c main_v31 6 20).trans (W6_main_v31 m c),
    show W20 m c (Proc.devRef .tc main_v58) = _ from (kept m c main_v58 10 20).trans (W10_main_v58 m c),
    show W20 m c (Proc.devRef .tc main_v86) = _ from (kept m c main_v86 16 20).trans (W16_main_v86 m c), W20_main_v113 m c,
    show W20 m c (Proc.devRef .tc main_v33) = _ from (kept m c main_v33 7 20).trans (W7_main_v33 m c),
    show W20 m c (Proc.devRef .tc main_v60) = _ from (kept m c main_v60 11 20).trans (W11_main_v60 m c),
    show W20 m c (Proc.devRef .tc main_v88) = _ from (kept m c main_v88 17 20).trans (W17_main_v88 m c),
    show W20 m c (Proc.devRef .tc main_v104) = _ from (kept m c main_v104 19 20).trans (W19_main_v104 m c)]
  rfl

theorem W22_main_v134 (c : Dev nD) : W22 m c (Proc.devRef .tc main_v134)
    = kTail (red m c) (packed m c) (arg m c main_arg9) (arg m c main_arg7) (arg m c main_arg8) (arg m c main_arg10) (arg m c main_arg11) (arg m c main_arg12) (arg m c main_arg13) := by
  have a8 : W20 m c (Proc.devRef .tc main_arg8) = _ := launch m c main_arg8 20
  have a11 : W20 m c (Proc.devRef .tc main_arg11) = _ := launch m c main_arg11 20
  have a13 : W20 m c (Proc.devRef .tc main_arg13) = _ := launch m c main_arg13 20
  rw [show W22 m c (Proc.devRef .tc main_v134) = Cert.Value.Tail.tailK (W21 m c (Proc.devRef .tc main_v1)) (W21 m c (Proc.devRef .tc main_v129)) (W21 m c (Proc.devRef .tc main_arg9))
      (W21 m c (Proc.devRef .tc main_arg7)) (W21 m c (Proc.devRef .tc main_v132)) (W21 m c (Proc.devRef .tc main_arg10)) (W21 m c (Proc.devRef .tc main_v130))
      (W21 m c (Proc.devRef .tc main_v131)) (W21 m c (Proc.devRef .tc main_arg12)) (W21 m c (Proc.devRef .tc main_v133))
      from (W22_arr m c 10).trans (Cert.Value.Tail.final5 (Vr21 m) c),
    show W21 m c (Proc.devRef .tc main_v1) = _ from (kept m c main_v1 2 21).trans (W2_main_v1 m c), W21_main_v129 m c,
    show W21 m c (Proc.devRef .tc main_arg9) = _ from launch m c main_arg9 21, show W21 m c (Proc.devRef .tc main_arg7) = _ from launch m c main_arg7 21,
    show W21 m c (Proc.devRef .tc main_v132) = _ from hostOps5_v132 (W20 m c), a8, show W21 m c (Proc.devRef .tc main_arg10) = _ from launch m c main_arg10 21,
    show W21 m c (Proc.devRef .tc main_v130) = _ from hostOps5_v130 (W20 m c), a11, show W21 m c (Proc.devRef .tc main_v131) = _ from hostOps5_v131 (W20 m c), a11,
    show W21 m c (Proc.devRef .tc main_arg12) = _ from launch m c main_arg12 21, show W21 m c (Proc.devRef .tc main_v133) = _ from hostOps5_v133 (W20 m c), a13]
  rfl

theorem W23_main_v141 (c : Dev nD) : W23 m c (Proc.devRef .tc main_v141)
    = kerTerm (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12)) (m ((c : Thread nD τ).loc main_arg13)) := by
  unfold kerTerm
  exact (hostOps6_v141 (W22 m c)).trans (congrArg₂ kOut (W22_main_v134 m c) (launch m c main_arg2 22))

theorem kOut_eq_outOf (tail : Vec Ideal S250000x64 .f32) (inv : IVec S250000 32) : kOut tail inv = Cert.Value.Tail.outOf tail inv := rfl

end Cert.Value.Chain
-- ==== Proof.PreDecode.lean ====
import proofs.«418858_j49108656062716_3_alg».proof.Proof.Gen.Pre_finite_inputs
import proofs.«418858_j49108656062716_3_alg».proof.Proof.SegRange
import Idealize.ShloMosaic.Lib.StableHlo.Predicate
import Idealize.ShloMosaic.Lib.ReduceAll
import Idealize.ShloMosaic.Lib.ValueIdx
import Idealize.ShloMosaic.Lib.ValueLayout

noncomputable section

namespace Cert.Pre_finite_inputs.Decode

open Idealize.ShloMosaic Idealize.ShloMosaic.ValueIdx
open Cert.Pre_finite_inputs

instance subsingleton_S_ : Subsingleton S_.Idx := ⟨fun _ _ => funext fun d => d.elim0⟩

section Conjuncts
variable [Facts]
open Facts

theorem nonneg_of_all (a1 : IVec S250000x4 32)
    (h : Host.reduce IntOp.andi (cmpi .sge a1 (broadcastInDim S250000x4 ![] bcast_S_S250000x4 (constantI S_ 32 0#32)))
      (constantI S_ 1 1#1) reducesTo_S250000x4_S_d0_1 h_S_ ix0 = 1#1) (i : S250000x4.Idx) : 0 ≤ (a1 i).toInt := by
  have hc : (0#32 : BitVec 32).toInt ≤ (a1 i).toInt := IntOp.cmpi_sge.1 (Host.reduce_andi_all _ _ _ _ _ h i)
  rwa [show (0#32 : BitVec 32).toInt = 0 from by decide] at hc

theorem col_lt_of_all (a1 : IVec S250000x4 32) (o : Nat) (hs : S250000x4.Slices ![0, o] S250000x1) (c : BitVec 32)
    (h : Host.reduce IntOp.andi
      (cmpi .slt (shapeCast S250000 (extractStridedSlice S250000x1 ![0, o] a1 hs) shapeCasts_S250000x1_S250000)
        (broadcastInDim S250000 ![] bcast_S_S250000 (constantI S_ 32 c)))
      (constantI S_ 1 1#1) reducesTo_S250000_S_d0 h_S_ ix0 = 1#1) (n : Fin 250000) (k : Fin 4) (hk : k.val = o) :
    (a1 (ix2 n k)).toInt < c.toInt := by
  have hc : (shapeCast S250000 (extractStridedSlice S250000x1 ![0, o] a1 hs) shapeCasts_S250000x1_S250000 (ix1 n)).toInt < c.toInt :=
    IntOp.cmpi_slt.1 (Host.reduce_andi_all _ _ _ _ _ h (ix1 n))
  rwa [Cert.SegRange.col_apply a1 o hs _ n k hk] at hc

theorem mid_lt_of_all (a1 : IVec S250000x4 32) (c : BitVec 32)
    (h : Host.reduce IntOp.andi
      (cmpi .slt (extractStridedSlice S250000x2 ![0, 1] a1 slices_S250000x4_S250000x2_0_1)
        (broadcastInDim S250000x2 ![] bcast_S_S250000x2 (constantI S_ 32 c)))
      (constantI S_ 1 1#1) reducesTo_S250000x2_S_d0_1 h_S_ ix0 = 1#1) (n : Fin 250000) (j : Fin 2) (k : Fin 4)
    (hk : k.val = 1 + j.val) : (a1 (ix2 n k)).toInt < c.toInt := by
  have hc : (extractStridedSlice S250000x2 ![0, 1] a1 slices_S250000x4_S250000x2_0_1 (ix2 n j)).toInt < c.toInt :=
    IntOp.cmpi_slt.1 (Host.reduce_andi_all _ _ _ _ _ h (ix2 n j))
  rwa [slice2_axis1_apply 1 a1 _ n j k hk] at hc

end Conjuncts

theorem coords_bounds [Facts] {F : FTy → Type} [FloatOps F]
    (a0 : FVec F S250000x64 .f32) (a1 : IVec S250000x4 32) (a2 : IVec S250000 32) (a3 : FVec F S64x64 .f32)
    (a4 : FVec F S64 .f32) (a5 : FVec F S4x64x32 .f32) (a6 : FVec F S4x32 .f32) (a7 : FVec F S4x32x32 .f32)
    (a8 : FVec F S4x32 .f32) (a9 : FVec F S32x32 .f32) (a10 : FVec F S32x64 .f32) (a11 : FVec F S128x64 .f32)
    (a12 : FVec F S64x64 .f32) (a13 : FVec F S64 .f32)
    (h : fn (F := F) a0 a1 a2 a3 a4 a5 a6 a7 a8 a9 a10 a11 a12 a13 = fun _ => 1#1) :
    (∀ i : S250000x4.Idx, 0 ≤ (a1 i).toInt)
      ∧ (∀ n : Fin 250000, (a1 (ix2 n 0)).toInt < 2)
      ∧ (∀ n : Fin 250000, (a1 (ix2 n 1)).toInt < 256)
      ∧ (∀ n : Fin 250000, (a1 (ix2 n 2)).toInt < 256)
      ∧ (∀ n : Fin 250000, (a1 (ix2 n 3)).toInt < 32) := by
  have e := congrFun h ix0
  dsimp only [fn, fn_part1, fn_part2, fn_part3, fn_part4] at e
  obtain ⟨e, h78⟩ := IntOp.andi_eq_one.1 e
  obtain ⟨e, h72⟩ := IntOp.andi_eq_one.1 e
  obtain ⟨e, h67⟩ := IntOp.andi_eq_one.1 e
  obtain ⟨-, h61⟩ := IntOp.andi_eq_one.1 e
  have c2 : (2#32 : BitVec 32).toInt = 2 := by decide
  have c256 : (256#32 : BitVec 32).toInt = 256 := by decide
  have c32 : (32#32 : BitVec 32).toInt = 32 := by decide
  refine ⟨fun i => nonneg_of_all a1 h61 i, fun n => ?_, fun n => ?_, fun n => ?_, fun n => ?_⟩
  · rw [← c2]; exact col_lt_of_all a1 0 _ 2#32 h67 n 0 rfl
  · rw [← c256]; exact mid_lt_of_all a1 256#32 h72 n 0 1 rfl
  · rw [← c256]; exact mid_lt_of_all a1 256#32 h72 n 1 2 rfl
  · rw [← c32]; exact col_lt_of_all a1 3 _ 32#32 h78 n 3 rfl

end Cert.Pre_finite_inputs.Decode

end
-- ==== Proof.SegBounds.lean ====
import proofs.«418858_j49108656062716_3_alg».proof.Proof.PreDecode

noncomputable section

namespace Cert.SegBounds

open Idealize.ShloMosaic Idealize.ShloMosaic.ValueIdx
open Cert.Pre_finite_inputs

def InGrid (coords : IVec ⟨2, ![250000, 4]⟩ 32) : Prop :=
  (∀ i : (⟨2, ![250000, 4]⟩ : Shape).Idx, 0 ≤ (coords i).toInt)
    ∧ (∀ n : Fin 250000, (coords (ix2 n 0)).toInt < 2)
    ∧ (∀ n : Fin 250000, (coords (ix2 n 1)).toInt < 256)
    ∧ (∀ n : Fin 250000, (coords (ix2 n 2)).toInt < 256)
    ∧ (∀ n : Fin 250000, (coords (ix2 n 3)).toInt < 32)

theorem inGrid_of_pre [Facts] {F : FTy → Type} [FloatOps F]
    (a0 : FVec F S250000x64 .f32) (a1 : IVec S250000x4 32) (a2 : IVec S250000 32) (a3 : FVec F S64x64 .f32)
    (a4 : FVec F S64 .f32) (a5 : FVec F S4x64x32 .f32) (a6 : FVec F S4x32 .f32) (a7 : FVec F S4x32x32 .f32)
    (a8 : FVec F S4x32 .f32) (a9 : FVec F S32x32 .f32) (a10 : FVec F S32x64 .f32) (a11 : FVec F S128x64 .f32)
    (a12 : FVec F S64x64 .f32) (a13 : FVec F S64 .f32)
    (h : fn (F := F) a0 a1 a2 a3 a4 a5 a6 a7 a8 a9 a10 a11 a12 a13 = fun _ => 1#1) : InGrid a1 :=
  Decode.coords_bounds a0 a1 a2 a3 a4 a5 a6 a7 a8 a9 a10 a11 a12 a13 h

end Cert.SegBounds

end
-- ==== Proof.VGather.lean ====
import proofs.«418858_j49108656062716_3_alg».proof.KernelIdeal
import proofs.«418858_j49108656062716_3_alg».proof.ReferenceIdeal
import Idealize.ShloMosaic.Lib.Pipeline.Value
import Idealize.ShloMosaic.Lib.ValueIdx

noncomputable section

namespace Cert.Value.S1.Gather

open Idealize.ShloMosaic Idealize.ShloMosaic.ValueIdx

theorem toInt_eq_toNat_of_nonneg (a : BitVec 32) (h0 : 0 ≤ a.toInt) : a.toInt = (a.toNat : Int) := by
  have h := BitVec.toInt_eq_toNat_cond a
  have hlt := a.isLt
  split at h <;> omega

theorem toNat_lt_of_toInt (a : BitVec 32) (R : Nat) (h0 : 0 ≤ a.toInt) (h1 : a.toInt < (R : Int)) : a.toNat < R := by
  have := toInt_eq_toNat_of_nonneg a h0
  omega

theorem select_slt_zero (a z r : BitVec 32) (hz : z = 0#32) (h0 : 0 ≤ a.toInt) :
    Scalar.select (IntOp.cmpi .slt a z) (IntOp.addi a r) a = a := by
  subst hz
  have : IntOp.cmpi .slt a 0#32 = 0#1 := by
    unfold IntOp.cmpi
    have : a.slt 0#32 = false := by
      rw [BitVec.slt_eq_decide]
      simp only [BitVec.toInt_zero, decide_eq_false_iff_not, not_lt]
      exact h0
    show BitVec.ofBool (a.slt 0#32) = 0#1
    rw [this]; rfl
  rw [this]
  exact select_zero _ _

theorem toNat_add_ofNat (a : BitVec 32) (off R : Nat) (ha : a.toNat < R) (hR : R + off < 2 ^ 31) :
    (a + BitVec.ofNat 32 off).toNat = a.toNat + off := by
  rw [BitVec.toNat_add, BitVec.toNat_ofNat]
  have h1 : off % 2 ^ 32 = off := Nat.mod_eq_of_lt (by omega)
  rw [h1]
  exact Nat.mod_eq_of_lt (by omega)

theorem toInt_add_ofNat (a : BitVec 32) (off R : Nat) (ha : a.toNat < R) (hR : R + off < 2 ^ 31) :
    (a + BitVec.ofNat 32 off).toInt = ((a.toNat + off : Nat) : Int) := by
  have h := toNat_add_ofNat a off R ha hR
  have hc := BitVec.toInt_eq_toNat_cond (a + BitVec.ofNat 32 off)
  rw [h] at hc
  split at hc <;> omega

theorem getElem_singleton_of_eq {β : Type} (l : List β) (x : β) (e : l = [x]) (i : Nat) (h : i < l.length) : l[i] = x := by
  subst e
  have : i = 0 := by simpa using h
  subst this; rfl

theorem getElem_idxOf_of_eq {β : Type} [DecidableEq β] (l m : List β) (e : l = m) (b : β) (h : m.idxOf b < l.length) :
    l[m.idxOf b] = b := by
  subst e
  exact List.getElem_idxOf h

-- Axis 0 is collapsed and start-indexed, axis 1 kept whole: the operand index is (the clamped start index, the offset coordinate).
theorem gather_rows {α : Type} {R C w : Nat} {si t : Shape} (d : GatherDims ⟨2, ![R, C]⟩ si t) (o : Fin t.rank)
    (hoff : d.offsetDims = [o]) (hcoll : d.collapsedSliceDims = [0]) (hob : d.operandBatchingDims = [])
    (hsim : d.startIndexMap = [0])
    (x : (⟨2, ![R, C]⟩ : Shape).Idx → α) (idx : IVec si w) (y : t.Idx) (q : si.Idx) (k : Fin C) (hR : 0 < R)
    (hk : (y o).val = k.val) (hq : ∀ c, d.siIdx y c = q) :
    Host.gather d x idx y = x (ix2 ⟨min (idx q).toInt.toNat (R - 1), by omega⟩ k) := by
  unfold Host.gather
  congr 1
  funext a
  apply Fin.ext
  have hb : ∀ a : Fin 2, a ∉ d.operandBatchingDims := by intro a; rw [hob]; exact List.not_mem_nil
  have hsk : d.sKept = [1] := by
    show Shape.kept _ (d.collapsedSliceDims ++ d.operandBatchingDims) = _
    rw [hcoll, hob]; rfl
  match a with
  | ⟨0, _⟩ =>
    have hk0 : (0 : Fin 2) ∉ d.sKept := by rw [hsk]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start y idx 0 + d.batchCoord y 0 + d.offCoord y 0 = min (idx q).toInt.toNat (R - 1)
    rw [GatherDims.batchCoord_eq_zero _ _ _ (hb 0), GatherDims.offCoord_eq_zero _ _ _ hk0]
    simp only [Nat.add_zero]
    unfold GatherDims.start
    rw [dif_pos hm, hq]
    show min (idx q).toInt.toNat (R - d.sliceSizes 0) = _
    rw [hsl]
  | ⟨1, _⟩ =>
    have hm : (1 : Fin 2) ∉ d.startIndexMap := by rw [hsim]; simp
    have hk1 : (1 : Fin 2) ∈ d.sKept := by rw [hsk]; simp
    show d.start y idx 1 + d.batchCoord y 1 + d.offCoord y 1 = k.val
    rw [GatherDims.batchCoord_eq_zero _ _ _ (hb 1)]
    unfold GatherDims.start
    rw [dif_neg hm]
    unfold GatherDims.offCoord
    rw [dif_pos hk1]
    simp only [Nat.add_zero, Nat.zero_add]
    rw [getElem_singleton_of_eq _ _ hoff]
    exact hk

-- The one start-index component sits at position 0 of the index vector.
theorem sim_val_zero {s si t : Shape} (d : GatherDims s si t) {a : Fin s.rank} (hsim : d.startIndexMap = [a])
    (c : Fin d.startIndexMap.length) : c.val = 0 := by
  have h : d.startIndexMap.length = 1 := by rw [hsim]; rfl
  have := c.isLt
  omega

theorem bcast_col_apply {α : Type} {N : Nat} (h : (⟨1, ![N]⟩ : Shape).BroadcastsInDim ⟨2, ![N, 1]⟩ ![0])
    (v : (⟨1, ![N]⟩ : Shape).Idx → α) (n : Fin N) (u : Fin 1) :
    broadcastInDim ⟨2, ![N, 1]⟩ ![0] h v (ix2 n u) = v (ix1 n) := by
  refine broadcastInDim_apply _ h v _ _ fun a => ?_
  match a with
  | ⟨0, _⟩ =>
    show n.val = if N = 1 then 0 else n.val
    split
    · next h1 => have := n.isLt; omega
    · rfl

theorem bcast_unit3_apply {α : Type} {N J : Nat} (h : (⟨2, ![N, J]⟩ : Shape).BroadcastsInDim ⟨3, ![N, J, 1]⟩ ![0, 1])
    (v : (⟨2, ![N, J]⟩ : Shape).Idx → α) (n : Fin N) (j : Fin J) (u : Fin 1) :
    broadcastInDim ⟨3, ![N, J, 1]⟩ ![0, 1] h v (ix3 n j u) = v (ix2 n j) := by
  refine broadcastInDim_apply _ h v _ _ fun a => ?_
  match a with
  | ⟨0, _⟩ =>
    show n.val = if N = 1 then 0 else n.val
    split
    · next h1 => have := n.isLt; omega
    · rfl
  | ⟨1, _⟩ =>
    show j.val = if J = 1 then 0 else j.val
    split
    · next h1 => have := j.isLt; omega
    · rfl

theorem reshape_4x32_apply {α : Type} {N : Nat} (x : (⟨3, ![N, 4, 32]⟩ : Shape).Idx → α)
    (h : (⟨3, ![N, 4, 32]⟩ : Shape).ShapeCasts ⟨2, ![N, 128]⟩) (n : Fin N) (j : Fin 4) (k : Fin 32) :
    shapeCast ⟨2, ![N, 128]⟩ x h (ix2 n ⟨32 * j.val + k.val, by omega⟩) = x (ix3 n j k) :=
  shapeCast_apply x h _ _ (by
    rw [Shape.rowMajor_val_three, Shape.rowMajor_val_two]
    show (n.val * 4 + j.val) * 32 + k.val = n.val * 128 + (32 * j.val + k.val)
    omega)

abbrev wrap {s : Shape} (st z r : IVec s 32) : IVec s 32 := select (cmpi .slt st z) (addi st r) st

theorem att_apply {α : Type} {R C N : Nat} (d : GatherDims ⟨2, ![R, C]⟩ ⟨2, ![N, 1]⟩ ⟨2, ![N, C]⟩)
    (hoff : d.offsetDims = [1]) (hcoll : d.collapsedSliceDims = [0]) (hob : d.operandBatchingDims = [])
    (hsim : d.startIndexMap = [0]) (hivd : d.indexVectorDim = 1)
    (hcol : (⟨1, ![N]⟩ : Shape).BroadcastsInDim ⟨2, ![N, 1]⟩ ![0])
    (table : (⟨2, ![R, C]⟩ : Shape).Idx → α) (seg z r : IVec ⟨1, ![N]⟩ 32) (n : Fin N) (k : Fin C)
    (hz : z (ix1 n) = 0#32) (h0 : 0 ≤ (seg (ix1 n)).toInt) (h1 : (seg (ix1 n)).toInt < (R : Int)) :
    Host.gather d table (broadcastInDim ⟨2, ![N, 1]⟩ ![0] hcol (select (cmpi .slt seg z) (addi seg r) seg)) (ix2 n k)
      = table (ix2 ⟨(seg (ix1 n)).toNat, toNat_lt_of_toInt _ R h0 h1⟩ k) := by
  have hlt : (seg (ix1 n)).toNat < R := toNat_lt_of_toInt _ R h0 h1
  have hR : 0 < R := by omega
  have hidx : broadcastInDim ⟨2, ![N, 1]⟩ ![0] hcol (select (cmpi .slt seg z) (addi seg r) seg) (ix2 n 0) = seg (ix1 n) := by
    rw [bcast_col_apply]
    show Scalar.select (IntOp.cmpi .slt (seg (ix1 n)) (z (ix1 n))) (IntOp.addi (seg (ix1 n)) (r (ix1 n))) (seg (ix1 n)) = _
    exact select_slt_zero _ _ _ hz h0
  refine Eq.trans (gather_rows d 1 hoff hcoll hob hsim table _ (ix2 n k) (ix2 n 0) k hR rfl fun c => ?_)
    (congrArg (fun q => table (ix2 q k)) (Fin.ext ?_))
  · have hbd : d.batchDims = [0] := by
      show Shape.kept _ d.offsetDims = _
      rw [hoff]; rfl
    funext b
    apply Fin.ext
    match b with
    | ⟨0, _⟩ =>
      unfold GatherDims.siIdx
      rw [dif_neg (by rw [hivd]; simp)]
      unfold GatherDims.siCoord
      simp only [Fin.val_cast]
      rw [getElem_singleton_of_eq _ _ hbd]
      rfl
    | ⟨1, _⟩ =>
      unfold GatherDims.siIdx
      rw [dif_pos (by rw [hivd])]
      exact sim_val_zero d hsim c
  · show min ((broadcastInDim ⟨2, ![N, 1]⟩ ![0] hcol (select (cmpi .slt seg z) (addi seg r) seg)) (ix2 n 0)).toInt.toNat (R - 1)
      = (seg (ix1 n)).toNat
    rw [hidx]
    have := toInt_eq_toNat_of_nonneg _ h0
    omega

section Packed
variable {α : Type} {N : Nat} (hcol : (⟨1, ![N]⟩ : Shape).BroadcastsInDim ⟨2, ![N, 1]⟩ ![0]) (i0 i1 i2 i3 : IVec ⟨1, ![N]⟩ 32)
  (hcat : Shape.Concatenates [⟨2, ![N, 1]⟩, ⟨2, ![N, 1]⟩, ⟨2, ![N, 1]⟩, ⟨2, ![N, 1]⟩] ⟨2, ![N, 4]⟩ 1)

abbrev stack4 : IVec ⟨2, ![N, 4]⟩ 32 :=
  concatenate ⟨2, ![N, 4]⟩ 1 [⟨⟨2, ![N, 1]⟩, broadcastInDim ⟨2, ![N, 1]⟩ ![0] hcol i0⟩, ⟨⟨2, ![N, 1]⟩, broadcastInDim ⟨2, ![N, 1]⟩ ![0] hcol i1⟩,
    ⟨⟨2, ![N, 1]⟩, broadcastInDim ⟨2, ![N, 1]⟩ ![0] hcol i2⟩, ⟨⟨2, ![N, 1]⟩, broadcastInDim ⟨2, ![N, 1]⟩ ![0] hcol i3⟩] hcat

-- Column j of the stack is piece j of the concatenation, a vector made a column.
theorem stack4_at (n : Fin N) (j : Fin 4) :
    stack4 hcol i0 i1 i2 i3 hcat (ix2 n j) = (![i0, i1, i2, i3] j) (ix1 n) := by
  refine Eq.trans (concatenate_apply_piece 1 _ _ (ix2 n j) j.val (by simp) ⟨2, ![N, 1]⟩
    (broadcastInDim ⟨2, ![N, 1]⟩ ![0] hcol (![i0, i1, i2, i3] j)) ?_ rfl j.val ?_ (ix2 n 0)
    (fun b hb => by match b with | ⟨0, _⟩ => rfl | ⟨1, _⟩ => exact absurd rfl hb) rfl) (bcast_col_apply hcol _ n 0)
  all_goals (fin_cases j <;> rfl)

theorem wrap_stack4_at (z4 r4 : IVec ⟨2, ![N, 4]⟩ 32) (n : Fin N) (j : Fin 4)
    (hz : z4 (ix2 n j) = 0#32) (h0 : 0 ≤ ((![i0, i1, i2, i3] j) (ix1 n)).toInt) :
    wrap (stack4 hcol i0 i1 i2 i3 hcat) z4 r4 (ix2 n j) = (![i0, i1, i2, i3] j) (ix1 n) := by
  show Scalar.select (IntOp.cmpi .slt (stack4 hcol i0 i1 i2 i3 hcat (ix2 n j)) (z4 (ix2 n j)))
    (IntOp.addi (stack4 hcol i0 i1 i2 i3 hcat (ix2 n j)) (r4 (ix2 n j))) (stack4 hcol i0 i1 i2 i3 hcat (ix2 n j)) = _
  rw [stack4_at]
  exact select_slt_zero _ _ _ hz h0

theorem packed_eq_table {T : Nat} (d : GatherDims ⟨2, ![T, 32]⟩ ⟨3, ![N, 4, 1]⟩ ⟨3, ![N, 4, 32]⟩)
    (hoff : d.offsetDims = [2]) (hcoll : d.collapsedSliceDims = [0]) (hob : d.operandBatchingDims = [])
    (hsim : d.startIndexMap = [0]) (hivd : d.indexVectorDim = 2)
    (hb3 : (⟨2, ![N, 4]⟩ : Shape).BroadcastsInDim ⟨3, ![N, 4, 1]⟩ ![0, 1])
    (hsc : (⟨3, ![N, 4, 32]⟩ : Shape).ShapeCasts ⟨2, ![N, 128]⟩)
    (cat : (⟨2, ![T, 32]⟩ : Shape).Idx → α) (w : IVec ⟨2, ![N, 4]⟩ 32) (n : Fin N) (j : Fin 4) (k : Fin 32) (c : Fin 128)
    (hc : c.val = 32 * j.val + k.val) (row : Nat) (hrow : row < T) (hw : (w (ix2 n j)).toInt.toNat = row) :
    shapeCast ⟨2, ![N, 128]⟩ (Host.gather d cat (broadcastInDim ⟨3, ![N, 4, 1]⟩ ![0, 1] hb3 w)) hsc (ix2 n c)
      = cat (ix2 ⟨row, hrow⟩ k) := by
  have hcc : c = ⟨32 * j.val + k.val, by omega⟩ := Fin.ext hc
  rw [hcc, reshape_4x32_apply]
  refine Eq.trans (gather_rows d 2 hoff hcoll hob hsim cat _ (ix3 n j k) (ix3 n j 0) k (by omega) rfl fun c => ?_)
    (congrArg (fun q => cat (ix2 q k)) (Fin.ext ?_))
  · have he : d.batchDims = d.siKept := by
      show Shape.kept _ d.offsetDims = (List.finRange 3).filter (fun b : Fin 3 => b.val ≠ d.indexVectorDim)
      rw [hoff, hivd]; rfl
    funext b
    apply Fin.ext
    match b with
    | ⟨0, _⟩ | ⟨1, _⟩ =>
      unfold GatherDims.siIdx
      rw [dif_neg (by rw [hivd]; simp)]
      unfold GatherDims.siCoord
      simp only [Fin.val_cast]
      rw [getElem_idxOf_of_eq d.batchDims d.siKept he]
    | ⟨2, _⟩ =>
      unfold GatherDims.siIdx
      rw [dif_pos (by rw [hivd])]
      exact sim_val_zero d hsim c
  · show min ((broadcastInDim ⟨3, ![N, 4, 1]⟩ ![0, 1] hb3 w) (ix3 n j 0)).toInt.toNat (T - 1) = row
    rw [bcast_unit3_apply, hw]
    omega

end Packed

section Blocks
variable {α : Type} {N : Nat} (d : GatherDims ⟨2, ![622592, 32]⟩ ⟨3, ![N, 4, 1]⟩ ⟨3, ![N, 4, 32]⟩)
  (hcatT : Shape.Concatenates [⟨2, ![524288, 32]⟩, ⟨2, ![65536, 32]⟩, ⟨2, ![24576, 32]⟩, ⟨2, ![8192, 32]⟩] ⟨2, ![622592, 32]⟩ 0)
  (hcol : (⟨1, ![N]⟩ : Shape).BroadcastsInDim ⟨2, ![N, 1]⟩ ![0])
  (hcatI : Shape.Concatenates [⟨2, ![N, 1]⟩, ⟨2, ![N, 1]⟩, ⟨2, ![N, 1]⟩, ⟨2, ![N, 1]⟩] ⟨2, ![N, 4]⟩ 1)
  (hb3 : (⟨2, ![N, 4]⟩ : Shape).BroadcastsInDim ⟨3, ![N, 4, 1]⟩ ![0, 1])
  (hsc : (⟨3, ![N, 4, 32]⟩ : Shape).ShapeCasts ⟨2, ![N, 128]⟩)
  (t0 : (⟨2, ![524288, 32]⟩ : Shape).Idx → α) (t1 : (⟨2, ![65536, 32]⟩ : Shape).Idx → α)
  (t2 : (⟨2, ![24576, 32]⟩ : Shape).Idx → α) (t3 : (⟨2, ![8192, 32]⟩ : Shape).Idx → α)
  (i0 i1 i2 i3 : IVec ⟨1, ![N]⟩ 32) (z4 r4 : IVec ⟨2, ![N, 4]⟩ 32)

abbrev packed : (⟨2, ![N, 128]⟩ : Shape).Idx → α :=
  shapeCast ⟨2, ![N, 128]⟩
    (Host.gather d (concatenate ⟨2, ![622592, 32]⟩ 0 [⟨⟨2, ![524288, 32]⟩, t0⟩, ⟨⟨2, ![65536, 32]⟩, t1⟩, ⟨⟨2, ![24576, 32]⟩, t2⟩, ⟨⟨2, ![8192, 32]⟩, t3⟩] hcatT)
      (broadcastInDim ⟨3, ![N, 4, 1]⟩ ![0, 1] hb3 (wrap (stack4 hcol i0 i1 i2 i3 hcatI) z4 r4))) hsc

-- Vector j holds a + off at n with 0 ≤ a < R, and rows off … off + R of the concatenation are table t: column 32 j + k reads t at row a.
theorem packed_block (hoff : d.offsetDims = [2]) (hcoll : d.collapsedSliceDims = [0]) (hob : d.operandBatchingDims = [])
    (hsim : d.startIndexMap = [0]) (hivd : d.indexVectorDim = 2) (n : Fin N) (k : Fin 32) (c : Fin 128)
    (j : Fin 4) (hc : c.val = 32 * j.val + k.val) (hz : z4 (ix2 n j) = 0#32)
    (off R : Nat) (hoffR : off + R ≤ 622592)
    (a : BitVec 32) (hi : (![i0, i1, i2, i3] j) (ix1 n) = a + BitVec.ofNat 32 off) (h0 : 0 ≤ a.toInt) (h1 : a.toInt < (R : Int))
    (t : (⟨2, ![R, 32]⟩ : Shape).Idx → α)
    (hcat : ∀ (i : (⟨2, ![R, 32]⟩ : Shape).Idx) (y : (⟨2, ![622592, 32]⟩ : Shape).Idx),
      (∀ b : Fin 2, b ≠ 0 → (i b).val = (y b).val) → off + (i 0).val = (y 0).val →
      concatenate ⟨2, ![622592, 32]⟩ 0 [⟨⟨2, ![524288, 32]⟩, t0⟩, ⟨⟨2, ![65536, 32]⟩, t1⟩, ⟨⟨2, ![24576, 32]⟩, t2⟩, ⟨⟨2, ![8192, 32]⟩, t3⟩] hcatT y = t i) :
    packed d hcatT hcol hcatI hb3 hsc t0 t1 t2 t3 i0 i1 i2 i3 z4 r4 (ix2 n c) = t (ix2 ⟨a.toNat, toNat_lt_of_toInt a R h0 h1⟩ k) := by
  have ha : a.toNat < R := toNat_lt_of_toInt a R h0 h1
  have hT : (a + BitVec.ofNat 32 off).toInt = ((a.toNat + off : Nat) : Int) := toInt_add_ofNat a off R ha (by omega)
  have hw : (wrap (stack4 hcol i0 i1 i2 i3 hcatI) z4 r4 (ix2 n j)).toInt.toNat = a.toNat + off := by
    rw [wrap_stack4_at hcol i0 i1 i2 i3 hcatI z4 r4 n j hz (by rw [hi, hT]; exact Int.natCast_nonneg _), hi, hT]
    exact Int.toNat_natCast _
  exact Eq.trans (packed_eq_table d hoff hcoll hob hsim hivd hb3 hsc _ _ n j k c hc (a.toNat + off) (by omega) hw)
    (hcat (ix2 ⟨a.toNat, ha⟩ k) (ix2 ⟨a.toNat + off, by omega⟩ k)
      (fun b hb => by match b with | ⟨0, _⟩ => exact absurd rfl hb | ⟨1, _⟩ => rfl) (Nat.add_comm off a.toNat))

end Blocks

section Reference
open Cert.ReferenceIdeal
variable [Cert.ReferenceIdeal.Facts₀] {α : Type}

theorem att0_apply (hcol : S250000.BroadcastsInDim S250000x1 ![0]) (table : S524288x32.Idx → α) (seg z r : IVec S250000 32)
    (n : Fin 250000) (k : Fin 32) (hz : z (ix1 n) = 0#32) (h0 : 0 ≤ (seg (ix1 n)).toInt) (h1 : (seg (ix1 n)).toInt < 524288) :
    Host.gather gather_S524288x32_S250000x1_S250000x32_1_0_n_n_0_1_132 table
        (broadcastInDim S250000x1 ![0] hcol (select (cmpi .slt seg z) (addi seg r) seg)) (ix2 n k)
      = table (ix2 ⟨(seg (ix1 n)).toNat, toNat_lt_of_toInt _ 524288 h0 h1⟩ k) :=
  att_apply gather_S524288x32_S250000x1_S250000x32_1_0_n_n_0_1_132 rfl rfl rfl rfl rfl hcol table seg z r n k hz h0 h1

theorem att1_apply (hcol : S250000.BroadcastsInDim S250000x1 ![0]) (table : S65536x32.Idx → α) (seg z r : IVec S250000 32)
    (n : Fin 250000) (k : Fin 32) (hz : z (ix1 n) = 0#32) (h0 : 0 ≤ (seg (ix1 n)).toInt) (h1 : (seg (ix1 n)).toInt < 65536) :
    Host.gather gather_S65536x32_S250000x1_S250000x32_1_0_n_n_0_1_132 table
        (broadcastInDim S250000x1 ![0] hcol (select (cmpi .slt seg z) (addi seg r) seg)) (ix2 n k)
      = table (ix2 ⟨(seg (ix1 n)).toNat, toNat_lt_of_toInt _ 65536 h0 h1⟩ k) :=
  att_apply gather_S65536x32_S250000x1_S250000x32_1_0_n_n_0_1_132 rfl rfl rfl rfl rfl hcol table seg z r n k hz h0 h1

theorem att2_apply (hcol : S250000.BroadcastsInDim S250000x1 ![0]) (table : S22188x32.Idx → α) (seg z r : IVec S250000 32)
    (n : Fin 250000) (k : Fin 32) (hz : z (ix1 n) = 0#32) (h0 : 0 ≤ (seg (ix1 n)).toInt) (h1 : (seg (ix1 n)).toInt < 22188) :
    Host.gather gather_S22188x32_S250000x1_S250000x32_1_0_n_n_0_1_132 table
        (broadcastInDim S250000x1 ![0] hcol (select (cmpi .slt seg z) (addi seg r) seg)) (ix2 n k)
      = table (ix2 ⟨(seg (ix1 n)).toNat, toNat_lt_of_toInt _ 22188 h0 h1⟩ k) :=
  att_apply gather_S22188x32_S250000x1_S250000x32_1_0_n_n_0_1_132 rfl rfl rfl rfl rfl hcol table seg z r n k hz h0 h1

theorem att3_apply (hcol : S250000.BroadcastsInDim S250000x1 ![0]) (table : S8192x32.Idx → α) (seg z r : IVec S250000 32)
    (n : Fin 250000) (k : Fin 32) (hz : z (ix1 n) = 0#32) (h0 : 0 ≤ (seg (ix1 n)).toInt) (h1 : (seg (ix1 n)).toInt < 8192) :
    Host.gather gather_S8192x32_S250000x1_S250000x32_1_0_n_n_0_1_132 table
        (broadcastInDim S250000x1 ![0] hcol (select (cmpi .slt seg z) (addi seg r) seg)) (ix2 n k)
      = table (ix2 ⟨(seg (ix1 n)).toNat, toNat_lt_of_toInt _ 8192 h0 h1⟩ k) :=
  att_apply gather_S8192x32_S250000x1_S250000x32_1_0_n_n_0_1_132 rfl rfl rfl rfl rfl hcol table seg z r n k hz h0 h1

end Reference

section Kernel
open Cert.KernelIdeal
variable [Cert.KernelIdeal.Facts₀] {α : Type}
  (hcatT : Shape.Concatenates [S524288x32, S65536x32, S24576x32, S8192x32] S622592x32 0)
  (hcol : S250000.BroadcastsInDim S250000x1 ![0])
  (hcatI : Shape.Concatenates [S250000x1, S250000x1, S250000x1, S250000x1] S250000x4 1)
  (hb3 : S250000x4.BroadcastsInDim S250000x4x1 ![0, 1]) (hsc : S250000x4x32.ShapeCasts S250000x128)
  (t0 : S524288x32.Idx → α) (t1 : S65536x32.Idx → α) (t2 : S24576x32.Idx → α) (t3 : S8192x32.Idx → α)
  (i0 i1 i2 i3 : IVec S250000 32) (z4 r4 : IVec S250000x4 32) (n : Fin 250000) (k : Fin 32) (c : Fin 128)

-- Table J is piece J of the concatenation, after the rows of the tables before it.
theorem kernel_block0 (hc : c.val = k.val) (hz : z4 (ix2 n 0) = 0#32)
    (a : BitVec 32) (hi : i0 (ix1 n) = a + 0#32) (h0 : 0 ≤ a.toInt) (h1 : a.toInt < 524288) :
    packed gather_S622592x32_S250000x4x1_S250000x4x32_2_0_n_n_0_2_132 hcatT hcol hcatI hb3 hsc t0 t1 t2 t3 i0 i1 i2 i3 z4 r4 (ix2 n c)
      = t0 (ix2 ⟨a.toNat, toNat_lt_of_toInt a 524288 h0 h1⟩ k) :=
  packed_block gather_S622592x32_S250000x4x1_S250000x4x32_2_0_n_n_0_2_132 hcatT hcol hcatI hb3 hsc t0 t1 t2 t3 i0 i1 i2 i3 z4 r4 rfl rfl rfl rfl rfl n k c 0 (by simpa using hc) hz
    0 524288 (by norm_num) a hi h0 h1 t0 fun i y e1 e2 =>
    concatenate_apply_piece 0 _ _ y 0 (by simp) _ t0 rfl rfl 0 rfl i e1 e2

theorem kernel_block1 (hc : c.val = 32 + k.val) (hz : z4 (ix2 n 1) = 0#32)
    (a : BitVec 32) (hi : i1 (ix1 n) = a + 524288#32) (h0 : 0 ≤ a.toInt) (h1 : a.toInt < 65536) :
    packed gather_S622592x32_S250000x4x1_S250000x4x32_2_0_n_n_0_2_132 hcatT hcol hcatI hb3 hsc t0 t1 t2 t3 i0 i1 i2 i3 z4 r4 (ix2 n c)
      = t1 (ix2 ⟨a.toNat, toNat_lt_of_toInt a 65536 h0 h1⟩ k) :=
  packed_block gather_S622592x32_S250000x4x1_S250000x4x32_2_0_n_n_0_2_132 hcatT hcol hcatI hb3 hsc t0 t1 t2 t3 i0 i1 i2 i3 z4 r4 rfl rfl rfl rfl rfl n k c 1 (by simpa using hc) hz
    524288 65536 (by norm_num) a hi h0 h1 t1 fun i y e1 e2 =>
    concatenate_apply_piece 0 _ _ y 1 (by simp) _ t1 rfl rfl 524288 rfl i e1 e2

theorem kernel_block2 (hc : c.val = 64 + k.val) (hz : z4 (ix2 n 2) = 0#32)
    (a : BitVec 32) (hi : i2 (ix1 n) = a + 589824#32) (h0 : 0 ≤ a.toInt) (h1 : a.toInt < 22188) :
    packed gather_S622592x32_S250000x4x1_S250000x4x32_2_0_n_n_0_2_132 hcatT hcol hcatI hb3 hsc t0 t1 t2 t3 i0 i1 i2 i3 z4 r4 (ix2 n c)
      = t2 (ix2 ⟨a.toNat, by have := toNat_lt_of_toInt a 22188 h0 h1; omega⟩ k) :=
  packed_block gather_S622592x32_S250000x4x1_S250000x4x32_2_0_n_n_0_2_132 hcatT hcol hcatI hb3 hsc t0 t1 t2 t3 i0 i1 i2 i3 z4 r4 rfl rfl rfl rfl rfl n k c 2 (by simpa using hc) hz
    589824 24576 (by norm_num) a hi h0 (by omega) t2 fun i y e1 e2 =>
    concatenate_apply_piece 0 _ _ y 2 (by simp) _ t2 rfl rfl 589824 rfl i e1 e2

theorem kernel_block3 (hc : c.val = 96 + k.val) (hz : z4 (ix2 n 3) = 0#32)
    (a : BitVec 32) (hi : i3 (ix1 n) = a + 614400#32) (h0 : 0 ≤ a.toInt) (h1 : a.toInt < 8192) :
    packed gather_S622592x32_S250000x4x1_S250000x4x32_2_0_n_n_0_2_132 hcatT hcol hcatI hb3 hsc t0 t1 t2 t3 i0 i1 i2 i3 z4 r4 (ix2 n c)
      = t3 (ix2 ⟨a.toNat, toNat_lt_of_toInt a 8192 h0 h1⟩ k) :=
  packed_block gather_S622592x32_S250000x4x1_S250000x4x32_2_0_n_n_0_2_132 hcatT hcol hcatI hb3 hsc t0 t1 t2 t3 i0 i1 i2 i3 z4 r4 rfl rfl rfl rfl rfl n k c 3 (by simpa using hc) hz
    614400 8192 (by norm_num) a hi h0 h1 t3 fun i y e1 e2 =>
    concatenate_apply_piece 0 _ _ y 3 (by simp) _ t3 rfl rfl 614400 (by simp) i e1 e2

end Kernel

end Cert.Value.S1.Gather
-- ==== Proof.VTables.lean ====
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.IdealHost
import Idealize.ShloMosaic.Lib.StackMember

noncomputable section

open scoped BigOperators

namespace Cert.Value.S1

open Idealize.ShloMosaic Idealize.ShloMosaic.ValueIdx Idealize.ShloMosaic.StackMember

abbrev rowScatter (R N C : Nat)
    (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ where
  updateWindowDims := [1]
  insertedWindowDims := [0]
  scatterDimsToOperandDims := [0]
  indexVectorDim := 1
  wf := wf

variable {R N C w : Nat}
  (wf : ScatterDims.WF ⟨2, ![R, C]⟩ ⟨2, ![N, 1]⟩ ⟨2, ![N, C]⟩ [1] [0] [0] 1)

theorem rowScatter_start0 (j : (⟨2, ![N, C]⟩ : Shape).Idx) (idx : IVec ⟨2, ![N, 1]⟩ w) :
    (rowScatter R N C wf).start j idx 0 = (idx (ix2 (j 0) 0)).toInt := by
  unfold ScatterDims.start
  rw [dif_pos (show (0 : Fin 2) ∈ (rowScatter R N C wf).scatterDimsToOperandDims from List.mem_singleton.mpr rfl)]
  congr 2
  funext b
  refine Fin.ext ?_
  match b with
  | ⟨0, _⟩ => rfl
  | ⟨1, _⟩ => rfl

theorem rowScatter_start1 (j : (⟨2, ![N, C]⟩ : Shape).Idx) (idx : IVec ⟨2, ![N, 1]⟩ w) :
    (rowScatter R N C wf).start j idx 1 = 0 := by
  unfold ScatterDims.start
  rw [dif_neg (show (1 : Fin 2) ∉ ([0] : List (Fin 2)) by decide)]

theorem rowScatter_window0 (j : (⟨2, ![N, C]⟩ : Shape).Idx) :
    (rowScatter R N C wf).window j 0 = 0 := by
  unfold ScatterDims.window
  have hm : (0 : Fin 2) ∉ (rowScatter R N C wf).sKept := by
    show (0 : Fin 2) ∉ ([1] : List (Fin 2)); decide
  rw [dif_neg hm]

theorem rowScatter_window1 (j : (⟨2, ![N, C]⟩ : Shape).Idx) :
    (rowScatter R N C wf).window j 1 = (j 1).val := by
  unfold ScatterDims.window
  have hm : (1 : Fin 2) ∈ (rowScatter R N C wf).sKept := by
    show (1 : Fin 2) ∈ ([1] : List (Fin 2)); decide
  rw [dif_pos hm]
  rfl

theorem rowScatter_resultIdx?_eq_some (j : (⟨2, ![N, C]⟩ : Shape).Idx) (idx : IVec ⟨2, ![N, 1]⟩ w)
    (i : (⟨2, ![R, C]⟩ : Shape).Idx) :
    (rowScatter R N C wf).resultIdx? j idx = some i ↔
      (idx (ix2 (j 0) 0)).toInt = ((i 0).val : Int) ∧ (j 1).val = (i 1).val := by
  unfold ScatterDims.resultIdx?
  split_ifs with h
  · rw [Option.some.injEq]
    have h0 := h 0
    have h1 := h 1
    constructor
    · intro e
      have e0 : ((rowScatter R N C wf).start j idx 0 + (rowScatter R N C wf).window j 0).toNat = (i 0).val :=
        congrArg (fun f => (f 0).val) e
      have e1 : ((rowScatter R N C wf).start j idx 1 + (rowScatter R N C wf).window j 1).toNat = (i 1).val :=
        congrArg (fun f => (f 1).val) e
      rw [rowScatter_start0, rowScatter_window0] at e0 h0
      rw [rowScatter_start1, rowScatter_window1] at e1
      constructor <;> omega
    · rintro ⟨e0, e1⟩
      funext a
      refine Fin.ext ?_
      match a with
      | ⟨0, _⟩ =>
        show ((rowScatter R N C wf).start j idx 0 + (rowScatter R N C wf).window j 0).toNat = (i 0).val
        rw [rowScatter_start0, rowScatter_window0]; omega
      | ⟨1, _⟩ =>
        show ((rowScatter R N C wf).start j idx 1 + (rowScatter R N C wf).window j 1).toNat = (i 1).val
        rw [rowScatter_start1, rowScatter_window1]; omega
  · constructor
    · intro e; exact absurd e (by simp)
    · rintro ⟨e0, e1⟩
      exfalso
      apply h
      intro a
      match a with
      | ⟨0, _⟩ =>
        show 0 ≤ (rowScatter R N C wf).start j idx 0 + (rowScatter R N C wf).window j 0 ∧
          (rowScatter R N C wf).start j idx 0 + (rowScatter R N C wf).window j 0 < (R : Int)
        rw [rowScatter_start0, rowScatter_window0]
        have := idx2_lt0 i
        constructor <;> omega
      | ⟨1, _⟩ =>
        show 0 ≤ (rowScatter R N C wf).start j idx 1 + (rowScatter R N C wf).window j 1 ∧
          (rowScatter R N C wf).start j idx 1 + (rowScatter R N C wf).window j 1 < (C : Int)
        rw [rowScatter_start1, rowScatter_window1]
        have := idx2_lt1 j
        constructor <;> omega

theorem scatterAdd_row_apply {φ : FTy} (x : FVec Ideal ⟨2, ![R, C]⟩ φ) (idx : IVec ⟨2, ![N, 1]⟩ w)
    (upd : FVec Ideal ⟨2, ![N, C]⟩ φ) (r : Fin R) (k : Fin C) :
    Host.scatterAdd (rowScatter R N C wf) x idx upd (ix2 r k) =
      x (ix2 r k) + ∑ n ∈ Finset.univ.filter (fun n : Fin N => (idx (ix2 n 0)).toInt = (r.val : Int)), upd (ix2 n k) := by
  show x (ix2 r k) + ∑ j ∈ Finset.univ.filter (fun j => (rowScatter R N C wf).resultIdx? j idx = some (ix2 r k)), upd j = _
  congr 1
  rw [Finset.sum_filter, Finset.sum_filter, sum_idx2]
  refine Finset.sum_congr rfl fun n _ => ?_
  by_cases hn : (idx (ix2 n 0)).toInt = (r.val : Int)
  · rw [if_pos hn, Finset.sum_eq_single k]
    · rw [if_pos]
      exact (rowScatter_resultIdx?_eq_some wf (ix2 n k) idx (ix2 r k)).mpr ⟨hn, rfl⟩
    · intro b _ hb
      rw [if_neg]
      intro e
      exact hb (Fin.ext ((rowScatter_resultIdx?_eq_some wf (ix2 n b) idx (ix2 r k)).mp e).2)
    · intro h; exact absurd (Finset.mem_univ k) h
  · rw [if_neg hn]
    refine Finset.sum_eq_zero fun b _ => ?_
    rw [if_neg]
    intro e
    exact hn ((rowScatter_resultIdx?_eq_some wf (ix2 n b) idx (ix2 r k)).mp e).1

section Concat
variable {φ : FTy}

theorem cat_apply_left (red : FVec Ideal ⟨2, ![N, 64]⟩ φ) (ones : FVec Ideal ⟨2, ![N, 1]⟩ φ)
    (hcat : Shape.Concatenates [(⟨2, ![N, 64]⟩ : Shape), ⟨2, ![N, 1]⟩] ⟨2, ![N, 65]⟩ 1) (n : Fin N) (k : Fin 64) :
    concatenate ⟨2, ![N, 65]⟩ 1 [⟨⟨2, ![N, 64]⟩, red⟩, ⟨⟨2, ![N, 1]⟩, ones⟩] hcat (ix2 n ⟨k.val, by omega⟩) =
      red (ix2 n k) :=
  concatenate_pair_apply_left 1 red ones hcat _ rfl (ix2 n k) (fun b => by
    match b with
    | ⟨0, _⟩ => rfl
    | ⟨1, _⟩ => rfl)

theorem cat_apply_right (red : FVec Ideal ⟨2, ![N, 64]⟩ φ) (ones : FVec Ideal ⟨2, ![N, 1]⟩ φ)
    (hcat : Shape.Concatenates [(⟨2, ![N, 64]⟩ : Shape), ⟨2, ![N, 1]⟩] ⟨2, ![N, 65]⟩ 1) (n : Fin N) :
    concatenate ⟨2, ![N, 65]⟩ 1 [⟨⟨2, ![N, 64]⟩, red⟩, ⟨⟨2, ![N, 1]⟩, ones⟩] hcat (ix2 n ⟨64, by omega⟩) =
      ones (ix2 n 0) :=
  concatenate_pair_apply_right 1 red ones hcat _ rfl rfl (ix2 n 0) (fun b hb => by
    match b, hb with
    | ⟨0, _⟩, _ => rfl
    | ⟨1, _⟩, hb => exact absurd rfl hb) rfl

end Concat

section Scatter
variable {R N w : Nat}
  (wf65 : ScatterDims.WF ⟨2, ![R, 65]⟩ ⟨2, ![N, 1]⟩ ⟨2, ![N, 65]⟩ [1] [0] [0] 1)
  (wf64 : ScatterDims.WF ⟨2, ![R, 64]⟩ ⟨2, ![N, 1]⟩ ⟨2, ![N, 64]⟩ [1] [0] [0] 1)
  (wf1 : ScatterDims.WF ⟨2, ![R, 1]⟩ ⟨2, ![N, 1]⟩ ⟨2, ![N, 1]⟩ [1] [0] [0] 1)

theorem sc_eq_sums (z65 : FVec Ideal ⟨2, ![R, 65]⟩ .f32) (z64 : FVec Ideal ⟨2, ![R, 64]⟩ .f32)
    (segb : IVec ⟨2, ![N, 1]⟩ w) (red : FVec Ideal ⟨2, ![N, 64]⟩ .f32) (ones : FVec Ideal ⟨2, ![N, 1]⟩ .f32)
    (hcat : Shape.Concatenates [(⟨2, ![N, 64]⟩ : Shape), ⟨2, ![N, 1]⟩] ⟨2, ![N, 65]⟩ 1)
    (r : Fin R) (k : Fin 64) (hz : z65 (ix2 r ⟨k.val, by omega⟩) = z64 (ix2 r k)) :
    Host.scatterAdd (rowScatter R N 65 wf65) z65 segb
        (concatenate ⟨2, ![N, 65]⟩ 1 [⟨⟨2, ![N, 64]⟩, red⟩, ⟨⟨2, ![N, 1]⟩, ones⟩] hcat) (ix2 r ⟨k.val, by omega⟩) =
      Host.scatterAdd (rowScatter R N 64 wf64) z64 segb red (ix2 r k) := by
  rw [scatterAdd_row_apply, scatterAdd_row_apply, hz]
  congr 1
  exact Finset.sum_congr rfl fun n _ => cat_apply_left red ones hcat n k

theorem sc_eq_cnt (z65 : FVec Ideal ⟨2, ![R, 65]⟩ .f32) (z1 : FVec Ideal ⟨2, ![R, 1]⟩ .f32)
    (segb : IVec ⟨2, ![N, 1]⟩ w) (red : FVec Ideal ⟨2, ![N, 64]⟩ .f32) (ones : FVec Ideal ⟨2, ![N, 1]⟩ .f32)
    (hcat : Shape.Concatenates [(⟨2, ![N, 64]⟩ : Shape), ⟨2, ![N, 1]⟩] ⟨2, ![N, 65]⟩ 1)
    (r : Fin R) (hz : z65 (ix2 r ⟨64, by omega⟩) = z1 (ix2 r 0)) :
    Host.scatterAdd (rowScatter R N 65 wf65) z65 segb
        (concatenate ⟨2, ![N, 65]⟩ 1 [⟨⟨2, ![N, 64]⟩, red⟩, ⟨⟨2, ![N, 1]⟩, ones⟩] hcat) (ix2 r ⟨64, by omega⟩) =
      Host.scatterAdd (rowScatter R N 1 wf1) z1 segb ones (ix2 r 0) := by
  rw [scatterAdd_row_apply, scatterAdd_row_apply, hz]
  congr 1
  exact Finset.sum_congr rfl fun n _ => cat_apply_right red ones hcat n

end Scatter

theorem splat_apply {t : Shape} (h : (⟨0, ![]⟩ : Shape).BroadcastsInDim t (![] : Fin 0 → Fin t.rank))
    (b : BitVec 32) (j : t.Idx) :
    broadcastInDim t ![] h (constant (F := Ideal) ⟨0, ![]⟩ .f32 b) j = Ideal.ofBits .f32 b :=
  broadcastInDim_apply _ h _ j ix0 (fun a => a.elim0)

theorem broadcastInDim_oneCol_apply {α : Type} {R C : Nat}
    (h : (⟨2, ![R, 1]⟩ : Shape).BroadcastsInDim ⟨2, ![R, C]⟩ ![0, 1])
    (x : (⟨2, ![R, 1]⟩ : Shape).Idx → α) (r : Fin R) (c : Fin C) :
    broadcastInDim ⟨2, ![R, C]⟩ ![0, 1] h x (ix2 r c) = x (ix2 r (0 : Fin 1)) := by
  refine broadcastInDim_apply ![0, 1] h x (ix2 r c) (ix2 r (0 : Fin 1)) ?_
  intro a
  match a with
  | ⟨0, _⟩ =>
    show r.val = if R = 1 then 0 else r.val
    split_ifs with hR
    · have := r.isLt; omega
    · rfl
  | ⟨1, _⟩ =>
    show (0 : ℕ) = if (1 : ℕ) = 1 then 0 else _
    simp

theorem broadcastInDim_asRow_apply {α : Type} {n : Nat}
    (h : (⟨1, ![n]⟩ : Shape).BroadcastsInDim ⟨2, ![1, n]⟩ ![1])
    (x : (⟨1, ![n]⟩ : Shape).Idx → α) (t : Fin n) :
    broadcastInDim ⟨2, ![1, n]⟩ ![1] h x (ix2 (0 : Fin 1) t) = x (ix1 t) := by
  refine broadcastInDim_apply ![1] h x (ix2 (0 : Fin 1) t) (ix1 t) ?_
  intro a
  match a with
  | ⟨0, _⟩ =>
    show t.val = if n = 1 then 0 else t.val
    split_ifs with hn
    · have := t.isLt; omega
    · rfl

theorem pad_rows_apply {α : Type} {R R' C p : Nat} (x : (⟨2, ![R, C]⟩ : Shape).Idx → α) {u : Shape} (v : u.Idx → α)
    (hp : (⟨2, ![R, C]⟩ : Shape).Pads (![0, 0] : Fin 2 → Nat) ![p, 0] ![0, 0] ⟨2, ![R', C]⟩) (hu : 0 < u.numel)
    (r : Fin R) (hr : r.val < R') (c : Fin C) :
    pad ⟨2, ![R', C]⟩ ![0, 0] ![p, 0] ![0, 0] x v hp hu (ix2 ⟨r.val, hr⟩ c) = x (ix2 r c) := by
  refine pad_apply_of_inside ![0, 0] ![p, 0] ![0, 0] x v hp hu _ (ix2 r c) ?_
  intro a
  match a with
  | ⟨0, _⟩ => show r.val = 0 + r.val * (0 + 1); omega
  | ⟨1, _⟩ => show c.val = 0 + c.val * (0 + 1); omega

abbrev kernelTable {R : Nat} (sc : FVec Ideal ⟨2, ![R, 65]⟩ .f32) (wt : FVec Ideal ⟨2, ![64, 32]⟩ .f32)
    (bk : FVec Ideal ⟨2, ![1, 32]⟩ .f32) (r : Fin R) (k : Fin 32) : EReal :=
  max ((0 + ∑ j : Fin 64, Ideal.div (sc (ix2 r ⟨j.val, by omega⟩)) (max (sc (ix2 r ⟨64, by omega⟩)) 1) * wt (ix2 j k))
    + bk (ix2 0 k)) 0

theorem kernelTable_congr {R R' : Nat} (sc : FVec Ideal ⟨2, ![R, 65]⟩ .f32) (sc' : FVec Ideal ⟨2, ![R', 65]⟩ .f32)
    (wt : FVec Ideal ⟨2, ![64, 32]⟩ .f32) (bk : FVec Ideal ⟨2, ![1, 32]⟩ .f32) (r : Fin R) (r' : Fin R') (k : Fin 32)
    (h : ∀ c : Fin 65, sc' (ix2 r' c) = sc (ix2 r c)) :
    kernelTable sc' wt bk r' k = kernelTable sc wt bk r k := by
  unfold kernelTable
  simp only [h]

section Tables
variable {R N : Nat}
  (wf64 : ScatterDims.WF ⟨2, ![R, 64]⟩ ⟨2, ![N, 1]⟩ ⟨2, ![N, 64]⟩ [1] [0] [0] 1)
  (wf1 : ScatterDims.WF ⟨2, ![R, 1]⟩ ⟨2, ![N, 1]⟩ ⟨2, ![N, 1]⟩ [1] [0] [0] 1)
  (hz64 : (⟨0, ![]⟩ : Shape).BroadcastsInDim ⟨2, ![R, 64]⟩ (![] : Fin 0 → Fin 2))
  (hz1 : (⟨0, ![]⟩ : Shape).BroadcastsInDim ⟨2, ![R, 1]⟩ (![] : Fin 0 → Fin 2))
  (hoN : (⟨0, ![]⟩ : Shape).BroadcastsInDim ⟨2, ![N, 1]⟩ (![] : Fin 0 → Fin 2))
  (ho1 : (⟨0, ![]⟩ : Shape).BroadcastsInDim ⟨2, ![R, 1]⟩ (![] : Fin 0 → Fin 2))
  (hmx : (⟨2, ![R, 1]⟩ : Shape).BroadcastsInDim ⟨2, ![R, 64]⟩ ![0, 1])
  (hb1 : (⟨1, ![32]⟩ : Shape).BroadcastsInDim ⟨2, ![1, 32]⟩ ![1])
  (hb2 : (⟨2, ![1, 32]⟩ : Shape).BroadcastsInDim ⟨2, ![R, 32]⟩ ![0, 1])
  (hz32 : (⟨0, ![]⟩ : Shape).BroadcastsInDim ⟨2, ![R, 32]⟩ (![] : Fin 0 → Fin 2))

abbrev refTable
    (segb : IVec ⟨2, ![N, 1]⟩ 32) (red : FVec Ideal ⟨2, ![N, 64]⟩ .f32)
    (wt : FVec Ideal ⟨2, ![64, 32]⟩ .f32) (b32 : FVec Ideal ⟨1, ![32]⟩ .f32) : FVec Ideal ⟨2, ![R, 32]⟩ .f32 :=
  maximumf
    (addf
      (Host.dotGeneral (DotDims.plain R 64 32) none
        (Host.divf
          (Host.scatterAdd (rowScatter R N 64 wf64)
            (broadcastInDim ⟨2, ![R, 64]⟩ ![] hz64 (constant ⟨0, ![]⟩ .f32 0x00000000#32)) segb red)
          (broadcastInDim ⟨2, ![R, 64]⟩ ![0, 1] hmx
            (maximumf
              (Host.scatterAdd (rowScatter R N 1 wf1)
                (broadcastInDim ⟨2, ![R, 1]⟩ ![] hz1 (constant ⟨0, ![]⟩ .f32 0x00000000#32)) segb
                (broadcastInDim ⟨2, ![N, 1]⟩ ![] hoN (constant ⟨0, ![]⟩ .f32 0x3F800000#32)))
              (broadcastInDim ⟨2, ![R, 1]⟩ ![] ho1 (constant ⟨0, ![]⟩ .f32 0x3F800000#32)))))
        wt)
      (broadcastInDim ⟨2, ![R, 32]⟩ ![0, 1] hb2 (broadcastInDim ⟨2, ![1, 32]⟩ ![1] hb1 b32)))
    (broadcastInDim ⟨2, ![R, 32]⟩ ![] hz32 (constant ⟨0, ![]⟩ .f32 0x00000000#32))

abbrev kernelSc
    (wf65 : ScatterDims.WF ⟨2, ![R, 65]⟩ ⟨2, ![N, 1]⟩ ⟨2, ![N, 65]⟩ [1] [0] [0] 1)
    (hz65 : (⟨0, ![]⟩ : Shape).BroadcastsInDim ⟨2, ![R, 65]⟩ (![] : Fin 0 → Fin 2))
    (hoN : (⟨0, ![]⟩ : Shape).BroadcastsInDim ⟨2, ![N, 1]⟩ (![] : Fin 0 → Fin 2))
    (hcat : Shape.Concatenates [(⟨2, ![N, 64]⟩ : Shape), ⟨2, ![N, 1]⟩] ⟨2, ![N, 65]⟩ 1)
    (segb : IVec ⟨2, ![N, 1]⟩ 32) (red : FVec Ideal ⟨2, ![N, 64]⟩ .f32) : FVec Ideal ⟨2, ![R, 65]⟩ .f32 :=
  Host.scatterAdd (rowScatter R N 65 wf65)
    (broadcastInDim ⟨2, ![R, 65]⟩ ![] hz65 (constant ⟨0, ![]⟩ .f32 0x00000000#32)) segb
    (concatenate ⟨2, ![N, 65]⟩ 1
      [⟨⟨2, ![N, 64]⟩, red⟩, ⟨⟨2, ![N, 1]⟩, broadcastInDim ⟨2, ![N, 1]⟩ ![] hoN (constant ⟨0, ![]⟩ .f32 0x3F800000#32)⟩] hcat)

variable {wf64 wf1 hz64 hz1 hoN ho1 hmx hb1 hb2 hz32}
  {wf65 : ScatterDims.WF ⟨2, ![R, 65]⟩ ⟨2, ![N, 1]⟩ ⟨2, ![N, 65]⟩ [1] [0] [0] 1}
  {hz65 : (⟨0, ![]⟩ : Shape).BroadcastsInDim ⟨2, ![R, 65]⟩ (![] : Fin 0 → Fin 2)}
  {hoNk : (⟨0, ![]⟩ : Shape).BroadcastsInDim ⟨2, ![N, 1]⟩ (![] : Fin 0 → Fin 2)}
  {hcat : Shape.Concatenates [(⟨2, ![N, 64]⟩ : Shape), ⟨2, ![N, 1]⟩] ⟨2, ![N, 65]⟩ 1}

theorem table_eq
    (segb : IVec ⟨2, ![N, 1]⟩ 32) (red : FVec Ideal ⟨2, ![N, 64]⟩ .f32)
    (wt : FVec Ideal ⟨2, ![64, 32]⟩ .f32) (b32 : FVec Ideal ⟨1, ![32]⟩ .f32) (bk : FVec Ideal ⟨2, ![1, 32]⟩ .f32)
    (hbk : ∀ k : Fin 32, bk (ix2 0 k) = b32 (ix1 k)) (r : Fin R) (k : Fin 32) :
    kernelTable (kernelSc wf65 hz65 hoNk hcat segb red) wt bk r k =
      refTable wf64 wf1 hz64 hz1 hoN ho1 hmx hb1 hb2 hz32 segb red wt b32 (ix2 r k) := by
  show _ = max ((Host.dotGeneral (DotDims.plain R 64 32) none _ wt (ix2 r k)) +
      broadcastInDim ⟨2, ![R, 32]⟩ ![0, 1] hb2 (broadcastInDim ⟨2, ![1, 32]⟩ ![1] hb1 b32) (ix2 r k))
    (broadcastInDim ⟨2, ![R, 32]⟩ ![] hz32 (constant (F := Ideal) ⟨0, ![]⟩ .f32 0x00000000#32) (ix2 r k))
  rw [dotGeneral_plain_apply, broadcastInDim_oneRow_apply, broadcastInDim_asRow_apply, splat_apply,
    Ideal.ofBits_zero_f32, ← hbk k]
  unfold kernelTable kernelSc
  rw [zero_add]
  refine congrArg (fun s => max (s + bk (ix2 0 k)) 0) (Finset.sum_congr rfl fun j _ => ?_)
  refine congrArg (· * wt (ix2 j k)) ?_
  rw [hostDivf_apply, broadcastInDim_oneCol_apply, maximumf_apply, splat_apply, Ideal.ofBits_one_f32]
  have hs := sc_eq_sums wf65 wf64
    (broadcastInDim ⟨2, ![R, 65]⟩ ![] hz65 (constant (F := Ideal) ⟨0, ![]⟩ .f32 0x00000000#32))
    (broadcastInDim ⟨2, ![R, 64]⟩ ![] hz64 (constant (F := Ideal) ⟨0, ![]⟩ .f32 0x00000000#32)) segb red
    (broadcastInDim ⟨2, ![N, 1]⟩ ![] hoNk (constant (F := Ideal) ⟨0, ![]⟩ .f32 0x3F800000#32)) hcat r j
    (by rw [splat_apply, splat_apply])
  have hc := sc_eq_cnt wf65 wf1
    (broadcastInDim ⟨2, ![R, 65]⟩ ![] hz65 (constant (F := Ideal) ⟨0, ![]⟩ .f32 0x00000000#32))
    (broadcastInDim ⟨2, ![R, 1]⟩ ![] hz1 (constant (F := Ideal) ⟨0, ![]⟩ .f32 0x00000000#32)) segb red
    (broadcastInDim ⟨2, ![N, 1]⟩ ![] hoNk (constant (F := Ideal) ⟨0, ![]⟩ .f32 0x3F800000#32)) hcat r
    (by rw [splat_apply, splat_apply])
  rw [hs, hc]

theorem table_eq_padded {R' p : Nat}
    {u : Shape} (v : FVec Ideal u .f32)
    (hp : (⟨2, ![R, 65]⟩ : Shape).Pads (![0, 0] : Fin 2 → Nat) ![p, 0] ![0, 0] ⟨2, ![R', 65]⟩) (hu : 0 < u.numel)
    (segb : IVec ⟨2, ![N, 1]⟩ 32) (red : FVec Ideal ⟨2, ![N, 64]⟩ .f32)
    (wt : FVec Ideal ⟨2, ![64, 32]⟩ .f32) (b32 : FVec Ideal ⟨1, ![32]⟩ .f32) (bk : FVec Ideal ⟨2, ![1, 32]⟩ .f32)
    (hbk : ∀ k : Fin 32, bk (ix2 0 k) = b32 (ix1 k)) (r : Fin R) (hr : r.val < R') (k : Fin 32) :
    kernelTable (pad ⟨2, ![R', 65]⟩ ![0, 0] ![p, 0] ![0, 0] (kernelSc wf65 hz65 hoNk hcat segb red) v hp hu) wt bk
        ⟨r.val, hr⟩ k =
      refTable wf64 wf1 hz64 hz1 hoN ho1 hmx hb1 hb2 hz32 segb red wt b32 (ix2 r k) :=
  (kernelTable_congr (kernelSc wf65 hz65 hoNk hcat segb red) _ wt bk r ⟨r.val, hr⟩ k
    (fun c => pad_rows_apply _ v hp hu r hr c)).trans (table_eq segb red wt b32 bk hbk r k)

end Tables

end Cert.Value.S1
-- ==== Proof.VTableLink.lean ====
import proofs.«418858_j49108656062716_3_alg».proof.Proof.VPoolKer
import proofs.«418858_j49108656062716_3_alg».proof.Proof.VTables
import proofs.«418858_j49108656062716_3_alg».proof.Proof.RefVal

noncomputable section

namespace Cert.Value.S1

open Idealize.ShloMosaic Idealize.ShloMosaic.ValueIdx Cert.KernelIdeal Cert.KernelIdeal.Gen

abbrev redOnes (red : FVec Ideal S250000x64 .f32) : FVec Ideal S250000x65 .f32 :=
  concatenate S250000x65 1 [⟨S250000x64, red⟩, ⟨S250000x1, broadcastInDim S250000x1 ![] bcast_S_S250000x1 (constant (F := Ideal) S_ .f32 0x3F800000#32)⟩] concatenates_S250000x64_S250000x1_S250000x65_d1

variable (red : FVec Ideal S250000x64 .f32) (seg : IVec S250000 32) (w5 : FVec Ideal S4x64x32 .f32) (w6 : FVec Ideal S4x32 .f32)

-- Row by row the one-scatter table is the two-scatter table, which is the segment table term for term.
theorem tableLink0 (r : Fin 524288) (k : Fin 32) :
    pool1 (Host.scatterAdd scatter_S524288x65_S250000x1_S250000x65_1_0_0_1
          (broadcastInDim S524288x65 ![] bcast_S_S524288x65 (constant (F := Ideal) S_ .f32 0x00000000#32))
          (broadcastInDim S250000x1 ![0] bcast_S250000_S250000x1_0 seg) (redOnes red))
        (shapeCast S64x32 (extractStridedSlice S1x64x32 ![0, 0, 0] w5 slices_S4x64x32_S1x64x32_0_0_0) shapeCasts_S1x64x32_S64x32)
        (shapeCast S1x32 (shapeCast S32 (extractStridedSlice S1x32 ![0, 0] w6 slices_S4x32_S1x32_0_0) shapeCasts_S1x32_S32) shapeCasts_S32_S1x32)
        (ix2 r k)
      = Cert.ReferenceIdeal.RefRun.stTable0 red seg w5 w6 (ix2 r k) :=
  table_eq _ red _ _ _ (fun k => shapeCast_a_1a_apply _ shapeCasts_S32_S1x32 0 k) r k

theorem tableLink1 (r : Fin 65536) (k : Fin 32) :
    pool2 (Host.scatterAdd scatter_S65536x65_S250000x1_S250000x65_1_0_0_1
          (broadcastInDim S65536x65 ![] bcast_S_S65536x65 (constant (F := Ideal) S_ .f32 0x00000000#32))
          (broadcastInDim S250000x1 ![0] bcast_S250000_S250000x1_0 seg) (redOnes red))
        (shapeCast S64x32 (extractStridedSlice S1x64x32 ![1, 0, 0] w5 slices_S4x64x32_S1x64x32_1_0_0) shapeCasts_S1x64x32_S64x32)
        (shapeCast S1x32 (shapeCast S32 (extractStridedSlice S1x32 ![1, 0] w6 slices_S4x32_S1x32_1_0) shapeCasts_S1x32_S32) shapeCasts_S32_S1x32)
        (ix2 r k)
      = Cert.ReferenceIdeal.RefRun.stTable1 red seg w5 w6 (ix2 r k) :=
  table_eq _ red _ _ _ (fun k => shapeCast_a_1a_apply _ shapeCasts_S32_S1x32 0 k) r k

-- Rows appended below the scatter do not change the rows above them.
theorem tableLink2 (v : FVec Ideal S_ .f32) (r : Fin 22188) (hr : r.val < 24576) (k : Fin 32) :
    pool3 (pad S24576x65 ![0, 0] ![2388, 0] ![0, 0]
          (Host.scatterAdd scatter_S22188x65_S250000x1_S250000x65_1_0_0_1
            (broadcastInDim S22188x65 ![] bcast_S_S22188x65 (constant (F := Ideal) S_ .f32 0x00000000#32))
            (broadcastInDim S250000x1 ![0] bcast_S250000_S250000x1_0 seg) (redOnes red))
          v pads_S22188x65_S24576x65_023880_000 h_S_)
        (shapeCast S64x32 (extractStridedSlice S1x64x32 ![2, 0, 0] w5 slices_S4x64x32_S1x64x32_2_0_0) shapeCasts_S1x64x32_S64x32)
        (shapeCast S1x32 (shapeCast S32 (extractStridedSlice S1x32 ![2, 0] w6 slices_S4x32_S1x32_2_0) shapeCasts_S1x32_S32) shapeCasts_S32_S1x32)
        (ix2 (⟨r.val, hr⟩ : Fin 24576) k)
      = Cert.ReferenceIdeal.RefRun.stTable2 red seg w5 w6 (ix2 r k) :=
  table_eq_padded v pads_S22188x65_S24576x65_023880_000 h_S_ _ red _ _ _
    (fun k => shapeCast_a_1a_apply _ shapeCasts_S32_S1x32 0 k) r hr k

theorem tableLink3 (r : Fin 8192) (k : Fin 32) :
    pool4 (Host.scatterAdd scatter_S8192x65_S250000x1_S250000x65_1_0_0_1
          (broadcastInDim S8192x65 ![] bcast_S_S8192x65 (constant (F := Ideal) S_ .f32 0x00000000#32))
          (broadcastInDim S250000x1 ![0] bcast_S250000_S250000x1_0 seg) (redOnes red))
        (shapeCast S64x32 (extractStridedSlice S1x64x32 ![3, 0, 0] w5 slices_S4x64x32_S1x64x32_3_0_0) shapeCasts_S1x64x32_S64x32)
        (shapeCast S1x32 (shapeCast S32 (extractStridedSlice S1x32 ![3, 0] w6 slices_S4x32_S1x32_3_0) shapeCasts_S1x32_S32) shapeCasts_S32_S1x32)
        (ix2 r k)
      = Cert.ReferenceIdeal.RefRun.stTable3 red seg w5 w6 (ix2 r k) :=
  table_eq _ red _ _ _ (fun k => shapeCast_a_1a_apply _ shapeCasts_S32_S1x32 0 k) r k

end Cert.Value.S1
-- ==== Proof.BridgeS1.lean ====
import proofs.«418858_j49108656062716_3_alg».proof.Proof.VGather
import proofs.«418858_j49108656062716_3_alg».proof.Proof.VTailSpec
import proofs.«418858_j49108656062716_3_alg».proof.Proof.IChain
import proofs.«418858_j49108656062716_3_alg».proof.Proof.RefVal
import proofs.«418858_j49108656062716_3_alg».proof.Proof.SegBounds
import proofs.«418858_j49108656062716_3_alg».proof.Proof.VTableLink

set_option maxRecDepth 16384

noncomputable section

namespace Cert.Value.Bridge

open Idealize.ShloMosaic Idealize.ShloMosaic.ValueIdx Cert.Value.S1.Gather
open Cert.Value.Tail (col)
open Cert.Value.Chain Cert.ReferenceIdeal.RefRun Cert.SegRange

-- The reference's segment id of a point is the scalar chain on the point's row, which the grid bounds put in range.
theorem stSeg_range (ps gx gy gz NS : Nat) (h : Covers ps gx gy gz NS) {coords : IVec Cert.KernelIdeal.S250000x4 32}
    (hg : Cert.SegBounds.InGrid coords) (n : Fin 250000) :
    0 ≤ (stSeg (.ofNat 32 gx) (.ofNat 32 gy) (.ofNat 32 gz) (.ofNat 32 ps) (stBidx coords) (stCxyz coords) (ix1 n)).toInt
      ∧ (stSeg (.ofNat 32 gx) (.ofNat 32 gy) (.ofNat 32 gz) (.ofNat 32 ps) (stBidx coords) (stCxyz coords) (ix1 n)).toInt < (NS : Int) :=
  seg_range ps gx gy gz NS h (hg.1 _) (hg.2.1 n) (hg.1 _) (hg.2.2.1 n) (hg.1 _) (hg.2.2.2.1 n) (hg.1 _) (hg.2.2.2.2 n)
    (segVec_apply coords _ _ _ _ _ _ _ _ _ _ _ _ n)

section Heads
variable (x : Vec Ideal Cert.KernelIdeal.S250000x64 .f32) (coords : IVec Cert.KernelIdeal.S250000x4 32)
    (Wred : Vec Ideal Cert.KernelIdeal.S64x64 .f32) (bred : Vec Ideal Cert.KernelIdeal.S64 .f32)
    (Wpool : Vec Ideal Cert.KernelIdeal.S4x64x32 .f32) (bpool : Vec Ideal Cert.KernelIdeal.S4x32 .f32)
    (hg : Cert.SegBounds.InGrid coords) (n : Fin 250000) (k : Fin 32)
include hg

-- With the segment id in range both programs read row `seg n` of tables that agree on the reference's rows.
theorem packed_eq_att0 :
    kPacked (kTab0 (kAcc0 (kAug (kRed x Wred bred)) (kSeg0 coords)) (kW0 Wpool) (kB0 bpool))
        (kTab1 (kAcc1 (kAug (kRed x Wred bred)) (kSeg1 coords)) (kW1 Wpool) (kB1 bpool))
        (kTab2 (kAcc2 (kAug (kRed x Wred bred)) (kSeg2 coords)) (kW2 Wpool) (kB2 bpool))
        (kTab3 (kAcc3 (kAug (kRed x Wred bred)) (kSeg3 coords)) (kW3 Wpool) (kB3 bpool))
        (kSeg0 coords) (kSeg1 coords) (kSeg2 coords) (kSeg3 coords) (ix2 n (col 0 k))
      = stAtt0 (F := Ideal) (stRed x Wred bred) (stBidx coords) (stCxyz coords) Wpool bpool (ix2 n k) := by
  have hr := stSeg_range 2 128 128 16 524288 (by decide) hg n
  exact (kernel_block0 _ _ _ _ _ _ _ _ _ _ _ _ _ _ _ n k (col 0 k) (Nat.zero_add _) rfl _ rfl hr.1 hr.2).trans
    ((Cert.Value.S1.tableLink0 _ _ Wpool bpool _ k).trans (att0_apply _ _ _ _ _ n k rfl hr.1 hr.2).symm)

theorem packed_eq_att1 :
    kPacked (kTab0 (kAcc0 (kAug (kRed x Wred bred)) (kSeg0 coords)) (kW0 Wpool) (kB0 bpool))
        (kTab1 (kAcc1 (kAug (kRed x Wred bred)) (kSeg1 coords)) (kW1 Wpool) (kB1 bpool))
        (kTab2 (kAcc2 (kAug (kRed x Wred bred)) (kSeg2 coords)) (kW2 Wpool) (kB2 bpool))
        (kTab3 (kAcc3 (kAug (kRed x Wred bred)) (kSeg3 coords)) (kW3 Wpool) (kB3 bpool))
        (kSeg0 coords) (kSeg1 coords) (kSeg2 coords) (kSeg3 coords) (ix2 n (col 1 k))
      = stAtt1 (F := Ideal) (stRed x Wred bred) (stBidx coords) (stCxyz coords) Wpool bpool (ix2 n k) := by
  have hr := stSeg_range 4 64 64 8 65536 (by decide) hg n
  exact (kernel_block1 _ _ _ _ _ _ _ _ _ _ _ _ _ _ _ n k (col 1 k) rfl rfl _ rfl hr.1 hr.2).trans
    ((Cert.Value.S1.tableLink1 _ _ Wpool bpool _ k).trans (att1_apply _ _ _ _ _ n k rfl hr.1 hr.2).symm)

theorem packed_eq_att2 :
    kPacked (kTab0 (kAcc0 (kAug (kRed x Wred bred)) (kSeg0 coords)) (kW0 Wpool) (kB0 bpool))
        (kTab1 (kAcc1 (kAug (kRed x Wred bred)) (kSeg1 coords)) (kW1 Wpool) (kB1 bpool))
        (kTab2 (kAcc2 (kAug (kRed x Wred bred)) (kSeg2 coords)) (kW2 Wpool) (kB2 bpool))
        (kTab3 (kAcc3 (kAug (kRed x Wred bred)) (kSeg3 coords)) (kW3 Wpool) (kB3 bpool))
        (kSeg0 coords) (kSeg1 coords) (kSeg2 coords) (kSeg3 coords) (ix2 n (col 2 k))
      = stAtt2 (F := Ideal) (stRed x Wred bred) (stBidx coords) (stCxyz coords) Wpool bpool (ix2 n k) := by
  have hr := stSeg_range 6 43 43 6 22188 (by decide) hg n
  exact (kernel_block2 _ _ _ _ _ _ _ _ _ _ _ _ _ _ _ n k (col 2 k) rfl rfl _ rfl hr.1 hr.2).trans
    ((Cert.Value.S1.tableLink2 _ _ Wpool bpool _ ⟨_, toNat_lt_of_toInt hr.1 hr.2⟩ _ k).trans (att2_apply _ _ _ _ _ n k rfl hr.1 hr.2).symm)

theorem packed_eq_att3 :
    kPacked (kTab0 (kAcc0 (kAug (kRed x Wred bred)) (kSeg0 coords)) (kW0 Wpool) (kB0 bpool))
        (kTab1 (kAcc1 (kAug (kRed x Wred bred)) (kSeg1 coords)) (kW1 Wpool) (kB1 bpool))
        (kTab2 (kAcc2 (kAug (kRed x Wred bred)) (kSeg2 coords)) (kW2 Wpool) (kB2 bpool))
        (kTab3 (kAcc3 (kAug (kRed x Wred bred)) (kSeg3 coords)) (kW3 Wpool) (kB3 bpool))
        (kSeg0 coords) (kSeg1 coords) (kSeg2 coords) (kSeg3 coords) (ix2 n (col 3 k))
      = stAtt3 (F := Ideal) (stRed x Wred bred) (stBidx coords) (stCxyz coords) Wpool bpool (ix2 n k) := by
  have hr := stSeg_range 8 32 32 4 8192 (by decide) hg n
  exact (kernel_block3 _ _ _ _ _ _ _ _ _ _ _ _ _ _ _ n k (col 3 k) rfl rfl _ rfl hr.1 hr.2).trans
    ((Cert.Value.S1.tableLink3 _ _ Wpool bpool _ k).trans (att3_apply _ _ _ _ _ n k rfl hr.1 hr.2).symm)

end Heads

end Cert.Value.Bridge

end
-- ==== Proof.Bridge.lean ====
import proofs.«418858_j49108656062716_3_alg».proof.Proof.IChain
import proofs.«418858_j49108656062716_3_alg».proof.Proof.RefVal
import proofs.«418858_j49108656062716_3_alg».proof.Proof.VTailRef
import Idealize.ShloMosaic.Lib.ValueLayout
import proofs.«418858_j49108656062716_3_alg».proof.Proof.BridgeS1
import proofs.«418858_j49108656062716_3_alg».proof.Proof.SegBounds
import Idealize.ShloMosaic.Lib.ValueIdx

set_option maxRecDepth 16384

noncomputable section

namespace Cert.Value.Bridge

open Idealize.ShloMosaic Idealize.ShloMosaic.ValueIdx

-- both results are the same rows put back in the caller's order; the tails agree once the packed table's four column blocks are the reference's gathered rows
theorem kerTerm_eq_stResult (x : Vec Ideal Cert.KernelIdeal.S250000x64 .f32) (coords : IVec Cert.KernelIdeal.S250000x4 32) (inv : IVec Cert.KernelIdeal.S250000 32)
    (Wred : Vec Ideal Cert.KernelIdeal.S64x64 .f32) (bred : Vec Ideal Cert.KernelIdeal.S64 .f32) (Wpool : Vec Ideal Cert.KernelIdeal.S4x64x32 .f32) (bpool : Vec Ideal Cert.KernelIdeal.S4x32 .f32)
    (Watt : Vec Ideal Cert.KernelIdeal.S4x32x32 .f32) (batt : Vec Ideal Cert.KernelIdeal.S4x32 .f32) (Wz : Vec Ideal Cert.KernelIdeal.S32x32 .f32) (Wout : Vec Ideal Cert.KernelIdeal.S32x64 .f32)
    (Wl1 : Vec Ideal Cert.KernelIdeal.S128x64 .f32) (Wl2 : Vec Ideal Cert.KernelIdeal.S64x64 .f32) (bl2 : Vec Ideal Cert.KernelIdeal.S64 .f32)
    (hg : Cert.SegBounds.InGrid coords) :
    Cert.Value.Chain.kerTerm x coords inv Wred bred Wpool bpool Watt batt Wz Wout Wl1 Wl2 bl2
      = Cert.ReferenceIdeal.RefRun.stResult (F := Ideal) x coords inv Wred bred Wpool bpool Watt batt Wz Wout Wl1 Wl2 bl2 :=
  congrArg (fun y => Cert.Value.Tail.outOf y inv)
    (Cert.Value.Tail.tailR_eq_tailK _ _ _ _ _ Wz Watt batt Wout Wl1 Wl2 bl2 _
      (packed_eq_att0 x coords Wred bred Wpool bpool hg) (packed_eq_att1 x coords Wred bred Wpool bpool hg)
      (packed_eq_att2 x coords Wred bred Wpool bpool hg) (packed_eq_att3 x coords Wred bred Wpool bpool hg)
      _ (fun j k => shapeCast_apply batt _ _ _ (by
        rw [Shape.rowMajor_val_two, Shape.rowMajor_val_three]
        show j.val * 32 + k.val = (j.val * 1 + 0) * 32 + k.val
        omega))
      _ _ (fun i k => slice2_axis0_apply 0 Wl1 _ i k ⟨i.val, by omega⟩ (Nat.zero_add _).symm)
      (fun i k => slice2_axis0_apply 64 Wl1 _ i k ⟨64 + i.val, by omega⟩ rfl)
      _ (fun k => shapeCast_a_1a_apply bl2 _ (0 : Fin 1) k)).symm

end Cert.Value.Bridge

end
-- ==== Proof.lean ====
import proofs.«418858_j49108656062716_3_alg».proof.Defs
import proofs.«418858_j49108656062716_3_alg».proof.Proof.Gen.Kernel
import proofs.«418858_j49108656062716_3_alg».proof.Proof.Gen.KernelIdeal
import proofs.«418858_j49108656062716_3_alg».proof.Proof.Gen.ReferenceIdeal
import proofs.«418858_j49108656062716_3_alg».proof.Proof.Gen.Pre_finite_inputs
import proofs.«418858_j49108656062716_3_alg».proof.Proof.BKept
import proofs.«418858_j49108656062716_3_alg».proof.Proof.IKept
import proofs.«418858_j49108656062716_3_alg».proof.Proof.RefRun
import proofs.«418858_j49108656062716_3_alg».proof.Proof.RefVal
import proofs.«418858_j49108656062716_3_alg».proof.Proof.IChain
import proofs.«418858_j49108656062716_3_alg».proof.Proof.SegBounds
import proofs.«418858_j49108656062716_3_alg».proof.Proof.Bridge
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

theorem frame_ri : @Cert.frame_ReferenceIdeal Cert.ReferenceIdeal.Gen.facts Cert.Pre_finite_inputs.Gen.facts :=
  fun m ρ _ => (θ_run Cert.ReferenceIdeal.defs _ _).mono (fun r h c => (h c).2)
    (Cert.ReferenceIdeal.RefRun.run_kept (F := Ideal) m ρ)

-- each program's result array is a pure term of its arguments (its run read item by item, resp. stage by stage);
-- with the voxel coordinates inside the grid the two terms are equal
theorem algebraic : @Cert.algebraic_KernelIdeal_ReferenceIdeal Cert.KernelIdeal.Gen.facts Cert.ReferenceIdeal.Gen.facts Cert.Pre_finite_inputs.Gen.facts := by
  intro m g m' g' hpre hagree
  refine ⟨fun c => Cert.KernelIdeal.Hand.W23 (F := Ideal) m c (Proc.devRef .tc Cert.KernelIdeal.main_v141),
    (θ_run Cert.KernelIdeal.defs _ _).mono (fun r h c =>
      ⟨(h c).1 _ (Cert.KernelIdeal.Hand.mem_uc Cert.KernelIdeal.main_v141 (by decide)), (h c).2⟩)
      (Cert.KernelIdeal.Hand.run_args m g),
    (θ_run Cert.ReferenceIdeal.defs _ _).mono (fun r h c => ⟨((h c).1 Cert.ReferenceIdeal.main_v247).trans ?_, (h c).2⟩)
      (Cert.ReferenceIdeal.RefRun.run_kept (F := Ideal) m' g')⟩
  have hg : Cert.SegBounds.InGrid (m ((c.tc : Thread Cert.KernelIdeal.nD Cert.KernelIdeal.τ).loc Cert.KernelIdeal.main_arg1)) :=
    Cert.SegBounds.inGrid_of_pre _ _ _ _ _ _ _ _ _ _ _ _ _ _ (hpre c)
  show _ = Cert.KernelIdeal.Hand.W23 (F := Ideal) m c (Proc.devRef .tc Cert.KernelIdeal.main_v141)
  rw [Cert.Value.Chain.W23_main_v141 m c, Cert.ReferenceIdeal.RefRun.result_launch,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
  exact (Cert.Value.Bridge.kerTerm_eq_stResult _ _ _ _ _ _ _ _ _ _ _ _ _ _ hg).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
